-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S512000x128 : Shape := ⟨2, ![512000, 128]⟩
abbrev S512000 : Shape := ⟨1, ![512000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512000x128 : S_.BroadcastsInDim S512000x128 (![] : Fin 0 → Fin S512000x128.rank)
  reducesTo_S512000x128_S_d0_1 : S512000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S512000 : S_.BroadcastsInDim S512000 (![] : Fin 0 → Fin S512000.rank)
  reducesTo_S512000_S_d0 : S512000.ReducesTo [0] S_

variable [Facts]

def fn_part6 {F : FTy → Type} [FloatOps F] (main_v95 : IVec S_ 1) (main_v101 : IVec S_ 1) : IVec S_ 1 :=
  let main_v102 : IVec S_ 1 := andi main_v95 main_v101
  main_v102

def fn_part5 {F : FTy → Type} [FloatOps F] (main_arg2 : IVec S512000 32) (main_arg3 : IVec S512000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S512000 32 := broadcastInDim S512000 ![] bcast_S_S512000 main_c_34
  let main_v90 : IVec S512000 1 := cmpi .sge main_arg2 main_v89
  let main_c_35 : IVec S_ 32 := constantI S_ 32 50000#32
  let main_v91 : IVec S512000 32 := broadcastInDim S512000 ![] bcast_S_S512000 main_c_35
  let main_v92 : IVec S512000 1 := cmpi .slt main_arg2 main_v91
  let main_v93 : IVec S512000 1 := andi main_v90 main_v92
  let main_c_36 : IVec S_ 1 := constantI S_ 1 1#1
  let main_v94 : IVec S_ 1 := (fun x v => Host.reduce IntOp.andi x v reducesTo_S512000_S_d0 h_S_) main_v93 main_c_36
  let main_v95 : IVec S_ 1 := andi main_v88 main_v94
  let main_c_37 : IVec S_ 32 := constantI S_ 32 0#32
  let main_v96 : IVec S512000 32 := broadcastInDim S512000 ![] bcast_S_S512000 main_c_37
  let main_v97 : IVec S512000 1 := cmpi .sge main_arg3 main_v96
  let main_c_38 : IVec S_ 32 := constantI S_ 32 50000#32
  let main_v98 : IVec S512000 32 := broadcastInDim S512000 ![] bcast_S_S512000 main_c_38
  let main_v99 : IVec S512000 1 := cmpi .slt main_arg3 main_v98
  let main_v100 : IVec S512000 1 := andi main_v97 main_v99
  let main_c_39 : IVec S_ 1 := constantI S_ 1 1#1
  let main_v101 : IVec S_ 1 := (fun x v => Host.reduce IntOp.andi x v reducesTo_S512000_S_d0 h_S_) main_v100 main_c_39
  fn_part6 (F := F) main_v95 main_v101

def fn_part4 {F : FTy → Type} [FloatOps F] (main_arg2 : IVec S512000 32) (main_arg3 : IVec S512000 32) (main_arg16 : FVec F S256x128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg3 main_v83 main_v84 main_cst_32

def fn_part3 {F : FTy → Type} [FloatOps F] (main_arg2 : IVec S512000 32) (main_arg3 : IVec S512000 32) (main_arg13 : FVec F S128 .f32) (main_arg14 : FVec F S128x256 .f32) (main_arg15 : FVec F S256 .f32) (main_arg16 : FVec F S256x128 .f32) (main_arg17 : FVec F S128 .f32) (main_arg18 : FVec F S128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg3 main_arg16 main_arg17 main_arg18 main_arg19 main_v63 main_v67

def fn_part2 {F : FTy → Type} [FloatOps F] (main_arg2 : IVec S512000 32) (main_arg3 : IVec S512000 32) (main_arg9 : FVec F S128 .f32) (main_arg10 : FVec F S128 .f32) (main_arg11 : FVec F S128 .f32) (main_arg12 : FVec F S128 .f32) (main_arg13 : FVec F S128 .f32) (main_arg14 : FVec F S128x256 .f32) (main_arg15 : FVec F S256 .f32) (main_arg16 : FVec F S256x128 .f32) (main_arg17 : FVec F S128 .f32) (main_arg18 : FVec F S128 .f32) (main_arg19 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg3 main_arg13 main_arg14 main_arg15 main_arg16 main_arg17 main_arg18 main_arg19 main_v48 main_v49 main_v50

def fn_part1 {F : FTy → Type} [FloatOps F] (main_arg2 : IVec S512000 32) (main_arg3 : IVec S512000 32) (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x256 .f32) (main_arg15 : FVec F S256 .f32) (main_arg16 : FVec F S256x128 .f32) (main_arg17 : FVec F S128 .f32) (main_arg18 : FVec F S128 .f32) (main_arg19 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S512000x128 .f32) (main_arg2 : IVec S512000 32) (main_arg3 : IVec S512000 32) (main_arg4 : FVec F S128x128 .f32) (main_arg5 : FVec F S128x128 .f32) (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x256 .f32) (main_arg15 : FVec F S256 .f32) (main_arg16 : FVec F S256x128 .f32) (main_arg17 : FVec F S128 .f32) (main_arg18 : FVec F S128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512000x128 .f32 := Host.absf main_arg1
  let main_cst_0 : FVec F S_ .f32 := constant S_ .f32 0x7F800000#32
  let main_v5 : FVec F S512000x128 .f32 := broadcastInDim S512000x128 ![] bcast_S_S512000x128 main_cst_0
  let main_v6 : IVec S512000x128 1 := cmpf .olt main_v4 main_v5
  let main_c_1 : IVec S_ 1 := constantI S_ 1 1#1
  let main_v7 : IVec S_ 1 := (fun x v => Host.reduce IntOp.andi x v reducesTo_S512000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S512000x128 : Shape := ⟨2, ![512000, 128]⟩
abbrev S512000 : Shape := ⟨1, ![512000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x8 : Shape := ⟨2, ![128, 8]⟩
abbrev S8x128 : Shape := ⟨2, ![8, 128]⟩
abbrev S128x384 : Shape := ⟨2, ![128, 384]⟩
abbrev S50000x384 : Shape := ⟨2, ![50000, 384]⟩
abbrev S1000x128 : Shape := ⟨2, ![1000, 128]⟩
abbrev S1000x384 : Shape := ⟨2, ![1000, 384]⟩
abbrev S50000x256 : Shape := ⟨2, ![50000, 256]⟩
abbrev S_ : Shape := ⟨0, ![]⟩
abbrev S512000x1 : Shape := ⟨2, ![512000, 1]⟩
abbrev S1 : Shape := ⟨1, ![1]⟩
abbrev S1x1 : Shape := ⟨2, ![1, 1]⟩
abbrev S512000x256 : Shape := ⟨2, ![512000, 256]⟩
abbrev S512000x8 : Shape := ⟨2, ![512000, 8]⟩
abbrev S16x128 : Shape := ⟨2, ![16, 128]⟩
abbrev S2048x128 : Shape := ⟨2, ![2048, 128]⟩
abbrev S2048x8 : Shape := ⟨2, ![2048, 8]⟩
abbrev S1x128 : Shape := ⟨2, ![1, 128]⟩
abbrev S50000x8 : Shape := ⟨2, ![50000, 8]⟩
abbrev S1000x8 : Shape := ⟨2, ![1000, 8]⟩
abbrev S1x256 : Shape := ⟨2, ![1, 256]⟩
abbrev S1000x256 : Shape := ⟨2, ![1000, 256]⟩

abbrev nBuf : Space → Nat
  | .hbm => 145
  | .vmem => 72
  | .smem => 0
  | _ => 0

abbrev hbmTy0_0 (i : Nat) : BufTy := match i % 128 with
  | 0 => ⟨S50000x128, .f32⟩
  | 1 => ⟨S512000x128, .f32⟩
  | 2 => ⟨S512000, .i32⟩
  | 3 => ⟨S512000, .i32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x256, .f32⟩
  | 15 => ⟨S256, .f32⟩
  | 16 => ⟨S256x128, .f32⟩
  | 17 => ⟨S128, .f32⟩
  | 18 => ⟨S128, .f32⟩
  | 19 => ⟨S128, .f32⟩
  | 20 => ⟨S128x8, .f32⟩
  | 21 => ⟨S8x128, .f32⟩
  | 22 => ⟨S128x384, .f32⟩
  | 23 => ⟨S50000x384, .f32⟩
  | 24 => ⟨S50000x128, .f32⟩
  | 25 => ⟨S50000x256, .f32⟩
  | 26 => ⟨S_, .i32⟩
  | 27 => ⟨S512000, .i32⟩
  | 28 => ⟨S512000, .i1⟩
  | 29 => ⟨S_, .i32⟩
  | 30 => ⟨S512000, .i32⟩
  | 31 => ⟨S512000, .i32⟩
  | 32 => ⟨S512000, .i32⟩
  | 33 => ⟨S512000x1, .i32⟩
  | 34 => ⟨S1, .i32⟩
  | 35 => ⟨S_, .i32⟩
  | 36 => ⟨S512000x1, .i32⟩
  | 37 => ⟨S512000x1, .i1⟩
  | 38 => ⟨S1x1, .i32⟩
  | 39 => ⟨S512000x1, .i32⟩
  | 40 => ⟨S512000x1, .i1⟩
  | 41 => ⟨S512000x1, .i1⟩
  | 42 => ⟨S_, .i1⟩
  | 43 => ⟨S512000, .i1⟩
  | 44 => ⟨S512000x128, .f32⟩
  | 45 => ⟨S512000x128, .i1⟩
  | 46 => ⟨S_, .f32⟩
  | 47 => ⟨S512000x128, .f32⟩
  | 48 => ⟨S512000x128, .f32⟩
  | 49 => ⟨S_, .i32⟩
  | 50 => ⟨S512000, .i32⟩
  | 51 => ⟨S512000, .i1⟩
  | 52 => ⟨S_, .i32⟩
  | 53 => ⟨S512000, .i32⟩
  | 54 => ⟨S512000, .i32⟩
  | 55 => ⟨S512000, .i32⟩
  | 56 => ⟨S512000x1, .i32⟩
  | 57 => ⟨S1, .i32⟩
  | 58 => ⟨S_, .i32⟩
  | 59 => ⟨S512000x1, .i32⟩
  | 60 => ⟨S512000x1, .i1⟩
  | 61 => ⟨S1x1, .i32⟩
  | 62 => ⟨S512000x1, .i32⟩
  | 63 => ⟨S512000x1, .i1⟩
  | 64 => ⟨S512000x1, .i1⟩
  | 65 => ⟨S_, .i1⟩
  | 66 => ⟨S512000, .i1⟩
  | 67 => ⟨S512000x256, .f32⟩
  | 68 => ⟨S512000x256, .i1⟩
  | 69 => ⟨S_, .f32⟩
  | 70 => ⟨S512000x256, .f32⟩
  | 71 => ⟨S512000x256, .f32⟩
  | 72 => ⟨S512000x128, .f32⟩
  | 73 => ⟨S512000x128, .f32⟩
  | 74 => ⟨S512000x128, .f32⟩
  | 75 => ⟨S512000x8, .f32⟩
  | 76 => ⟨S16x128, .f32⟩
  | 77 => ⟨S16x128, .f32⟩
  | 78 => ⟨S_, .f32⟩
  | 79 => ⟨S50000x128, .f32⟩
  | 80 => ⟨S512000x1, .i32⟩
  | 81 => ⟨S50000x128, .f32⟩
  | 82 => ⟨S_, .f32⟩
  | 83 => ⟨S50000x8, .f32⟩
  | 84 => ⟨S512000x1, .i32⟩
  | 85 => ⟨S50000x8, .f32⟩
  | 86 => ⟨S1x128, .f32⟩
  | 87 => ⟨S50000x128, .f32⟩
  | 88 => ⟨S16x128, .f32⟩
  | 89 => ⟨S16x128, .f32⟩
  | 90 => ⟨S_, .f32⟩
  | 91 => ⟨S128, .f32⟩
  | 92 => ⟨S1x128, .f32⟩
  | 93 => ⟨S_, .f32⟩
  | 94 => ⟨S128, .f32⟩
  | 95 => ⟨S1x128, .f32⟩
  | 96 => ⟨S_, .f32⟩
  | 97 => ⟨S128, .f32⟩
  | 98 => ⟨S1x128, .f32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S512000x128, .f32⟩
  | 123 => ⟨S1x256, .f32⟩
  | 124 => ⟨S1x128, .f32⟩
  | 125 => ⟨S50000x128, .f32⟩
  | 126 => ⟨S16x128, .f32⟩
  | 127 => ⟨S16x128, .f32⟩
  | _ => ⟨S50000x128, .f32⟩

abbrev hbmTy0_1 (i : Nat) : BufTy := match i % 128 with
  | 0 => ⟨S_, .f32⟩
  | 1 => ⟨S128, .f32⟩
  | 2 => ⟨S1x128, .f32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x384, .f32⟩
  | .local _ .vmem, ⟨3, _⟩ => ⟨S1000x384, .f32⟩
  | .local _ .vmem, ⟨4, _⟩ => ⟨S1000x384, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S128x128, .f32⟩
  | .local _ .vmem, ⟨14, _⟩ => ⟨S128x8, .f32⟩
  | .local _ .vmem, ⟨15, _⟩ => ⟨S8x128, .f32⟩
  | .local _ .vmem, ⟨16, _⟩ => ⟨S2048x128, .f32⟩
  | .local _ .vmem, ⟨17, _⟩ => ⟨S2048x128, .f32⟩
  | .local _ .vmem, ⟨18, _⟩ => ⟨S2048x8, .f32⟩
  | .local _ .vmem, ⟨19, _⟩ => ⟨S2048x8, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S1000x128, .f32⟩
  | .local _ .vmem, ⟨25, _⟩ => ⟨S1000x128, .f32⟩
  | .local _ .vmem, ⟨26, _⟩ => ⟨S1000x8, .f32⟩
  | .local _ .vmem, ⟨27, _⟩ => ⟨S1000x8, .f32⟩
  | .local _ .vmem, ⟨28, _⟩ => ⟨S1000x128, .f32⟩
  | .local _ .vmem, ⟨29, _⟩ => ⟨S1000x128, .f32⟩
  | .local _ .vmem, ⟨30, _⟩ => ⟨S128x128, .f32⟩
  | .local _ .vmem, ⟨31, _⟩ => ⟨S1x128, .f32⟩
  | .local _ .vmem, ⟨32, _⟩ => ⟨S8x128, .f32⟩
  | .local _ .vmem, ⟨33, _⟩ => ⟨S1000x128, .f32⟩
  | .local _ .vmem, ⟨34, _⟩ => ⟨S1000x128, .f32⟩
  | .local _ .vmem, ⟨35, _⟩ => ⟨S8x128, .f32⟩
  | .local _ .vmem, ⟨36, _⟩ => ⟨S8x128, .f32⟩
  | .local _ .vmem, ⟨37, _⟩ => ⟨S8x128, .f32⟩
  | .local _ .vmem, ⟨38, _⟩ => ⟨S8x128, .f32⟩
  | .local _ .vmem, ⟨39, _⟩ => ⟨S2048x128, .f32⟩
  | .local _ .vmem, ⟨40, _⟩ => ⟨S2048x128, .f32⟩
  | .local _ .vmem, ⟨41, _⟩ => ⟨S128x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2048x128, .f32⟩
  | .local _ .vmem, ⟨47, _⟩ => ⟨S2048x128, .f32⟩
  | .local _ .vmem, ⟨48, _⟩ => ⟨S1000x128, .f32⟩
  | .local _ .vmem, ⟨49, _⟩ => ⟨S1000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S128x256, .f32⟩
  | .local _ .vmem, ⟨55, _⟩ => ⟨S1x256, .f32⟩
  | .local _ .vmem, ⟨56, _⟩ => ⟨S256x128, .f32⟩
  | .local _ .vmem, ⟨57, _⟩ => ⟨S1x128, .f32⟩
  | .local _ .vmem, ⟨58, _⟩ => ⟨S1000x128, .f32⟩
  | .local _ .vmem, ⟨59, _⟩ => ⟨S1000x128, .f32⟩
  | .local _ .vmem, ⟨60, _⟩ => ⟨S8x128, .f32⟩
  | .local _ .vmem, ⟨61, _⟩ => ⟨S8x128, .f32⟩
  | .local _ .vmem, ⟨62, _⟩ => ⟨S8x128, .f32⟩
  | .local _ .vmem, ⟨63, _⟩ => ⟨S8x128, .f32⟩
  | .local _ .vmem, ⟨64, _⟩ => ⟨S1000x128, .f32⟩
  | .local _ .vmem, ⟨65, _⟩ => ⟨S1000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S1000x128, .f32⟩
  | .local _ .vmem, ⟨71, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_cst_0 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v4 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_v8_0 : Ref sig .tc := ⟨.hbm, 74, rfl⟩
abbrev main_v8_1 : Ref sig .tc := ⟨.hbm, 75, rfl⟩
abbrev main_v8_2 : Ref sig .tc := ⟨.hbm, 76, rfl⟩
abbrev main_v8_3 : Ref sig .tc := ⟨.hbm, 77, rfl⟩
abbrev main_cst_1 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_cst_2 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16_0 : Ref sig .tc := ⟨.hbm, 87, rfl⟩
abbrev main_v16_1 : Ref sig .tc := ⟨.hbm, 88, rfl⟩
abbrev main_v16_2 : Ref sig .tc := ⟨.hbm, 89, rfl⟩
abbrev main_cst_3 : Ref sig .tc := ⟨.hbm, 90, rfl⟩
abbrev main_v17 : Ref sig .tc := ⟨.hbm, 91, rfl⟩
abbrev main_v18 : Ref sig .tc := ⟨.hbm, 92, rfl⟩
abbrev main_cst_4 : Ref sig .tc := ⟨.hbm, 93, rfl⟩
abbrev main_v19 : Ref sig .tc := ⟨.hbm, 94, rfl⟩
abbrev main_v20 : Ref sig .tc := ⟨.hbm, 95, rfl⟩
abbrev main_cst_5 : Ref sig .tc := ⟨.hbm, 96, rfl⟩
abbrev main_v21 : Ref sig .tc := ⟨.hbm, 97, rfl⟩
abbrev main_v22 : Ref sig .tc := ⟨.hbm, 98, rfl⟩
abbrev main_cst_6 : Ref sig .tc := ⟨.hbm, 99, rfl⟩
abbrev main_v23 : Ref sig .tc := ⟨.hbm, 100, rfl⟩
abbrev main_v24 : Ref sig .tc := ⟨.hbm, 101, rfl⟩
abbrev main_cst_7 : Ref sig .tc := ⟨.hbm, 102, rfl⟩
abbrev main_v25 : Ref sig .tc := ⟨.hbm, 103, rfl⟩
abbrev main_v26 : Ref sig .tc := ⟨.hbm, 104, rfl⟩
abbrev main_cst_8 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_cst_9 : Ref sig .tc := ⟨.hbm, 110, rfl⟩
abbrev main_v31 : Ref sig .tc := ⟨.hbm, 111, rfl⟩
abbrev main_v32 : Ref sig .tc := ⟨.hbm, 112, rfl⟩
abbrev main_cst_10 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44_0 : Ref sig .tc := ⟨.hbm, 125, rfl⟩
abbrev main_v44_1 : Ref sig .tc := ⟨.hbm, 126, rfl⟩
abbrev main_v44_2 : Ref sig .tc := ⟨.hbm, 127, rfl⟩
abbrev main_cst_11 : Ref sig .tc := ⟨.hbm, 128, rfl⟩
abbrev main_v45 : Ref sig .tc := ⟨.hbm, 129, rfl⟩
abbrev main_v46 : Ref sig .tc := ⟨.hbm, 130, rfl⟩
abbrev main_cst_12 : Ref sig .tc := ⟨.hbm, 131, rfl⟩
abbrev main_v47 : Ref sig .tc := ⟨.hbm, 132, rfl⟩
abbrev main_v48 : Ref sig .tc := ⟨.hbm, 133, rfl⟩
abbrev main_cst_13 : Ref sig .tc := ⟨.hbm, 134, rfl⟩
abbrev main_v49 : Ref sig .tc := ⟨.hbm, 135, rfl⟩
abbrev main_v50 : Ref sig .tc := ⟨.hbm, 136, rfl⟩
abbrev main_cst_14 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg9_1 : Ref sig .tc := ⟨.vmem, 59, rfl⟩
abbrev cc4_stg10_0 : Ref sig .tc := ⟨.vmem, 60, rfl⟩
abbrev cc4_stg10_1 : Ref sig .tc := ⟨.vmem, 61, rfl⟩
abbrev cc4_stg11_0 : Ref sig .tc := ⟨.vmem, 62, rfl⟩
abbrev cc4_stg11_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem9_1 : DmaSem sig := 59
abbrev cc4_sem10_0 : DmaSem sig := 60
abbrev cc4_sem10_1 : DmaSem sig := 61
abbrev cc4_sem11_0 : DmaSem sig := 62
abbrev cc4_sem11_1 : DmaSem sig := 63
abbrev cc5_sem0_0 : DmaSem sig := 64
abbrev cc5_sem0_1 : DmaSem sig := 65
abbrev cc5_sem1_0 : DmaSem sig := 66
abbrev cc5_sem2_0 : DmaSem sig := 67
abbrev cc5_sem3_0 : DmaSem sig := 68
abbrev cc5_sem4_0 : DmaSem sig := 69
abbrev cc5_sem5_0 : DmaSem sig := 70
abbrev cc5_sem5_1 : DmaSem sig := 71

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 125], ![false, false]⟩

def cc1_transform_0 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S8x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2048x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![2, 25], ![false, false]⟩

def cc4_transform_0 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S1000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 2 → Memref sig .tc .vmem S8x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, false]

abbrev stage4_11 : Fin 2 → Memref sig .tc .vmem S8x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  concatenates_S128x128_S128x128_S128x128_S128x384_d1 : Shape.Concatenates [S128x128, S128x128, S128x128] S128x384 1
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1000x384_S1000x384_0_0 : ∀ a, (![0, 0] : Fin 2 → Nat) a + S1000x384.size a ≤ S1000x384.size a
  h_S1000x384 : 0 < S1000x384.numel
  slices_S50000x384_S50000x128_0_0 : S50000x384.Slices ![0, 0] S50000x128
  slices_S50000x384_S50000x256_0_128 : S50000x384.Slices ![0, 128] S50000x256
  bcast_S_S512000 : S_.BroadcastsInDim S512000 (![] : Fin 0 → Fin S512000.rank)
  bcast_S512000_S512000x1_0 : S512000.BroadcastsInDim S512000x1 (![0] : Fin 1 → Fin S512000x1.rank)
  bcast_S_S512000x1 : S_.BroadcastsInDim S512000x1 (![] : Fin 0 → Fin S512000x1.rank)
  bcast_S1_S1x1_1 : S1.BroadcastsInDim S1x1 (![1] : Fin 1 → Fin S1x1.rank)
  bcast_S1x1_S512000x1_0_1 : S1x1.BroadcastsInDim S512000x1 (![0, 1] : Fin 2 → Fin S512000x1.rank)
  reducesTo_S512000x1_S512000_d1 : S512000x1.ReducesTo [1] S512000
  h_S_ : 0 < S_.numel
  bcast_S512000_S512000x128_0 : S512000.BroadcastsInDim S512000x128 (![0] : Fin 1 → Fin S512000x128.rank)
  bcast_S_S512000x128 : S_.BroadcastsInDim S512000x128 (![] : Fin 0 → Fin S512000x128.rank)
  bcast_S512000_S512000x256_0 : S512000.BroadcastsInDim S512000x256 (![0] : Fin 1 → Fin S512000x256.rank)
  bcast_S_S512000x256 : S_.BroadcastsInDim S512000x256 (![] : Fin 0 → Fin S512000x256.rank)
  slices_S512000x256_S512000x128_0_0 : S512000x256.Slices ![0, 0] S512000x128
  slices_S512000x256_S512000x128_0_128 : S512000x256.Slices ![0, 128] S512000x128
  inb_S8x128_S8x128_0_0 : ∀ a, (![0, 0] : Fin 2 → Nat) a + S8x128.size a ≤ S8x128.size a
  h_S8x128 : 0 < S8x128.numel
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  reduces_S2048x128_S128 : S2048x128.Reduces [0] S128
  shapeCasts_S128_S1x128 : S128.ShapeCasts S1x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  shapeCasts_S2048x128_S2048x128 : S2048x128.ShapeCasts S2048x128
  inb_S128x8_S128x8_0_0 : ∀ a, (![0, 0] : Fin 2 → Nat) a + S128x8.size a ≤ S128x8.size a
  h_S128x8 : 0 < S128x8.numel
  inb_S2048x8_S2048x8_0_0 : ∀ a, (![0, 0] : Fin 2 → Nat) a + S2048x8.size a ≤ S2048x8.size a
  h_S2048x8 : 0 < S2048x8.numel
  bcast_S_S50000x128 : S_.BroadcastsInDim S50000x128 (![] : Fin 0 → Fin S50000x128.rank)
  bcast_S_S50000x8 : S_.BroadcastsInDim S50000x8 (![] : Fin 0 → Fin S50000x8.rank)
  inb_S1000x8_S1000x8_0_0 : ∀ a, (![0, 0] : Fin 2 → Nat) a + S1000x8.size a ≤ S1000x8.size a
  h_S1000x8 : 0 < S1000x8.numel
  shapeCasts_S1000x8_S1000x8 : S1000x8.ShapeCasts S1000x8
  shapeCasts_S1000x128_S1000x128 : S1000x128.ShapeCasts S1000x128
  inb_S1x128_S1x128_0_0 : ∀ a, (![0, 0] : Fin 2 → Nat) a + S1x128.size a ≤ S1x128.size a
  broadcasts_S1x128_S1000x128 : S1x128.Broadcasts S1000x128
  reduces_S1000x128_S128 : S1000x128.Reduces [0] S128
  reducesTo_S16x128_S128_d0 : S16x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  broadcasts_S1x128_S2048x128 : S1x128.Broadcasts S2048x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  dot_S1000x128_S128x384_S1000x384_1_0_0_1_n_n_wf : DotDims.WF S1000x128 S128x384 S1000x384 [1] [0] [0] [1] [] []
  gather_S50000x128_S512000x1_S512000x128_1_0_n_n_0_1_1128_wf : GatherDims.WF S50000x128 S512000x1 S512000x128 [1] [0] [] [0] [] 1 ![1, 128]
  gather_S50000x256_S512000x1_S512000x256_1_0_n_n_0_1_1256_wf : GatherDims.WF S50000x256 S512000x1 S512000x256 [1] [0] [] [0] [] 1 ![1, 256]
  dot_S2048x128_S128x128_S2048x128_1_0_0_1_n_n_wf : DotDims.WF S2048x128 S128x128 S2048x128 [1] [0] [0] [1] [] []
  dot_S2048x128_S128x8_S2048x8_1_0_0_1_n_n_wf : DotDims.WF S2048x128 S128x8 S2048x8 [1] [0] [0] [1] [] []
  dot_S2048x8_S8x128_S2048x128_1_0_0_1_n_n_wf : DotDims.WF S2048x8 S8x128 S2048x128 [1] [0] [0] [1] [] []
  scatter_S50000x128_S512000x1_S512000x128_1_0_0_1_wf : ScatterDims.WF S50000x128 S512000x1 S512000x128 [1] [0] [0] 1
  scatter_S50000x8_S512000x1_S512000x8_1_0_0_1_wf : ScatterDims.WF S50000x8 S512000x1 S512000x8 [1] [0] [0] 1
  dot_S1000x8_S8x128_S1000x128_1_0_0_1_n_n_wf : DotDims.WF S1000x8 S8x128 S1000x128 [1] [0] [0] [1] [] []
  dot_S1000x128_S128x128_S1000x128_1_0_0_1_n_n_wf : DotDims.WF S1000x128 S128x128 S1000x128 [1] [0] [0] [1] [] []
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x384.size a ≤ S50000x384.size a
  hwx0_2 : ∀ i : grid0.Coords, EltTy.bits .f32 = 32 ∨ (Rect.block (s := S50000x384) S1000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S512000x128.size a
  hwx1_0 : ∀ i : grid1.Coords, EltTy.bits .f32 = 32 ∨ (Rect.block (s := S512000x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S512000x128.size a
  hwx1_1 : ∀ i : grid1.Coords, EltTy.bits .f32 = 32 ∨ (Rect.block (s := S512000x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S512000x128.size a
  hwx1_2 : ∀ i : grid1.Coords, EltTy.bits .f32 = 32 ∨ (Rect.block (s := S512000x128) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S512000x128.size a
  hwx1_3 : ∀ i : grid1.Coords, EltTy.bits .f32 = 32 ∨ (Rect.block (s := S512000x128) S2048x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x8.size a ≤ S128x8.size a
  hwx1_5 : ∀ i : grid1.Coords, EltTy.bits .f32 = 32 ∨ (Rect.block (s := S128x8) S128x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S512000x128.size a
  hwx1_7 : ∀ i : grid1.Coords, EltTy.bits .f32 = 32 ∨ (Rect.block (s := S512000x128) S2048x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x8.size a ≤ S512000x8.size a
  hwx1_8 : ∀ i : grid1.Coords, EltTy.bits .f32 = 32 ∨ (Rect.block (s := S512000x8) S2048x8.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128.size a ≤ S16x128.size a
  hwx1_9 : ∀ i : grid1.Coords, EltTy.bits .f32 = 32 ∨ (Rect.block (s := S16x128) S8x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8x128.size a ≤ S16x128.size a
  hwx1_10 : ∀ i : grid1.Coords, EltTy.bits .f32 = 32 ∨ (Rect.block (s := S16x128) S8x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x8.size a ≤ S50000x8.size a
  hwx2_1 : ∀ i : grid2.Coords, EltTy.bits .f32 = 32 ∨ (Rect.block (s := S50000x8) S1000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S50000x128.size a
  hwx2_6 : ∀ i : grid2.Coords, EltTy.bits .f32 = 32 ∨ (Rect.block (s := S50000x128) S1000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S16x128.size a
  hwx2_7 : ∀ i : grid2.Coords, EltTy.bits .f32 = 32 ∨ (Rect.block (s := S16x128) S8x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x128.size a ≤ S16x128.size a
  hwx2_8 : ∀ i : grid2.Coords, EltTy.bits .f32 = 32 ∨ (Rect.block (s := S16x128) S8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S512000x128.size a
  hwx3_0 : ∀ i : grid3.Coords, EltTy.bits .f32 = 32 ∨ (Rect.block (s := S512000x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x128.size a ≤ S512000x128.size a
  hwx3_6 : ∀ i : grid3.Coords, EltTy.bits .f32 = 32 ∨ (Rect.block (s := S512000x128) S2048x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1000x128.size a ≤ S50000x128.size a
  hwx4_9 : ∀ i : grid4.Coords, EltTy.bits .f32 = 32 ∨ (Rect.block (s := S50000x128) S1000x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S8x128.size a ≤ S16x128.size a
  hwx4_10 : ∀ i : grid4.Coords, EltTy.bits .f32 = 32 ∨ (Rect.block (s := S16x128) S8x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S8x128.size a ≤ S16x128.size a
  hwx4_11 : ∀ i : grid4.Coords, EltTy.bits .f32 = 32 ∨ (Rect.block (s := S16x128) S8x128.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x128.size a ≤ S50000x128.size a
  hwx5_5 : ∀ i : grid5.Coords, EltTy.bits .f32 = 32 ∨ (Rect.block (s := S50000x128) S1000x128.size (cc5_transform_5 i) (hinb5_5 i)).WholeWords (EltTy.packing .f32)

variable [Facts₀]

def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def gather_S50000x128_S512000x1_S512000x128_1_0_n_n_0_1_1128 : GatherDims S50000x128 S512000x1 S512000x128 where
  offsetDims := [1]
  collapsedSliceDims := [0]
  operandBatchingDims := []
  startIndicesBatchingDims := []
  startIndexMap := [0]
  indexVectorDim := 1
  sliceSizes := ![1, 128]
  wf := gather_S50000x128_S512000x1_S512000x128_1_0_n_n_0_1_1128_wf
def gather_S50000x256_S512000x1_S512000x256_1_0_n_n_0_1_1256 : GatherDims S50000x256 S512000x1 S512000x256 where
  offsetDims := [1]
  collapsedSliceDims := [0]
  operandBatchingDims := []
  startIndicesBatchingDims := []
  startIndexMap := [0]
  indexVectorDim := 1
  sliceSizes := ![1, 256]
  wf := gather_S50000x256_S512000x1_S512000x256_1_0_n_n_0_1_1256_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x8_S8x128_S2048x128_1_0_0_1_n_n : DotDims S2048x8 S8x128 S2048x128 where
  lhsContracting := [1]
  rhsContracting := [0]
  lhsNonContracting := [0]
  rhsNonContracting := [1]
  lhsBatch := []
  rhsBatch := []
  wf := dot_S2048x8_S8x128_S2048x128_1_0_0_1_n_n_wf
def scatter_S50000x128_S512000x1_S512000x128_1_0_0_1 : ScatterDims S50000x128 S512000x1 S512000x128 where
  updateWindowDims := [1]
  insertedWindowDims := [0]
  scatterDimsToOperandDims := [0]
  indexVectorDim := 1
  wf := scatter_S50000x128_S512000x1_S512000x128_1_0_0_1_wf
def scatter_S50000x8_S512000x1_S512000x8_1_0_0_1 : ScatterDims S50000x8 S512000x1 S512000x8 where
  updateWindowDims := [1]
  insertedWindowDims := [0]
  scatterDimsToOperandDims := [0]
  indexVectorDim := 1
  wf := scatter_S50000x8_S512000x1_S512000x8_1_0_0_1_wf
def dot_S1000x8_S8x128_S1000x128_1_0_0_1_n_n : DotDims S1000x8 S8x128 S1000x128 where
  lhsContracting := [1]
  rhsContracting := [0]
  lhsNonContracting := [0]
  rhsNonContracting := [1]
  lhsBatch := []
  rhsBatch := []
  wf := dot_S1000x8_S8x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2048x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_cst) S128x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst_0) S8x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8_0) S2048x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_1) S2048x8.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v8_2) S8x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v8_3) S8x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v11) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_cst_0) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16_0) S1000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v16_1) S8x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v16_2) S8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_arg1) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S2048x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v16_0) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v38) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v42) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg16) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v43) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v44_0) S1000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v44_1) S8x128.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v44_2) S8x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v44_0) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57) S1000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S512000x128 : Shape := ⟨2, ![512000, 128]⟩
abbrev S512000 : Shape := ⟨1, ![512000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S50000x8x16 : Shape := ⟨3, ![50000, 8, 16]⟩
abbrev S512000x8x16 : Shape := ⟨3, ![512000, 8, 16]⟩
abbrev S_ : Shape := ⟨0, ![]⟩
abbrev S512000x1 : Shape := ⟨2, ![512000, 1]⟩
abbrev S512000x8 : Shape := ⟨2, ![512000, 8]⟩
abbrev S512000x8x1 : Shape := ⟨3, ![512000, 8, 1]⟩
abbrev S50000x8 : Shape := ⟨2, ![50000, 8]⟩
abbrev S50000x8x1 : Shape := ⟨3, ![50000, 8, 1]⟩
abbrev S1x128 : Shape := ⟨2, ![1, 128]⟩
abbrev S50000x256 : Shape := ⟨2, ![50000, 256]⟩
abbrev S1x256 : Shape := ⟨2, ![1, 256]⟩

abbrev nBuf : Space → Nat
  | .hbm => 240
  | .vmem => 0
  | .smem => 0
  | _ => 0

abbrev hbmTy0_0 (i : Nat) : BufTy := match i % 128 with
  | 0 => ⟨S50000x128, .f32⟩
  | 1 => ⟨S512000x128, .f32⟩
  | 2 => ⟨S512000, .i32⟩
  | 3 => ⟨S512000, .i32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x256, .f32⟩
  | 15 => ⟨S256, .f32⟩
  | 16 => ⟨S256x128, .f32⟩
  | 17 => ⟨S128, .f32⟩
  | 18 => ⟨S128, .f32⟩
  | 19 => ⟨S128, .f32⟩
  | 20 => ⟨S50000x128, .f32⟩
  | 21 => ⟨S50000x8x16, .f32⟩
  | 22 => ⟨S50000x128, .f32⟩
  | 23 => ⟨S50000x8x16, .f32⟩
  | 24 => ⟨S50000x128, .f32⟩
  | 25 => ⟨S50000x8x16, .f32⟩
  | 26 => ⟨S512000x128, .f32⟩
  | 27 => ⟨S512000x8x16, .f32⟩
  | 28 => ⟨S_, .i32⟩
  | 29 => ⟨S512000, .i32⟩
  | 30 => ⟨S512000, .i1⟩
  | 31 => ⟨S_, .i32⟩
  | 32 => ⟨S512000, .i32⟩
  | 33 => ⟨S512000, .i32⟩
  | 34 => ⟨S512000, .i32⟩
  | 35 => ⟨S512000x1, .i32⟩
  | 36 => ⟨S512000x8x16, .f32⟩
  | 37 => ⟨S_, .i32⟩
  | 38 => ⟨S512000, .i32⟩
  | 39 => ⟨S512000, .i1⟩
  | 40 => ⟨S_, .i32⟩
  | 41 => ⟨S512000, .i32⟩
  | 42 => ⟨S512000, .i32⟩
  | 43 => ⟨S512000, .i32⟩
  | 44 => ⟨S512000x1, .i32⟩
  | 45 => ⟨S512000x8x16, .f32⟩
  | 46 => ⟨S512000x8x16, .f32⟩
  | 47 => ⟨S_, .f32⟩
  | 48 => ⟨S512000x8x16, .f32⟩
  | 49 => ⟨S512000x8x16, .f32⟩
  | 50 => ⟨S512000x8x16, .f32⟩
  | 51 => ⟨S_, .f32⟩
  | 52 => ⟨S512000x8, .f32⟩
  | 53 => ⟨S_, .f32⟩
  | 54 => ⟨S_, .f32⟩
  | 55 => ⟨S_, .f32⟩
  | 56 => ⟨S512000x8, .f32⟩
  | 57 => ⟨S512000x8, .f32⟩
  | 58 => ⟨S_, .f32⟩
  | 59 => ⟨S512000x8, .f32⟩
  | 60 => ⟨S512000x8, .f32⟩
  | 61 => ⟨S512000x8, .f32⟩
  | 62 => ⟨S_, .i32⟩
  | 63 => ⟨S512000, .i32⟩
  | 64 => ⟨S512000, .i1⟩
  | 65 => ⟨S_, .i32⟩
  | 66 => ⟨S512000, .i32⟩
  | 67 => ⟨S512000, .i32⟩
  | 68 => ⟨S512000, .i32⟩
  | 69 => ⟨S512000x1, .i32⟩
  | 70 => ⟨S512000x8x16, .f32⟩
  | 71 => ⟨S512000x8x1, .f32⟩
  | 72 => ⟨S512000x8x16, .f32⟩
  | 73 => ⟨S512000x8x16, .f32⟩
  | 74 => ⟨S_, .f32⟩
  | 75 => ⟨S50000x8x16, .f32⟩
  | 76 => ⟨S512000x1, .i32⟩
  | 77 => ⟨S50000x8x16, .f32⟩
  | 78 => ⟨S_, .f32⟩
  | 79 => ⟨S50000x8, .f32⟩
  | 80 => ⟨S512000x1, .i32⟩
  | 81 => ⟨S50000x8, .f32⟩
  | 82 => ⟨S50000x8x1, .f32⟩
  | 83 => ⟨S_, .f32⟩
  | 84 => ⟨S50000x8x1, .f32⟩
  | 85 => ⟨S50000x8x1, .f32⟩
  | 86 => ⟨S50000x8x16, .f32⟩
  | 87 => ⟨S50000x8x16, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S50000x128, .f32⟩
  | 94 => ⟨S512000x128, .f32⟩
  | 95 => ⟨S512000x128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S50000x128, .f32⟩
  | 109 => ⟨S50000x128, .f32⟩
  | 110 => ⟨S50000x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S512000x128, .f32⟩
  | 25 => ⟨S512000x128, .f32⟩
  | 26 => ⟨S512000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S512000x128, .f32⟩
  | 42 => ⟨S512000x128, .f32⟩
  | 43 => ⟨S1x128, .f32⟩
  | 44 => ⟨S512000x128, .f32⟩
  | 45 => ⟨S512000x128, .f32⟩
  | 46 => ⟨S_, .f32⟩
  | 47 => ⟨S128, .f32⟩
  | 48 => ⟨S128, .f32⟩
  | 49 => ⟨S128, .f32⟩
  | 50 => ⟨S1x128, .f32⟩
  | 51 => ⟨S512000x128, .f32⟩
  | 52 => ⟨S512000x128, .f32⟩
  | 53 => ⟨S1x128, .f32⟩
  | 54 => ⟨S512000x128, .f32⟩
  | 55 => ⟨S512000x128, .f32⟩
  | 56 => ⟨S50000x256, .f32⟩
  | 57 => ⟨S1x256, .f32⟩
  | 58 => ⟨S50000x256, .f32⟩
  | 59 => ⟨S50000x256, .f32⟩
  | 60 => ⟨S_, .f32⟩
  | 61 => ⟨S50000x256, .f32⟩
  | 62 => ⟨S50000x256, .f32⟩
  | 63 => ⟨S50000x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S128, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_cst_4 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_c_7 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_8 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_10 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_c_13 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_cst_3 : Ref sig .tc := ⟨.hbm, 118, rfl⟩
abbrev main_call1_v12 : Ref sig .tc := ⟨.hbm, 119, rfl⟩
abbrev main_call1_cst_4 : Ref sig .tc := ⟨.hbm, 120, rfl⟩
abbrev main_call1_call0_v0 : Ref sig .tc := ⟨.hbm, 121, rfl⟩
abbrev main_call1_call0_v1 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_14 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_cst_15 : Ref sig .tc := ⟨.hbm, 140, rfl⟩
abbrev main_v77 : Ref sig .tc := ⟨.hbm, 141, rfl⟩
abbrev main_cst_16 : Ref sig .tc := ⟨.hbm, 142, rfl⟩
abbrev main_v78 : Ref sig .tc := ⟨.hbm, 143, rfl⟩
abbrev main_v79 : Ref sig .tc := ⟨.hbm, 144, rfl⟩
abbrev main_c_17 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_cst_18 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_call3_cst : Ref sig .tc := ⟨.hbm, 188, rfl⟩
abbrev main_call3_v0 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_cst_19 : Ref sig .tc := ⟨.hbm, 196, rfl⟩
abbrev main_v106 : Ref sig .tc := ⟨.hbm, 197, rfl⟩
abbrev main_cst_20 : Ref sig .tc := ⟨.hbm, 198, rfl⟩
abbrev main_v107 : Ref sig .tc := ⟨.hbm, 199, rfl⟩
abbrev main_v108 : Ref sig .tc := ⟨.hbm, 200, rfl⟩
abbrev main_c_21 : Ref sig .tc := ⟨.hbm, 201, rfl⟩
abbrev main_call4_cst : Ref sig .tc := ⟨.hbm, 202, rfl⟩
abbrev main_call4_v0 : Ref sig .tc := ⟨.hbm, 203, rfl⟩
abbrev main_call4_v1 : Ref sig .tc := ⟨.hbm, 204, rfl⟩
abbrev main_call4_cst_0 : Ref sig .tc := ⟨.hbm, 205, rfl⟩
abbrev main_call4_v2 : Ref sig .tc := ⟨.hbm, 206, rfl⟩
abbrev main_call4_v3 : Ref sig .tc := ⟨.hbm, 207, rfl⟩
abbrev main_call4_v4 : Ref sig .tc := ⟨.hbm, 208, rfl⟩
abbrev main_call4_v5 : Ref sig .tc := ⟨.hbm, 209, rfl⟩
abbrev main_call4_v6 : Ref sig .tc := ⟨.hbm, 210, rfl⟩
abbrev main_call4_v7 : Ref sig .tc := ⟨.hbm, 211, rfl⟩
abbrev main_call4_cst_1 : Ref sig .tc := ⟨.hbm, 212, rfl⟩
abbrev main_call4_v8 : Ref sig .tc := ⟨.hbm, 213, rfl⟩
abbrev main_call4_cst_2 : Ref sig .tc := ⟨.hbm, 214, rfl⟩
abbrev main_call4_v9 : Ref sig .tc := ⟨.hbm, 215, rfl⟩
abbrev main_call4_v10 : Ref sig .tc := ⟨.hbm, 216, rfl⟩
abbrev main_call4_v11 : Ref sig .tc := ⟨.hbm, 217, rfl⟩
abbrev main_call4_cst_3 : Ref sig .tc := ⟨.hbm, 218, rfl⟩
abbrev main_call4_v12 : Ref sig .tc := ⟨.hbm, 219, rfl⟩
abbrev main_call4_cst_4 : Ref sig .tc := ⟨.hbm, 220, rfl⟩
abbrev main_call4_call0_v0 : Ref sig .tc := ⟨.hbm, 221, rfl⟩
abbrev main_call4_call0_v1 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_cst_22 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S512000x128_S512000x8x16 : S512000x128.ShapeCasts S512000x8x16
  bcast_S_S512000 : S_.BroadcastsInDim S512000 (![] : Fin 0 → Fin S512000.rank)
  bcast_S512000_S512000x1_0 : S512000.BroadcastsInDim S512000x1 (![0] : Fin 1 → Fin S512000x1.rank)
  bcast_S_S512000x8x16 : S_.BroadcastsInDim S512000x8x16 (![] : Fin 0 → Fin S512000x8x16.rank)
  reducesTo_S512000x8x16_S512000x8_d2 : S512000x8x16.ReducesTo [2] S512000x8
  h_S_ : 0 < S_.numel
  bcast_S_S512000x8 : S_.BroadcastsInDim S512000x8 (![] : Fin 0 → Fin S512000x8.rank)
  bcast_S512000x8_S512000x8x1_0_1 : S512000x8.BroadcastsInDim S512000x8x1 (![0, 1] : Fin 2 → Fin S512000x8x1.rank)
  bcast_S512000x8x1_S512000x8x16_0_1_2 : S512000x8x1.BroadcastsInDim S512000x8x16 (![0, 1, 2] : Fin 3 → Fin S512000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S512000x8x16_S512000x128 : S512000x8x16.ShapeCasts S512000x128
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  reducesTo_S512000x128_S128_d0 : S512000x128.ReducesTo [0] S128
  bcast_S1x128_S512000x128_0_1 : S1x128.BroadcastsInDim S512000x128 (![0, 1] : Fin 2 → Fin S512000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  dot_S512000x128_S128x128_S512000x128_1_0_0_1_n_n_wf : DotDims.WF S512000x128 S128x128 S512000x128 [1] [0] [0] [1] [] []
  gather_S50000x8x16_S512000x1_S512000x8x16_12_0_n_n_0_1_1816_wf : GatherDims.WF S50000x8x16 S512000x1 S512000x8x16 [1, 2] [0] [] [0] [] 1 ![1, 8, 16]
  scatter_S50000x8x16_S512000x1_S512000x8x16_12_0_0_1_wf : ScatterDims.WF S50000x8x16 S512000x1 S512000x8x16 [1, 2] [0] [0] 1
  scatter_S50000x8_S512000x1_S512000x8_1_0_0_1_wf : ScatterDims.WF S50000x8 S512000x1 S512000x8 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S512000x128_S128x128_S512000x128_1_0_0_1_n_n : DotDims S512000x128 S128x128 S512000x128 where
  lhsContracting := [1]
  rhsContracting := [0]
  lhsNonContracting := [0]
  rhsNonContracting := [1]
  lhsBatch := []
  rhsBatch := []
  wf := dot_S512000x128_S128x128_S512000x128_1_0_0_1_n_n_wf
def gather_S50000x8x16_S512000x1_S512000x8x16_12_0_n_n_0_1_1816 : GatherDims S50000x8x16 S512000x1 S512000x8x16 where
  offsetDims := [1, 2]
  collapsedSliceDims := [0]
  operandBatchingDims := []
  startIndicesBatchingDims := []
  startIndexMap := [0]
  indexVectorDim := 1
  sliceSizes := ![1, 8, 16]
  wf := gather_S50000x8x16_S512000x1_S512000x8x16_12_0_n_n_0_1_1816_wf
def scatter_S50000x8x16_S512000x1_S512000x8x16_12_0_0_1 : ScatterDims S50000x8x16 S512000x1 S512000x8x16 where
  updateWindowDims := [1, 2]
  insertedWindowDims := [0]
  scatterDimsToOperandDims := [0]
  indexVectorDim := 1
  wf := scatter_S50000x8x16_S512000x1_S512000x8x16_12_0_0_1_wf
def scatter_S50000x8_S512000x1_S512000x8_1_0_0_1 : ScatterDims S50000x8 S512000x1 S512000x8 where
  updateWindowDims := [1]
  insertedWindowDims := [0]
  scatterDimsToOperandDims := [0]
  indexVectorDim := 1
  wf := scatter_S50000x8_S512000x1_S512000x8_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.K.Fam.lean ====
import proofs.«403660_j89129161327109_3_alg».proof.Proof.Gen.Kernel.Regions
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

abbrev rest (c : Dev nD) : sProp 𝕄 :=
  iprop((∃ r, prngReg c r) ∗ ∃ W, owes (c : Thread nD τ) (0 : CellTallies nD τ sig Unit) W)

theorem upd_at (c : Dev nD) (V : Valuation τ sig (Elt F)) (r : Ref sig .tc) (x : Buf (Elt F) ((c : Thread nD τ).loc r)) :
    Function.update V r x r = x := Function.update_self ..
theorem upd_off (c : Dev nD) (V : Valuation τ sig (Elt F)) (r r' : Ref sig .tc) (h : r' ≠ r) (x : Buf (Elt F) ((c : Thread nD τ).loc r)) :
    Function.update V r x r' = V r' :=
  Function.update_of_ne (StableHlo.devRef_ne_of_ne h : (Proc.devRef .tc r' : DevRef τ sig) ≠ Proc.devRef .tc r) ..

abbrev atTc (W : Dev nD → Valuation τ sig (Elt F)) : (c : Dev nD) → (b : Ref sig .tc) → Buf (Elt F) ((c : Thread nD τ).loc b) :=
  fun c b => W c b

abbrev DatAt (cfg : Pipeline.Cfg sig Λ₀) := (c : Dev nD) → Dat τ (Elt F) Unit ℕ (UR sig nD τ) ℕ cfg c

def famOf (d0 : DatAt (F := F) cfg0) (d1 : DatAt (F := F) cfg1) (d2 : DatAt (F := F) cfg2) (d3 : DatAt (F := F) cfg3)
    (d4 : DatAt (F := F) cfg4) (d5 : DatAt (F := F) cfg5) : (p : Fin 6) → DatAt (F := F) (cfgs p)
  | ⟨0, _⟩ => d0
  | ⟨1, _⟩ => d1
  | ⟨2, _⟩ => d2
  | ⟨3, _⟩ => d3
  | ⟨4, _⟩ => d4
  | ⟨5, _⟩ => d5

/-- Proof data of the simplest kind; each field holds by unfolding the data. -/
structure Plain {cfg : Pipeline.Cfg sig Λ₀} {c : Dev nD} (d : Dat τ (Elt F) Unit ℕ (UR sig nD τ) ℕ cfg c) : Prop where
  Φ : ∀ t, d.Φ t = Pipeline.ΦA cfg.spec c := by intros; rfl
  q : ∀ w, d.q w = fullShare := by intros; rfl
  owed : ∀ t, d.owed t = 0 := by intros; rfl
  recorded : ∀ t, d.recorded t = Set.univ := by intros; rfl

/-- Each array ends as the exit valuation has it: a written one by hypothesis, any other because no grid point writes it. -/
theorem left_of {cfg : Pipeline.Cfg sig Λ₀} {c : Dev nD} {d : Dat τ (Elt F) Unit ℕ (UR sig nD τ) ℕ cfg c}
    {V V' : (b : Ref sig .tc) → Buf (Elt F) ((c : Thread nD τ).loc b)} (hA : ∀ w, d.A w = V (Pipeline.arrRef cfg.spec w))
    {Wl : List (Ref sig .tc)} (hV' : ∀ r, r ∉ Wl → V' r = V r) (Wo : List (Fin cfg.W))
    (hside : ∀ w, w ∈ Wo ∨ (cfg.win w).isOut = false ∧ Pipeline.arrRef cfg.spec w ∉ Wl)
    (hout : Wo.Forall fun w => d.arrAt w cfg.N = V' (Pipeline.arrRef cfg.spec w)) (w : Fin cfg.W) :
    d.arrAt w cfg.N = V' (Pipeline.arrRef cfg.spec w) :=
  (hside w).elim (List.forall_iff_forall_mem.1 hout w) fun h => (d.arrAt_in w h.1 _).trans ((hA w).trans (hV' _ h.2).symm)

/-- A buffer outside a set that holds every written one is left as it was. -/
theorem kept_of {c : Dev nD} {V V' : (b : Ref sig .tc) → Buf (Elt F) ((c : Thread nD τ).loc b)} {Wl : List (Ref sig .tc)}
    (hV' : ∀ r, r ∉ Wl → V' r = V r) {S : Finset (Ref sig .tc)} (hW : ∀ r ∈ Wl, r ∈ S) : ∀ b, b ∉ S → V' b = V b :=
  fun b hb => hV' b fun h => hb (hW b h)

variable (pd : (p : Fin 6) → DatAt (F := F) (cfgs p))

set_option backward.isDefEq.respectTransparency.types false in
/-- Pipeline `p` as one item of the run, from every unscoped buffer at `V` to every one at `V'`: `V'` differs from `V` on `Wl` only, and has each written array as the last grid point leaves it. -/
def regOf (p : Fin 6) (L : Pipeline.LaunchFacts (nD := nD) (τ := τ) cfgs p) (V V' : Dev nD → Valuation τ sig (Elt F))
    (hbody : ∀ c, BodyObligation (pd p c) (defs₀ (F := F)) Variants.none () Set.univ) (hp : ∀ c, Plain (pd p c))
    (hA : ∀ c w, (pd p c).A w = atTc V c (Pipeline.arrRef (cfgs p).spec w))
    {Wl : List (Ref sig .tc)} (hV' : ∀ c r, r ∉ Wl → atTc V' c r = atTc V c r)
    (hW : ∀ r ∈ Wl, r ∈ Finset.univ.image (Pipeline.arrRef (cfgs p).spec)) (Wo : List (Fin (cfgs p).W))
    (hside : ∀ w, w ∈ Wo ∨ ((cfgs p).win w).isOut = false ∧ Pipeline.arrRef (cfgs p).spec w ∉ Wl)
    (hout : ∀ c, Wo.Forall fun w => (pd p c).arrAt w (cfgs p).N = atTc V' c (Pipeline.arrRef (cfgs p).spec w)) :
    RegionSeg (pcfgs (F := F)) Gen.adm pd () defs₀ Variants.none (fun _ => (∅ : Finset Unit)) (fun _ _ => (0 : ℕ)) p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ _ _ p fun c => (hp c).owed
  pre c := iprop(StableHlo.held (c : Thread nD τ) (Pipeline.ucRefs τ sig) (V c) ∗ rest c)
  post c := iprop(StableHlo.held (c : Thread nD τ) (Pipeline.ucRefs τ sig) (V' c) ∗ rest c)
  X c := iprop(∃ r, prngReg c r)
  Y c := iprop(∃ r, prngReg c r)
  Z c := Pipeline.unscopedRest (Ix := Unit) (Name := ℕ) (U := UR sig nD τ) (Lvl := ℕ) (cfgs p).spec c (atTc V c)
  hentry c := by
    have hsplit := Pipeline.arrays_of_unscopedBufs (p := p) (pcfgs (F := F)) Gen.adm pd L.win L.arr_whole c
      ((pd p c).share_full (hp c).q) (atTc V c) (hA c)
    rw [Pipeline.unscopedBufs_held] at hsplit
    rw [Pipeline.ownSems0_none]
    unfold Pipeline.Dat.owesAt Pipeline.owesWithin Pipeline.Dat.bound
    rw [(hp c).owed, (hp c).recorded]
    iintro ⟨⟨Hub, Hp, %W, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ _ => Or.inl trivial
      iexact HO
    isplitl [Hp]; · iexact Hp
    iexact Hrest
  hin c := by
    rw [(hp c).Φ]; unfold Pipeline.ΦA
    iintro ⟨Hp, -, Hr⟩
    isplitl [Hr]; · iexact Hr
    iexact Hp
  hout c := by
    rw [Pipeline.ownSems0_none, (hp c).Φ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      L.win L.arr_whole c pd ((pd p c).share_full (hp c).q) (atTc V c) (atTc V' c) ((pd p c).arrAt · (cfgs p).N)
      (left_of (hA c) (hV' c) Wo hside (hout c)) (kept_of (hV' c) hW)
    rw [Pipeline.unscopedBufs_held] at hjoin
    unfold Pipeline.Dat.owesAt Pipeline.owesWithin
    rw [(hp c).owed]
    iintro ⟨Ha, ⟨%W, -, HO⟩, HY, Hrest⟩
    imodintro
    isplitl [Ha Hrest]
    · iapply hjoin; isplitl [Ha] <;> iassumption
    isplitl [HY]; · iexact HY
    iexists W; iexact HO

end Cert.Kernel.Hand

end
-- ==== Proof.K.RegLib.lean ====
import proofs.«403660_j89129161327109_3_alg».proof.Proof.Gen.Kernel.Launch
import proofs.«403660_j89129161327109_3_alg».proof.Proof.Gen.Kernel.Skeleton
import proofs.«403660_j89129161327109_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {nD : ℕ} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD}

/-- An input window the body leaves at `B t`, the block of its array `A` there, holds `B t` when the body runs, at every point. -/
theorem before_in_eq_blk (dat : Dat τ Val Ix Name U Lvl cfg c) (w : Fin cfg.W) (hw : (cfg.win w).isOut = false)
    (hlive : ∀ i, cfg.idle w i = false)
    (hclip : ∀ t t' : Fin cfg.N, (cfg.win w).index t = (cfg.win w).index t' →
      (cfg.win w).clip (cfg.grid.coords t) = (cfg.win w).clip (cfg.grid.coords t'))
    {A} (hA : dat.A w = A) (B : Fin cfg.N → (cfg.win w).block.Idx → Val (cfg.win w).elt)
    (hB : ∀ t d, (cfg.win w).fill (cfg.grid.coords t) d (((cfg.win w).blk t).view.read Val A) = B t)
    (hafter : ∀ t, dat.after w t = B t) (t : Fin cfg.N) (d) : dat.before w t d = B t := by
  subst hA
  rw [dat.before_in_eq_fetched w hw hlive hclip (fun t => by
    rw [hafter, ← hB t (B t)]; exact (cfg.win w).cut_fill _ _ _) t d]
  exact hB t d
end

theorem zeros2 : (![0, 0] : Fin 2 → ℕ) = fun _ => 0 := by funext a; fin_cases a <;> rfl

/-- One store through the whole-buffer rectangle covers the buffer. -/
theorem cover_one {Val : EltTy → Type} {S : Shape} {e : EltTy} {off : Fin S.rank → ℕ} (h : off = fun _ => 0)
    (inb : ∀ a, off a + S.size a ≤ S.size a) (p : S.Idx → Val e) (y : S.Idx) :
    ∃ pc ∈ ([⟨Rect.unit off S.size inb, p⟩] : List (View.Piece Val S e)), y ∈ pc.1.set :=
  ⟨_, List.mem_singleton_self _, View.mem_set_unit_zero h inb y⟩

/-- After a list of writes a view reads the last write's payload laid over what it reads after the earlier ones. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons,
      View.read_slice_write_of_not_mem r _ _ _ (by rw [Rect.map_emb_univ]; exact hy)]

/-- A running value restarted from `z` at every position that is a multiple of `P`, else updated from the position before. -/
def accRec {α : Type} {N : ℕ} (P : ℕ) (upd : Fin N → α → α) (z : α) : (n : ℕ) → n < N → α
  | 0, hn => upd ⟨0, hn⟩ z
  | n + 1, hn => upd ⟨n + 1, hn⟩ (if (n + 1) % P = 0 then z else accRec P upd z n (Nat.lt_of_succ_lt hn))

theorem accRec_reset {α : Type} {N P : ℕ} (upd : Fin N → α → α) (z : α) (t : Fin N) (h0 : t.val % P = 0) :
    accRec P upd z t.val t.isLt = upd t z := by
  obtain ⟨n, hn⟩ := t
  cases n with
  | zero => rfl
  | succ n => exact congrArg (upd _) (if_pos h0)

theorem accRec_step {α : Type} {N P : ℕ} (upd : Fin N → α → α) (z : α) (t : Fin N) (h0 : ¬t.val % P = 0) :
    accRec P upd z t.val t.isLt = upd t (accRec P upd z (t.val - 1) (Nat.lt_of_le_of_lt (Nat.sub_le _ _) t.isLt)) := by
  obtain ⟨n, hn⟩ := t
  cases n with
  | zero => exact absurd (Nat.zero_mod _) h0
  | succ n => exact congrArg (upd _) (if_neg h0)

end Cert.Kernel.Hand
-- ==== Proof.K.Reg0.lean ====
import proofs.«403660_j89129161327109_3_alg».proof.Proof.K.RegLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1000x128 := Rect.unit (s := S1000x128) ![0, 0] S1000x128.size inb_S1000x128_S1000x128_0_0
abbrev rW0 : Rect S128x384 := Rect.unit (s := S128x384) ![0, 0] S128x384.size inb_S128x384_S128x384_0_0
abbrev rY0 : Rect S1000x384 := Rect.unit (s := S1000x384) ![0, 0] S1000x384.size inb_S1000x384_S1000x384_0_0

def out0_2 (x : Vec F S1000x128 .f32) (w : Vec F S128x384 .f32) : Vec F S1000x384 .f32 :=
  View.canon [⟨rY0, k0_pay1 (View.ld x rX0) (View.ld w rW0)⟩]

/-- The body keeps its two inputs and stores their product over the whole output buffer. -/
theorem sound_kernel0 (c : Dev nD) (E : Set ℕ) (i : grid0.Coords)
    (arg1 : Memref sig .tc .vmem S1000x128 .f32) (harg1 : arg1.IsWhole)
    (arg2 : Memref sig .tc .vmem S128x384 .f32) (harg2 : arg2.IsWhole)
    (arg3 : Memref sig .tc .vmem S1000x384 .f32) (harg3 : arg3.IsWhole)
    (x : Vec F S1000x128 .f32) (w : Vec F S128x384 .f32) (d : Vec F S1000x384 .f32) (K : PUnit → sProp 𝕄) :
    iprop(owns (c : Thread nD τ) arg1 fullShare x ∗ owns (c : Thread nD τ) arg2 fullShare w
        ∗ owns (c : Thread nD τ) arg3 fullShare d
        ∗ (iprop(owns (c : Thread nD τ) arg1 fullShare x ∗ owns (c : Thread nD τ) arg2 fullShare w
            ∗ owns (c : Thread nD τ) arg3 fullShare (out0_2 x w)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  rw [owns_eq_rep (c : Thread nD τ) arg1, owns_eq_rep (c : Thread nD τ) arg2]
  unfold owns
  iintro ⟨Hx, Hw, ⟨%fy, -, Hy⟩, Hk⟩
  sl_exec
  sl_step
  iapply Hk
  iframe Hx Hw
  iexists _; isplitr
  swap; · iexact Hy
  ipureintro
  rw [View.readAt_rep, View.readAt_rep]
  exact View.read_writes_eq_canon _ _ _ (cover_one zeros2 _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

/-- An input window's buffer holds, when the body runs, what the body leaves in it: its block. -/
theorem before0_in (c : Dev nD) (w : Fin cfg0.W) (hw : (cfg0.win w).isOut = false) (t : Fin cfg0.N) (d) :
    (dat0 V c).before w t d = (dat0 V c).after w t := by
  fin_cases w
  all_goals first
    | exact absurd hw (by decide)
    | exact before_in_eq_blk _ _ hw (fun _ => rfl) (fun _ _ _ => rfl) (A_eq0 V c _) _ (fun _ _ => rfl) (fun _ => rfl) t d

theorem after0_2' (c : Dev nD) (t : Fin cfg0.N) : (dat0 V c).after 2 t = out0_2 ((dat0 V c).after 0 t) ((dat0 V c).after 1 t) := by
  dsimp only [dat0]

/-- At every point the inputs' buffers hold their blocks, so the body's triple applies; the invariant passes through. -/
theorem body_obligation0 (c : Dev nD) : BodyObligation (dat0 (F := F) V c) (defs₀ (F := F)) Variants.none () Set.univ := fun t => by
  rw [bigSep_W0, bigSep_W0]
  show _ ⊢ wp frame _ _ (bodyAt0 t) _
  simp only [before0_in V c 0 rfl, before0_in V c 1 rfl]
  rw [show (dat0 V c).Φ t.succ = (dat0 V c).Φ t.castSucc from rfl,
    show (dat0 V c).owesAt () t.succ = (dat0 V c).owesAt () t.castSucc from rfl, after0_2']
  iintro ⟨HΦ, Ho, ⟨%d0, H0⟩, ⟨%d1, H1⟩, ⟨%d2, H2⟩⟩
  iapply (sound_kernel0 c Set.univ _ _ _ _ _ _ _
    ((dat0 V c).after 0 t) ((dat0 V c).after 1 t) ((dat0 V c).before 2 t d2) _)
  iframe
  iintro ⟨H0, H1, H2⟩
  iframe

end Cert.Kernel.Hand
-- ==== Proof.K.Reg1.lean ====
import proofs.«403660_j89129161327109_3_alg».proof.Proof.K.RegLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 125 = 0 :=
  (by decide +kernel : ∀ t : Fin grid1.N, cond1_0 (grid1.coords t) ↔ t.val % 125 = 0)

abbrev rowR : Rect S8x128 := Rect.unit (s := S8x128) ![0, 0] S1x128.size inb_S8x128_S1x128_0_0

def prod1 (x0 x1 x2 : Vec F S2048x128 .f32) (x4 : Vec F S128x128 .f32) : Vec F S2048x128 .f32 :=
  k1_pay9 x0 x4 x1 x2

def out1_7 (x0 x1 x2 x3 : Vec F S2048x128 .f32) (x4 : Vec F S128x128 .f32) (x5 : Vec F S128x8 .f32) (x6 : Vec F S8x128 .f32) :
    Vec F S2048x128 .f32 :=
  k1_pay2 (prod1 x0 x1 x2 x4) x5 x6 x3

def out1_8 (x0 x1 x2 : Vec F S2048x128 .f32) (x4 : Vec F S128x128 .f32) (x5 : Vec F S128x8 .f32) : Vec F S2048x8 .f32 :=
  k1_pay1 (prod1 x0 x1 x2 x4) x5

def upd1_9 (x0 : Vec F S2048x128 .f32) (x4 : Vec F S128x128 .f32) (prev : Vec F S8x128 .f32) : Vec F S8x128 .f32 :=
  rowR.overlay prev (k1_pay7 x0 x4 (View.ld prev rowR))

def upd1_10 (x0 : Vec F S2048x128 .f32) (x4 : Vec F S128x128 .f32) (prev : Vec F S8x128 .f32) : Vec F S8x128 .f32 :=
  rowR.overlay prev (k1_pay8 x0 x4 (View.ld prev rowR))

/-- The body keeps its seven inputs, stores the two edge blocks, and adds to row 0 of each accumulator, taken as zeros where the inner coordinate is zero. -/
theorem sound_kernel1 (c : Dev nD) (i : grid1.Coords)
    (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S128x128 .f32) (harg6 : arg6.IsWhole) (arg7 : Memref sig .tc .vmem S128x8 .f32) (harg7 : arg7.IsWhole)
    (arg8 : Memref sig .tc .vmem S8x128 .f32) (harg8 : arg8.IsWhole) (arg9 : Memref sig .tc .vmem S2048x128 .f32) (harg9 : arg9.IsWhole)
    (arg10 : Memref sig .tc .vmem S2048x8 .f32) (harg10 : arg10.IsWhole) (arg11 : Memref sig .tc .vmem S8x128 .f32) (harg11 : arg11.IsWhole)
    (arg12 : Memref sig .tc .vmem S8x128 .f32) (harg12 : arg12.IsWhole)
    (x0 x1 x2 x3 : Vec F S2048x128 .f32) (x4 : Vec F S128x128 .f32) (x5 : Vec F S128x8 .f32) (x6 : Vec F S8x128 .f32)
    (d7 : Vec F S2048x128 .f32) (d8 : Vec F S2048x8 .f32) (a9 a10 z9 z10 : Vec F S8x128 .f32)
    (hz : cond1_0 i ∧ z9 = k1_pay3 ∧ z10 = k1_pay4 ∨ ¬cond1_0 i ∧ z9 = a9 ∧ z10 = a10) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ owns (c : Thread nD τ) arg9 fullShare d7 ∗ owns (c : Thread nD τ) arg10 fullShare d8
        ∗ owns (c : Thread nD τ) arg11 fullShare a9 ∗ owns (c : Thread nD τ) arg12 fullShare a10
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ owns (c : Thread nD τ) arg9 fullShare (out1_7 x0 x1 x2 x3 x4 x5 x6) ∗ owns (c : Thread nD τ) arg10 fullShare (out1_8 x0 x1 x2 x4 x5)
            ∗ owns (c : Thread nD τ) arg11 fullShare (upd1_9 x0 x4 z9) ∗ owns (c : Thread nD τ) arg12 fullShare (upd1_10 x0 x4 z10)) -∗ K ⟨⟩))
      ⊢ wp frame (wpE (defs₀ (F := F)) Variants.none c none) E
          (cc1__edge_kernel i arg2 harg2 arg3 harg3 arg4 harg4 arg5 harg5 arg6 harg6 arg7 harg7 arg8 harg8 arg9 harg9 arg10 harg10 arg11 harg11 arg12 harg12) K := by
  obtain ⟨hc0, rfl, rfl⟩ | ⟨hc0, rfl, rfl⟩ := hz
  all_goals
    simp only [cc1__edge_kernel_eq_skeleton]; unfold cc1__edge_kernel_skel
    simp only [k1_part1_eq_skeleton]
    rw [owns_eq_rep (c : Thread nD τ) arg2, owns_eq_rep (c : Thread nD τ) arg3, owns_eq_rep (c : Thread nD τ) arg4,
      owns_eq_rep (c : Thread nD τ) arg5, owns_eq_rep (c : Thread nD τ) arg6, owns_eq_rep (c : Thread nD τ) arg7,
      owns_eq_rep (c : Thread nD τ) arg8, owns_eq_rep (c : Thread nD τ) arg11, owns_eq_rep (c : Thread nD τ) arg12]
    unfold owns
    iintro ⟨H0, H1, H2, H3, H4, H5, H6, ⟨%f7, -, H7⟩, ⟨%f8, -, H8⟩, H9, H10, Hk⟩
    sl_exec (disch := first | exact hc0)
    sl_step
    iapply Hk
    iframe H0 H1 H2 H3 H4 H5 H6
    isplitl [H7]; iexists _; isplitr; swap; iexact H7; rotate_left
    isplitl [H8]; iexists _; isplitr; swap; iexact H8; rotate_left
    isplitl [H9]; iexists _; isplitr; swap; iexact H9; rotate_left
    iexists _; isplitr; swap; iexact H10
    all_goals
      ipureintro
      sl_unfold_run_names
      first
      | rw [View.read_writes_eq_canon _ _ _ (cover_one zeros2 _ _)]
      | rw [read_writes_cons_overlay, View.writes_nil]
      | rw [read_writes_cons_overlay, View.read_writes_eq_canon _ _ _ (cover_one zeros2 _ _),
          View.readCov_eq_canon_ld _ _ _ (cover_one zeros2 _ _)]
      simp only [View.readAt_eq_ld, View.read_rep, View.canon_unit_zero (S := S2048x128) zeros2, View.canon_unit_zero (S := S2048x8) zeros2,
        View.canon_unit_zero (S := S8x128) zeros2, View.ld_unit_zero (S := S2048x128) zeros2, View.ld_unit_zero (S := S128x128) zeros2,
        View.ld_unit_zero (S := S128x8) zeros2, View.ld_unit_zero (S := S8x128) zeros2]
      rfl

/-- An accumulator's buffer after each point: the update of zeros at the first point of a half of the grid, of what the point before left elsewhere. -/
def acc1_9 (c : Dev nD) : (n : ℕ) → n < cfg1.N → Vec F S8x128 .f32 :=
  accRec 125 (fun t => upd1_9 (iblk1 V c 0 t) (iblk1 V c 4 t)) (k1_pay3 (F := F))

theorem acc1_9_A (c : Dev nD) (t : Fin cfg1.N) (h0 : t.val % 125 = 0) :
    acc1_9 V c t.val t.isLt = upd1_9 (iblk1 V c 0 t) (iblk1 V c 4 t) (k1_pay3 (F := F)) :=
  accRec_reset _ _ t h0

theorem acc1_9_B (c : Dev nD) (t : Fin cfg1.N) (h0 : ¬t.val % 125 = 0) :
    acc1_9 V c t.val t.isLt
      = upd1_9 (iblk1 V c 0 t) (iblk1 V c 4 t) (acc1_9 V c (t.val - 1) (Nat.lt_of_le_of_lt (Nat.sub_le _ _) t.isLt)) :=
  accRec_step _ _ t h0

def acc1_10 (c : Dev nD) : (n : ℕ) → n < cfg1.N → Vec F S8x128 .f32 :=
  accRec 125 (fun t => upd1_10 (iblk1 V c 0 t) (iblk1 V c 4 t)) (k1_pay4 (F := F))

theorem acc1_10_A (c : Dev nD) (t : Fin cfg1.N) (h0 : t.val % 125 = 0) :
    acc1_10 V c t.val t.isLt = upd1_10 (iblk1 V c 0 t) (iblk1 V c 4 t) (k1_pay4 (F := F)) :=
  accRec_reset _ _ t h0

theorem acc1_10_B (c : Dev nD) (t : Fin cfg1.N) (h0 : ¬t.val % 125 = 0) :
    acc1_10 V c t.val t.isLt
      = upd1_10 (iblk1 V c 0 t) (iblk1 V c 4 t) (acc1_10 V c (t.val - 1) (Nat.lt_of_le_of_lt (Nat.sub_le _ _) t.isLt)) :=
  accRec_step _ _ t h0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 4 t) (iblk1 V c 5 t)
    | ⟨9, _⟩ => acc1_9 V c t.val t.isLt
    | ⟨10, _⟩ => acc1_10 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) :
    (dat1 V c).after 8 t = out1_8 (iblk1 V c 0 t) (iblk1 V c 1 t) (iblk1 V c 2 t) (iblk1 V c 4 t) (iblk1 V c 5 t) := by dsimp only [dat1]
theorem after1_9 (c : Dev nD) (t : Fin cfg1.N) : (dat1 V c).after 9 t = acc1_9 V c t.val t.isLt := by dsimp only [dat1]
theorem after1_10 (c : Dev nD) (t : Fin cfg1.N) : (dat1 V c).after 10 t = acc1_10 V c t.val t.isLt := by dsimp only [dat1]

/-- An input window's buffer holds, when the body runs, what the body leaves in it: its block. -/
theorem before1_in (c : Dev nD) (w : Fin cfg1.W) (hw : (cfg1.win w).isOut = false) (t : Fin cfg1.N) (d) :
    (dat1 V c).before w t d = (dat1 V c).after w t := by
  fin_cases w
  all_goals first
    | exact absurd hw (by decide)
    | exact before_in_eq_blk _ _ hw (fun _ => rfl) (fun _ _ _ => rfl) (A_eq1 V c _) _ (fun _ _ => rfl) (fun _ => rfl) t d

/-- Away from the first point of a half of the grid an accumulator's buffer holds what the body left at the point before. -/
theorem before1_9_B (c : Dev nD) (t : Fin cfg1.N) (h0 : ¬t.val % 125 = 0) (d) :
    (dat1 V c).before 9 t d = acc1_9 V c (t.val - 1) (Nat.lt_of_le_of_lt (Nat.sub_le _ _) t.isLt) := by
  rw [Dat.before_out_kept _ 9 rfl t (fun h => h0 (by rw [h])) (Bool.eq_false_iff.mpr fun h => by have := (flush1_9 _).mp h; dsimp only at this; omega)
    (fun _ => rfl) (fun _ _ => rfl)]
  dsimp only [dat1]
theorem before1_10_B (c : Dev nD) (t : Fin cfg1.N) (h0 : ¬t.val % 125 = 0) (d) :
    (dat1 V c).before 10 t d = acc1_10 V c (t.val - 1) (Nat.lt_of_le_of_lt (Nat.sub_le _ _) t.isLt) := by
  rw [Dat.before_out_kept _ 10 rfl t (fun h => h0 (by rw [h])) (Bool.eq_false_iff.mpr fun h => by have := (flush1_10 _).mp h; dsimp only at this; omega)
    (fun _ => rfl) (fun _ _ => rfl)]
  dsimp only [dat1]

/-- At every point the inputs' buffers hold their blocks and the accumulators what the recursion names, so the body's triple applies. -/
theorem body_obligation1 (c : Dev nD) : BodyObligation (dat1 (F := F) V c) (defs₀ (F := F)) Variants.none () Set.univ := fun t => by
  rw [bigSep_W1, bigSep_W1]
  show _ ⊢ wp frame _ _ (bodyAt1 t) _
  simp only [before1_in V c 0 rfl, before1_in V c 1 rfl, before1_in V c 2 rfl, before1_in V c 3 rfl, before1_in V c 4 rfl, before1_in V c 5 rfl, before1_in V c 6 rfl]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  by_cases h0 : t.val % 125 = 0
  · rw [acc1_9_A V c t h0, acc1_10_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1 c (grid1.coords t) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      ((dat1 V c).before 7 t d7) ((dat1 V c).before 8 t d8) ((dat1 V c).before 9 t d9) ((dat1 V c).before 10 t d10) _ _ (.inl ⟨(hcond1_0 t).mpr h0, rfl, rfl⟩) Set.univ _)
    iframe
    iintro ⟨H0, H1, H2, H3, H4, H5, H6, H7, H8, H9, H10⟩
    iframe
  · rw [acc1_9_B V c t h0, acc1_10_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1 c (grid1.coords t) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      ((dat1 V c).before 7 t d7) ((dat1 V c).before 8 t d8) ((dat1 V c).before 9 t d9) ((dat1 V c).before 10 t d10) _ _ (.inr ⟨fun h => h0 ((hcond1_0 t).mp h), (before1_9_B V c t h0 d9).symm, (before1_10_B V c t h0 d10).symm⟩) Set.univ _)
    iframe
    iintro ⟨H0, H1, H2, H3, H4, H5, H6, H7, H8, H9, H10⟩
    iframe

end Cert.Kernel.Hand
-- ==== Proof.K.Reg2Runs.lean ====
import proofs.«403660_j89129161327109_3_alg».proof.Proof.K.RegLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The writes `L` (the last one first) laid over contents that read `X`. -/
def laid2 {Val : EltTy → Type} {s : Shape} {e : EltTy} (X : s.Idx → Val e) : List (View.Piece Val s e) → s.Idx → Val e
  | [] => X
  | p :: L => p.1.overlay (laid2 X L) p.2

theorem read_writes_eq_laid2 {Val : EltTy → Type} {sg : RefSig} {κ : Kind} {sp : Space} {s : Shape} {e : EltTy}
    (v : View sg κ sp s e) (f : v.ty.Contents Val) :
    ∀ L : List (View.Piece Val s e), v.read Val (v.writes Val f L) = laid2 (v.read Val f) L
  | [] => rfl
  | ⟨r, w⟩ :: L => (read_writes_cons_overlay v f r w L).trans (congrArg (r.overlay · w) (read_writes_eq_laid2 v f L))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2 (i : grid2.Coords) : Prop :=
  (Scalar.cmpi .ne (Scalar.extui (Scalar.cmpi .eq (BitVec.ofNat 32 (i 1).val) 0#32)) 0#32) = 1#1
theorem hcond2 : ∀ t : Fin cfg2.N, cond2 (grid2.coords t) ↔ t.val % 25 = 0 :=
  (by decide +kernel : ∀ t : Fin grid2.N, cond2 (grid2.coords t) ↔ t.val % 25 = 0)

abbrev ms2_0 (t : Fin cfg2.N) : Memref sig .tc .vmem S1000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x8 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S8x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S8x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S8x128 .f32 := win2_8.stage (cfg2.slots t 8)
abbrev hs2_8 (t : Fin cfg2.N) : (ms2_8 t).IsWhole := hstage2_8 ((cfg2.slots t 8).cast nbuf2_8)

/-- Owning a whole memref at `x` is holding its buffer at the contents that read `x`. -/
theorem owns_whole2 (c : Dev nD) {sp : Space} {sh : Shape} {e : EltTy} {m : Memref sig (c : Thread nD τ).2.kind sp sh e} (h : m.IsWhole) (x : sh.Idx → Elt F e) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _
    iintro ⟨%f, %hf, H⟩; obtain rfl := h.eq_unread hf; iexact H
  · show (_ : sProp 𝕄) ⊢ _
    iintro H; iexists _; isplitr; · ipureintro; exact h.read_unread _
    iexact H

variable (c : Dev nD) (i : grid2.Coords)
  (arg2 : Memref sig .tc .vmem S1000x128 .f32) (harg2 : arg2.IsWhole)
  (arg3 : Memref sig .tc .vmem S1000x8 .f32) (harg3 : arg3.IsWhole)
  (arg4 : Memref sig .tc .vmem S1000x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S8x128 .f32) (harg7 : arg7.IsWhole)
  (arg8 : Memref sig .tc .vmem S1000x128 .f32) (harg8 : arg8.IsWhole)
  (arg9 : Memref sig .tc .vmem S8x128 .f32) (harg9 : arg9.IsWhole)
  (arg10 : Memref sig .tc .vmem S8x128 .f32) (harg10 : arg10.IsWhole)

section A
variable (hc : cond2 i) (x0 : Vec F S1000x128 .f32) (x1 : Vec F S1000x8 .f32) (x2 : Vec F S1000x128 .f32) (x3 : Vec F S128x128 .f32) (x4 : Vec F S1x128 .f32) (x5 : Vec F S8x128 .f32)

set_option maxHeartbeats 2000000 in
def kernelRun2_A :
    Σ' (L6 : List (View.Piece (Elt F) S1000x128 .f32)) (L7 : List (View.Piece (Elt F) S8x128 .f32)) (L8 : List (View.Piece (Elt F) S8x128 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)) -∗ K ⟨⟩))
          ⊢ wp frame (wpE (defs₀ (F := F)) Variants.none c none) E (cc2__node_proj_kernel i arg2 harg2 arg3 harg3 arg4 harg4 arg5 harg5 arg6 harg6 arg7 harg7 arg8 harg8 arg9 harg9 arg10 harg10) K := by
  refine ⟨?_, ?_, ?_, fun E K => ?run⟩
  case run =>
    simp only [cc2__node_proj_kernel_eq_skeleton, k2_part1_eq_skeleton]; unfold cc2__node_proj_kernel_skel
    rw [owns_whole2 c harg2, owns_whole2 c harg3, owns_whole2 c harg4, owns_whole2 c harg5, owns_whole2 c harg6, owns_whole2 c harg7]
    unfold owns
    iintro ⟨H0, H1, H2, H3, H4, H5, ⟨%d6, %f6, -, H6⟩, ⟨%d7, %f7, -, H7⟩, ⟨%d8, %f8, -, H8⟩, Hk⟩
    sl_exec (disch := first | exact hc)
    sl_step
    iapply Hk
    iframe H0 H1 H2 H3 H4 H5
    isplitl [H6]; · iexists _; iexact H6
    isplitl [H7]; · iexists _; iexact H7
    iexists _; iexact H8

def out2_A_6 : Vec F S1000x128 .f32 := View.canon (kernelRun2_A c i arg2 harg2 arg3 harg3 arg4 harg4 arg5 harg5 arg6 harg6 arg7 harg7 arg8 harg8 arg9 harg9 arg10 harg10 hc x0 x1 x2 x3 x4 x5).1
def out2_A_7 : Vec F S8x128 .f32 := View.canon (kernelRun2_A c i arg2 harg2 arg3 harg3 arg4 harg4 arg5 harg5 arg6 harg6 arg7 harg7 arg8 harg8 arg9 harg9 arg10 harg10 hc x0 x1 x2 x3 x4 x5).2.1
def out2_A_8 : Vec F S8x128 .f32 := View.canon (kernelRun2_A c i arg2 harg2 arg3 harg3 arg4 harg4 arg5 harg5 arg6 harg6 arg7 harg7 arg8 harg8 arg9 harg9 arg10 harg10 hc x0 x1 x2 x3 x4 x5).2.2.1
end A

section B
variable (hc : ¬cond2 i) (x0 : Vec F S1000x128 .f32) (x1 : Vec F S1000x8 .f32) (x2 : Vec F S1000x128 .f32) (x3 : Vec F S128x128 .f32) (x4 : Vec F S1x128 .f32) (x5 : Vec F S8x128 .f32) (xo7 : Vec F S8x128 .f32) (xo8 : Vec F S8x128 .f32)

set_option maxHeartbeats 2000000 in
def kernelRun2_B :
    Σ' (L6 : List (View.Piece (Elt F) S1000x128 .f32)) (L7 : List (View.Piece (Elt F) S8x128 .f32)) (L8 : List (View.Piece (Elt F) S8x128 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (arg9.view.loc (c : Thread nD τ) ↦[arg9.view.set]{fullShare} arg9.view.writes (Elt F) (harg9.unread xo7) L7)
                ∗ (arg10.view.loc (c : Thread nD τ) ↦[arg10.view.set]{fullShare} arg10.view.writes (Elt F) (harg10.unread xo8) L8)) -∗ K ⟨⟩))
          ⊢ wp frame (wpE (defs₀ (F := F)) Variants.none c none) E (cc2__node_proj_kernel i arg2 harg2 arg3 harg3 arg4 harg4 arg5 harg5 arg6 harg6 arg7 harg7 arg8 harg8 arg9 harg9 arg10 harg10) K := by
  refine ⟨?_, ?_, ?_, fun E K => ?run⟩
  case run =>
    simp only [cc2__node_proj_kernel_eq_skeleton, k2_part1_eq_skeleton]; unfold cc2__node_proj_kernel_skel
    rw [owns_whole2 c harg2, owns_whole2 c harg3, owns_whole2 c harg4, owns_whole2 c harg5, owns_whole2 c harg6, owns_whole2 c harg7, owns_whole2 c harg9, owns_whole2 c harg10]
    unfold owns
    iintro ⟨H0, H1, H2, H3, H4, H5, ⟨%d6, %f6, -, H6⟩, H7, H8, Hk⟩
    sl_exec (disch := first | exact hc)
    sl_step
    iapply Hk
    iframe H0 H1 H2 H3 H4 H5
    isplitl [H6]; · iexists _; iexact H6
    isplitl [H7]; · iexact H7
    iexact H8

def out2_B_6 : Vec F S1000x128 .f32 := View.canon (kernelRun2_B c i arg2 harg2 arg3 harg3 arg4 harg4 arg5 harg5 arg6 harg6 arg7 harg7 arg8 harg8 arg9 harg9 arg10 harg10 hc x0 x1 x2 x3 x4 x5 xo7 xo8).1
def out2_B_7 : Vec F S8x128 .f32 := laid2 xo7 (kernelRun2_B c i arg2 harg2 arg3 harg3 arg4 harg4 arg5 harg5 arg6 harg6 arg7 harg7 arg8 harg8 arg9 harg9 arg10 harg10 hc x0 x1 x2 x3 x4 x5 xo7 xo8).2.1
def out2_B_8 : Vec F S8x128 .f32 := laid2 xo8 (kernelRun2_B c i arg2 harg2 arg3 harg3 arg4 harg4 arg5 harg5 arg6 harg6 arg7 harg7 arg8 harg8 arg9 harg9 arg10 harg10 hc x0 x1 x2 x3 x4 x5 xo7 xo8).2.2.1
end B

end Cert.Kernel.Hand

end
-- ==== Proof.K.Reg2.lean ====
import proofs.«403660_j89129161327109_3_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two running sums after the point at position `n`: restarted at a row's first point, else updated from the point before. -/
def accs2 (c : Dev nD) (n : ℕ) (hn : n < cfg2.N) : Vec F S8x128 .f32 × Vec F S8x128 .f32 :=
  if h0 : n % 25 = 0 then
    (out2_A_7 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) ((hcond2 ⟨n, hn⟩).mpr h0) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩),
     out2_A_8 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) ((hcond2 ⟨n, hn⟩).mpr h0) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩))
  else
    (out2_B_7 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) (fun h => h0 ((hcond2 ⟨n, hn⟩).mp h)) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩) (accs2 c (n - 1) (Nat.lt_of_le_of_lt (Nat.sub_le _ _) hn)).1 (accs2 c (n - 1) (Nat.lt_of_le_of_lt (Nat.sub_le _ _) hn)).2,
     out2_B_8 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) (fun h => h0 ((hcond2 ⟨n, hn⟩).mp h)) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩) (accs2 c (n - 1) (Nat.lt_of_le_of_lt (Nat.sub_le _ _) hn)).1 (accs2 c (n - 1) (Nat.lt_of_le_of_lt (Nat.sub_le _ _) hn)).2)
termination_by n
decreasing_by all_goals omega

theorem accs2_A (c : Dev nD) (t : Fin cfg2.N) (h0 : t.val % 25 = 0) :
    accs2 V c t.val t.isLt =
      (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h0) (iblk2 V c 0 t) (iblk2 V c 1 t) (iblk2 V c 2 t) (iblk2 V c 3 t) (iblk2 V c 4 t) (iblk2 V c 5 t),
       out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h0) (iblk2 V c 0 t) (iblk2 V c 1 t) (iblk2 V c 2 t) (iblk2 V c 3 t) (iblk2 V c 4 t) (iblk2 V c 5 t)) := by
  rw [accs2, dif_pos h0]

theorem accs2_B (c : Dev nD) (t : Fin cfg2.N) (h0 : ¬t.val % 25 = 0) :
    accs2 V c t.val t.isLt =
      (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2 t).mp h)) (iblk2 V c 0 t) (iblk2 V c 1 t) (iblk2 V c 2 t) (iblk2 V c 3 t) (iblk2 V c 4 t) (iblk2 V c 5 t) (accs2 V c (t.val - 1) (Nat.lt_of_le_of_lt (Nat.sub_le _ _) t.isLt)).1 (accs2 V c (t.val - 1) (Nat.lt_of_le_of_lt (Nat.sub_le _ _) t.isLt)).2,
       out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2 t).mp h)) (iblk2 V c 0 t) (iblk2 V c 1 t) (iblk2 V c 2 t) (iblk2 V c 3 t) (iblk2 V c 4 t) (iblk2 V c 5 t) (accs2 V c (t.val - 1) (Nat.lt_of_le_of_lt (Nat.sub_le _ _) t.isLt)).1 (accs2 V c (t.val - 1) (Nat.lt_of_le_of_lt (Nat.sub_le _ _) t.isLt)).2) := by
  rw [accs2, dif_neg h0]

def out2_6At (c : Dev nD) (t : Fin cfg2.N) : Vec F S1000x128 .f32 :=
  if h0 : t.val % 25 = 0 then
    out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h0) (iblk2 V c 0 t) (iblk2 V c 1 t) (iblk2 V c 2 t) (iblk2 V c 3 t) (iblk2 V c 4 t) (iblk2 V c 5 t)
  else
    out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2 t).mp h)) (iblk2 V c 0 t) (iblk2 V c 1 t) (iblk2 V c 2 t) (iblk2 V c 3 t) (iblk2 V c 4 t) (iblk2 V c 5 t) (accs2 V c (t.val - 1) (Nat.lt_of_le_of_lt (Nat.sub_le _ _) t.isLt)).1 (accs2 V c (t.val - 1) (Nat.lt_of_le_of_lt (Nat.sub_le _ _) t.isLt)).2

def acc2_7At (c : Dev nD) (t : Fin cfg2.N) : Vec F S8x128 .f32 := (accs2 V c t.val t.isLt).1
def acc2_8At (c : Dev nD) (t : Fin cfg2.N) : Vec F S8x128 .f32 := (accs2 V c t.val t.isLt).2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6At V c t
    | ⟨7, _⟩ => acc2_7At V c t
    | ⟨8, _⟩ => acc2_8At V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6At V c t := by dsimp only [dat2]
theorem after2_7 (c : Dev nD) (t : Fin cfg2.N) : (dat2 V c).after 7 t = acc2_7At V c t := by dsimp only [dat2]
theorem after2_8 (c : Dev nD) (t : Fin cfg2.N) : (dat2 V c).after 8 t = acc2_8At V c t := by dsimp only [dat2]

/-- At every point each input window holds its block of the entry contents. -/
theorem before2_in (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
    ∧ (∀ d, (dat2 V c).before 3 t d = iblk2 V c 3 t) ∧ (∀ d, (dat2 V c).before 4 t d = iblk2 V c 4 t) ∧ (∀ d, (dat2 V c).before 5 t d = iblk2 V c 5 t) := by
  refine ⟨?_, ?_, ?_, ?_, ?_, ?_⟩ <;>
  exact fun d => ((dat2 V c).before_in_eq_fetched _ rfl (fun _ => rfl) (fun _ _ _ => rfl)
    (fun t => by unfold Dat.blockOf; dsimp only [dat2, iblk2]; try rfl) t d).trans
    (by unfold Dat.fetched Dat.blockOf iblk2; rw [A_eq2]; try rfl)

/-- Away from a row's first point the running sums are as the point before left them. -/
theorem before2_7_B (c : Dev nD) (t : Fin cfg2.N) (h0 : ¬t.val % 25 = 0) (d) :
    (dat2 V c).before 7 t d = (accs2 V c (t.val - 1) (Nat.lt_of_le_of_lt (Nat.sub_le _ _) t.isLt)).1 := by
  have hN : t.val < 50 := lt_of_lt_of_eq t.isLt (show cfg2.N = 50 from N_2)
  rw [Dat.before_out_kept _ 7 rfl t (by omega) (Bool.eq_false_iff.mpr fun h => by have := (flush2_7 _).mp h; dsimp only at this; omega)
    (fun _ => rfl) (fun _ _ => rfl)]
  dsimp only [dat2, acc2_7At]
theorem before2_8_B (c : Dev nD) (t : Fin cfg2.N) (h0 : ¬t.val % 25 = 0) (d) :
    (dat2 V c).before 8 t d = (accs2 V c (t.val - 1) (Nat.lt_of_le_of_lt (Nat.sub_le _ _) t.isLt)).2 := by
  have hN : t.val < 50 := lt_of_lt_of_eq t.isLt (show cfg2.N = 50 from N_2)
  rw [Dat.before_out_kept _ 8 rfl t (by omega) (Bool.eq_false_iff.mpr fun h => by have := (flush2_8 _).mp h; dsimp only at this; omega)
    (fun _ => rfl) (fun _ _ => rfl)]
  dsimp only [dat2, acc2_8At]

def bodyPre2 (c : Dev nD) (t : Fin cfg2.N) : sProp 𝕄 :=
  iprop((dat2 V c).Φ t.castSucc ∗ (dat2 V c).owesAt () t.castSucc
    ∗ (∃ d, owns c.tc (ms2_0 t) fullShare ((dat2 V c).before 0 t d))
    ∗ (∃ d, owns c.tc (ms2_1 t) fullShare ((dat2 V c).before 1 t d))
    ∗ (∃ d, owns c.tc (ms2_2 t) fullShare ((dat2 V c).before 2 t d))
    ∗ (∃ d, owns c.tc (ms2_3 t) fullShare ((dat2 V c).before 3 t d))
    ∗ (∃ d, owns c.tc (ms2_4 t) fullShare ((dat2 V c).before 4 t d))
    ∗ (∃ d, owns c.tc (ms2_5 t) fullShare ((dat2 V c).before 5 t d))
    ∗ (∃ d, owns c.tc (ms2_6 t) fullShare ((dat2 V c).before 6 t d))
    ∗ (∃ d, owns c.tc (ms2_7 t) fullShare ((dat2 V c).before 7 t d))
    ∗ (∃ d, owns c.tc (ms2_8 t) fullShare ((dat2 V c).before 8 t d)))

def bodyPost2 (c : Dev nD) (t : Fin cfg2.N) : sProp 𝕄 :=
  iprop((dat2 V c).Φ t.castSucc ∗ (dat2 V c).owesAt () t.castSucc
    ∗ owns c.tc (ms2_0 t) fullShare (iblk2 V c 0 t)
    ∗ owns c.tc (ms2_1 t) fullShare (iblk2 V c 1 t)
    ∗ owns c.tc (ms2_2 t) fullShare (iblk2 V c 2 t)
    ∗ owns c.tc (ms2_3 t) fullShare (iblk2 V c 3 t)
    ∗ owns c.tc (ms2_4 t) fullShare (iblk2 V c 4 t)
    ∗ owns c.tc (ms2_5 t) fullShare (iblk2 V c 5 t)
    ∗ owns c.tc (ms2_6 t) fullShare (out2_6At V c t)
    ∗ owns c.tc (ms2_7 t) fullShare (accs2 V c t.val t.isLt).1
    ∗ owns c.tc (ms2_8 t) fullShare (accs2 V c t.val t.isLt).2)

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2 out2_6At
  obtain ⟨b0, b1, b2, b3, b4, b5⟩ := before2_in V c t
  simp only [b0, b1, b2, b3, b4, b5]
  by_cases h0 : t.val % 25 = 0
  · rw [accs2_A V c t h0, dif_pos h0]
    dsimp only
    unfold out2_A_6 out2_A_7 out2_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ ((hcond2 t).mpr h0) _ _ _ _ _ _).2.2.2 Set.univ _)
    iframe H0 H1 H2 H3 H4 H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    iframe HΦ Ho H0 H1 H2 H3 H4 H5
    isplitl [H6]
    · unfold owns; iexists _; isplitr
      swap; · iexact H6
      ipureintro; exact View.read_writes_eq_canon _ _ _ (View.cover_of_tiledL _ S1000x128.size (by sl_kernel_rfl))
    isplitl [H7]
    · unfold owns; iexists _; isplitr
      swap; · iexact H7
      ipureintro; exact View.read_writes_eq_canon _ _ _ (View.cover_of_tiledL _ S8x128.size (by sl_kernel_rfl))
    unfold owns; iexists _; isplitr
    swap; · iexact H8
    ipureintro; exact View.read_writes_eq_canon _ _ _ (View.cover_of_tiledL _ S8x128.size (by sl_kernel_rfl))
  · rw [accs2_B V c t h0, dif_neg h0]
    dsimp only
    simp only [before2_7_B V c t h0, before2_8_B V c t h0]
    unfold out2_B_6 out2_B_7 out2_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ (fun h => h0 ((hcond2 t).mp h)) _ _ _ _ _ _ _ _).2.2.2 Set.univ _)
    iframe H0 H1 H2 H3 H4 H5 H7 H8
    isplitl [H6]; · iexists _; iexact H6
    iintro ⟨H0, H1, H2, H3, H4, H5, ⟨%e6, H6⟩, H7, H8⟩
    iframe HΦ Ho H0 H1 H2 H3 H4 H5
    isplitl [H6]
    · unfold owns; iexists _; isplitr
      swap; · iexact H6
      ipureintro; exact View.read_writes_eq_canon _ _ _ (View.cover_of_tiledL _ S1000x128.size (by sl_kernel_rfl))
    isplitl [H7]
    · unfold owns; iexists _; isplitr
      swap; · iexact H7
      ipureintro; exact (read_writes_eq_laid2 _ _ _).trans (congrArg (fun X => laid2 X _) ((hs2_7 t).read_unread _))
    unfold owns; iexists _; isplitr
    swap; · iexact H8
    ipureintro; exact (read_writes_eq_laid2 _ _ _).trans (congrArg (fun X => laid2 X _) ((hs2_8 t).read_unread _))

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«403660_j89129161327109_3_alg».proof.Proof.K.RegLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rEdge3 : Rect S2048x128 := Rect.unit (s := S2048x128) ![0, 0] S2048x128.size inb_S2048x128_S2048x128_0_0
abbrev rWeight3 : Rect S128x128 := Rect.unit (s := S128x128) ![0, 0] S128x128.size inb_S128x128_S128x128_0_0
abbrev rRow3 : Rect S1x128 := Rect.unit (s := S1x128) ![0, 0] S1x128.size inb_S1x128_S1x128_0_0

def bnOut3 (e : Vec F S2048x128 .f32) (we : Vec F S128x128 .f32) (mean var g b : Vec F S1x128 .f32) : Vec F S2048x128 .f32 :=
  View.canon [⟨rEdge3, k3_pay1 (View.ld e rEdge3) (View.ld we rWeight3) (View.ld var rRow3) (View.ld g rRow3) (View.ld mean rRow3) (View.ld b rRow3)⟩]

/-- The body keeps its six inputs and stores the normalised block over the whole output buffer. -/
theorem sound_kernel3 (c : Dev nD) (E : Set ℕ) (i : grid3.Coords)
    (arg1 : Memref sig .tc .vmem S2048x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S2048x128 .f32) (harg7 : arg7.IsWhole)
    (e : Vec F S2048x128 .f32) (we : Vec F S128x128 .f32) (mean var g b : Vec F S1x128 .f32) (d : Vec F S2048x128 .f32) (K : PUnit → sProp 𝕄) :
    iprop(owns (c : Thread nD τ) arg1 fullShare e ∗ owns (c : Thread nD τ) arg2 fullShare we
        ∗ owns (c : Thread nD τ) arg3 fullShare mean ∗ owns (c : Thread nD τ) arg4 fullShare var
        ∗ owns (c : Thread nD τ) arg5 fullShare g ∗ owns (c : Thread nD τ) arg6 fullShare b
        ∗ owns (c : Thread nD τ) arg7 fullShare d
        ∗ (iprop(owns (c : Thread nD τ) arg1 fullShare e ∗ owns (c : Thread nD τ) arg2 fullShare we
            ∗ owns (c : Thread nD τ) arg3 fullShare mean ∗ owns (c : Thread nD τ) arg4 fullShare var
            ∗ owns (c : Thread nD τ) arg5 fullShare g ∗ owns (c : Thread nD τ) arg6 fullShare b
            ∗ owns (c : Thread nD τ) arg7 fullShare (bnOut3 e we mean var g b)) -∗ K ⟨⟩))
      ⊢ wp frame (wpE (defs₀ (F := F)) Variants.none c none) E (cc3__e2_bn_kernel i arg1 harg1 arg2 harg2 arg3 harg3 arg4 harg4 arg5 harg5 arg6 harg6 arg7 harg7) K := by
  simp only [cc3__e2_bn_kernel_eq_skeleton]; unfold cc3__e2_bn_kernel_skel
  rw [owns_eq_rep (c : Thread nD τ) arg1, owns_eq_rep (c : Thread nD τ) arg2, owns_eq_rep (c : Thread nD τ) arg3,
      owns_eq_rep (c : Thread nD τ) arg4, owns_eq_rep (c : Thread nD τ) arg5, owns_eq_rep (c : Thread nD τ) arg6]
  unfold owns
  iintro ⟨H0, H1, H2, H3, H4, H5, ⟨%f, -, H6⟩, Hk⟩
  sl_exec
  sl_step
  iapply Hk
  iframe H0 H1 H2 H3 H4 H5
  iexists _; isplitr
  swap; · iexact H6
  ipureintro
  rw [View.readAt_rep, View.readAt_rep, View.readAt_rep, View.readAt_rep, View.readAt_rep, View.readAt_rep]
  exact View.read_writes_eq_canon _ _ _ (cover_one zeros2 _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => bnOut3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) :
    (dat3 V c).after 6 t = bnOut3 (iblk3 V c 0 t) (iblk3 V c 1 t) (iblk3 V c 2 t) (iblk3 V c 3 t) (iblk3 V c 4 t) (iblk3 V c 5 t) := by
  dsimp only [dat3]

/-- An input window's buffer holds, when the body runs, what the body leaves in it: its block. -/
theorem before3_in (c : Dev nD) (w : Fin cfg3.W) (hw : (cfg3.win w).isOut = false) (t : Fin cfg3.N) (d) :
    (dat3 V c).before w t d = (dat3 V c).after w t := by
  fin_cases w
  all_goals first
    | exact absurd hw (by decide)
    | exact before_in_eq_blk _ _ hw (fun _ => rfl) (fun _ _ _ => rfl) (A_eq3 V c _) _ (fun _ _ => rfl) (fun _ => rfl) t d

theorem after3_6' (c : Dev nD) (t : Fin cfg3.N) : (dat3 V c).after 6 t = bnOut3 ((dat3 V c).after 0 t) ((dat3 V c).after 1 t) ((dat3 V c).after 2 t) ((dat3 V c).after 3 t) ((dat3 V c).after 4 t) ((dat3 V c).after 5 t) := by
  dsimp only [dat3]

/-- At every point the inputs' buffers hold their blocks, so the body's triple applies; the invariant passes through. -/
theorem body_obligation3 (c : Dev nD) : BodyObligation (dat3 (F := F) V c) (defs₀ (F := F)) Variants.none () Set.univ := fun t => by
  rw [bigSep_W3, bigSep_W3]
  show _ ⊢ wp frame _ _ (bodyAt3 t) _
  simp only [before3_in V c 0 rfl, before3_in V c 1 rfl, before3_in V c 2 rfl, before3_in V c 3 rfl, before3_in V c 4 rfl, before3_in V c 5 rfl]
  rw [show (dat3 V c).Φ t.succ = (dat3 V c).Φ t.castSucc from rfl,
    show (dat3 V c).owesAt () t.succ = (dat3 V c).owesAt () t.castSucc from rfl, after3_6']
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    ((dat3 V c).after 0 t) ((dat3 V c).after 1 t) ((dat3 V c).after 2 t) ((dat3 V c).after 3 t) ((dat3 V c).after 4 t) ((dat3 V c).after 5 t) ((dat3 V c).before 6 t d6) _)
  iframe
  iintro ⟨H0, H1, H2, H3, H4, H5, H6⟩
  iframe

end Cert.Kernel.Hand
-- ==== Proof.K.Reg4.lean ====
import proofs.«403660_j89129161327109_3_alg».proof.Proof.Gen.Kernel.Launch
import proofs.«403660_j89129161327109_3_alg».proof.Proof.Gen.Kernel.Skeleton
import proofs.«403660_j89129161327109_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop :=
  (Scalar.cmpi .ne (Scalar.extui (Scalar.cmpi .eq (BitVec.ofNat 32 (i 1).val) 0#32)) 0#32) = 1#1

theorem hcond4_0 : ∀ t : Fin cfg4.N, cond4_0 (grid4.coords t) ↔ t.val % 25 = 0 :=
  (by decide +kernel : ∀ t : Fin grid4.N, cond4_0 (grid4.coords t) ↔ t.val % 25 = 0)

abbrev ms4_0 (t : Fin cfg4.N) : Memref sig .tc .vmem S1000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S256x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1000x128 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S8x128 .f32 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S8x128 .f32 := win4_11.stage (cfg4.slots t 11)
abbrev hs4_11 (t : Fin cfg4.N) : (ms4_11 t).IsWhole := hstage4_11 ((cfg4.slots t 11).cast nbuf4_11)

abbrev VO4_9 : View sig .tc .vmem S1000x128 .f32 := (Memref.whole cc4_stg9_0 : Memref sig .tc .vmem S1000x128 .f32).view
abbrev VO4_10 : View sig .tc .vmem S8x128 .f32 := (Memref.whole cc4_stg10_0 : Memref sig .tc .vmem S8x128 .f32).view
abbrev VO4_11 : View sig .tc .vmem S8x128 .f32 := (Memref.whole cc4_stg11_0 : Memref sig .tc .vmem S8x128 .f32).view

/-- Owning a whole memref at `x` is holding its buffer at the contents that read `x`. -/
theorem owns_whole4 (c : Dev nD) {sp : Space} {sh : Shape} {e : EltTy} {m : Memref sig (c : Thread nD τ).2.kind sp sh e} (h : m.IsWhole) (x : sh.Idx → Elt F e) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _
    iintro ⟨%f, %hf, H⟩; obtain rfl := h.eq_unread hf; iexact H
  · show (_ : sProp 𝕄) ⊢ _
    iintro H; iexists _; isplitr; · ipureintro; exact h.read_unread _
    iexact H

section Body

variable (c : Dev nD) (i : grid4.Coords)
  (arg2 : Memref sig .tc .vmem S1000x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S128x256 .f32) (harg7 : arg7.IsWhole)
  (arg8 : Memref sig .tc .vmem S1x256 .f32) (harg8 : arg8.IsWhole)
  (arg9 : Memref sig .tc .vmem S256x128 .f32) (harg9 : arg9.IsWhole)
  (arg10 : Memref sig .tc .vmem S1x128 .f32) (harg10 : arg10.IsWhole)
  (arg11 : Memref sig .tc .vmem S1000x128 .f32) (harg11 : arg11.IsWhole)
  (arg12 : Memref sig .tc .vmem S8x128 .f32) (harg12 : arg12.IsWhole)
  (arg13 : Memref sig .tc .vmem S8x128 .f32) (harg13 : arg13.IsWhole)

section A
variable (hc0 : cond4_0 i) (x0 : Vec F S1000x128 .f32) (x1 x2 x3 x4 : Vec F S1x128 .f32) (x5 : Vec F S128x256 .f32) (x6 : Vec F S1x256 .f32) (x7 : Vec F S256x128 .f32) (x8 : Vec F S1x128 .f32)

set_option maxHeartbeats 2000000 in
def kernelRun4_A :
    Σ' (L9 : List (View.Piece (Elt F) S1000x128 .f32)), Σ' (L10 : List (View.Piece (Elt F) S8x128 .f32)), { L11 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc4__ffn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc4__ffn_kernel_eq_skeleton]; unfold cc4__ffn_kernel_skel
    simp only [k4_part1_eq_skeleton]
    rw [owns_whole4 c harg2, owns_whole4 c harg3, owns_whole4 c harg4, owns_whole4 c harg5, owns_whole4 c harg6, owns_whole4 c harg7, owns_whole4 c harg8, owns_whole4 c harg9, owns_whole4 c harg10]
    unfold owns
    iintro ⟨H0, H1, H2, H3, H4, H5, H6, H7, H8, ⟨%d9, %f9, -, H9⟩, ⟨%d10, %f10, -, H10⟩, ⟨%d11, %f11, -, H11⟩, Hk⟩
    sl_exec (disch := first | exact hc0)
    sl_step
    iapply Hk
    iframe H0 H1 H2 H3 H4 H5 H6 H7 H8
    isplitl [H9]; · iexists _; iexact H9
    isplitl [H10]; · iexists _; iexact H10
    iexists _; iexact H11

def out4_A_9 : Vec F S1000x128 .f32 := VO4_9.read (Elt F) (VO4_9.writes (Elt F) VO4_9.junk (kernelRun4_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)
def out4_A_10 : Vec F S8x128 .f32 := VO4_10.read (Elt F) (VO4_10.writes (Elt F) VO4_10.junk (kernelRun4_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1)
def out4_A_11 : Vec F S8x128 .f32 := VO4_11.read (Elt F) (VO4_11.writes (Elt F) VO4_11.junk (kernelRun4_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1)
end A

section B
variable (hc0 : ¬cond4_0 i) (x0 : Vec F S1000x128 .f32) (x1 x2 x3 x4 : Vec F S1x128 .f32) (x5 : Vec F S128x256 .f32) (x6 : Vec F S1x256 .f32) (x7 : Vec F S256x128 .f32) (x8 : Vec F S1x128 .f32) (xo10 xo11 : Vec F S8x128 .f32)

set_option maxHeartbeats 2000000 in
def kernelRun4_B :
    Σ' (L9 : List (View.Piece (Elt F) S1000x128 .f32)), Σ' (L10 : List (View.Piece (Elt F) S8x128 .f32)), { L11 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10 ∗ owns (c : Thread nD τ) arg13 fullShare xo11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xo10) L10) ∗ (arg13.view.loc (c : Thread nD τ) ↦[arg13.view.set]{fullShare} arg13.view.writes (Elt F) (harg13.unread xo11) L11)) -∗ K ⟨⟩))
          ⊢ wp frame (wpE (defs₀ (F := F)) Variants.none c none) E (cc4__ffn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc4__ffn_kernel_eq_skeleton]; unfold cc4__ffn_kernel_skel
    simp only [k4_part1_eq_skeleton]
    rw [owns_whole4 c harg2, owns_whole4 c harg3, owns_whole4 c harg4, owns_whole4 c harg5, owns_whole4 c harg6, owns_whole4 c harg7, owns_whole4 c harg8, owns_whole4 c harg9, owns_whole4 c harg10, owns_whole4 c harg12, owns_whole4 c harg13]
    unfold owns
    iintro ⟨H0, H1, H2, H3, H4, H5, H6, H7, H8, ⟨%d9, %f9, -, H9⟩, H10, H11, Hk⟩
    sl_exec (disch := first | exact hc0)
    sl_step
    iapply Hk
    iframe H0 H1 H2 H3 H4 H5 H6 H7 H8
    isplitl [H9]; · iexists _; iexact H9
    isplitl [H10]; · iexact H10
    iexact H11

def out4_B_9 : Vec F S1000x128 .f32 := VO4_9.read (Elt F) (VO4_9.writes (Elt F) VO4_9.junk (kernelRun4_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).1)
def out4_B_10 : Vec F S8x128 .f32 := arg12.view.read (Elt F) (arg12.view.writes (Elt F) (harg12.unread xo10) (kernelRun4_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).2.1)
def out4_B_11 : Vec F S8x128 .f32 := arg13.view.read (Elt F) (arg13.view.writes (Elt F) (harg13.unread xo11) (kernelRun4_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).2.2.1)
end B

end Body

def outsA4 (c : Dev nD) (t : Fin cfg4.N) (h0 : t.val % 25 = 0) : Vec F S1000x128 .f32 × Vec F S8x128 .f32 × Vec F S8x128 .f32 :=
  (out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t),
   out4_A_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t),
   out4_A_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t))

def outsB4 (c : Dev nD) (t : Fin cfg4.N) (h0 : ¬t.val % 25 = 0) (xo10 : Vec F S8x128 .f32) (xo11 : Vec F S8x128 .f32) : Vec F S1000x128 .f32 × Vec F S8x128 .f32 × Vec F S8x128 .f32 :=
  (out4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) xo10 xo11,
   out4_B_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) xo10 xo11,
   out4_B_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) xo10 xo11)

def outsAt4 (c : Dev nD) : (n : ℕ) → n < cfg4.N → Vec F S1000x128 .f32 × Vec F S8x128 .f32 × Vec F S8x128 .f32
  | 0, hn => outsA4 V c ⟨0, hn⟩ (Nat.zero_mod _)
  | n + 1, hn =>
    if h0 : (n + 1) % 25 = 0 then outsA4 V c ⟨n + 1, hn⟩ h0
    else outsB4 V c ⟨n + 1, hn⟩ h0 (outsAt4 c n (Nat.lt_of_succ_lt hn)).2.1 (outsAt4 c n (Nat.lt_of_succ_lt hn)).2.2

theorem outsAt4_A (c : Dev nD) (t : Fin cfg4.N) (h0 : t.val % 25 = 0) : outsAt4 V c t.val t.isLt = outsA4 V c t h0 := by
  obtain ⟨n, hn⟩ := t
  cases n with
  | zero => exact rfl
  | succ n => exact (dif_pos h0).trans rfl

theorem outsAt4_B (c : Dev nD) (t : Fin cfg4.N) (h0 : ¬t.val % 25 = 0) :
    outsAt4 V c t.val t.isLt
      = outsB4 V c t h0 (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => (outsAt4 V c t.val t.isLt).1
    | ⟨10, _⟩ => (outsAt4 V c t.val t.isLt).2.1
    | ⟨11, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_9 (c : Dev nD) (t : Fin cfg4.N) : (dat4 V c).after 9 t = (outsAt4 V c t.val t.isLt).1 := by dsimp only [dat4]
theorem after4_10 (c : Dev nD) (t : Fin cfg4.N) : (dat4 V c).after 10 t = (outsAt4 V c t.val t.isLt).2.1 := by dsimp only [dat4]
theorem after4_11 (c : Dev nD) (t : Fin cfg4.N) : (dat4 V c).after 11 t = (outsAt4 V c t.val t.isLt).2.2 := by dsimp only [dat4]

/-- At every point each input window holds its block of the entry contents. -/
theorem before4_in (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t)
    ∧ (∀ d, (dat4 V c).before 3 t d = iblk4 V c 3 t) ∧ (∀ d, (dat4 V c).before 4 t d = iblk4 V c 4 t) ∧ (∀ d, (dat4 V c).before 5 t d = iblk4 V c 5 t)
    ∧ (∀ d, (dat4 V c).before 6 t d = iblk4 V c 6 t) ∧ (∀ d, (dat4 V c).before 7 t d = iblk4 V c 7 t) ∧ (∀ d, (dat4 V c).before 8 t d = iblk4 V c 8 t) := by
  refine ⟨?_, ?_, ?_, ?_, ?_, ?_, ?_, ?_, ?_⟩ <;>
  exact fun d => ((dat4 V c).before_in_eq_fetched _ rfl (fun _ => rfl) (fun _ _ _ => rfl)
    (fun t => by unfold Dat.blockOf; dsimp only [dat4, iblk4]; try rfl) t d).trans
    (by unfold Dat.fetched Dat.blockOf iblk4; rw [A_eq4]; try rfl)

/-- Away from a row's first point the accumulators are as the point before left them. -/
theorem before4_10_B (c : Dev nD) (t : Fin cfg4.N) (h0 : ¬t.val % 25 = 0) (d) :
    (dat4 V c).before 10 t d = (outsAt4 V c (t.val - 1) (Nat.lt_of_le_of_lt (Nat.sub_le _ _) t.isLt)).2.1 := by
  have hN : t.val < 50 := lt_of_lt_of_eq t.isLt (show cfg4.N = 50 from N_4)
  rw [Dat.before_out_kept _ 10 rfl t (by omega) (Bool.eq_false_iff.mpr fun h => by have := (flush4_10 _).mp h; dsimp only at this; omega)
    (fun _ => rfl) (fun _ _ => rfl)]
  dsimp only [dat4]
theorem before4_11_B (c : Dev nD) (t : Fin cfg4.N) (h0 : ¬t.val % 25 = 0) (d) :
    (dat4 V c).before 11 t d = (outsAt4 V c (t.val - 1) (Nat.lt_of_le_of_lt (Nat.sub_le _ _) t.isLt)).2.2 := by
  have hN : t.val < 50 := lt_of_lt_of_eq t.isLt (show cfg4.N = 50 from N_4)
  rw [Dat.before_out_kept _ 11 rfl t (by omega) (Bool.eq_false_iff.mpr fun h => by have := (flush4_11 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns c.tc (ms4_0 t) fullShare ((dat4 V c).before 0 t d))
    ∗ (∃ d, owns c.tc (ms4_1 t) fullShare ((dat4 V c).before 1 t d))
    ∗ (∃ d, owns c.tc (ms4_2 t) fullShare ((dat4 V c).before 2 t d))
    ∗ (∃ d, owns c.tc (ms4_3 t) fullShare ((dat4 V c).before 3 t d))
    ∗ (∃ d, owns c.tc (ms4_4 t) fullShare ((dat4 V c).before 4 t d))
    ∗ (∃ d, owns c.tc (ms4_5 t) fullShare ((dat4 V c).before 5 t d))
    ∗ (∃ d, owns c.tc (ms4_6 t) fullShare ((dat4 V c).before 6 t d))
    ∗ (∃ d, owns c.tc (ms4_7 t) fullShare ((dat4 V c).before 7 t d))
    ∗ (∃ d, owns c.tc (ms4_8 t) fullShare ((dat4 V c).before 8 t d))
    ∗ (∃ d, owns c.tc (ms4_9 t) fullShare ((dat4 V c).before 9 t d))
    ∗ (∃ d, owns c.tc (ms4_10 t) fullShare ((dat4 V c).before 10 t d))
    ∗ (∃ d, owns c.tc (ms4_11 t) fullShare ((dat4 V c).before 11 t d)))

def bodyPost4 (c : Dev nD) (t : Fin cfg4.N) : sProp 𝕄 :=
  iprop((dat4 V c).Φ t.castSucc ∗ (dat4 V c).owesAt () t.castSucc
    ∗ owns c.tc (ms4_0 t) fullShare (iblk4 V c 0 t)
    ∗ owns c.tc (ms4_1 t) fullShare (iblk4 V c 1 t)
    ∗ owns c.tc (ms4_2 t) fullShare (iblk4 V c 2 t)
    ∗ owns c.tc (ms4_3 t) fullShare (iblk4 V c 3 t)
    ∗ owns c.tc (ms4_4 t) fullShare (iblk4 V c 4 t)
    ∗ owns c.tc (ms4_5 t) fullShare (iblk4 V c 5 t)
    ∗ owns c.tc (ms4_6 t) fullShare (iblk4 V c 6 t)
    ∗ owns c.tc (ms4_7 t) fullShare (iblk4 V c 7 t)
    ∗ owns c.tc (ms4_8 t) fullShare (iblk4 V c 8 t)
    ∗ owns c.tc (ms4_9 t) fullShare (outsAt4 V c t.val t.isLt).1
    ∗ owns c.tc (ms4_10 t) fullShare (outsAt4 V c t.val t.isLt).2.1
    ∗ owns c.tc (ms4_11 t) fullShare (outsAt4 V c t.val t.isLt).2.2)

set_option maxHeartbeats 2000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  obtain ⟨b0, b1, b2, b3, b4, b5, b6, b7, b8⟩ := before4_in V c t
  simp only [b0, b1, b2, b3, b4, b5, b6, b7, b8]
  by_cases h0 : t.val % 25 = 0
  · rw [outsAt4_A V c t h0]
    unfold outsA4 out4_A_9 out4_A_10 out4_A_11; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun4_A c (grid4.coords t) _ _ _ _ _ _ _ _ _ _ _ _ _ _ _ _ _ _ _ _ _ _ _ _ ((hcond4_0 t).mpr h0) _ _ _ _ _ _ _ _ _).2.2.2 Set.univ _)
    iframe H0 H1 H2 H3 H4 H5 H6 H7 H8
    isplitl [H9]; · iexists _; iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    iframe HΦ Ho H0 H1 H2 H3 H4 H5 H6 H7 H8
    isplitl [H9]
    · unfold owns; iexists _; isplitr
      swap; · iexact H9
      ipureintro; exact View.read_writes_of_cover _ _ _ _ _ (View.cover_of_wholeMem _ (by sl_whole_mem))
    isplitl [H10]
    · unfold owns; iexists _; isplitr
      swap; · iexact H10
      ipureintro; exact View.read_writes_of_cover _ _ _ _ _ (View.cover_of_wholeMem _ (by sl_whole_mem))
    unfold owns; iexists _; isplitr
    swap; · iexact H11
    ipureintro; exact View.read_writes_of_cover _ _ _ _ _ (View.cover_of_wholeMem _ (by sl_whole_mem))
  · rw [outsAt4_B V c t h0]
    simp only [before4_10_B V c t h0, before4_11_B V c t h0]
    unfold outsB4 out4_B_9 out4_B_10 out4_B_11; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun4_B c (grid4.coords t) _ _ _ _ _ _ _ _ _ _ _ _ _ _ _ _ _ _ _ _ _ _ _ _ (fun h => h0 ((hcond4_0 t).mp h)) _ _ _ _ _ _ _ _ _ _ _).2.2.2 Set.univ _)
    iframe H0 H1 H2 H3 H4 H5 H6 H7 H8 H10 H11
    isplitl [H9]; · iexists _; iexact H9
    iintro ⟨H0, H1, H2, H3, H4, H5, H6, H7, H8, ⟨%e9, H9⟩, H10, H11⟩
    iframe HΦ Ho H0 H1 H2 H3 H4 H5 H6 H7 H8
    isplitl [H9]
    · unfold owns; iexists _; isplitr
      swap; · iexact H9
      ipureintro; exact View.read_writes_of_cover _ _ _ _ _ (View.cover_of_wholeMem _ (by sl_whole_mem))
    isplitl [H10]
    · unfold owns; iexists _; isplitr
      swap; · iexact H10
      ipureintro; exact rfl
    unfold owns; iexists _; isplitr
    swap; · iexact H11
    ipureintro; exact rfl

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«403660_j89129161327109_3_alg».proof.Proof.K.RegLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_blk : Rect S1000x128 := Rect.unit (s := S1000x128) ![0, 0] S1000x128.size inb_S1000x128_S1000x128_0_0
abbrev r5_row : Rect S1x128 := Rect.unit (s := S1x128) ![0, 0] S1x128.size inb_S1x128_S1x128_0_0

def out5_5 (x0 : Vec F S1000x128 .f32) (x1 x2 x3 x4 : Vec F S1x128 .f32) : Vec F S1000x128 .f32 :=
  View.canon [⟨r5_blk, k5_pay1 (View.ld x0 r5_blk) (View.ld x2 r5_row) (View.ld x3 r5_row) (View.ld x1 r5_row) (View.ld x4 r5_row)⟩]

/-- The body keeps its five inputs and stores the normalised block over the whole output buffer. -/
theorem sound_kernel5 (c : Dev nD) (E : Set ℕ) (i : grid5.Coords)
    (arg1 : Memref sig .tc .vmem S1000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1000x128 .f32) (harg6 : arg6.IsWhole)
    (x0 : Vec F S1000x128 .f32) (x1 x2 x3 x4 : Vec F S1x128 .f32) (d : Vec F S1000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ owns (c : Thread nD τ) arg6 fullShare d
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  rw [owns_eq_rep (c : Thread nD τ) arg1, owns_eq_rep (c : Thread nD τ) arg2, owns_eq_rep (c : Thread nD τ) arg3,
      owns_eq_rep (c : Thread nD τ) arg4, owns_eq_rep (c : Thread nD τ) arg5]
  unfold owns
  iintro ⟨H0, H1, H2, H3, H4, ⟨%f, -, H5⟩, Hk⟩
  sl_exec
  sl_step
  iapply Hk
  iframe H0 H1 H2 H3 H4
  iexists _; isplitr
  swap; · iexact H5
  ipureintro
  rw [View.readAt_rep, View.readAt_rep, View.readAt_rep, View.readAt_rep, View.readAt_rep]
  exact View.read_writes_eq_canon _ _ _ (cover_one zeros2 _ _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- An input window's buffer holds, when the body runs, what the body leaves in it: its block. -/
theorem before5_in (c : Dev nD) (w : Fin cfg5.W) (hw : (cfg5.win w).isOut = false) (t : Fin cfg5.N) (d) :
    (dat5 V c).before w t d = (dat5 V c).after w t := by
  fin_cases w
  all_goals first
    | exact absurd hw (by decide)
    | exact before_in_eq_blk _ _ hw (fun _ => rfl) (fun _ _ _ => rfl) (A_eq5 V c _) _ (fun _ _ => rfl) (fun _ => rfl) t d

theorem after5_5' (c : Dev nD) (t : Fin cfg5.N) : (dat5 V c).after 5 t = out5_5 ((dat5 V c).after 0 t) ((dat5 V c).after 1 t) ((dat5 V c).after 2 t) ((dat5 V c).after 3 t) ((dat5 V c).after 4 t) := by
  dsimp only [dat5]

/-- At every point the inputs' buffers hold their blocks, so the body's triple applies; the invariant passes through. -/
theorem body_obligation5 (c : Dev nD) : BodyObligation (dat5 (F := F) V c) (defs₀ (F := F)) Variants.none () Set.univ := fun t => by
  rw [bigSep_W5, bigSep_W5]
  show _ ⊢ wp frame _ _ (bodyAt5 t) _
  simp only [before5_in V c 0 rfl, before5_in V c 1 rfl, before5_in V c 2 rfl, before5_in V c 3 rfl, before5_in V c 4 rfl]
  rw [show (dat5 V c).Φ t.succ = (dat5 V c).Φ t.castSucc from rfl,
    show (dat5 V c).owesAt () t.succ = (dat5 V c).owesAt () t.castSucc from rfl, after5_5']
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    ((dat5 V c).after 0 t) ((dat5 V c).after 1 t) ((dat5 V c).after 2 t) ((dat5 V c).after 3 t) ((dat5 V c).after 4 t) ((dat5 V c).before 5 t d5) _)
  iframe
  iintro ⟨H0, H1, H2, H3, H4, H5⟩
  iframe

end Cert.Kernel.Hand
-- ==== Proof.K.Outs.lean ====
import proofs.«403660_j89129161327109_3_alg».proof.Proof.Gen.Kernel.Regions
import proofs.«403660_j89129161327109_3_alg».proof.Proof.K.Fam
import proofs.«403660_j89129161327109_3_alg».proof.Proof.K.Reg0
import proofs.«403660_j89129161327109_3_alg».proof.Proof.K.Reg1
import proofs.«403660_j89129161327109_3_alg».proof.Proof.K.Reg2
import proofs.«403660_j89129161327109_3_alg».proof.Proof.K.Reg3
import proofs.«403660_j89129161327109_3_alg».proof.Proof.K.Reg4
import proofs.«403660_j89129161327109_3_alg».proof.Proof.K.Reg5
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

/-- What a region entered from `W` leaves: its arrays as after the last grid point, every other buffer as entered. -/
def lft {cfg : Pipeline.Cfg sig Λ₀} (d : ((c : Dev nD) → (b : Ref sig .tc) → Buf (Elt F) ((c : Thread nD τ).loc b)) →
      (c : Dev nD) → Dat τ (Elt F) Unit ℕ (UR sig nD τ) ℕ cfg c)
    (W : Dev nD → Valuation τ sig (Elt F)) (c : Dev nD) : Valuation τ sig (Elt F) :=
  Pipeline.withArrays cfg.spec c (W c) fun w => (d (atTc W) c).arrAt w cfg.N

/-- At one of its arrays that is what the pipeline leaves there, also with the entry valuation given in another form. -/
theorem lft_arr {cfg : Pipeline.Cfg sig Λ₀} (d : ((c : Dev nD) → (b : Ref sig .tc) → Buf (Elt F) ((c : Thread nD τ).loc b)) →
      (c : Dev nD) → Dat τ (Elt F) Unit ℕ (UR sig nD τ) ℕ cfg c) (hw : Pipeline.WinFacts cfg.spec)
    (W W' : Dev nD → Valuation τ sig (Elt F)) (e : W' = W) (c : Dev nD) (w : Fin cfg.W) :
    lft d W c (Pipeline.arrRef cfg.spec w) = (d (atTc W') c).arrAt w cfg.N :=
  e ▸ Pipeline.withArrays_arr cfg.spec hw.arr_inj c _ _ w

variable (m : (ℓ : Loc nD τ sig) → Buf (Elt F) ℓ)

/-- The record `o` with item `J`'s entries replaced by the valuation `X`. -/
def stage (o : Gen.Outs (F := F)) (J : ℕ) (X : Dev nD → Valuation τ sig (Elt F)) : Gen.Outs (F := F) :=
  fun J' r c => if J' = J then X c r else o J' r c

/-- The record of what the regions leave, region by region: each region's entry valuation reads only the stages before it. -/
def outsA : Gen.Outs (F := F) := stage (fun _ r c => m ((c : Thread nD τ).loc r)) 2 (lft dat0 (Gen.V1 m))
def outsB : Gen.Outs (F := F) := stage (outsA m) 7 (lft dat1 (Gen.V6 m (outsA m)))
def outsC : Gen.Outs (F := F) := stage (outsB m) 9 (lft dat2 (Gen.V8 m (outsB m)))
def outsD : Gen.Outs (F := F) := stage (outsC m) 11 (lft dat3 (Gen.V10 m (outsC m)))
def outsE : Gen.Outs (F := F) := stage (outsD m) 13 (lft dat4 (Gen.V12 m (outsD m)))
def outs : Gen.Outs (F := F) := stage (outsE m) 15 (lft dat5 (Gen.V14 m (outsE m)))

abbrev D0 := dat0 (atTc (Gen.V1 m))
abbrev D1 := dat1 (atTc (Gen.V6 m (outs m)))
abbrev D2 := dat2 (atTc (Gen.V8 m (outs m)))
abbrev D3 := dat3 (atTc (Gen.V10 m (outs m)))
abbrev D4 := dat4 (atTc (Gen.V12 m (outs m)))
abbrev D5 := dat5 (atTc (Gen.V14 m (outs m)))

theorem outs_main_v1 (c : Dev nD) : outs m 2 main_v1 c = (D0 m c).arrAt 2 cfg0.N := lft_arr dat0 launch0.win _ _ rfl c 2
theorem outs_main_v8_0 (c : Dev nD) : outs m 7 main_v8_0 c = (D1 m c).arrAt 7 cfg1.N := lft_arr dat1 launch1.win (Gen.V6 m (outsA m)) _ rfl c 7
theorem outs_main_v8_1 (c : Dev nD) : outs m 7 main_v8_1 c = (D1 m c).arrAt 8 cfg1.N := lft_arr dat1 launch1.win (Gen.V6 m (outsA m)) _ rfl c 8
theorem outs_main_v8_2 (c : Dev nD) : outs m 7 main_v8_2 c = (D1 m c).arrAt 9 cfg1.N := lft_arr dat1 launch1.win (Gen.V6 m (outsA m)) _ rfl c 9
theorem outs_main_v8_3 (c : Dev nD) : outs m 7 main_v8_3 c = (D1 m c).arrAt 10 cfg1.N := lft_arr dat1 launch1.win (Gen.V6 m (outsA m)) _ rfl c 10
theorem outs_main_v16_0 (c : Dev nD) : outs m 9 main_v16_0 c = (D2 m c).arrAt 6 cfg2.N := lft_arr dat2 launch2.win (Gen.V8 m (outsB m)) _ rfl c 6
theorem outs_main_v16_1 (c : Dev nD) : outs m 9 main_v16_1 c = (D2 m c).arrAt 7 cfg2.N := lft_arr dat2 launch2.win (Gen.V8 m (outsB m)) _ rfl c 7
theorem outs_main_v16_2 (c : Dev nD) : outs m 9 main_v16_2 c = (D2 m c).arrAt 8 cfg2.N := lft_arr dat2 launch2.win (Gen.V8 m (outsB m)) _ rfl c 8
theorem outs_main_v41 (c : Dev nD) : outs m 11 main_v41 c = (D3 m c).arrAt 6 cfg3.N := lft_arr dat3 launch3.win (Gen.V10 m (outsC m)) _ rfl c 6
theorem outs_main_v44_0 (c : Dev nD) : outs m 13 main_v44_0 c = (D4 m c).arrAt 9 cfg4.N := lft_arr dat4 launch4.win (Gen.V12 m (outsD m)) _ rfl c 9
theorem outs_main_v44_1 (c : Dev nD) : outs m 13 main_v44_1 c = (D4 m c).arrAt 10 cfg4.N := lft_arr dat4 launch4.win (Gen.V12 m (outsD m)) _ rfl c 10
theorem outs_main_v44_2 (c : Dev nD) : outs m 13 main_v44_2 c = (D4 m c).arrAt 11 cfg4.N := lft_arr dat4 launch4.win (Gen.V12 m (outsD m)) _ rfl c 11
theorem outs_main_v57 (c : Dev nD) : outs m 15 main_v57 c = (D5 m c).arrAt 5 cfg5.N := lft_arr dat5 launch5.win (Gen.V14 m (outsE m)) _ rfl c 5

end Cert.Kernel.Hand

end
-- ==== Proof.K.Segs.lean ====
import proofs.«403660_j89129161327109_3_alg».proof.Proof.K.Outs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-- The one family of proof data: each pipeline's at the valuation its region is entered from. -/
abbrev pdats := famOf (D0 m) (D1 m) (D2 m) (D3 m) (D4 m) (D5 m)

/-- The six kernel regions as items of the run. -/
abbrev R0 := regOf (pdats m) 0 launch0 (Gen.V1 m) (Gen.V2 m (outs m)) (body_obligation0 _) (fun _ => {}) (A_eq0 _)
  (Gen.V2_of m _) (by decide) [2] (by decide) fun c => (outs_main_v1 m c).symm
abbrev R1 := regOf (pdats m) 1 launch1 (Gen.V6 m (outs m)) (Gen.V7 m (outs m)) (body_obligation1 _) (fun _ => {}) (A_eq1 _)
  (Gen.V7_of m _) (by decide) [7, 8, 9, 10] (by decide) fun c => show _ ∧ _ ∧ _ ∧ _ from ⟨(outs_main_v8_0 m c).symm, (outs_main_v8_1 m c).symm, (outs_main_v8_2 m c).symm, (outs_main_v8_3 m c).symm⟩
abbrev R2 := regOf (pdats m) 2 launch2 (Gen.V8 m (outs m)) (Gen.V9 m (outs m)) (body_obligation2 _) (fun _ => {}) (A_eq2 _)
  (Gen.V9_of m _) (by decide) [6, 7, 8] (by decide) fun c => show _ ∧ _ ∧ _ from ⟨(outs_main_v16_0 m c).symm, (outs_main_v16_1 m c).symm, (outs_main_v16_2 m c).symm⟩
abbrev R3 := regOf (pdats m) 3 launch3 (Gen.V10 m (outs m)) (Gen.V11 m (outs m)) (body_obligation3 _) (fun _ => {}) (A_eq3 _)
  (Gen.V11_of m _) (by decide) [6] (by decide) fun c => (outs_main_v41 m c).symm
abbrev R4 := regOf (pdats m) 4 launch4 (Gen.V12 m (outs m)) (Gen.V13 m (outs m)) (body_obligation4 _) (fun _ => {}) (A_eq4 _)
  (Gen.V13_of m _) (by decide) [9, 10, 11] (by decide) fun c => show _ ∧ _ ∧ _ from ⟨(outs_main_v44_0 m c).symm, (outs_main_v44_1 m c).symm, (outs_main_v44_2 m c).symm⟩
abbrev R5 := regOf (pdats m) 5 launch5 (Gen.V14 m (outs m)) (Gen.V15 m (outs m)) (body_obligation5 _) (fun _ => {}) (A_eq5 _)
  (Gen.V15_of m _) (by decide) [5] (by decide) fun c => (outs_main_v57 m c).symm

end Cert.Kernel.Hand

end
-- ==== Proof.K.Run.lean ====
import proofs.«403660_j89129161327109_3_alg».proof.Proof.K.Segs
import Idealize.ShloMosaic.Lib.Pipeline.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Gen.frame_cond m emb₁ () Variants.none (fun _ => ∅) (fun _ _ => 0) (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rest c)
    (Pipeline.initEach _ _ fun c => by
      iintro ⟨⟨-, HO, -, Hp, -⟩, -⟩
      imodintro
      isplitl [Hp]; · iexists _; iexact Hp
      iexists ∅; iexact HO)
    (fun c => by iintro ⟨-, HO⟩; iexact HO)
    (R0 m) (fun _ => .rfl) (fun _ => .rfl) (R1 m) (fun _ => .rfl) (fun _ => .rfl) (R2 m) (fun _ => .rfl) (fun _ => .rfl)
    (R3 m) (fun _ => .rfl) (fun _ => .rfl) (R4 m) (fun _ => .rfl) (fun _ => .rfl) (R5 m) (fun _ => .rfl) (fun _ => .rfl)

end Cert.Kernel.Hand

end
-- ==== Proof.KI.Fam.lean ====
import proofs.«403660_j89129161327109_3_alg».proof.Proof.Gen.KernelIdeal.Regions
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

abbrev rest (c : Dev nD) : sProp 𝕄 :=
  iprop((∃ r, prngReg c r) ∗ ∃ W, owes (c : Thread nD τ) (0 : CellTallies nD τ sig Unit) W)

theorem upd_at (c : Dev nD) (V : Valuation τ sig (Elt F)) (r : Ref sig .tc) (x : Buf (Elt F) ((c : Thread nD τ).loc r)) :
    Function.update V r x r = x := Function.update_self ..
theorem upd_off (c : Dev nD) (V : Valuation τ sig (Elt F)) (r r' : Ref sig .tc) (h : r' ≠ r) (x : Buf (Elt F) ((c : Thread nD τ).loc r)) :
    Function.update V r x r' = V r' :=
  Function.update_of_ne (StableHlo.devRef_ne_of_ne h : (Proc.devRef .tc r' : DevRef τ sig) ≠ Proc.devRef .tc r) ..

abbrev atTc (W : Dev nD → Valuation τ sig (Elt F)) : (c : Dev nD) → (b : Ref sig .tc) → Buf (Elt F) ((c : Thread nD τ).loc b) :=
  fun c b => W c b

abbrev DatAt (cfg : Pipeline.Cfg sig Λ₀) := (c : Dev nD) → Dat τ (Elt F) Unit ℕ (UR sig nD τ) ℕ cfg c

def famOf (d0 : DatAt (F := F) cfg0) (d1 : DatAt (F := F) cfg1) (d2 : DatAt (F := F) cfg2) (d3 : DatAt (F := F) cfg3)
    (d4 : DatAt (F := F) cfg4) (d5 : DatAt (F := F) cfg5) : (p : Fin 6) → DatAt (F := F) (cfgs p)
  | ⟨0, _⟩ => d0
  | ⟨1, _⟩ => d1
  | ⟨2, _⟩ => d2
  | ⟨3, _⟩ => d3
  | ⟨4, _⟩ => d4
  | ⟨5, _⟩ => d5

/-- Proof data of the simplest kind; each field holds by unfolding the data. -/
structure Plain {cfg : Pipeline.Cfg sig Λ₀} {c : Dev nD} (d : Dat τ (Elt F) Unit ℕ (UR sig nD τ) ℕ cfg c) : Prop where
  Φ : ∀ t, d.Φ t = Pipeline.ΦA cfg.spec c := by intros; rfl
  q : ∀ w, d.q w = fullShare := by intros; rfl
  owed : ∀ t, d.owed t = 0 := by intros; rfl
  recorded : ∀ t, d.recorded t = Set.univ := by intros; rfl

/-- Each array ends as the exit valuation has it: a written one by hypothesis, any other because no grid point writes it. -/
theorem left_of {cfg : Pipeline.Cfg sig Λ₀} {c : Dev nD} {d : Dat τ (Elt F) Unit ℕ (UR sig nD τ) ℕ cfg c}
    {V V' : (b : Ref sig .tc) → Buf (Elt F) ((c : Thread nD τ).loc b)} (hA : ∀ w, d.A w = V (Pipeline.arrRef cfg.spec w))
    {Wl : List (Ref sig .tc)} (hV' : ∀ r, r ∉ Wl → V' r = V r) (Wo : List (Fin cfg.W))
    (hside : ∀ w, w ∈ Wo ∨ (cfg.win w).isOut = false ∧ Pipeline.arrRef cfg.spec w ∉ Wl)
    (hout : Wo.Forall fun w => d.arrAt w cfg.N = V' (Pipeline.arrRef cfg.spec w)) (w : Fin cfg.W) :
    d.arrAt w cfg.N = V' (Pipeline.arrRef cfg.spec w) :=
  (hside w).elim (List.forall_iff_forall_mem.1 hout w) fun h => (d.arrAt_in w h.1 _).trans ((hA w).trans (hV' _ h.2).symm)

/-- A buffer outside a set that holds every written one is left as it was. -/
theorem kept_of {c : Dev nD} {V V' : (b : Ref sig .tc) → Buf (Elt F) ((c : Thread nD τ).loc b)} {Wl : List (Ref sig .tc)}
    (hV' : ∀ r, r ∉ Wl → V' r = V r) {S : Finset (Ref sig .tc)} (hW : ∀ r ∈ Wl, r ∈ S) : ∀ b, b ∉ S → V' b = V b :=
  fun b hb => hV' b fun h => hb (hW b h)

variable (pd : (p : Fin 6) → DatAt (F := F) (cfgs p))

set_option backward.isDefEq.respectTransparency.types false in
/-- Pipeline `p` as one item of the run, from every unscoped buffer at `V` to every one at `V'`: `V'` differs from `V` on `Wl` only, and has each written array as the last grid point leaves it. -/
def regOf (p : Fin 6) (L : Pipeline.LaunchFacts (nD := nD) (τ := τ) cfgs p) (V V' : Dev nD → Valuation τ sig (Elt F))
    (hbody : ∀ c, BodyObligation (pd p c) (defs₀ (F := F)) Variants.none () Set.univ) (hp : ∀ c, Plain (pd p c))
    (hA : ∀ c w, (pd p c).A w = atTc V c (Pipeline.arrRef (cfgs p).spec w))
    {Wl : List (Ref sig .tc)} (hV' : ∀ c r, r ∉ Wl → atTc V' c r = atTc V c r)
    (hW : ∀ r ∈ Wl, r ∈ Finset.univ.image (Pipeline.arrRef (cfgs p).spec)) (Wo : List (Fin (cfgs p).W))
    (hside : ∀ w, w ∈ Wo ∨ ((cfgs p).win w).isOut = false ∧ Pipeline.arrRef (cfgs p).spec w ∉ Wl)
    (hout : ∀ c, Wo.Forall fun w => (pd p c).arrAt w (cfgs p).N = atTc V' c (Pipeline.arrRef (cfgs p).spec w)) :
    RegionSeg (pcfgs (F := F)) Gen.adm pd () defs₀ Variants.none (fun _ => (∅ : Finset Unit)) (fun _ _ => (0 : ℕ)) p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ _ _ p fun c => (hp c).owed
  pre c := iprop(StableHlo.held (c : Thread nD τ) (Pipeline.ucRefs τ sig) (V c) ∗ rest c)
  post c := iprop(StableHlo.held (c : Thread nD τ) (Pipeline.ucRefs τ sig) (V' c) ∗ rest c)
  X c := iprop(∃ r, prngReg c r)
  Y c := iprop(∃ r, prngReg c r)
  Z c := Pipeline.unscopedRest (Ix := Unit) (Name := ℕ) (U := UR sig nD τ) (Lvl := ℕ) (cfgs p).spec c (atTc V c)
  hentry c := by
    have hsplit := Pipeline.arrays_of_unscopedBufs (p := p) (pcfgs (F := F)) Gen.adm pd L.win L.arr_whole c
      ((pd p c).share_full (hp c).q) (atTc V c) (hA c)
    rw [Pipeline.unscopedBufs_held] at hsplit
    rw [Pipeline.ownSems0_none]
    unfold Pipeline.Dat.owesAt Pipeline.owesWithin Pipeline.Dat.bound
    rw [(hp c).owed, (hp c).recorded]
    iintro ⟨⟨Hub, Hp, %W, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ _ => Or.inl trivial
      iexact HO
    isplitl [Hp]; · iexact Hp
    iexact Hrest
  hin c := by
    rw [(hp c).Φ]; unfold Pipeline.ΦA
    iintro ⟨Hp, -, Hr⟩
    isplitl [Hr]; · iexact Hr
    iexact Hp
  hout c := by
    rw [Pipeline.ownSems0_none, (hp c).Φ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      L.win L.arr_whole c pd ((pd p c).share_full (hp c).q) (atTc V c) (atTc V' c) ((pd p c).arrAt · (cfgs p).N)
      (left_of (hA c) (hV' c) Wo hside (hout c)) (kept_of (hV' c) hW)
    rw [Pipeline.unscopedBufs_held] at hjoin
    unfold Pipeline.Dat.owesAt Pipeline.owesWithin
    rw [(hp c).owed]
    iintro ⟨Ha, ⟨%W, -, HO⟩, HY, Hrest⟩
    imodintro
    isplitl [Ha Hrest]
    · iapply hjoin; isplitl [Ha] <;> iassumption
    isplitl [HY]; · iexact HY
    iexists W; iexact HO

end Cert.KernelIdeal.Hand

end
-- ==== Proof.KI.RegLib.lean ====
import proofs.«403660_j89129161327109_3_alg».proof.Proof.Gen.KernelIdeal.Launch
import proofs.«403660_j89129161327109_3_alg».proof.Proof.Gen.KernelIdeal.Skeleton
import proofs.«403660_j89129161327109_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {nD : ℕ} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD}

/-- An input window the body leaves at `B t`, the block of its array `A` there, holds `B t` when the body runs, at every point. -/
theorem before_in_eq_blk (dat : Dat τ Val Ix Name U Lvl cfg c) (w : Fin cfg.W) (hw : (cfg.win w).isOut = false)
    (hlive : ∀ i, cfg.idle w i = false)
    (hclip : ∀ t t' : Fin cfg.N, (cfg.win w).index t = (cfg.win w).index t' →
      (cfg.win w).clip (cfg.grid.coords t) = (cfg.win w).clip (cfg.grid.coords t'))
    {A} (hA : dat.A w = A) (B : Fin cfg.N → (cfg.win w).block.Idx → Val (cfg.win w).elt)
    (hB : ∀ t d, (cfg.win w).fill (cfg.grid.coords t) d (((cfg.win w).blk t).view.read Val A) = B t)
    (hafter : ∀ t, dat.after w t = B t) (t : Fin cfg.N) (d) : dat.before w t d = B t := by
  subst hA
  rw [dat.before_in_eq_fetched w hw hlive hclip (fun t => by
    rw [hafter, ← hB t (B t)]; exact (cfg.win w).cut_fill _ _ _) t d]
  exact hB t d
end

theorem zeros2 : (![0, 0] : Fin 2 → ℕ) = fun _ => 0 := by funext a; fin_cases a <;> rfl

/-- One store through the whole-buffer rectangle covers the buffer. -/
theorem cover_one {Val : EltTy → Type} {S : Shape} {e : EltTy} {off : Fin S.rank → ℕ} (h : off = fun _ => 0)
    (inb : ∀ a, off a + S.size a ≤ S.size a) (p : S.Idx → Val e) (y : S.Idx) :
    ∃ pc ∈ ([⟨Rect.unit off S.size inb, p⟩] : List (View.Piece Val S e)), y ∈ pc.1.set :=
  ⟨_, List.mem_singleton_self _, View.mem_set_unit_zero h inb y⟩

/-- After a list of writes a view reads the last write's payload laid over what it reads after the earlier ones. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons,
      View.read_slice_write_of_not_mem r _ _ _ (by rw [Rect.map_emb_univ]; exact hy)]

/-- A running value restarted from `z` at every position that is a multiple of `P`, else updated from the position before. -/
def accRec {α : Type} {N : ℕ} (P : ℕ) (upd : Fin N → α → α) (z : α) : (n : ℕ) → n < N → α
  | 0, hn => upd ⟨0, hn⟩ z
  | n + 1, hn => upd ⟨n + 1, hn⟩ (if (n + 1) % P = 0 then z else accRec P upd z n (Nat.lt_of_succ_lt hn))

theorem accRec_reset {α : Type} {N P : ℕ} (upd : Fin N → α → α) (z : α) (t : Fin N) (h0 : t.val % P = 0) :
    accRec P upd z t.val t.isLt = upd t z := by
  obtain ⟨n, hn⟩ := t
  cases n with
  | zero => rfl
  | succ n => exact congrArg (upd _) (if_pos h0)

theorem accRec_step {α : Type} {N P : ℕ} (upd : Fin N → α → α) (z : α) (t : Fin N) (h0 : ¬t.val % P = 0) :
    accRec P upd z t.val t.isLt = upd t (accRec P upd z (t.val - 1) (Nat.lt_of_le_of_lt (Nat.sub_le _ _) t.isLt)) := by
  obtain ⟨n, hn⟩ := t
  cases n with
  | zero => exact absurd (Nat.zero_mod _) h0
  | succ n => exact congrArg (upd _) (if_neg h0)

end Cert.KernelIdeal.Hand
-- ==== Proof.KI.Reg0.lean ====
import proofs.«403660_j89129161327109_3_alg».proof.Proof.KI.RegLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1000x128 := Rect.unit (s := S1000x128) ![0, 0] S1000x128.size inb_S1000x128_S1000x128_0_0
abbrev rW0 : Rect S128x384 := Rect.unit (s := S128x384) ![0, 0] S128x384.size inb_S128x384_S128x384_0_0
abbrev rY0 : Rect S1000x384 := Rect.unit (s := S1000x384) ![0, 0] S1000x384.size inb_S1000x384_S1000x384_0_0

def out0_2 (x : Vec F S1000x128 .f32) (w : Vec F S128x384 .f32) : Vec F S1000x384 .f32 :=
  View.canon [⟨rY0, k0_pay1 (View.ld x rX0) (View.ld w rW0)⟩]

/-- The body keeps its two inputs and stores their product over the whole output buffer. -/
theorem sound_kernel0 (c : Dev nD) (E : Set ℕ) (i : grid0.Coords)
    (arg1 : Memref sig .tc .vmem S1000x128 .f32) (harg1 : arg1.IsWhole)
    (arg2 : Memref sig .tc .vmem S128x384 .f32) (harg2 : arg2.IsWhole)
    (arg3 : Memref sig .tc .vmem S1000x384 .f32) (harg3 : arg3.IsWhole)
    (x : Vec F S1000x128 .f32) (w : Vec F S128x384 .f32) (d : Vec F S1000x384 .f32) (K : PUnit → sProp 𝕄) :
    iprop(owns (c : Thread nD τ) arg1 fullShare x ∗ owns (c : Thread nD τ) arg2 fullShare w
        ∗ owns (c : Thread nD τ) arg3 fullShare d
        ∗ (iprop(owns (c : Thread nD τ) arg1 fullShare x ∗ owns (c : Thread nD τ) arg2 fullShare w
            ∗ owns (c : Thread nD τ) arg3 fullShare (out0_2 x w)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  rw [owns_eq_rep (c : Thread nD τ) arg1, owns_eq_rep (c : Thread nD τ) arg2]
  unfold owns
  iintro ⟨Hx, Hw, ⟨%fy, -, Hy⟩, Hk⟩
  sl_exec
  sl_step
  iapply Hk
  iframe Hx Hw
  iexists _; isplitr
  swap; · iexact Hy
  ipureintro
  rw [View.readAt_rep, View.readAt_rep]
  exact View.read_writes_eq_canon _ _ _ (cover_one zeros2 _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

/-- An input window's buffer holds, when the body runs, what the body leaves in it: its block. -/
theorem before0_in (c : Dev nD) (w : Fin cfg0.W) (hw : (cfg0.win w).isOut = false) (t : Fin cfg0.N) (d) :
    (dat0 V c).before w t d = (dat0 V c).after w t := by
  fin_cases w
  all_goals first
    | exact absurd hw (by decide)
    | exact before_in_eq_blk _ _ hw (fun _ => rfl) (fun _ _ _ => rfl) (A_eq0 V c _) _ (fun _ _ => rfl) (fun _ => rfl) t d

theorem after0_2' (c : Dev nD) (t : Fin cfg0.N) : (dat0 V c).after 2 t = out0_2 ((dat0 V c).after 0 t) ((dat0 V c).after 1 t) := by
  dsimp only [dat0]

/-- At every point the inputs' buffers hold their blocks, so the body's triple applies; the invariant passes through. -/
theorem body_obligation0 (c : Dev nD) : BodyObligation (dat0 (F := F) V c) (defs₀ (F := F)) Variants.none () Set.univ := fun t => by
  rw [bigSep_W0, bigSep_W0]
  show _ ⊢ wp frame _ _ (bodyAt0 t) _
  simp only [before0_in V c 0 rfl, before0_in V c 1 rfl]
  rw [show (dat0 V c).Φ t.succ = (dat0 V c).Φ t.castSucc from rfl,
    show (dat0 V c).owesAt () t.succ = (dat0 V c).owesAt () t.castSucc from rfl, after0_2']
  iintro ⟨HΦ, Ho, ⟨%d0, H0⟩, ⟨%d1, H1⟩, ⟨%d2, H2⟩⟩
  iapply (sound_kernel0 c Set.univ _ _ _ _ _ _ _
    ((dat0 V c).after 0 t) ((dat0 V c).after 1 t) ((dat0 V c).before 2 t d2) _)
  iframe
  iintro ⟨H0, H1, H2⟩
  iframe

end Cert.KernelIdeal.Hand
-- ==== Proof.KI.Reg1.lean ====
import proofs.«403660_j89129161327109_3_alg».proof.Proof.KI.RegLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 125 = 0 :=
  (by decide +kernel : ∀ t : Fin grid1.N, cond1_0 (grid1.coords t) ↔ t.val % 125 = 0)

abbrev rowR : Rect S8x128 := Rect.unit (s := S8x128) ![0, 0] S1x128.size inb_S8x128_S1x128_0_0

def prod1 (x0 x1 x2 : Vec F S2048x128 .f32) (x4 : Vec F S128x128 .f32) : Vec F S2048x128 .f32 :=
  k1_pay9 x0 x4 x1 x2

def out1_7 (x0 x1 x2 x3 : Vec F S2048x128 .f32) (x4 : Vec F S128x128 .f32) (x5 : Vec F S128x8 .f32) (x6 : Vec F S8x128 .f32) :
    Vec F S2048x128 .f32 :=
  k1_pay2 (prod1 x0 x1 x2 x4) x5 x6 x3

def out1_8 (x0 x1 x2 : Vec F S2048x128 .f32) (x4 : Vec F S128x128 .f32) (x5 : Vec F S128x8 .f32) : Vec F S2048x8 .f32 :=
  k1_pay1 (prod1 x0 x1 x2 x4) x5

def upd1_9 (x0 : Vec F S2048x128 .f32) (x4 : Vec F S128x128 .f32) (prev : Vec F S8x128 .f32) : Vec F S8x128 .f32 :=
  rowR.overlay prev (k1_pay7 x0 x4 (View.ld prev rowR))

def upd1_10 (x0 : Vec F S2048x128 .f32) (x4 : Vec F S128x128 .f32) (prev : Vec F S8x128 .f32) : Vec F S8x128 .f32 :=
  rowR.overlay prev (k1_pay8 x0 x4 (View.ld prev rowR))

/-- The body keeps its seven inputs, stores the two edge blocks, and adds to row 0 of each accumulator, taken as zeros where the inner coordinate is zero. -/
theorem sound_kernel1 (c : Dev nD) (i : grid1.Coords)
    (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S128x128 .f32) (harg6 : arg6.IsWhole) (arg7 : Memref sig .tc .vmem S128x8 .f32) (harg7 : arg7.IsWhole)
    (arg8 : Memref sig .tc .vmem S8x128 .f32) (harg8 : arg8.IsWhole) (arg9 : Memref sig .tc .vmem S2048x128 .f32) (harg9 : arg9.IsWhole)
    (arg10 : Memref sig .tc .vmem S2048x8 .f32) (harg10 : arg10.IsWhole) (arg11 : Memref sig .tc .vmem S8x128 .f32) (harg11 : arg11.IsWhole)
    (arg12 : Memref sig .tc .vmem S8x128 .f32) (harg12 : arg12.IsWhole)
    (x0 x1 x2 x3 : Vec F S2048x128 .f32) (x4 : Vec F S128x128 .f32) (x5 : Vec F S128x8 .f32) (x6 : Vec F S8x128 .f32)
    (d7 : Vec F S2048x128 .f32) (d8 : Vec F S2048x8 .f32) (a9 a10 z9 z10 : Vec F S8x128 .f32)
    (hz : cond1_0 i ∧ z9 = k1_pay3 ∧ z10 = k1_pay4 ∨ ¬cond1_0 i ∧ z9 = a9 ∧ z10 = a10) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ owns (c : Thread nD τ) arg9 fullShare d7 ∗ owns (c : Thread nD τ) arg10 fullShare d8
        ∗ owns (c : Thread nD τ) arg11 fullShare a9 ∗ owns (c : Thread nD τ) arg12 fullShare a10
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ owns (c : Thread nD τ) arg9 fullShare (out1_7 x0 x1 x2 x3 x4 x5 x6) ∗ owns (c : Thread nD τ) arg10 fullShare (out1_8 x0 x1 x2 x4 x5)
            ∗ owns (c : Thread nD τ) arg11 fullShare (upd1_9 x0 x4 z9) ∗ owns (c : Thread nD τ) arg12 fullShare (upd1_10 x0 x4 z10)) -∗ K ⟨⟩))
      ⊢ wp frame (wpE (defs₀ (F := F)) Variants.none c none) E
          (cc1__edge_kernel i arg2 harg2 arg3 harg3 arg4 harg4 arg5 harg5 arg6 harg6 arg7 harg7 arg8 harg8 arg9 harg9 arg10 harg10 arg11 harg11 arg12 harg12) K := by
  obtain ⟨hc0, rfl, rfl⟩ | ⟨hc0, rfl, rfl⟩ := hz
  all_goals
    simp only [cc1__edge_kernel_eq_skeleton]; unfold cc1__edge_kernel_skel
    simp only [k1_part1_eq_skeleton]
    rw [owns_eq_rep (c : Thread nD τ) arg2, owns_eq_rep (c : Thread nD τ) arg3, owns_eq_rep (c : Thread nD τ) arg4,
      owns_eq_rep (c : Thread nD τ) arg5, owns_eq_rep (c : Thread nD τ) arg6, owns_eq_rep (c : Thread nD τ) arg7,
      owns_eq_rep (c : Thread nD τ) arg8, owns_eq_rep (c : Thread nD τ) arg11, owns_eq_rep (c : Thread nD τ) arg12]
    unfold owns
    iintro ⟨H0, H1, H2, H3, H4, H5, H6, ⟨%f7, -, H7⟩, ⟨%f8, -, H8⟩, H9, H10, Hk⟩
    sl_exec (disch := first | exact hc0)
    sl_step
    iapply Hk
    iframe H0 H1 H2 H3 H4 H5 H6
    isplitl [H7]; iexists _; isplitr; swap; iexact H7; rotate_left
    isplitl [H8]; iexists _; isplitr; swap; iexact H8; rotate_left
    isplitl [H9]; iexists _; isplitr; swap; iexact H9; rotate_left
    iexists _; isplitr; swap; iexact H10
    all_goals
      ipureintro
      sl_unfold_run_names
      first
      | rw [View.read_writes_eq_canon _ _ _ (cover_one zeros2 _ _)]
      | rw [read_writes_cons_overlay, View.writes_nil]
      | rw [read_writes_cons_overlay, View.read_writes_eq_canon _ _ _ (cover_one zeros2 _ _),
          View.readCov_eq_canon_ld _ _ _ (cover_one zeros2 _ _)]
      simp only [View.readAt_eq_ld, View.read_rep, View.canon_unit_zero (S := S2048x128) zeros2, View.canon_unit_zero (S := S2048x8) zeros2,
        View.canon_unit_zero (S := S8x128) zeros2, View.ld_unit_zero (S := S2048x128) zeros2, View.ld_unit_zero (S := S128x128) zeros2,
        View.ld_unit_zero (S := S128x8) zeros2, View.ld_unit_zero (S := S8x128) zeros2]
      rfl

/-- An accumulator's buffer after each point: the update of zeros at the first point of a half of the grid, of what the point before left elsewhere. -/
def acc1_9 (c : Dev nD) : (n : ℕ) → n < cfg1.N → Vec F S8x128 .f32 :=
  accRec 125 (fun t => upd1_9 (iblk1 V c 0 t) (iblk1 V c 4 t)) (k1_pay3 (F := F))

theorem acc1_9_A (c : Dev nD) (t : Fin cfg1.N) (h0 : t.val % 125 = 0) :
    acc1_9 V c t.val t.isLt = upd1_9 (iblk1 V c 0 t) (iblk1 V c 4 t) (k1_pay3 (F := F)) :=
  accRec_reset _ _ t h0

theorem acc1_9_B (c : Dev nD) (t : Fin cfg1.N) (h0 : ¬t.val % 125 = 0) :
    acc1_9 V c t.val t.isLt
      = upd1_9 (iblk1 V c 0 t) (iblk1 V c 4 t) (acc1_9 V c (t.val - 1) (Nat.lt_of_le_of_lt (Nat.sub_le _ _) t.isLt)) :=
  accRec_step _ _ t h0

def acc1_10 (c : Dev nD) : (n : ℕ) → n < cfg1.N → Vec F S8x128 .f32 :=
  accRec 125 (fun t => upd1_10 (iblk1 V c 0 t) (iblk1 V c 4 t)) (k1_pay4 (F := F))

theorem acc1_10_A (c : Dev nD) (t : Fin cfg1.N) (h0 : t.val % 125 = 0) :
    acc1_10 V c t.val t.isLt = upd1_10 (iblk1 V c 0 t) (iblk1 V c 4 t) (k1_pay4 (F := F)) :=
  accRec_reset _ _ t h0

theorem acc1_10_B (c : Dev nD) (t : Fin cfg1.N) (h0 : ¬t.val % 125 = 0) :
    acc1_10 V c t.val t.isLt
      = upd1_10 (iblk1 V c 0 t) (iblk1 V c 4 t) (acc1_10 V c (t.val - 1) (Nat.lt_of_le_of_lt (Nat.sub_le _ _) t.isLt)) :=
  accRec_step _ _ t h0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 4 t) (iblk1 V c 5 t)
    | ⟨9, _⟩ => acc1_9 V c t.val t.isLt
    | ⟨10, _⟩ => acc1_10 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) :
    (dat1 V c).after 8 t = out1_8 (iblk1 V c 0 t) (iblk1 V c 1 t) (iblk1 V c 2 t) (iblk1 V c 4 t) (iblk1 V c 5 t) := by dsimp only [dat1]
theorem after1_9 (c : Dev nD) (t : Fin cfg1.N) : (dat1 V c).after 9 t = acc1_9 V c t.val t.isLt := by dsimp only [dat1]
theorem after1_10 (c : Dev nD) (t : Fin cfg1.N) : (dat1 V c).after 10 t = acc1_10 V c t.val t.isLt := by dsimp only [dat1]

/-- An input window's buffer holds, when the body runs, what the body leaves in it: its block. -/
theorem before1_in (c : Dev nD) (w : Fin cfg1.W) (hw : (cfg1.win w).isOut = false) (t : Fin cfg1.N) (d) :
    (dat1 V c).before w t d = (dat1 V c).after w t := by
  fin_cases w
  all_goals first
    | exact absurd hw (by decide)
    | exact before_in_eq_blk _ _ hw (fun _ => rfl) (fun _ _ _ => rfl) (A_eq1 V c _) _ (fun _ _ => rfl) (fun _ => rfl) t d

/-- Away from the first point of a half of the grid an accumulator's buffer holds what the body left at the point before. -/
theorem before1_9_B (c : Dev nD) (t : Fin cfg1.N) (h0 : ¬t.val % 125 = 0) (d) :
    (dat1 V c).before 9 t d = acc1_9 V c (t.val - 1) (Nat.lt_of_le_of_lt (Nat.sub_le _ _) t.isLt) := by
  rw [Dat.before_out_kept _ 9 rfl t (fun h => h0 (by rw [h])) (Bool.eq_false_iff.mpr fun h => by have := (flush1_9 _).mp h; dsimp only at this; omega)
    (fun _ => rfl) (fun _ _ => rfl)]
  dsimp only [dat1]
theorem before1_10_B (c : Dev nD) (t : Fin cfg1.N) (h0 : ¬t.val % 125 = 0) (d) :
    (dat1 V c).before 10 t d = acc1_10 V c (t.val - 1) (Nat.lt_of_le_of_lt (Nat.sub_le _ _) t.isLt) := by
  rw [Dat.before_out_kept _ 10 rfl t (fun h => h0 (by rw [h])) (Bool.eq_false_iff.mpr fun h => by have := (flush1_10 _).mp h; dsimp only at this; omega)
    (fun _ => rfl) (fun _ _ => rfl)]
  dsimp only [dat1]

/-- At every point the inputs' buffers hold their blocks and the accumulators what the recursion names, so the body's triple applies. -/
theorem body_obligation1 (c : Dev nD) : BodyObligation (dat1 (F := F) V c) (defs₀ (F := F)) Variants.none () Set.univ := fun t => by
  rw [bigSep_W1, bigSep_W1]
  show _ ⊢ wp frame _ _ (bodyAt1 t) _
  simp only [before1_in V c 0 rfl, before1_in V c 1 rfl, before1_in V c 2 rfl, before1_in V c 3 rfl, before1_in V c 4 rfl, before1_in V c 5 rfl, before1_in V c 6 rfl]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  by_cases h0 : t.val % 125 = 0
  · rw [acc1_9_A V c t h0, acc1_10_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1 c (grid1.coords t) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      ((dat1 V c).before 7 t d7) ((dat1 V c).before 8 t d8) ((dat1 V c).before 9 t d9) ((dat1 V c).before 10 t d10) _ _ (.inl ⟨(hcond1_0 t).mpr h0, rfl, rfl⟩) Set.univ _)
    iframe
    iintro ⟨H0, H1, H2, H3, H4, H5, H6, H7, H8, H9, H10⟩
    iframe
  · rw [acc1_9_B V c t h0, acc1_10_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1 c (grid1.coords t) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      ((dat1 V c).before 7 t d7) ((dat1 V c).before 8 t d8) ((dat1 V c).before 9 t d9) ((dat1 V c).before 10 t d10) _ _ (.inr ⟨fun h => h0 ((hcond1_0 t).mp h), (before1_9_B V c t h0 d9).symm, (before1_10_B V c t h0 d10).symm⟩) Set.univ _)
    iframe
    iintro ⟨H0, H1, H2, H3, H4, H5, H6, H7, H8, H9, H10⟩
    iframe

end Cert.KernelIdeal.Hand
-- ==== Proof.KI.Reg2Runs.lean ====
import proofs.«403660_j89129161327109_3_alg».proof.Proof.KI.RegLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The writes `L` (the last one first) laid over contents that read `X`. -/
def laid2 {Val : EltTy → Type} {s : Shape} {e : EltTy} (X : s.Idx → Val e) : List (View.Piece Val s e) → s.Idx → Val e
  | [] => X
  | p :: L => p.1.overlay (laid2 X L) p.2

theorem read_writes_eq_laid2 {Val : EltTy → Type} {sg : RefSig} {κ : Kind} {sp : Space} {s : Shape} {e : EltTy}
    (v : View sg κ sp s e) (f : v.ty.Contents Val) :
    ∀ L : List (View.Piece Val s e), v.read Val (v.writes Val f L) = laid2 (v.read Val f) L
  | [] => rfl
  | ⟨r, w⟩ :: L => (read_writes_cons_overlay v f r w L).trans (congrArg (r.overlay · w) (read_writes_eq_laid2 v f L))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2 (i : grid2.Coords) : Prop :=
  (Scalar.cmpi .ne (Scalar.extui (Scalar.cmpi .eq (BitVec.ofNat 32 (i 1).val) 0#32)) 0#32) = 1#1
theorem hcond2 : ∀ t : Fin cfg2.N, cond2 (grid2.coords t) ↔ t.val % 25 = 0 :=
  (by decide +kernel : ∀ t : Fin grid2.N, cond2 (grid2.coords t) ↔ t.val % 25 = 0)

abbrev ms2_0 (t : Fin cfg2.N) : Memref sig .tc .vmem S1000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x8 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S8x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S8x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S8x128 .f32 := win2_8.stage (cfg2.slots t 8)
abbrev hs2_8 (t : Fin cfg2.N) : (ms2_8 t).IsWhole := hstage2_8 ((cfg2.slots t 8).cast nbuf2_8)

/-- Owning a whole memref at `x` is holding its buffer at the contents that read `x`. -/
theorem owns_whole2 (c : Dev nD) {sp : Space} {sh : Shape} {e : EltTy} {m : Memref sig (c : Thread nD τ).2.kind sp sh e} (h : m.IsWhole) (x : sh.Idx → Elt F e) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _
    iintro ⟨%f, %hf, H⟩; obtain rfl := h.eq_unread hf; iexact H
  · show (_ : sProp 𝕄) ⊢ _
    iintro H; iexists _; isplitr; · ipureintro; exact h.read_unread _
    iexact H

variable (c : Dev nD) (i : grid2.Coords)
  (arg2 : Memref sig .tc .vmem S1000x128 .f32) (harg2 : arg2.IsWhole)
  (arg3 : Memref sig .tc .vmem S1000x8 .f32) (harg3 : arg3.IsWhole)
  (arg4 : Memref sig .tc .vmem S1000x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S8x128 .f32) (harg7 : arg7.IsWhole)
  (arg8 : Memref sig .tc .vmem S1000x128 .f32) (harg8 : arg8.IsWhole)
  (arg9 : Memref sig .tc .vmem S8x128 .f32) (harg9 : arg9.IsWhole)
  (arg10 : Memref sig .tc .vmem S8x128 .f32) (harg10 : arg10.IsWhole)

section A
variable (hc : cond2 i) (x0 : Vec F S1000x128 .f32) (x1 : Vec F S1000x8 .f32) (x2 : Vec F S1000x128 .f32) (x3 : Vec F S128x128 .f32) (x4 : Vec F S1x128 .f32) (x5 : Vec F S8x128 .f32)

set_option maxHeartbeats 2000000 in
def kernelRun2_A :
    Σ' (L6 : List (View.Piece (Elt F) S1000x128 .f32)) (L7 : List (View.Piece (Elt F) S8x128 .f32)) (L8 : List (View.Piece (Elt F) S8x128 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)) -∗ K ⟨⟩))
          ⊢ wp frame (wpE (defs₀ (F := F)) Variants.none c none) E (cc2__node_proj_kernel i arg2 harg2 arg3 harg3 arg4 harg4 arg5 harg5 arg6 harg6 arg7 harg7 arg8 harg8 arg9 harg9 arg10 harg10) K := by
  refine ⟨?_, ?_, ?_, fun E K => ?run⟩
  case run =>
    simp only [cc2__node_proj_kernel_eq_skeleton, k2_part1_eq_skeleton]; unfold cc2__node_proj_kernel_skel
    rw [owns_whole2 c harg2, owns_whole2 c harg3, owns_whole2 c harg4, owns_whole2 c harg5, owns_whole2 c harg6, owns_whole2 c harg7]
    unfold owns
    iintro ⟨H0, H1, H2, H3, H4, H5, ⟨%d6, %f6, -, H6⟩, ⟨%d7, %f7, -, H7⟩, ⟨%d8, %f8, -, H8⟩, Hk⟩
    sl_exec (disch := first | exact hc)
    sl_step
    iapply Hk
    iframe H0 H1 H2 H3 H4 H5
    isplitl [H6]; · iexists _; iexact H6
    isplitl [H7]; · iexists _; iexact H7
    iexists _; iexact H8

def out2_A_6 : Vec F S1000x128 .f32 := View.canon (kernelRun2_A c i arg2 harg2 arg3 harg3 arg4 harg4 arg5 harg5 arg6 harg6 arg7 harg7 arg8 harg8 arg9 harg9 arg10 harg10 hc x0 x1 x2 x3 x4 x5).1
def out2_A_7 : Vec F S8x128 .f32 := View.canon (kernelRun2_A c i arg2 harg2 arg3 harg3 arg4 harg4 arg5 harg5 arg6 harg6 arg7 harg7 arg8 harg8 arg9 harg9 arg10 harg10 hc x0 x1 x2 x3 x4 x5).2.1
def out2_A_8 : Vec F S8x128 .f32 := View.canon (kernelRun2_A c i arg2 harg2 arg3 harg3 arg4 harg4 arg5 harg5 arg6 harg6 arg7 harg7 arg8 harg8 arg9 harg9 arg10 harg10 hc x0 x1 x2 x3 x4 x5).2.2.1
end A

section B
variable (hc : ¬cond2 i) (x0 : Vec F S1000x128 .f32) (x1 : Vec F S1000x8 .f32) (x2 : Vec F S1000x128 .f32) (x3 : Vec F S128x128 .f32) (x4 : Vec F S1x128 .f32) (x5 : Vec F S8x128 .f32) (xo7 : Vec F S8x128 .f32) (xo8 : Vec F S8x128 .f32)

set_option maxHeartbeats 2000000 in
def kernelRun2_B :
    Σ' (L6 : List (View.Piece (Elt F) S1000x128 .f32)) (L7 : List (View.Piece (Elt F) S8x128 .f32)) (L8 : List (View.Piece (Elt F) S8x128 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (arg9.view.loc (c : Thread nD τ) ↦[arg9.view.set]{fullShare} arg9.view.writes (Elt F) (harg9.unread xo7) L7)
                ∗ (arg10.view.loc (c : Thread nD τ) ↦[arg10.view.set]{fullShare} arg10.view.writes (Elt F) (harg10.unread xo8) L8)) -∗ K ⟨⟩))
          ⊢ wp frame (wpE (defs₀ (F := F)) Variants.none c none) E (cc2__node_proj_kernel i arg2 harg2 arg3 harg3 arg4 harg4 arg5 harg5 arg6 harg6 arg7 harg7 arg8 harg8 arg9 harg9 arg10 harg10) K := by
  refine ⟨?_, ?_, ?_, fun E K => ?run⟩
  case run =>
    simp only [cc2__node_proj_kernel_eq_skeleton, k2_part1_eq_skeleton]; unfold cc2__node_proj_kernel_skel
    rw [owns_whole2 c harg2, owns_whole2 c harg3, owns_whole2 c harg4, owns_whole2 c harg5, owns_whole2 c harg6, owns_whole2 c harg7, owns_whole2 c harg9, owns_whole2 c harg10]
    unfold owns
    iintro ⟨H0, H1, H2, H3, H4, H5, ⟨%d6, %f6, -, H6⟩, H7, H8, Hk⟩
    sl_exec (disch := first | exact hc)
    sl_step
    iapply Hk
    iframe H0 H1 H2 H3 H4 H5
    isplitl [H6]; · iexists _; iexact H6
    isplitl [H7]; · iexact H7
    iexact H8

def out2_B_6 : Vec F S1000x128 .f32 := View.canon (kernelRun2_B c i arg2 harg2 arg3 harg3 arg4 harg4 arg5 harg5 arg6 harg6 arg7 harg7 arg8 harg8 arg9 harg9 arg10 harg10 hc x0 x1 x2 x3 x4 x5 xo7 xo8).1
def out2_B_7 : Vec F S8x128 .f32 := laid2 xo7 (kernelRun2_B c i arg2 harg2 arg3 harg3 arg4 harg4 arg5 harg5 arg6 harg6 arg7 harg7 arg8 harg8 arg9 harg9 arg10 harg10 hc x0 x1 x2 x3 x4 x5 xo7 xo8).2.1
def out2_B_8 : Vec F S8x128 .f32 := laid2 xo8 (kernelRun2_B c i arg2 harg2 arg3 harg3 arg4 harg4 arg5 harg5 arg6 harg6 arg7 harg7 arg8 harg8 arg9 harg9 arg10 harg10 hc x0 x1 x2 x3 x4 x5 xo7 xo8).2.2.1
end B

end Cert.KernelIdeal.Hand

end
-- ==== Proof.KI.Reg2.lean ====
import proofs.«403660_j89129161327109_3_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two running sums after the point at position `n`: restarted at a row's first point, else updated from the point before. -/
def accs2 (c : Dev nD) (n : ℕ) (hn : n < cfg2.N) : Vec F S8x128 .f32 × Vec F S8x128 .f32 :=
  if h0 : n % 25 = 0 then
    (out2_A_7 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) ((hcond2 ⟨n, hn⟩).mpr h0) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩),
     out2_A_8 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) ((hcond2 ⟨n, hn⟩).mpr h0) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩))
  else
    (out2_B_7 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) (fun h => h0 ((hcond2 ⟨n, hn⟩).mp h)) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩) (accs2 c (n - 1) (Nat.lt_of_le_of_lt (Nat.sub_le _ _) hn)).1 (accs2 c (n - 1) (Nat.lt_of_le_of_lt (Nat.sub_le _ _) hn)).2,
     out2_B_8 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) (fun h => h0 ((hcond2 ⟨n, hn⟩).mp h)) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩) (accs2 c (n - 1) (Nat.lt_of_le_of_lt (Nat.sub_le _ _) hn)).1 (accs2 c (n - 1) (Nat.lt_of_le_of_lt (Nat.sub_le _ _) hn)).2)
termination_by n
decreasing_by all_goals omega

theorem accs2_A (c : Dev nD) (t : Fin cfg2.N) (h0 : t.val % 25 = 0) :
    accs2 V c t.val t.isLt =
      (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h0) (iblk2 V c 0 t) (iblk2 V c 1 t) (iblk2 V c 2 t) (iblk2 V c 3 t) (iblk2 V c 4 t) (iblk2 V c 5 t),
       out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h0) (iblk2 V c 0 t) (iblk2 V c 1 t) (iblk2 V c 2 t) (iblk2 V c 3 t) (iblk2 V c 4 t) (iblk2 V c 5 t)) := by
  rw [accs2, dif_pos h0]

theorem accs2_B (c : Dev nD) (t : Fin cfg2.N) (h0 : ¬t.val % 25 = 0) :
    accs2 V c t.val t.isLt =
      (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2 t).mp h)) (iblk2 V c 0 t) (iblk2 V c 1 t) (iblk2 V c 2 t) (iblk2 V c 3 t) (iblk2 V c 4 t) (iblk2 V c 5 t) (accs2 V c (t.val - 1) (Nat.lt_of_le_of_lt (Nat.sub_le _ _) t.isLt)).1 (accs2 V c (t.val - 1) (Nat.lt_of_le_of_lt (Nat.sub_le _ _) t.isLt)).2,
       out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2 t).mp h)) (iblk2 V c 0 t) (iblk2 V c 1 t) (iblk2 V c 2 t) (iblk2 V c 3 t) (iblk2 V c 4 t) (iblk2 V c 5 t) (accs2 V c (t.val - 1) (Nat.lt_of_le_of_lt (Nat.sub_le _ _) t.isLt)).1 (accs2 V c (t.val - 1) (Nat.lt_of_le_of_lt (Nat.sub_le _ _) t.isLt)).2) := by
  rw [accs2, dif_neg h0]

def out2_6At (c : Dev nD) (t : Fin cfg2.N) : Vec F S1000x128 .f32 :=
  if h0 : t.val % 25 = 0 then
    out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h0) (iblk2 V c 0 t) (iblk2 V c 1 t) (iblk2 V c 2 t) (iblk2 V c 3 t) (iblk2 V c 4 t) (iblk2 V c 5 t)
  else
    out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2 t).mp h)) (iblk2 V c 0 t) (iblk2 V c 1 t) (iblk2 V c 2 t) (iblk2 V c 3 t) (iblk2 V c 4 t) (iblk2 V c 5 t) (accs2 V c (t.val - 1) (Nat.lt_of_le_of_lt (Nat.sub_le _ _) t.isLt)).1 (accs2 V c (t.val - 1) (Nat.lt_of_le_of_lt (Nat.sub_le _ _) t.isLt)).2

def acc2_7At (c : Dev nD) (t : Fin cfg2.N) : Vec F S8x128 .f32 := (accs2 V c t.val t.isLt).1
def acc2_8At (c : Dev nD) (t : Fin cfg2.N) : Vec F S8x128 .f32 := (accs2 V c t.val t.isLt).2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6At V c t
    | ⟨7, _⟩ => acc2_7At V c t
    | ⟨8, _⟩ => acc2_8At V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6At V c t := by dsimp only [dat2]
theorem after2_7 (c : Dev nD) (t : Fin cfg2.N) : (dat2 V c).after 7 t = acc2_7At V c t := by dsimp only [dat2]
theorem after2_8 (c : Dev nD) (t : Fin cfg2.N) : (dat2 V c).after 8 t = acc2_8At V c t := by dsimp only [dat2]

/-- At every point each input window holds its block of the entry contents. -/
theorem before2_in (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
    ∧ (∀ d, (dat2 V c).before 3 t d = iblk2 V c 3 t) ∧ (∀ d, (dat2 V c).before 4 t d = iblk2 V c 4 t) ∧ (∀ d, (dat2 V c).before 5 t d = iblk2 V c 5 t) := by
  refine ⟨?_, ?_, ?_, ?_, ?_, ?_⟩ <;>
  exact fun d => ((dat2 V c).before_in_eq_fetched _ rfl (fun _ => rfl) (fun _ _ _ => rfl)
    (fun t => by unfold Dat.blockOf; dsimp only [dat2, iblk2]; try rfl) t d).trans
    (by unfold Dat.fetched Dat.blockOf iblk2; rw [A_eq2]; try rfl)

/-- Away from a row's first point the running sums are as the point before left them. -/
theorem before2_7_B (c : Dev nD) (t : Fin cfg2.N) (h0 : ¬t.val % 25 = 0) (d) :
    (dat2 V c).before 7 t d = (accs2 V c (t.val - 1) (Nat.lt_of_le_of_lt (Nat.sub_le _ _) t.isLt)).1 := by
  have hN : t.val < 50 := lt_of_lt_of_eq t.isLt (show cfg2.N = 50 from N_2)
  rw [Dat.before_out_kept _ 7 rfl t (by omega) (Bool.eq_false_iff.mpr fun h => by have := (flush2_7 _).mp h; dsimp only at this; omega)
    (fun _ => rfl) (fun _ _ => rfl)]
  dsimp only [dat2, acc2_7At]
theorem before2_8_B (c : Dev nD) (t : Fin cfg2.N) (h0 : ¬t.val % 25 = 0) (d) :
    (dat2 V c).before 8 t d = (accs2 V c (t.val - 1) (Nat.lt_of_le_of_lt (Nat.sub_le _ _) t.isLt)).2 := by
  have hN : t.val < 50 := lt_of_lt_of_eq t.isLt (show cfg2.N = 50 from N_2)
  rw [Dat.before_out_kept _ 8 rfl t (by omega) (Bool.eq_false_iff.mpr fun h => by have := (flush2_8 _).mp h; dsimp only at this; omega)
    (fun _ => rfl) (fun _ _ => rfl)]
  dsimp only [dat2, acc2_8At]

def bodyPre2 (c : Dev nD) (t : Fin cfg2.N) : sProp 𝕄 :=
  iprop((dat2 V c).Φ t.castSucc ∗ (dat2 V c).owesAt () t.castSucc
    ∗ (∃ d, owns c.tc (ms2_0 t) fullShare ((dat2 V c).before 0 t d))
    ∗ (∃ d, owns c.tc (ms2_1 t) fullShare ((dat2 V c).before 1 t d))
    ∗ (∃ d, owns c.tc (ms2_2 t) fullShare ((dat2 V c).before 2 t d))
    ∗ (∃ d, owns c.tc (ms2_3 t) fullShare ((dat2 V c).before 3 t d))
    ∗ (∃ d, owns c.tc (ms2_4 t) fullShare ((dat2 V c).before 4 t d))
    ∗ (∃ d, owns c.tc (ms2_5 t) fullShare ((dat2 V c).before 5 t d))
    ∗ (∃ d, owns c.tc (ms2_6 t) fullShare ((dat2 V c).before 6 t d))
    ∗ (∃ d, owns c.tc (ms2_7 t) fullShare ((dat2 V c).before 7 t d))
    ∗ (∃ d, owns c.tc (ms2_8 t) fullShare ((dat2 V c).before 8 t d)))

def bodyPost2 (c : Dev nD) (t : Fin cfg2.N) : sProp 𝕄 :=
  iprop((dat2 V c).Φ t.castSucc ∗ (dat2 V c).owesAt () t.castSucc
    ∗ owns c.tc (ms2_0 t) fullShare (iblk2 V c 0 t)
    ∗ owns c.tc (ms2_1 t) fullShare (iblk2 V c 1 t)
    ∗ owns c.tc (ms2_2 t) fullShare (iblk2 V c 2 t)
    ∗ owns c.tc (ms2_3 t) fullShare (iblk2 V c 3 t)
    ∗ owns c.tc (ms2_4 t) fullShare (iblk2 V c 4 t)
    ∗ owns c.tc (ms2_5 t) fullShare (iblk2 V c 5 t)
    ∗ owns c.tc (ms2_6 t) fullShare (out2_6At V c t)
    ∗ owns c.tc (ms2_7 t) fullShare (accs2 V c t.val t.isLt).1
    ∗ owns c.tc (ms2_8 t) fullShare (accs2 V c t.val t.isLt).2)

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2 out2_6At
  obtain ⟨b0, b1, b2, b3, b4, b5⟩ := before2_in V c t
  simp only [b0, b1, b2, b3, b4, b5]
  by_cases h0 : t.val % 25 = 0
  · rw [accs2_A V c t h0, dif_pos h0]
    dsimp only
    unfold out2_A_6 out2_A_7 out2_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ ((hcond2 t).mpr h0) _ _ _ _ _ _).2.2.2 Set.univ _)
    iframe H0 H1 H2 H3 H4 H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    iframe HΦ Ho H0 H1 H2 H3 H4 H5
    isplitl [H6]
    · unfold owns; iexists _; isplitr
      swap; · iexact H6
      ipureintro; exact View.read_writes_eq_canon _ _ _ (View.cover_of_tiledL _ S1000x128.size (by sl_kernel_rfl))
    isplitl [H7]
    · unfold owns; iexists _; isplitr
      swap; · iexact H7
      ipureintro; exact View.read_writes_eq_canon _ _ _ (View.cover_of_tiledL _ S8x128.size (by sl_kernel_rfl))
    unfold owns; iexists _; isplitr
    swap; · iexact H8
    ipureintro; exact View.read_writes_eq_canon _ _ _ (View.cover_of_tiledL _ S8x128.size (by sl_kernel_rfl))
  · rw [accs2_B V c t h0, dif_neg h0]
    dsimp only
    simp only [before2_7_B V c t h0, before2_8_B V c t h0]
    unfold out2_B_6 out2_B_7 out2_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ (fun h => h0 ((hcond2 t).mp h)) _ _ _ _ _ _ _ _).2.2.2 Set.univ _)
    iframe H0 H1 H2 H3 H4 H5 H7 H8
    isplitl [H6]; · iexists _; iexact H6
    iintro ⟨H0, H1, H2, H3, H4, H5, ⟨%e6, H6⟩, H7, H8⟩
    iframe HΦ Ho H0 H1 H2 H3 H4 H5
    isplitl [H6]
    · unfold owns; iexists _; isplitr
      swap; · iexact H6
      ipureintro; exact View.read_writes_eq_canon _ _ _ (View.cover_of_tiledL _ S1000x128.size (by sl_kernel_rfl))
    isplitl [H7]
    · unfold owns; iexists _; isplitr
      swap; · iexact H7
      ipureintro; exact (read_writes_eq_laid2 _ _ _).trans (congrArg (fun X => laid2 X _) ((hs2_7 t).read_unread _))
    unfold owns; iexists _; isplitr
    swap; · iexact H8
    ipureintro; exact (read_writes_eq_laid2 _ _ _).trans (congrArg (fun X => laid2 X _) ((hs2_8 t).read_unread _))

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«403660_j89129161327109_3_alg».proof.Proof.KI.RegLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rEdge3 : Rect S2048x128 := Rect.unit (s := S2048x128) ![0, 0] S2048x128.size inb_S2048x128_S2048x128_0_0
abbrev rWeight3 : Rect S128x128 := Rect.unit (s := S128x128) ![0, 0] S128x128.size inb_S128x128_S128x128_0_0
abbrev rRow3 : Rect S1x128 := Rect.unit (s := S1x128) ![0, 0] S1x128.size inb_S1x128_S1x128_0_0

def bnOut3 (e : Vec F S2048x128 .f32) (we : Vec F S128x128 .f32) (mean var g b : Vec F S1x128 .f32) : Vec F S2048x128 .f32 :=
  View.canon [⟨rEdge3, k3_pay1 (View.ld e rEdge3) (View.ld we rWeight3) (View.ld var rRow3) (View.ld g rRow3) (View.ld mean rRow3) (View.ld b rRow3)⟩]

/-- The body keeps its six inputs and stores the normalised block over the whole output buffer. -/
theorem sound_kernel3 (c : Dev nD) (E : Set ℕ) (i : grid3.Coords)
    (arg1 : Memref sig .tc .vmem S2048x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S2048x128 .f32) (harg7 : arg7.IsWhole)
    (e : Vec F S2048x128 .f32) (we : Vec F S128x128 .f32) (mean var g b : Vec F S1x128 .f32) (d : Vec F S2048x128 .f32) (K : PUnit → sProp 𝕄) :
    iprop(owns (c : Thread nD τ) arg1 fullShare e ∗ owns (c : Thread nD τ) arg2 fullShare we
        ∗ owns (c : Thread nD τ) arg3 fullShare mean ∗ owns (c : Thread nD τ) arg4 fullShare var
        ∗ owns (c : Thread nD τ) arg5 fullShare g ∗ owns (c : Thread nD τ) arg6 fullShare b
        ∗ owns (c : Thread nD τ) arg7 fullShare d
        ∗ (iprop(owns (c : Thread nD τ) arg1 fullShare e ∗ owns (c : Thread nD τ) arg2 fullShare we
            ∗ owns (c : Thread nD τ) arg3 fullShare mean ∗ owns (c : Thread nD τ) arg4 fullShare var
            ∗ owns (c : Thread nD τ) arg5 fullShare g ∗ owns (c : Thread nD τ) arg6 fullShare b
            ∗ owns (c : Thread nD τ) arg7 fullShare (bnOut3 e we mean var g b)) -∗ K ⟨⟩))
      ⊢ wp frame (wpE (defs₀ (F := F)) Variants.none c none) E (cc3__e2_bn_kernel i arg1 harg1 arg2 harg2 arg3 harg3 arg4 harg4 arg5 harg5 arg6 harg6 arg7 harg7) K := by
  simp only [cc3__e2_bn_kernel_eq_skeleton]; unfold cc3__e2_bn_kernel_skel
  rw [owns_eq_rep (c : Thread nD τ) arg1, owns_eq_rep (c : Thread nD τ) arg2, owns_eq_rep (c : Thread nD τ) arg3,
      owns_eq_rep (c : Thread nD τ) arg4, owns_eq_rep (c : Thread nD τ) arg5, owns_eq_rep (c : Thread nD τ) arg6]
  unfold owns
  iintro ⟨H0, H1, H2, H3, H4, H5, ⟨%f, -, H6⟩, Hk⟩
  sl_exec
  sl_step
  iapply Hk
  iframe H0 H1 H2 H3 H4 H5
  iexists _; isplitr
  swap; · iexact H6
  ipureintro
  rw [View.readAt_rep, View.readAt_rep, View.readAt_rep, View.readAt_rep, View.readAt_rep, View.readAt_rep]
  exact View.read_writes_eq_canon _ _ _ (cover_one zeros2 _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => bnOut3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) :
    (dat3 V c).after 6 t = bnOut3 (iblk3 V c 0 t) (iblk3 V c 1 t) (iblk3 V c 2 t) (iblk3 V c 3 t) (iblk3 V c 4 t) (iblk3 V c 5 t) := by
  dsimp only [dat3]

/-- An input window's buffer holds, when the body runs, what the body leaves in it: its block. -/
theorem before3_in (c : Dev nD) (w : Fin cfg3.W) (hw : (cfg3.win w).isOut = false) (t : Fin cfg3.N) (d) :
    (dat3 V c).before w t d = (dat3 V c).after w t := by
  fin_cases w
  all_goals first
    | exact absurd hw (by decide)
    | exact before_in_eq_blk _ _ hw (fun _ => rfl) (fun _ _ _ => rfl) (A_eq3 V c _) _ (fun _ _ => rfl) (fun _ => rfl) t d

theorem after3_6' (c : Dev nD) (t : Fin cfg3.N) : (dat3 V c).after 6 t = bnOut3 ((dat3 V c).after 0 t) ((dat3 V c).after 1 t) ((dat3 V c).after 2 t) ((dat3 V c).after 3 t) ((dat3 V c).after 4 t) ((dat3 V c).after 5 t) := by
  dsimp only [dat3]

/-- At every point the inputs' buffers hold their blocks, so the body's triple applies; the invariant passes through. -/
theorem body_obligation3 (c : Dev nD) : BodyObligation (dat3 (F := F) V c) (defs₀ (F := F)) Variants.none () Set.univ := fun t => by
  rw [bigSep_W3, bigSep_W3]
  show _ ⊢ wp frame _ _ (bodyAt3 t) _
  simp only [before3_in V c 0 rfl, before3_in V c 1 rfl, before3_in V c 2 rfl, before3_in V c 3 rfl, before3_in V c 4 rfl, before3_in V c 5 rfl]
  rw [show (dat3 V c).Φ t.succ = (dat3 V c).Φ t.castSucc from rfl,
    show (dat3 V c).owesAt () t.succ = (dat3 V c).owesAt () t.castSucc from rfl, after3_6']
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    ((dat3 V c).after 0 t) ((dat3 V c).after 1 t) ((dat3 V c).after 2 t) ((dat3 V c).after 3 t) ((dat3 V c).after 4 t) ((dat3 V c).after 5 t) ((dat3 V c).before 6 t d6) _)
  iframe
  iintro ⟨H0, H1, H2, H3, H4, H5, H6⟩
  iframe

end Cert.KernelIdeal.Hand
-- ==== Proof.KI.Reg4.lean ====
import proofs.«403660_j89129161327109_3_alg».proof.Proof.Gen.KernelIdeal.Launch
import proofs.«403660_j89129161327109_3_alg».proof.Proof.Gen.KernelIdeal.Skeleton
import proofs.«403660_j89129161327109_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop :=
  (Scalar.cmpi .ne (Scalar.extui (Scalar.cmpi .eq (BitVec.ofNat 32 (i 1).val) 0#32)) 0#32) = 1#1

theorem hcond4_0 : ∀ t : Fin cfg4.N, cond4_0 (grid4.coords t) ↔ t.val % 25 = 0 :=
  (by decide +kernel : ∀ t : Fin grid4.N, cond4_0 (grid4.coords t) ↔ t.val % 25 = 0)

abbrev ms4_0 (t : Fin cfg4.N) : Memref sig .tc .vmem S1000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S256x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1000x128 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S8x128 .f32 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S8x128 .f32 := win4_11.stage (cfg4.slots t 11)
abbrev hs4_11 (t : Fin cfg4.N) : (ms4_11 t).IsWhole := hstage4_11 ((cfg4.slots t 11).cast nbuf4_11)

abbrev VO4_9 : View sig .tc .vmem S1000x128 .f32 := (Memref.whole cc4_stg9_0 : Memref sig .tc .vmem S1000x128 .f32).view
abbrev VO4_10 : View sig .tc .vmem S8x128 .f32 := (Memref.whole cc4_stg10_0 : Memref sig .tc .vmem S8x128 .f32).view
abbrev VO4_11 : View sig .tc .vmem S8x128 .f32 := (Memref.whole cc4_stg11_0 : Memref sig .tc .vmem S8x128 .f32).view

/-- Owning a whole memref at `x` is holding its buffer at the contents that read `x`. -/
theorem owns_whole4 (c : Dev nD) {sp : Space} {sh : Shape} {e : EltTy} {m : Memref sig (c : Thread nD τ).2.kind sp sh e} (h : m.IsWhole) (x : sh.Idx → Elt F e) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _
    iintro ⟨%f, %hf, H⟩; obtain rfl := h.eq_unread hf; iexact H
  · show (_ : sProp 𝕄) ⊢ _
    iintro H; iexists _; isplitr; · ipureintro; exact h.read_unread _
    iexact H

section Body

variable (c : Dev nD) (i : grid4.Coords)
  (arg2 : Memref sig .tc .vmem S1000x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S128x256 .f32) (harg7 : arg7.IsWhole)
  (arg8 : Memref sig .tc .vmem S1x256 .f32) (harg8 : arg8.IsWhole)
  (arg9 : Memref sig .tc .vmem S256x128 .f32) (harg9 : arg9.IsWhole)
  (arg10 : Memref sig .tc .vmem S1x128 .f32) (harg10 : arg10.IsWhole)
  (arg11 : Memref sig .tc .vmem S1000x128 .f32) (harg11 : arg11.IsWhole)
  (arg12 : Memref sig .tc .vmem S8x128 .f32) (harg12 : arg12.IsWhole)
  (arg13 : Memref sig .tc .vmem S8x128 .f32) (harg13 : arg13.IsWhole)

section A
variable (hc0 : cond4_0 i) (x0 : Vec F S1000x128 .f32) (x1 x2 x3 x4 : Vec F S1x128 .f32) (x5 : Vec F S128x256 .f32) (x6 : Vec F S1x256 .f32) (x7 : Vec F S256x128 .f32) (x8 : Vec F S1x128 .f32)

set_option maxHeartbeats 2000000 in
def kernelRun4_A :
    Σ' (L9 : List (View.Piece (Elt F) S1000x128 .f32)), Σ' (L10 : List (View.Piece (Elt F) S8x128 .f32)), { L11 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc4__ffn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc4__ffn_kernel_eq_skeleton]; unfold cc4__ffn_kernel_skel
    simp only [k4_part1_eq_skeleton]
    rw [owns_whole4 c harg2, owns_whole4 c harg3, owns_whole4 c harg4, owns_whole4 c harg5, owns_whole4 c harg6, owns_whole4 c harg7, owns_whole4 c harg8, owns_whole4 c harg9, owns_whole4 c harg10]
    unfold owns
    iintro ⟨H0, H1, H2, H3, H4, H5, H6, H7, H8, ⟨%d9, %f9, -, H9⟩, ⟨%d10, %f10, -, H10⟩, ⟨%d11, %f11, -, H11⟩, Hk⟩
    sl_exec (disch := first | exact hc0)
    sl_step
    iapply Hk
    iframe H0 H1 H2 H3 H4 H5 H6 H7 H8
    isplitl [H9]; · iexists _; iexact H9
    isplitl [H10]; · iexists _; iexact H10
    iexists _; iexact H11

def out4_A_9 : Vec F S1000x128 .f32 := VO4_9.read (Elt F) (VO4_9.writes (Elt F) VO4_9.junk (kernelRun4_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)
def out4_A_10 : Vec F S8x128 .f32 := VO4_10.read (Elt F) (VO4_10.writes (Elt F) VO4_10.junk (kernelRun4_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1)
def out4_A_11 : Vec F S8x128 .f32 := VO4_11.read (Elt F) (VO4_11.writes (Elt F) VO4_11.junk (kernelRun4_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1)
end A

section B
variable (hc0 : ¬cond4_0 i) (x0 : Vec F S1000x128 .f32) (x1 x2 x3 x4 : Vec F S1x128 .f32) (x5 : Vec F S128x256 .f32) (x6 : Vec F S1x256 .f32) (x7 : Vec F S256x128 .f32) (x8 : Vec F S1x128 .f32) (xo10 xo11 : Vec F S8x128 .f32)

set_option maxHeartbeats 2000000 in
def kernelRun4_B :
    Σ' (L9 : List (View.Piece (Elt F) S1000x128 .f32)), Σ' (L10 : List (View.Piece (Elt F) S8x128 .f32)), { L11 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10 ∗ owns (c : Thread nD τ) arg13 fullShare xo11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xo10) L10) ∗ (arg13.view.loc (c : Thread nD τ) ↦[arg13.view.set]{fullShare} arg13.view.writes (Elt F) (harg13.unread xo11) L11)) -∗ K ⟨⟩))
          ⊢ wp frame (wpE (defs₀ (F := F)) Variants.none c none) E (cc4__ffn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc4__ffn_kernel_eq_skeleton]; unfold cc4__ffn_kernel_skel
    simp only [k4_part1_eq_skeleton]
    rw [owns_whole4 c harg2, owns_whole4 c harg3, owns_whole4 c harg4, owns_whole4 c harg5, owns_whole4 c harg6, owns_whole4 c harg7, owns_whole4 c harg8, owns_whole4 c harg9, owns_whole4 c harg10, owns_whole4 c harg12, owns_whole4 c harg13]
    unfold owns
    iintro ⟨H0, H1, H2, H3, H4, H5, H6, H7, H8, ⟨%d9, %f9, -, H9⟩, H10, H11, Hk⟩
    sl_exec (disch := first | exact hc0)
    sl_step
    iapply Hk
    iframe H0 H1 H2 H3 H4 H5 H6 H7 H8
    isplitl [H9]; · iexists _; iexact H9
    isplitl [H10]; · iexact H10
    iexact H11

def out4_B_9 : Vec F S1000x128 .f32 := VO4_9.read (Elt F) (VO4_9.writes (Elt F) VO4_9.junk (kernelRun4_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).1)
def out4_B_10 : Vec F S8x128 .f32 := arg12.view.read (Elt F) (arg12.view.writes (Elt F) (harg12.unread xo10) (kernelRun4_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).2.1)
def out4_B_11 : Vec F S8x128 .f32 := arg13.view.read (Elt F) (arg13.view.writes (Elt F) (harg13.unread xo11) (kernelRun4_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).2.2.1)
end B

end Body

def outsA4 (c : Dev nD) (t : Fin cfg4.N) (h0 : t.val % 25 = 0) : Vec F S1000x128 .f32 × Vec F S8x128 .f32 × Vec F S8x128 .f32 :=
  (out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t),
   out4_A_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t),
   out4_A_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t))

def outsB4 (c : Dev nD) (t : Fin cfg4.N) (h0 : ¬t.val % 25 = 0) (xo10 : Vec F S8x128 .f32) (xo11 : Vec F S8x128 .f32) : Vec F S1000x128 .f32 × Vec F S8x128 .f32 × Vec F S8x128 .f32 :=
  (out4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) xo10 xo11,
   out4_B_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) xo10 xo11,
   out4_B_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) xo10 xo11)

def outsAt4 (c : Dev nD) : (n : ℕ) → n < cfg4.N → Vec F S1000x128 .f32 × Vec F S8x128 .f32 × Vec F S8x128 .f32
  | 0, hn => outsA4 V c ⟨0, hn⟩ (Nat.zero_mod _)
  | n + 1, hn =>
    if h0 : (n + 1) % 25 = 0 then outsA4 V c ⟨n + 1, hn⟩ h0
    else outsB4 V c ⟨n + 1, hn⟩ h0 (outsAt4 c n (Nat.lt_of_succ_lt hn)).2.1 (outsAt4 c n (Nat.lt_of_succ_lt hn)).2.2

theorem outsAt4_A (c : Dev nD) (t : Fin cfg4.N) (h0 : t.val % 25 = 0) : outsAt4 V c t.val t.isLt = outsA4 V c t h0 := by
  obtain ⟨n, hn⟩ := t
  cases n with
  | zero => exact rfl
  | succ n => exact (dif_pos h0).trans rfl

theorem outsAt4_B (c : Dev nD) (t : Fin cfg4.N) (h0 : ¬t.val % 25 = 0) :
    outsAt4 V c t.val t.isLt
      = outsB4 V c t h0 (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => (outsAt4 V c t.val t.isLt).1
    | ⟨10, _⟩ => (outsAt4 V c t.val t.isLt).2.1
    | ⟨11, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_9 (c : Dev nD) (t : Fin cfg4.N) : (dat4 V c).after 9 t = (outsAt4 V c t.val t.isLt).1 := by dsimp only [dat4]
theorem after4_10 (c : Dev nD) (t : Fin cfg4.N) : (dat4 V c).after 10 t = (outsAt4 V c t.val t.isLt).2.1 := by dsimp only [dat4]
theorem after4_11 (c : Dev nD) (t : Fin cfg4.N) : (dat4 V c).after 11 t = (outsAt4 V c t.val t.isLt).2.2 := by dsimp only [dat4]

/-- At every point each input window holds its block of the entry contents. -/
theorem before4_in (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t)
    ∧ (∀ d, (dat4 V c).before 3 t d = iblk4 V c 3 t) ∧ (∀ d, (dat4 V c).before 4 t d = iblk4 V c 4 t) ∧ (∀ d, (dat4 V c).before 5 t d = iblk4 V c 5 t)
    ∧ (∀ d, (dat4 V c).before 6 t d = iblk4 V c 6 t) ∧ (∀ d, (dat4 V c).before 7 t d = iblk4 V c 7 t) ∧ (∀ d, (dat4 V c).before 8 t d = iblk4 V c 8 t) := by
  refine ⟨?_, ?_, ?_, ?_, ?_, ?_, ?_, ?_, ?_⟩ <;>
  exact fun d => ((dat4 V c).before_in_eq_fetched _ rfl (fun _ => rfl) (fun _ _ _ => rfl)
    (fun t => by unfold Dat.blockOf; dsimp only [dat4, iblk4]; try rfl) t d).trans
    (by unfold Dat.fetched Dat.blockOf iblk4; rw [A_eq4]; try rfl)

/-- Away from a row's first point the accumulators are as the point before left them. -/
theorem before4_10_B (c : Dev nD) (t : Fin cfg4.N) (h0 : ¬t.val % 25 = 0) (d) :
    (dat4 V c).before 10 t d = (outsAt4 V c (t.val - 1) (Nat.lt_of_le_of_lt (Nat.sub_le _ _) t.isLt)).2.1 := by
  have hN : t.val < 50 := lt_of_lt_of_eq t.isLt (show cfg4.N = 50 from N_4)
  rw [Dat.before_out_kept _ 10 rfl t (by omega) (Bool.eq_false_iff.mpr fun h => by have := (flush4_10 _).mp h; dsimp only at this; omega)
    (fun _ => rfl) (fun _ _ => rfl)]
  dsimp only [dat4]
theorem before4_11_B (c : Dev nD) (t : Fin cfg4.N) (h0 : ¬t.val % 25 = 0) (d) :
    (dat4 V c).before 11 t d = (outsAt4 V c (t.val - 1) (Nat.lt_of_le_of_lt (Nat.sub_le _ _) t.isLt)).2.2 := by
  have hN : t.val < 50 := lt_of_lt_of_eq t.isLt (show cfg4.N = 50 from N_4)
  rw [Dat.before_out_kept _ 11 rfl t (by omega) (Bool.eq_false_iff.mpr fun h => by have := (flush4_11 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns c.tc (ms4_0 t) fullShare ((dat4 V c).before 0 t d))
    ∗ (∃ d, owns c.tc (ms4_1 t) fullShare ((dat4 V c).before 1 t d))
    ∗ (∃ d, owns c.tc (ms4_2 t) fullShare ((dat4 V c).before 2 t d))
    ∗ (∃ d, owns c.tc (ms4_3 t) fullShare ((dat4 V c).before 3 t d))
    ∗ (∃ d, owns c.tc (ms4_4 t) fullShare ((dat4 V c).before 4 t d))
    ∗ (∃ d, owns c.tc (ms4_5 t) fullShare ((dat4 V c).before 5 t d))
    ∗ (∃ d, owns c.tc (ms4_6 t) fullShare ((dat4 V c).before 6 t d))
    ∗ (∃ d, owns c.tc (ms4_7 t) fullShare ((dat4 V c).before 7 t d))
    ∗ (∃ d, owns c.tc (ms4_8 t) fullShare ((dat4 V c).before 8 t d))
    ∗ (∃ d, owns c.tc (ms4_9 t) fullShare ((dat4 V c).before 9 t d))
    ∗ (∃ d, owns c.tc (ms4_10 t) fullShare ((dat4 V c).before 10 t d))
    ∗ (∃ d, owns c.tc (ms4_11 t) fullShare ((dat4 V c).before 11 t d)))

def bodyPost4 (c : Dev nD) (t : Fin cfg4.N) : sProp 𝕄 :=
  iprop((dat4 V c).Φ t.castSucc ∗ (dat4 V c).owesAt () t.castSucc
    ∗ owns c.tc (ms4_0 t) fullShare (iblk4 V c 0 t)
    ∗ owns c.tc (ms4_1 t) fullShare (iblk4 V c 1 t)
    ∗ owns c.tc (ms4_2 t) fullShare (iblk4 V c 2 t)
    ∗ owns c.tc (ms4_3 t) fullShare (iblk4 V c 3 t)
    ∗ owns c.tc (ms4_4 t) fullShare (iblk4 V c 4 t)
    ∗ owns c.tc (ms4_5 t) fullShare (iblk4 V c 5 t)
    ∗ owns c.tc (ms4_6 t) fullShare (iblk4 V c 6 t)
    ∗ owns c.tc (ms4_7 t) fullShare (iblk4 V c 7 t)
    ∗ owns c.tc (ms4_8 t) fullShare (iblk4 V c 8 t)
    ∗ owns c.tc (ms4_9 t) fullShare (outsAt4 V c t.val t.isLt).1
    ∗ owns c.tc (ms4_10 t) fullShare (outsAt4 V c t.val t.isLt).2.1
    ∗ owns c.tc (ms4_11 t) fullShare (outsAt4 V c t.val t.isLt).2.2)

set_option maxHeartbeats 2000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  obtain ⟨b0, b1, b2, b3, b4, b5, b6, b7, b8⟩ := before4_in V c t
  simp only [b0, b1, b2, b3, b4, b5, b6, b7, b8]
  by_cases h0 : t.val % 25 = 0
  · rw [outsAt4_A V c t h0]
    unfold outsA4 out4_A_9 out4_A_10 out4_A_11; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun4_A c (grid4.coords t) _ _ _ _ _ _ _ _ _ _ _ _ _ _ _ _ _ _ _ _ _ _ _ _ ((hcond4_0 t).mpr h0) _ _ _ _ _ _ _ _ _).2.2.2 Set.univ _)
    iframe H0 H1 H2 H3 H4 H5 H6 H7 H8
    isplitl [H9]; · iexists _; iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    iframe HΦ Ho H0 H1 H2 H3 H4 H5 H6 H7 H8
    isplitl [H9]
    · unfold owns; iexists _; isplitr
      swap; · iexact H9
      ipureintro; exact View.read_writes_of_cover _ _ _ _ _ (View.cover_of_wholeMem _ (by sl_whole_mem))
    isplitl [H10]
    · unfold owns; iexists _; isplitr
      swap; · iexact H10
      ipureintro; exact View.read_writes_of_cover _ _ _ _ _ (View.cover_of_wholeMem _ (by sl_whole_mem))
    unfold owns; iexists _; isplitr
    swap; · iexact H11
    ipureintro; exact View.read_writes_of_cover _ _ _ _ _ (View.cover_of_wholeMem _ (by sl_whole_mem))
  · rw [outsAt4_B V c t h0]
    simp only [before4_10_B V c t h0, before4_11_B V c t h0]
    unfold outsB4 out4_B_9 out4_B_10 out4_B_11; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun4_B c (grid4.coords t) _ _ _ _ _ _ _ _ _ _ _ _ _ _ _ _ _ _ _ _ _ _ _ _ (fun h => h0 ((hcond4_0 t).mp h)) _ _ _ _ _ _ _ _ _ _ _).2.2.2 Set.univ _)
    iframe H0 H1 H2 H3 H4 H5 H6 H7 H8 H10 H11
    isplitl [H9]; · iexists _; iexact H9
    iintro ⟨H0, H1, H2, H3, H4, H5, H6, H7, H8, ⟨%e9, H9⟩, H10, H11⟩
    iframe HΦ Ho H0 H1 H2 H3 H4 H5 H6 H7 H8
    isplitl [H9]
    · unfold owns; iexists _; isplitr
      swap; · iexact H9
      ipureintro; exact View.read_writes_of_cover _ _ _ _ _ (View.cover_of_wholeMem _ (by sl_whole_mem))
    isplitl [H10]
    · unfold owns; iexists _; isplitr
      swap; · iexact H10
      ipureintro; exact rfl
    unfold owns; iexists _; isplitr
    swap; · iexact H11
    ipureintro; exact rfl

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«403660_j89129161327109_3_alg».proof.Proof.KI.RegLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_blk : Rect S1000x128 := Rect.unit (s := S1000x128) ![0, 0] S1000x128.size inb_S1000x128_S1000x128_0_0
abbrev r5_row : Rect S1x128 := Rect.unit (s := S1x128) ![0, 0] S1x128.size inb_S1x128_S1x128_0_0

def out5_5 (x0 : Vec F S1000x128 .f32) (x1 x2 x3 x4 : Vec F S1x128 .f32) : Vec F S1000x128 .f32 :=
  View.canon [⟨r5_blk, k5_pay1 (View.ld x0 r5_blk) (View.ld x2 r5_row) (View.ld x3 r5_row) (View.ld x1 r5_row) (View.ld x4 r5_row)⟩]

/-- The body keeps its five inputs and stores the normalised block over the whole output buffer. -/
theorem sound_kernel5 (c : Dev nD) (E : Set ℕ) (i : grid5.Coords)
    (arg1 : Memref sig .tc .vmem S1000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1000x128 .f32) (harg6 : arg6.IsWhole)
    (x0 : Vec F S1000x128 .f32) (x1 x2 x3 x4 : Vec F S1x128 .f32) (d : Vec F S1000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ owns (c : Thread nD τ) arg6 fullShare d
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  rw [owns_eq_rep (c : Thread nD τ) arg1, owns_eq_rep (c : Thread nD τ) arg2, owns_eq_rep (c : Thread nD τ) arg3,
      owns_eq_rep (c : Thread nD τ) arg4, owns_eq_rep (c : Thread nD τ) arg5]
  unfold owns
  iintro ⟨H0, H1, H2, H3, H4, ⟨%f, -, H5⟩, Hk⟩
  sl_exec
  sl_step
  iapply Hk
  iframe H0 H1 H2 H3 H4
  iexists _; isplitr
  swap; · iexact H5
  ipureintro
  rw [View.readAt_rep, View.readAt_rep, View.readAt_rep, View.readAt_rep, View.readAt_rep]
  exact View.read_writes_eq_canon _ _ _ (cover_one zeros2 _ _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- An input window's buffer holds, when the body runs, what the body leaves in it: its block. -/
theorem before5_in (c : Dev nD) (w : Fin cfg5.W) (hw : (cfg5.win w).isOut = false) (t : Fin cfg5.N) (d) :
    (dat5 V c).before w t d = (dat5 V c).after w t := by
  fin_cases w
  all_goals first
    | exact absurd hw (by decide)
    | exact before_in_eq_blk _ _ hw (fun _ => rfl) (fun _ _ _ => rfl) (A_eq5 V c _) _ (fun _ _ => rfl) (fun _ => rfl) t d

theorem after5_5' (c : Dev nD) (t : Fin cfg5.N) : (dat5 V c).after 5 t = out5_5 ((dat5 V c).after 0 t) ((dat5 V c).after 1 t) ((dat5 V c).after 2 t) ((dat5 V c).after 3 t) ((dat5 V c).after 4 t) := by
  dsimp only [dat5]

/-- At every point the inputs' buffers hold their blocks, so the body's triple applies; the invariant passes through. -/
theorem body_obligation5 (c : Dev nD) : BodyObligation (dat5 (F := F) V c) (defs₀ (F := F)) Variants.none () Set.univ := fun t => by
  rw [bigSep_W5, bigSep_W5]
  show _ ⊢ wp frame _ _ (bodyAt5 t) _
  simp only [before5_in V c 0 rfl, before5_in V c 1 rfl, before5_in V c 2 rfl, before5_in V c 3 rfl, before5_in V c 4 rfl]
  rw [show (dat5 V c).Φ t.succ = (dat5 V c).Φ t.castSucc from rfl,
    show (dat5 V c).owesAt () t.succ = (dat5 V c).owesAt () t.castSucc from rfl, after5_5']
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    ((dat5 V c).after 0 t) ((dat5 V c).after 1 t) ((dat5 V c).after 2 t) ((dat5 V c).after 3 t) ((dat5 V c).after 4 t) ((dat5 V c).before 5 t d5) _)
  iframe
  iintro ⟨H0, H1, H2, H3, H4, H5⟩
  iframe

end Cert.KernelIdeal.Hand
-- ==== Proof.KI.Outs.lean ====
import proofs.«403660_j89129161327109_3_alg».proof.Proof.Gen.KernelIdeal.Regions
import proofs.«403660_j89129161327109_3_alg».proof.Proof.KI.Fam
import proofs.«403660_j89129161327109_3_alg».proof.Proof.KI.Reg0
import proofs.«403660_j89129161327109_3_alg».proof.Proof.KI.Reg1
import proofs.«403660_j89129161327109_3_alg».proof.Proof.KI.Reg2
import proofs.«403660_j89129161327109_3_alg».proof.Proof.KI.Reg3
import proofs.«403660_j89129161327109_3_alg».proof.Proof.KI.Reg4
import proofs.«403660_j89129161327109_3_alg».proof.Proof.KI.Reg5
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- What a region entered from `W` leaves: its arrays as after the last grid point, every other buffer as entered. -/
def lft {cfg : Pipeline.Cfg sig Λ₀} (d : ((c : Dev nD) → (b : Ref sig .tc) → Buf (Elt F) ((c : Thread nD τ).loc b)) →
      (c : Dev nD) → Dat τ (Elt F) Unit ℕ (UR sig nD τ) ℕ cfg c)
    (W : Dev nD → Valuation τ sig (Elt F)) (c : Dev nD) : Valuation τ sig (Elt F) :=
  Pipeline.withArrays cfg.spec c (W c) fun w => (d (atTc W) c).arrAt w cfg.N

/-- At one of its arrays that is what the pipeline leaves there, also with the entry valuation given in another form. -/
theorem lft_arr {cfg : Pipeline.Cfg sig Λ₀} (d : ((c : Dev nD) → (b : Ref sig .tc) → Buf (Elt F) ((c : Thread nD τ).loc b)) →
      (c : Dev nD) → Dat τ (Elt F) Unit ℕ (UR sig nD τ) ℕ cfg c) (hw : Pipeline.WinFacts cfg.spec)
    (W W' : Dev nD → Valuation τ sig (Elt F)) (e : W' = W) (c : Dev nD) (w : Fin cfg.W) :
    lft d W c (Pipeline.arrRef cfg.spec w) = (d (atTc W') c).arrAt w cfg.N :=
  e ▸ Pipeline.withArrays_arr cfg.spec hw.arr_inj c _ _ w

variable (m : (ℓ : Loc nD τ sig) → Buf (Elt F) ℓ)

/-- The record `o` with item `J`'s entries replaced by the valuation `X`. -/
def stage (o : Gen.Outs (F := F)) (J : ℕ) (X : Dev nD → Valuation τ sig (Elt F)) : Gen.Outs (F := F) :=
  fun J' r c => if J' = J then X c r else o J' r c

/-- The record of what the regions leave, region by region: each region's entry valuation reads only the stages before it. -/
def outsA : Gen.Outs (F := F) := stage (fun _ r c => m ((c : Thread nD τ).loc r)) 2 (lft dat0 (Gen.V1 m))
def outsB : Gen.Outs (F := F) := stage (outsA m) 7 (lft dat1 (Gen.V6 m (outsA m)))
def outsC : Gen.Outs (F := F) := stage (outsB m) 9 (lft dat2 (Gen.V8 m (outsB m)))
def outsD : Gen.Outs (F := F) := stage (outsC m) 11 (lft dat3 (Gen.V10 m (outsC m)))
def outsE : Gen.Outs (F := F) := stage (outsD m) 13 (lft dat4 (Gen.V12 m (outsD m)))
def outs : Gen.Outs (F := F) := stage (outsE m) 15 (lft dat5 (Gen.V14 m (outsE m)))

abbrev D0 := dat0 (atTc (Gen.V1 m))
abbrev D1 := dat1 (atTc (Gen.V6 m (outs m)))
abbrev D2 := dat2 (atTc (Gen.V8 m (outs m)))
abbrev D3 := dat3 (atTc (Gen.V10 m (outs m)))
abbrev D4 := dat4 (atTc (Gen.V12 m (outs m)))
abbrev D5 := dat5 (atTc (Gen.V14 m (outs m)))

theorem outs_main_v1 (c : Dev nD) : outs m 2 main_v1 c = (D0 m c).arrAt 2 cfg0.N := lft_arr dat0 launch0.win _ _ rfl c 2
theorem outs_main_v8_0 (c : Dev nD) : outs m 7 main_v8_0 c = (D1 m c).arrAt 7 cfg1.N := lft_arr dat1 launch1.win (Gen.V6 m (outsA m)) _ rfl c 7
theorem outs_main_v8_1 (c : Dev nD) : outs m 7 main_v8_1 c = (D1 m c).arrAt 8 cfg1.N := lft_arr dat1 launch1.win (Gen.V6 m (outsA m)) _ rfl c 8
theorem outs_main_v8_2 (c : Dev nD) : outs m 7 main_v8_2 c = (D1 m c).arrAt 9 cfg1.N := lft_arr dat1 launch1.win (Gen.V6 m (outsA m)) _ rfl c 9
theorem outs_main_v8_3 (c : Dev nD) : outs m 7 main_v8_3 c = (D1 m c).arrAt 10 cfg1.N := lft_arr dat1 launch1.win (Gen.V6 m (outsA m)) _ rfl c 10
theorem outs_main_v16_0 (c : Dev nD) : outs m 9 main_v16_0 c = (D2 m c).arrAt 6 cfg2.N := lft_arr dat2 launch2.win (Gen.V8 m (outsB m)) _ rfl c 6
theorem outs_main_v16_1 (c : Dev nD) : outs m 9 main_v16_1 c = (D2 m c).arrAt 7 cfg2.N := lft_arr dat2 launch2.win (Gen.V8 m (outsB m)) _ rfl c 7
theorem outs_main_v16_2 (c : Dev nD) : outs m 9 main_v16_2 c = (D2 m c).arrAt 8 cfg2.N := lft_arr dat2 launch2.win (Gen.V8 m (outsB m)) _ rfl c 8
theorem outs_main_v41 (c : Dev nD) : outs m 11 main_v41 c = (D3 m c).arrAt 6 cfg3.N := lft_arr dat3 launch3.win (Gen.V10 m (outsC m)) _ rfl c 6
theorem outs_main_v44_0 (c : Dev nD) : outs m 13 main_v44_0 c = (D4 m c).arrAt 9 cfg4.N := lft_arr dat4 launch4.win (Gen.V12 m (outsD m)) _ rfl c 9
theorem outs_main_v44_1 (c : Dev nD) : outs m 13 main_v44_1 c = (D4 m c).arrAt 10 cfg4.N := lft_arr dat4 launch4.win (Gen.V12 m (outsD m)) _ rfl c 10
theorem outs_main_v44_2 (c : Dev nD) : outs m 13 main_v44_2 c = (D4 m c).arrAt 11 cfg4.N := lft_arr dat4 launch4.win (Gen.V12 m (outsD m)) _ rfl c 11
theorem outs_main_v57 (c : Dev nD) : outs m 15 main_v57 c = (D5 m c).arrAt 5 cfg5.N := lft_arr dat5 launch5.win (Gen.V14 m (outsE m)) _ rfl c 5

end Cert.KernelIdeal.Hand

end
-- ==== Proof.KI.Segs.lean ====
import proofs.«403660_j89129161327109_3_alg».proof.Proof.KI.Outs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-- The one family of proof data: each pipeline's at the valuation its region is entered from. -/
abbrev pdats := famOf (D0 m) (D1 m) (D2 m) (D3 m) (D4 m) (D5 m)

/-- The six kernel regions as items of the run. -/
abbrev R0 := regOf (pdats m) 0 launch0 (Gen.V1 m) (Gen.V2 m (outs m)) (body_obligation0 _) (fun _ => {}) (A_eq0 _)
  (Gen.V2_of m _) (by decide) [2] (by decide) fun c => (outs_main_v1 m c).symm
abbrev R1 := regOf (pdats m) 1 launch1 (Gen.V6 m (outs m)) (Gen.V7 m (outs m)) (body_obligation1 _) (fun _ => {}) (A_eq1 _)
  (Gen.V7_of m _) (by decide) [7, 8, 9, 10] (by decide) fun c => show _ ∧ _ ∧ _ ∧ _ from ⟨(outs_main_v8_0 m c).symm, (outs_main_v8_1 m c).symm, (outs_main_v8_2 m c).symm, (outs_main_v8_3 m c).symm⟩
abbrev R2 := regOf (pdats m) 2 launch2 (Gen.V8 m (outs m)) (Gen.V9 m (outs m)) (body_obligation2 _) (fun _ => {}) (A_eq2 _)
  (Gen.V9_of m _) (by decide) [6, 7, 8] (by decide) fun c => show _ ∧ _ ∧ _ from ⟨(outs_main_v16_0 m c).symm, (outs_main_v16_1 m c).symm, (outs_main_v16_2 m c).symm⟩
abbrev R3 := regOf (pdats m) 3 launch3 (Gen.V10 m (outs m)) (Gen.V11 m (outs m)) (body_obligation3 _) (fun _ => {}) (A_eq3 _)
  (Gen.V11_of m _) (by decide) [6] (by decide) fun c => (outs_main_v41 m c).symm
abbrev R4 := regOf (pdats m) 4 launch4 (Gen.V12 m (outs m)) (Gen.V13 m (outs m)) (body_obligation4 _) (fun _ => {}) (A_eq4 _)
  (Gen.V13_of m _) (by decide) [9, 10, 11] (by decide) fun c => show _ ∧ _ ∧ _ from ⟨(outs_main_v44_0 m c).symm, (outs_main_v44_1 m c).symm, (outs_main_v44_2 m c).symm⟩
abbrev R5 := regOf (pdats m) 5 launch5 (Gen.V14 m (outs m)) (Gen.V15 m (outs m)) (body_obligation5 _) (fun _ => {}) (A_eq5 _)
  (Gen.V15_of m _) (by decide) [5] (by decide) fun c => (outs_main_v57 m c).symm

end Cert.KernelIdeal.Hand

end
-- ==== Proof.KI.Run.lean ====
import proofs.«403660_j89129161327109_3_alg».proof.Proof.KI.Segs
import Idealize.ShloMosaic.Lib.Pipeline.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair run ends, faults nowhere, and leaves every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V15 m (outs m) c b) := by
  refine Pipeline.θ_run_regions_kit_dev (pcfgs (F := F)) Gen.adm (pdats m) () cellOf_inj emb₁ defs₀ Variants.none _ _ m ρ main
    (Gen.segs m (outs m) Variants.none _ _ (fun _ c => rest c) () (pdats m) (R0 m) (R1 m) (R2 m) (R3 m) (R4 m) (R5 m))
    (fun c Q => by rewrite [main_chain c, Seg.run_eq_chain]; exact .rfl)
    (fun c => by simp only [Gen.segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => iprop(StableHlo.held (c : Thread nD τ) (Pipeline.ucRefs τ sig) (Gen.V15 m (outs m) c) ∗ ∃ r, prngReg c r))
    (hch := fun c => ⟨.rfl, .rfl, .rfl, .rfl, .rfl, .rfl, .rfl, .rfl, .rfl, .rfl, .rfl, .rfl, .rfl, .rfl, .rfl, BI.sep_assoc'⟩)
    (hinit := by
      refine Pipeline.initEach _ _ fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V15 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V15 m (outs m) c) s')
      isplitl [Hh] <;> iassumption)
    (hQ := fun s h c => h c)

/-- The two result arrays end at what the last valuation holds for them, the twenty argument arrays as launched. -/
theorem results : θ_run defs (onTc (τ := τ) (main (F := F))) ⟨m, fun _ => 0, ρ⟩ (fun r => ∀ c : Dev nD,
      r.2.mem ((c.tc : Thread nD τ).loc main_v57) = Gen.V15 m (outs m) c main_v57
      ∧ r.2.mem ((c.tc : Thread nD τ).loc main_v41) = Gen.V15 m (outs m) c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    have e : ∀ b : Ref sig .tc, ¬ (Proc.devRef .tc b : DevRef τ sig).isScoped → r.2.mem ((c.tc : Thread nD τ).loc b) = Gen.V15 m (outs m) c b :=
      fun b hb => h c _ (Finset.mem_filter.mpr ⟨StableHlo.devRef_mem_tcRefs b, hb⟩)
    ⟨e _ (by decide), e _ (by decide),
     (e _ (by decide)).trans (Gen.V15_main_arg0 ..),
     (e _ (by decide)).trans (Gen.V15_main_arg1 ..),
     (e _ (by decide)).trans (Gen.V15_main_arg2 ..),
     (e _ (by decide)).trans (Gen.V15_main_arg3 ..),
     (e _ (by decide)).trans (Gen.V15_main_arg4 ..),
     (e _ (by decide)).trans (Gen.V15_main_arg5 ..),
     (e _ (by decide)).trans (Gen.V15_main_arg6 ..),
     (e _ (by decide)).trans (Gen.V15_main_arg7 ..),
     (e _ (by decide)).trans (Gen.V15_main_arg8 ..),
     (e _ (by decide)).trans (Gen.V15_main_arg9 ..),
     (e _ (by decide)).trans (Gen.V15_main_arg10 ..),
     (e _ (by decide)).trans (Gen.V15_main_arg11 ..),
     (e _ (by decide)).trans (Gen.V15_main_arg12 ..),
     (e _ (by decide)).trans (Gen.V15_main_arg13 ..),
     (e _ (by decide)).trans (Gen.V15_main_arg14 ..),
     (e _ (by decide)).trans (Gen.V15_main_arg15 ..),
     (e _ (by decide)).trans (Gen.V15_main_arg16 ..),
     (e _ (by decide)).trans (Gen.V15_main_arg17 ..),
     (e _ (by decide)).trans (Gen.V15_main_arg18 ..),
     (e _ (by decide)).trans (Gen.V15_main_arg19 ..)⟩)
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2.2) (results m ρ)

end Cert.KernelIdeal.Hand

end
-- ==== Proof.Spec.lean ====
import Idealize.ShloMosaic.PureOps.Ideal
import Idealize.ShloMosaic.Lib.ValueIdx
import Mathlib.Analysis.SpecialFunctions.Exp
import Mathlib.Analysis.SpecialFunctions.Sqrt

noncomputable section

open scoped BigOperators

namespace Cert.Spec

open Idealize.ShloMosaic Idealize.ShloMosaic.ValueIdx

def Real2 {a b : ℕ} (A : (⟨2, ![a, b]⟩ : Shape).Idx → EReal) (X : Fin a → Fin b → ℝ) : Prop :=
  ∀ (p : Fin a) (q : Fin b), A (ix2 p q) = ((X p q : ℝ) : EReal)

def Real1 {a : ℕ} (A : (⟨1, ![a]⟩ : Shape).Idx → EReal) (X : Fin a → ℝ) : Prop :=
  ∀ p : Fin a, A (ix1 p) = ((X p : ℝ) : EReal)

def Pos1 {a n : ℕ} (A : (⟨1, ![a]⟩ : Shape).Idx → BitVec 32) (f : Fin a → Fin n) : Prop :=
  ∀ p : Fin a, A (ix1 p) = BitVec.ofNat 32 (f p).val

def lit (w : BitVec 32) : ℝ := (Ideal.ofBits .f32 w).toReal

def eps6 : ℝ := lit 0x358637BD#32

def eps5 : ℝ := lit 0x3727C5AC#32

def quarter : ℝ := lit 0x3E800000#32

def four : ℝ := lit 0x40800000#32
def five : ℝ := lit 0x40A00000#32
def mfive : ℝ := lit 0xC0A00000#32

def nN : ℝ := lit 0x47435000#32

def nE : ℝ := lit 0x48FA0000#32

def mm {a k b : ℕ} (A : Fin a → Fin k → ℝ) (B : Fin k → Fin b → ℝ) : Fin a → Fin b → ℝ :=
  fun i j => ∑ t : Fin k, A i t * B t j

def clip5 (x : ℝ) : ℝ := min (max x mfive) five

def rs (x : ℝ) : ℝ := (Real.sqrt x)⁻¹
def relu (x : ℝ) : ℝ := max x 0

def hd (d : Fin 128) : Fin 8 := ⟨d.val / 16, by have := d.isLt; omega⟩

def col (g : Fin 8) (j : Fin 16) : Fin 128 := ⟨g.val * 16 + j.val, by have := g.isLt; have := j.isLt; omega⟩

def sel (d : Fin 128) (g : Fin 8) : ℝ := if d.val / 16 = g.val then 1 else 0

def selT (g : Fin 8) (d : Fin 128) : ℝ := sel d g

def colsum {a b : ℕ} (X : Fin a → Fin b → ℝ) (d : Fin b) : ℝ := ∑ i : Fin a, X i d

def acc {a b : ℕ} (hs : ℕ) (X : Fin a → Fin b → ℝ) (r : Fin 16) (d : Fin b) : ℝ :=
  if r.val % 8 = 0 then ∑ i : Fin a, (if i.val / hs = r.val / 8 then X i d else 0) else 0

def bnK (g b mean var : Fin 128 → ℝ) {a : ℕ} (X : Fin a → Fin 128 → ℝ) : Fin a → Fin 128 → ℝ :=
  fun i d => g d * (X i d - mean d) * rs (var d + eps5) + b d

structure Inputs where
  h : Fin 50000 → Fin 128 → ℝ
  e : Fin 512000 → Fin 128 → ℝ
  src : Fin 512000 → Fin 50000
  dst : Fin 512000 → Fin 50000
  Wq : Fin 128 → Fin 128 → ℝ
  Wk : Fin 128 → Fin 128 → ℝ
  Wv : Fin 128 → Fin 128 → ℝ
  We : Fin 128 → Fin 128 → ℝ
  Wo : Fin 128 → Fin 128 → ℝ
  bo : Fin 128 → ℝ
  g1h : Fin 128 → ℝ
  b1h : Fin 128 → ℝ
  g1e : Fin 128 → ℝ
  b1e : Fin 128 → ℝ
  W1 : Fin 128 → Fin 256 → ℝ
  b1 : Fin 256 → ℝ
  W2 : Fin 256 → Fin 128 → ℝ
  b2 : Fin 128 → ℝ
  g2h : Fin 128 → ℝ
  b2h : Fin 128 → ℝ

variable (x : Inputs)

def KWqkv : Fin 128 → Fin 384 → ℝ := fun k j =>
  if h0 : j.val < 128 then x.Wq k ⟨j.val, h0⟩
  else if h1 : j.val < 256 then x.Wk k ⟨j.val - 128, by omega⟩
  else x.Wv k ⟨j.val - 256, by have := j.isLt; omega⟩
def Kqkv : Fin 50000 → Fin 384 → ℝ := mm x.h (KWqkv x)
def KQ : Fin 50000 → Fin 128 → ℝ := fun n d => Kqkv x n ⟨d.val, by have := d.isLt; omega⟩
def KKV : Fin 50000 → Fin 256 → ℝ := fun n j => Kqkv x n ⟨j.val + 128, by have := j.isLt; omega⟩
def KQdst : Fin 512000 → Fin 128 → ℝ := fun i d => KQ x (x.dst i) d
def KKVsrc : Fin 512000 → Fin 256 → ℝ := fun i j => KKV x (x.src i) j
def KKsrc : Fin 512000 → Fin 128 → ℝ := fun i d => KKVsrc x i ⟨d.val, by have := d.isLt; omega⟩
def KVsrc : Fin 512000 → Fin 128 → ℝ := fun i d => KKVsrc x i ⟨d.val + 128, by have := d.isLt; omega⟩

section Edge
variable (E Ks Qd Vs : Fin 512000 → Fin 128 → ℝ) (We : Fin 128 → Fin 128 → ℝ) (G : Fin 128 → Fin 8 → ℝ) (GT : Fin 8 → Fin 128 → ℝ)
def edgeEh : Fin 512000 → Fin 128 → ℝ := mm E We
def edgeE2 : Fin 512000 → Fin 128 → ℝ := fun i d => E i d + edgeEh E We i d
def edgeProd : Fin 512000 → Fin 128 → ℝ := fun i d => Ks i d * Qd i d * quarter * edgeEh E We i d
def edgeS : Fin 512000 → Fin 8 → ℝ := fun i g => Real.exp (clip5 (mm (edgeProd E Ks Qd We) G i g))
def edgeContrib : Fin 512000 → Fin 128 → ℝ := fun i d => Vs i d * mm (edgeS E Ks Qd We G) GT i d
def edgeSum : Fin 16 → Fin 128 → ℝ := acc 256000 (edgeE2 E We)
def edgeSumSq : Fin 16 → Fin 128 → ℝ := acc 256000 (fun i d => edgeE2 E We i d * edgeE2 E We i d)
end Edge

def KS : Fin 512000 → Fin 8 → ℝ := edgeS x.e (KKsrc x) (KQdst x) x.We sel
def KContrib : Fin 512000 → Fin 128 → ℝ := edgeContrib x.e (KKsrc x) (KQdst x) (KVsrc x) x.We sel selT

def segsum {b : ℕ} (dst : Fin 512000 → Fin 50000) (U : Fin 512000 → Fin b → ℝ) : Fin 50000 → Fin b → ℝ :=
  fun n d => ∑ i : Fin 512000, (if dst i = n then U i d else 0)
def KwV : Fin 50000 → Fin 128 → ℝ := segsum x.dst (KContrib x)
def Kz : Fin 50000 → Fin 8 → ℝ := segsum x.dst (KS x)

section Node
variable (wv : Fin 50000 → Fin 128 → ℝ) (z : Fin 50000 → Fin 8 → ℝ) (hh : Fin 50000 → Fin 128 → ℝ) (Wo : Fin 128 → Fin 128 → ℝ) (bo : Fin 128 → ℝ) (GT : Fin 8 → Fin 128 → ℝ)
def nodeAttn : Fin 50000 → Fin 128 → ℝ := fun n d => wv n d / (mm z GT n d + eps6)
def nodeH2raw : Fin 50000 → Fin 128 → ℝ := fun n d => hh n d + mm (nodeAttn wv z GT) Wo n d + bo d
def nodeSum : Fin 16 → Fin 128 → ℝ := acc 25000 (nodeH2raw wv z hh Wo bo GT)
def nodeSumSq : Fin 16 → Fin 128 → ℝ := acc 25000 (fun n d => nodeH2raw wv z hh Wo bo GT n d * nodeH2raw wv z hh Wo bo GT n d)
end Node

def KH2raw : Fin 50000 → Fin 128 → ℝ := nodeH2raw (KwV x) (Kz x) x.h x.Wo x.bo selT

def meanOf (cnt : ℝ) (S : Fin 16 → Fin 128 → ℝ) (d : Fin 128) : ℝ := colsum S d / cnt
def varOf (cnt : ℝ) (S SS : Fin 16 → Fin 128 → ℝ) (d : Fin 128) : ℝ := colsum SS d / cnt - meanOf cnt S d * meanOf cnt S d
def KE2raw : Fin 512000 → Fin 128 → ℝ := edgeE2 x.e x.We
def KE2mean : Fin 128 → ℝ := meanOf nE (edgeSum x.e x.We)
def KE2var : Fin 128 → ℝ := varOf nE (edgeSum x.e x.We) (edgeSumSq x.e x.We)
def KH2mean : Fin 128 → ℝ := meanOf nN (nodeSum (KwV x) (Kz x) x.h x.Wo x.bo selT)
def KH2var : Fin 128 → ℝ := varOf nN (nodeSum (KwV x) (Kz x) x.h x.Wo x.bo selT) (nodeSumSq (KwV x) (Kz x) x.h x.Wo x.bo selT)

def KE2 : Fin 512000 → Fin 128 → ℝ := bnK x.g1e x.b1e (KE2mean x) (KE2var x) (KE2raw x)

section Ffn
variable (X : Fin 50000 → Fin 128 → ℝ) (mean var g b : Fin 128 → ℝ) (W1 : Fin 128 → Fin 256 → ℝ) (b1 : Fin 256 → ℝ) (W2 : Fin 256 → Fin 128 → ℝ) (b2 : Fin 128 → ℝ)
def ffnH2 : Fin 50000 → Fin 128 → ℝ := bnK g b mean var X
def ffnHid : Fin 50000 → Fin 256 → ℝ := fun n j => relu (mm (ffnH2 X mean var g b) W1 n j + b1 j)
def ffnH3raw : Fin 50000 → Fin 128 → ℝ := fun n d => ffnH2 X mean var g b n d + (mm (ffnHid X mean var g b W1 b1) W2 n d + b2 d)
def ffnSum : Fin 16 → Fin 128 → ℝ := acc 25000 (ffnH3raw X mean var g b W1 b1 W2 b2)
def ffnSumSq : Fin 16 → Fin 128 → ℝ := acc 25000 (fun n d => ffnH3raw X mean var g b W1 b1 W2 b2 n d * ffnH3raw X mean var g b W1 b1 W2 b2 n d)
end Ffn

def KH3raw : Fin 50000 → Fin 128 → ℝ := ffnH3raw (KH2raw x) (KH2mean x) (KH2var x) x.g1h x.b1h x.W1 x.b1 x.W2 x.b2
def KH3mean : Fin 128 → ℝ := meanOf nN (ffnSum (KH2raw x) (KH2mean x) (KH2var x) x.g1h x.b1h x.W1 x.b1 x.W2 x.b2)
def KH3var : Fin 128 → ℝ := varOf nN (ffnSum (KH2raw x) (KH2mean x) (KH2var x) x.g1h x.b1h x.W1 x.b1 x.W2 x.b2) (ffnSumSq (KH2raw x) (KH2mean x) (KH2var x) x.g1h x.b1h x.W1 x.b1 x.W2 x.b2)

def KH3 : Fin 50000 → Fin 128 → ℝ := bnK x.g2h x.b2h (KH3mean x) (KH3var x) (KH3raw x)

def RQ : Fin 50000 → Fin 128 → ℝ := mm x.h x.Wq
def RK : Fin 50000 → Fin 128 → ℝ := mm x.h x.Wk
def RV : Fin 50000 → Fin 128 → ℝ := mm x.h x.Wv
def REh : Fin 512000 → Fin 128 → ℝ := mm x.e x.We
def RScore : Fin 512000 → Fin 128 → ℝ := fun i d => RK x (x.src i) d * RQ x (x.dst i) d / four * REh x i d
def RS : Fin 512000 → Fin 8 → ℝ := fun i g => Real.exp (clip5 (∑ j : Fin 16, RScore x i (col g j)))
def RwV : Fin 50000 → Fin 128 → ℝ := segsum x.dst (fun i d => RV x (x.src i) d * RS x i (hd d))
def Rz : Fin 50000 → Fin 8 → ℝ := segsum x.dst (RS x)
def RAttn : Fin 50000 → Fin 128 → ℝ := fun n d => RwV x n d / (Rz x n (hd d) + eps6)
def RH2raw : Fin 50000 → Fin 128 → ℝ := fun n d => x.h n d + (mm (RAttn x) x.Wo n d + x.bo d)
def RE2raw : Fin 512000 → Fin 128 → ℝ := fun i d => x.e i d + REh x i d

def bnR (cnt : ℝ) (g b : Fin 128 → ℝ) {a : ℕ} (X : Fin a → Fin 128 → ℝ) : Fin a → Fin 128 → ℝ :=
  fun i d =>
    let m := colsum X d / cnt
    let v := colsum (fun i d => (X i d - colsum X d / cnt) * (X i d - colsum X d / cnt)) d / cnt
    g d * (X i d - m) / Real.sqrt (v + eps5) + b d
def RH2 : Fin 50000 → Fin 128 → ℝ := bnR nN x.g1h x.b1h (RH2raw x)

def RE2 : Fin 512000 → Fin 128 → ℝ := bnR nE x.g1e x.b1e (RE2raw x)
def RR : Fin 50000 → Fin 128 → ℝ := fun n d => mm (fun n j => relu (mm (RH2 x) x.W1 n j + x.b1 j)) x.W2 n d + x.b2 d

def RH3 : Fin 50000 → Fin 128 → ℝ := bnR nN x.g2h x.b2h (fun n d => RH2 x n d + RR x n d)

end Cert.Spec

end
-- ==== Proof.Consts.lean ====
import proofs.«403660_j89129161327109_3_alg».proof.Proof.Spec
import Idealize.ShloMosaic.PureOps.Ideal.Laws
import Mathlib.Data.EReal.Basic

noncomputable section

namespace Cert.Spec

open Idealize.ShloMosaic

theorem bits_eps6 : Ideal.ofBits .f32 0x358637BD#32 = (((8796093 : ℝ) / 2 ^ 43 : ℝ) : EReal) := by
  simp [Ideal.ofBits, Ideal.ieee, -EReal.coe_mul]; norm_num

theorem bits_eps5 : Ideal.ofBits .f32 0x3727C5AC#32 = (((10995116 : ℝ) / 2 ^ 40 : ℝ) : EReal) := by
  simp [Ideal.ofBits, Ideal.ieee, -EReal.coe_mul]; norm_num

theorem bits_quarter : Ideal.ofBits .f32 0x3E800000#32 = (((1 : ℝ) / 4 : ℝ) : EReal) := by
  simp [Ideal.ofBits, Ideal.ieee, -EReal.coe_mul]; norm_num

theorem bits_four : Ideal.ofBits .f32 0x40800000#32 = ((4 : ℝ) : EReal) := by
  simp [Ideal.ofBits, Ideal.ieee, -EReal.coe_mul]; norm_num

theorem bits_five : Ideal.ofBits .f32 0x40A00000#32 = ((5 : ℝ) : EReal) := by
  simp [Ideal.ofBits, Ideal.ieee, -EReal.coe_mul]; norm_num

theorem bits_mfive : Ideal.ofBits .f32 0xC0A00000#32 = ((-5 : ℝ) : EReal) := by
  simp [Ideal.ofBits, Ideal.ieee, -EReal.coe_mul]; norm_num

theorem bits_nN : Ideal.ofBits .f32 0x47435000#32 = ((50000 : ℝ) : EReal) := by
  simp [Ideal.ofBits, Ideal.ieee, -EReal.coe_mul]; norm_num

theorem bits_nE : Ideal.ofBits .f32 0x48FA0000#32 = ((512000 : ℝ) : EReal) := by
  simp [Ideal.ofBits, Ideal.ieee, -EReal.coe_mul]; norm_num

theorem eps6_eq : eps6 = 8796093 / 2 ^ 43 := by rw [eps6, lit, bits_eps6, EReal.toReal_coe]
theorem eps5_eq : eps5 = 10995116 / 2 ^ 40 := by rw [eps5, lit, bits_eps5, EReal.toReal_coe]
theorem quarter_eq : quarter = 1 / 4 := by rw [quarter, lit, bits_quarter, EReal.toReal_coe]
theorem four_eq : four = 4 := by rw [four, lit, bits_four, EReal.toReal_coe]
theorem five_eq : five = 5 := by rw [five, lit, bits_five, EReal.toReal_coe]
theorem mfive_eq : mfive = -5 := by rw [mfive, lit, bits_mfive, EReal.toReal_coe]
theorem nN_eq : nN = 50000 := by rw [nN, lit, bits_nN, EReal.toReal_coe]
theorem nE_eq : nE = 512000 := by rw [nE, lit, bits_nE, EReal.toReal_coe]

theorem eps6_pos : 0 < eps6 := by rw [eps6_eq]; positivity
theorem eps5_pos : 0 < eps5 := by rw [eps5_eq]; positivity

theorem ofBits_eps6 : Ideal.ofBits .f32 0x358637BD#32 = ((eps6 : ℝ) : EReal) := by rw [eps6_eq, bits_eps6]
theorem ofBits_eps5 : Ideal.ofBits .f32 0x3727C5AC#32 = ((eps5 : ℝ) : EReal) := by rw [eps5_eq, bits_eps5]
theorem ofBits_quarter : Ideal.ofBits .f32 0x3E800000#32 = ((quarter : ℝ) : EReal) := by rw [quarter_eq, bits_quarter]
theorem ofBits_four : Ideal.ofBits .f32 0x40800000#32 = ((four : ℝ) : EReal) := by rw [four_eq, bits_four]
theorem ofBits_five : Ideal.ofBits .f32 0x40A00000#32 = ((five : ℝ) : EReal) := by rw [five_eq, bits_five]
theorem ofBits_mfive : Ideal.ofBits .f32 0xC0A00000#32 = ((mfive : ℝ) : EReal) := by rw [mfive_eq, bits_mfive]
theorem ofBits_nN : Ideal.ofBits .f32 0x47435000#32 = ((nN : ℝ) : EReal) := by rw [nN_eq, bits_nN]
theorem ofBits_nE : Ideal.ofBits .f32 0x48FA0000#32 = ((nE : ℝ) : EReal) := by rw [nE_eq, bits_nE]

theorem ofBits_zero : Ideal.ofBits .f32 0x00000000#32 = ((0 : ℝ) : EReal) := by
  rw [Ideal.ofBits_zero_f32, EReal.coe_zero]

theorem ofBits_inf : Ideal.ofBits .f32 0x7F800000#32 = ⊤ := by
  simp [Ideal.ofBits, Ideal.ieee]

end Cert.Spec

end
-- ==== Proof.KI.HostLib.lean ====
import proofs.«403660_j89129161327109_3_alg».proof.Proof.Gen.KernelIdeal.Launch
import proofs.«403660_j89129161327109_3_alg».proof.Proof.Gen.KernelIdeal.Regions
import proofs.«403660_j89129161327109_3_alg».proof.Proof.Spec
import proofs.«403660_j89129161327109_3_alg».proof.Proof.Consts
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.ReduceAll
import Idealize.ShloMosaic.Lib.StableHlo.Predicate

noncomputable section

open scoped BigOperators

namespace Cert.KernelIdeal.Hand

open Idealize.ShloMosaic Idealize.ShloMosaic.ValueIdx Idealize.ShloMosaic.StableHlo
open Cert.Spec

theorem real2_of_eq {a b : ℕ} {A B : (⟨2, ![a, b]⟩ : Shape).Idx → EReal} {X : Fin a → Fin b → ℝ} (e : A = B) (h : Real2 B X) :
    Real2 A X := e ▸ h
theorem real1_of_eq {a : ℕ} {A B : (⟨1, ![a]⟩ : Shape).Idx → EReal} {X : Fin a → ℝ} (e : A = B) (h : Real1 B X) : Real1 A X := e ▸ h
theorem pos1_of_eq {a n : ℕ} {A B : (⟨1, ![a]⟩ : Shape).Idx → BitVec 32} {f : Fin a → Fin n} (e : A = B) (h : Pos1 B f) : Pos1 A f := e ▸ h

-- The coercion ℝ → EReal is additive, so it commutes with finite sums.
theorem ereal_coe_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

-- A vector laid along the rows of an [n, m] array reads, at (p, q), the vector at p.
theorem bcast_rows_apply {α : Type} {n m : ℕ} (hn : n ≠ 1)
    (h : (⟨1, ![n]⟩ : Shape).BroadcastsInDim ⟨2, ![n, m]⟩ ![0]) (v : (⟨1, ![n]⟩ : Shape).Idx → α) (p : Fin n) (q : Fin m) :
    broadcastInDim ⟨2, ![n, m]⟩ ![0] h v (ix2 p q) = v (ix1 p) := by
  refine broadcastInDim_apply _ h v _ (ix1 p) fun a => ?_
  match a with
  | ⟨0, _⟩ => exact (if_neg hn).symm

-- A vector laid along the columns reads, at (p, q), the vector at q.
theorem bcast_cols_apply {α : Type} {n m : ℕ} (hm : m ≠ 1)
    (h : (⟨1, ![m]⟩ : Shape).BroadcastsInDim ⟨2, ![n, m]⟩ ![1]) (v : (⟨1, ![m]⟩ : Shape).Idx → α) (p : Fin n) (q : Fin m) :
    broadcastInDim ⟨2, ![n, m]⟩ ![1] h v (ix2 p q) = v (ix1 q) := by
  refine broadcastInDim_apply _ h v _ (ix1 q) fun a => ?_
  match a with
  | ⟨0, _⟩ => exact (if_neg hm).symm

-- A vector of reals reshaped to one row holds the same reals.
theorem row_real {n : ℕ} {x : (⟨1, ![n]⟩ : Shape).Idx → EReal} (h : (⟨1, ![n]⟩ : Shape).ShapeCasts ⟨2, ![1, n]⟩)
    {v : Fin n → ℝ} (hx : Real1 x v) : Real2 (a := 1) (b := n) (shapeCast ⟨2, ![1, n]⟩ x h) (fun _ d => v d) :=
  fun _ q => (shapeCast_a_1a_apply _ _ _ _).trans (hx q)

end Cert.KernelIdeal.Hand
-- ==== Proof.KI.Host0.lean ====
import proofs.«403660_j89129161327109_3_alg».proof.Proof.KI.HostLib

noncomputable section

open scoped BigOperators

namespace Cert.KernelIdeal.Hand

open Idealize.ShloMosaic Idealize.ShloMosaic.ValueIdx Idealize.ShloMosaic.StableHlo
open Cert.KernelIdeal Cert.KernelIdeal.Gen Cert.Spec

variable (W : Valuation τ sig (Elt Ideal))

theorem ofBits_one : Ideal.ofBits .f32 0x3F800000#32 = ((1 : ℝ) : EReal) := by
  simp [Ideal.ofBits, Ideal.ieee, -EReal.coe_mul]; norm_num

-- A table whose word at row-major position i is that of 1 where P (i / b) (i % b) holds, the zero word elsewhere, is the indicator of P.
theorem real2_lit {a b : ℕ} (l : Fin (⟨2, ![a, b]⟩ : Shape).numel → BitVec 32) (P : ℕ → ℕ → Prop) [∀ p q, Decidable (P p q)]
    (hl : ∀ i, l i = if P (i.val / b) (i.val % b) then 0x3F800000#32 else 0x00000000#32) :
    Real2 (fun i => Ideal.ofBits .f32 (l ((⟨2, ![a, b]⟩ : Shape).rowMajor i))) (fun p q => if P p.val q.val then 1 else 0) := by
  intro p q
  have hq := q.isLt
  have hv : ((⟨2, ![a, b]⟩ : Shape).rowMajor (ix2 p q)).val = p.val * b + q.val := Shape.rowMajor_val_two _
  have h1 : (p.val * b + q.val) / b = p.val := by rw [Nat.mul_comm, Nat.mul_add_div (by omega), Nat.div_eq_of_lt hq, Nat.add_zero]
  have h2 : (p.val * b + q.val) % b = q.val := by rw [Nat.mul_comm, Nat.mul_add_mod, Nat.mod_eq_of_lt hq]
  show Ideal.ofBits .f32 (l _) = ((if P p.val q.val then 1 else 0 : ℝ) : EReal)
  rw [hl, hv, h1, h2, apply_ite (Ideal.ofBits .f32), ofBits_one, ofBits_zero]
  exact (apply_ite _ _ _ _).symm

theorem host0_G : Real2 (after hostOps0 W (Proc.devRef .tc main_cst) : S128x8.Idx → EReal) sel := by
  refine real2_of_eq ?_ (real2_lit (a := 128) (b := 8) lit0 (fun p q => p / 16 = q) (by decide +kernel))
  after_results
  rfl

theorem host0_GT : Real2 (after hostOps0 W (Proc.devRef .tc main_cst_0) : S8x128.Idx → EReal) selT := by
  refine real2_of_eq ?_ (real2_lit (a := 8) (b := 128) lit1 (fun p q => q / 16 = p) (by decide +kernel))
  after_results
  rfl

-- Wq | Wk | Wv side by side: column j lies in the piece whose span holds j, at j less the extents before it.
theorem host0_Wqkv {Wq Wk Wv : Fin 128 → Fin 128 → ℝ}
    (hq : Real2 (W (Proc.devRef .tc main_arg4) : S128x128.Idx → EReal) Wq)
    (hk : Real2 (W (Proc.devRef .tc main_arg5) : S128x128.Idx → EReal) Wk)
    (hv : Real2 (W (Proc.devRef .tc main_arg6) : S128x128.Idx → EReal) Wv) :
    Real2 (after hostOps0 W (Proc.devRef .tc main_v0) : S128x384.Idx → EReal)
      (fun k j => if h0 : j.val < 128 then Wq k ⟨j.val, h0⟩
        else if h1 : j.val < 256 then Wk k ⟨j.val - 128, by omega⟩
        else Wv k ⟨j.val - 256, by have := j.isLt; omega⟩) := by
  have e : (after hostOps0 W (Proc.devRef .tc main_v0) : S128x384.Idx → EReal)
      = concatenate S128x384 1 [⟨S128x128, (W (Proc.devRef .tc main_arg4) : S128x128.Idx → EReal)⟩,
          ⟨S128x128, (W (Proc.devRef .tc main_arg5) : S128x128.Idx → EReal)⟩,
          ⟨S128x128, (W (Proc.devRef .tc main_arg6) : S128x128.Idx → EReal)⟩]
          concatenates_S128x128_S128x128_S128x128_S128x384_d1 := by
    after_results
    rfl
  rw [e]
  intro p q
  have hql := q.isLt
  have side : ∀ (j : Fin 128) (b : Fin S128x128.rank), b.cast rfl ≠ (1 : Fin S128x384.rank) →
      (ix2 p j b).val = (ix2 p q (b.cast rfl)).val := fun j b hb => by
    match b with
    | ⟨0, _⟩ => rfl
    | ⟨1, _⟩ => exact absurd rfl hb
  beta_reduce
  by_cases h0 : q.val < 128
  · rw [dif_pos h0, ← hq p ⟨q.val, h0⟩]
    exact concatenate_apply_piece (t := S128x384) (1 : Fin 2) _ _ (ix2 p q) 0 (Nat.lt_of_sub_eq_succ rfl) S128x128 _ rfl rfl 0 rfl
      (ix2 p ⟨q.val, h0⟩) (side _) (Nat.zero_add _)
  · rw [dif_neg h0]
    by_cases h1 : q.val < 256
    · rw [dif_pos h1, ← hk p ⟨q.val - 128, by omega⟩]
      exact concatenate_apply_piece (t := S128x384) (1 : Fin 2) _ _ (ix2 p q) 1 (Nat.lt_of_sub_eq_succ rfl) S128x128 _ rfl rfl 128 rfl
        (ix2 p ⟨q.val - 128, by omega⟩) (side _) (by show 128 + (q.val - 128) = q.val; omega)
    · rw [dif_neg h1, ← hv p ⟨q.val - 256, by omega⟩]
      exact concatenate_apply_piece (t := S128x384) (1 : Fin 2) _ _ (ix2 p q) 2 (Nat.lt_of_sub_eq_succ rfl) S128x128 _ rfl rfl 256 rfl
        (ix2 p ⟨q.val - 256, by omega⟩) (side _) (by show 256 + (q.val - 256) = q.val; omega)

end Cert.KernelIdeal.Hand
-- ==== Proof.KI.Host1.lean ====
import proofs.«403660_j89129161327109_3_alg».proof.Proof.KI.HostLib

noncomputable section

open scoped BigOperators

namespace Cert.KernelIdeal.Hand

open Idealize.ShloMosaic Idealize.ShloMosaic.ValueIdx Idealize.ShloMosaic.StableHlo
open Cert.KernelIdeal Cert.KernelIdeal.Gen Cert.Spec

variable (W : Valuation τ sig (Elt Ideal))

-- A column slice from offset o of an array of reals holds the function's columns from o on.
theorem real2_slice_cols {a b m : ℕ} (o : ℕ) {A : (⟨2, ![a, b]⟩ : Shape).Idx → EReal} {Y : Fin a → Fin b → ℝ}
    (hs : (⟨2, ![a, b]⟩ : Shape).Slices ![0, o] ⟨2, ![a, m]⟩) (hA : Real2 A Y) (hm : o + m ≤ b) :
    Real2 (extractStridedSlice ⟨2, ![a, m]⟩ ![0, o] A hs) (fun n d => Y n ⟨d.val + o, by have := d.isLt; omega⟩) :=
  fun p q => (slice2_axis1_apply o A hs p q ⟨q.val + o, by have := q.isLt; omega⟩ (Nat.add_comm _ _)).trans (hA p _)

theorem host1_Q {Y : Fin 50000 → Fin 384 → ℝ}
    (h : Real2 (W (Proc.devRef .tc main_v1) : S50000x384.Idx → EReal) Y) :
    Real2 (after hostOps1 W (Proc.devRef .tc main_v2) : S50000x128.Idx → EReal)
      (fun n d => Y n ⟨d.val, by have := d.isLt; omega⟩) := by
  refine real2_of_eq ?_ (real2_slice_cols 0 slices_S50000x384_S50000x128_0_0 h (by omega))
  after_results

theorem host1_KV {Y : Fin 50000 → Fin 384 → ℝ}
    (h : Real2 (W (Proc.devRef .tc main_v1) : S50000x384.Idx → EReal) Y) :
    Real2 (after hostOps1 W (Proc.devRef .tc main_v3) : S50000x256.Idx → EReal)
      (fun n d => Y n ⟨d.val + 128, by have := d.isLt; omega⟩) := by
  refine real2_of_eq ?_ (real2_slice_cols 128 slices_S50000x384_S50000x256_0_128 h (by omega))
  after_results

theorem host13_K {Y : Fin 512000 → Fin 256 → ℝ}
    (h : Real2 (W (Proc.devRef .tc main_v5) : S512000x256.Idx → EReal) Y) :
    Real2 (after hostOps1_3 W (Proc.devRef .tc main_v6) : S512000x128.Idx → EReal)
      (fun n d => Y n ⟨d.val, by have := d.isLt; omega⟩) := by
  refine real2_of_eq ?_ (real2_slice_cols 0 slices_S512000x256_S512000x128_0_0 h (by omega))
  after_results

theorem host13_V {Y : Fin 512000 → Fin 256 → ℝ}
    (h : Real2 (W (Proc.devRef .tc main_v5) : S512000x256.Idx → EReal) Y) :
    Real2 (after hostOps1_3 W (Proc.devRef .tc main_v7) : S512000x128.Idx → EReal)
      (fun n d => Y n ⟨d.val + 128, by have := d.isLt; omega⟩) := by
  refine real2_of_eq ?_ (real2_slice_cols 128 slices_S512000x256_S512000x128_0_128 h (by omega))
  after_results

end Cert.KernelIdeal.Hand
-- ==== Proof.KI.Host11.lean ====
import proofs.«403660_j89129161327109_3_alg».proof.Proof.Gen.KernelIdeal.Launch
import proofs.«403660_j89129161327109_3_alg».proof.Proof.Gen.KernelIdeal.Regions
import proofs.«403660_j89129161327109_3_alg».proof.Proof.Spec
import proofs.«403660_j89129161327109_3_alg».proof.Proof.Consts
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.ReduceAll
import Idealize.ShloMosaic.Lib.StableHlo.Predicate

noncomputable section

open scoped BigOperators

namespace Cert.KernelIdeal.Hand

open Idealize.ShloMosaic Idealize.ShloMosaic.ValueIdx Idealize.ShloMosaic.StableHlo
open Cert.KernelIdeal Cert.KernelIdeal.Gen Cert.Spec

variable (W : Valuation τ sig (Elt Ideal))

theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1) (1#1) = 1#1 := by decide
    rw [List.foldl_cons, hf a, h11]
    exact foldl_andi_ones f hf l

private theorem bcast_rows_apply {α : Type} {n m : ℕ} (hn : n ≠ 1)
    (h : (⟨1, ![n]⟩ : Shape).BroadcastsInDim ⟨2, ![n, m]⟩ ![0]) (v : (⟨1, ![n]⟩ : Shape).Idx → α) (p : Fin n) (q : Fin m) :
    broadcastInDim ⟨2, ![n, m]⟩ ![0] h v (ix2 p q) = v (ix1 p) := by
  refine broadcastInDim_apply _ h v _ (ix1 p) fun a => ?_
  match a with
  | ⟨0, _⟩ =>
    show p.val = if n = 1 then 0 else p.val
    rw [if_neg hn]

abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (i : Fin R) (c : Fin C) :
    Host.gather (rowDims N R C wf) x idx (ix2 i c)
      = x (ix2 ⟨min (idx (ix2 i (0 : Fin 1))).toInt.toNat (N - 1), by omega⟩ c) := by
  have hA0 : (rowDims N R C wf).start (ix2 i c) idx (0 : Fin 2) + (rowDims N R C wf).batchCoord (ix2 i c) (0 : Fin 2)
      + (rowDims N R C wf).offCoord (ix2 i c) (0 : Fin 2) = min (idx (ix2 i (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 i c) ⟨List.idxOf (0 : Fin 2) (rowDims N R C wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  have hA1 : (rowDims N R C wf).start (ix2 i c) idx (1 : Fin 2) + (rowDims N R C wf).batchCoord (ix2 i c) (1 : Fin 2)
      + (rowDims N R C wf).offCoord (ix2 i c) (1 : Fin 2) = c.val := by
    have hs : (rowDims N R C wf).start (ix2 i c) idx (1 : Fin 2) = 0 := by
      unfold GatherDims.start
      exact dif_neg (show (1 : Fin 2) ∉ ([0] : List (Fin 2)) by decide)
    have ho : (rowDims N R C wf).offCoord (ix2 i c) (1 : Fin 2) = c.val := by
      unfold GatherDims.offCoord
      rw [dif_pos ((GatherDims.mem_sKept _ _).mpr ⟨show (1 : Fin 2) ∉ ([0] : List (Fin 2)) by decide, List.not_mem_nil⟩)]
      rfl
    rw [GatherDims.batchCoord_eq_zero _ _ _ List.not_mem_nil, hs, ho]
    omega
  unfold Host.gather
  congr 1
  funext a
  refine Fin.ext ?_
  match a with
  | ⟨0, _⟩ => exact hA0
  | ⟨1, _⟩ => exact hA1

def tkIdx (a : S512000.Idx → BitVec 32) : S512000.Idx → BitVec 32 :=
  select (cmpi .slt a (broadcastInDim S512000 ![] bcast_S_S512000 (constantI S_ 32 0#32)))
    (addi a (broadcastInDim S512000 ![] bcast_S_S512000 (constantI S_ 32 50000#32))) a

def tkCol (a : S512000.Idx → BitVec 32) : S512000x1.Idx → BitVec 32 :=
  broadcastInDim S512000x1 ![0] bcast_S512000_S512000x1_0 (tkIdx a)

def tkOk (a : S512000.Idx → BitVec 32) : S512000x1.Idx → BitVec 1 :=
  andi (cmpi .sge (tkCol a) (broadcastInDim S512000x1 ![] bcast_S_S512000x1 (constantI S_ 32 0#32)))
    (cmpi .sle (tkCol a) (broadcastInDim S512000x1 ![0, 1] bcast_S1x1_S512000x1_0_1
      (broadcastInDim S1x1 ![1] bcast_S1_S1x1_1 (constantI S1 32 49999#32))))

def tkMask (a : S512000.Idx → BitVec 32) : S512000.Idx → BitVec 1 :=
  Host.reduce IntOp.andi (tkOk a) (constantI S_ 1 1#1) reducesTo_S512000x1_S512000_d1 h_S_

def takeTerm {C : ℕ} (dims : GatherDims ⟨2, ![50000, C]⟩ S512000x1 ⟨2, ![512000, C]⟩)
    (hb1 : S512000.BroadcastsInDim ⟨2, ![512000, C]⟩ ![0]) (hb2 : S_.BroadcastsInDim ⟨2, ![512000, C]⟩ ![])
    (x : (⟨2, ![50000, C]⟩ : Shape).Idx → EReal) (a : S512000.Idx → BitVec 32) : (⟨2, ![512000, C]⟩ : Shape).Idx → EReal :=
  select (broadcastInDim ⟨2, ![512000, C]⟩ ![0] hb1 (tkMask a)) (Host.gather dims x (tkCol a))
    (broadcastInDim ⟨2, ![512000, C]⟩ ![] hb2 (constant (F := Ideal) S_ .f32 0x7FC00000#32))

section InRange
variable {a : S512000.Idx → BitVec 32} {dst : Fin 512000 → Fin 50000} (ha : Pos1 a dst)
include ha

theorem tkIdx_apply (i : Fin 512000) : tkIdx a (ix1 i) = BitVec.ofNat 32 (dst i).val := by
  have hsmall : (dst i).val < 2 ^ 31 := by have := (dst i).isLt; omega
  show Scalar.select (IntOp.cmpi .slt (a (ix1 i)) 0#32) (IntOp.addi (a (ix1 i)) 50000#32) (a (ix1 i)) = _
  rw [ha i]
  have hc : IntOp.cmpi .slt (BitVec.ofNat 32 (dst i).val) 0#32 = 0#1 :=
    eq_zero_of_ne_one fun h => by
      rw [IntOp.cmpi_slt, Predicate.toInt_ofNat_small _ hsmall] at h
      have h0 : (0#32 : BitVec 32).toInt = 0 := by decide
      omega
  rw [hc, select_zero]

theorem tkCol_apply (i : Fin 512000) (z : Fin 1) : tkCol a (ix2 i z) = BitVec.ofNat 32 (dst i).val :=
  (bcast_rows_apply (by decide) bcast_S512000_S512000x1_0 (tkIdx a) i z).trans (tkIdx_apply ha i)

theorem tkOk_apply (j : S512000x1.Idx) : tkOk a j = 1#1 := by
  obtain ⟨i, z, rfl⟩ : ∃ i z, j = ix2 i z := ⟨j 0, j 1, eq_ix2 j⟩
  have hsmall : (dst i).val < 2 ^ 31 := by have := (dst i).isLt; omega
  show IntOp.andi (IntOp.cmpi .sge (tkCol a (ix2 i z)) 0#32) (IntOp.cmpi .sle (tkCol a (ix2 i z)) 49999#32) = 1#1
  rw [tkCol_apply ha i z]
  refine IntOp.andi_eq_one.mpr ⟨IntOp.cmpi_sge.mpr ?_, IntOp.cmpi_sle.mpr ?_⟩
  · rw [Predicate.toInt_ofNat_small _ hsmall]
    have h0 : (0#32 : BitVec 32).toInt = 0 := by decide
    omega
  · rw [Predicate.toInt_ofNat_small _ hsmall]
    have h0 : (49999#32 : BitVec 32).toInt = 49999 := by decide
    have := (dst i).isLt
    omega

theorem tkMask_apply (i : S512000.Idx) : tkMask a i = 1#1 := by
  unfold tkMask
  rw [Host.reduce_eq_foldl]
  exact foldl_andi_ones (tkOk a) (tkOk_apply ha) _

theorem takeTerm_real {C : ℕ} (wf : GatherDims.WF ⟨2, ![50000, C]⟩ ⟨2, ![512000, 1]⟩ ⟨2, ![512000, C]⟩ [1] [0] [] [0] [] 1 ![1, C])
    (hb1 : S512000.BroadcastsInDim ⟨2, ![512000, C]⟩ ![0]) (hb2 : S_.BroadcastsInDim ⟨2, ![512000, C]⟩ ![])
    (x : (⟨2, ![50000, C]⟩ : Shape).Idx → EReal) {Q : Fin 50000 → Fin C → ℝ} (hx : Real2 x Q) :
    Real2 (takeTerm (rowDims 50000 512000 C wf) hb1 hb2 x a) (fun i d => Q (dst i) d) := by
  intro i d
  have hsmall : (dst i).val < 2 ^ 31 := by have := (dst i).isLt; omega
  have hm : broadcastInDim ⟨2, ![512000, C]⟩ ![0] hb1 (tkMask a) (ix2 i d) = 1#1 :=
    (bcast_rows_apply (by decide) hb1 (tkMask a) i d).trans (tkMask_apply ha _)
  unfold takeTerm
  rw [select_apply, hm, select_one, gather_rows_apply (by decide) wf x (tkCol a) i d]
  have hidx : (⟨min (tkCol a (ix2 i (0 : Fin 1))).toInt.toNat (50000 - 1), by omega⟩ : Fin 50000) = dst i := by
    refine Fin.ext ?_
    show min (tkCol a (ix2 i (0 : Fin 1))).toInt.toNat (50000 - 1) = (dst i).val
    rw [tkCol_apply ha i 0, Predicate.toInt_ofNat_small _ hsmall, Int.toNat_natCast]
    have := (dst i).isLt
    omega
  exact (congrArg (fun k => x (ix2 k d)) hidx).trans (hx (dst i) d)

end InRange

theorem host11_take {Q : Fin 50000 → Fin 128 → ℝ} {dst : Fin 512000 → Fin 50000}
    (hQ : Real2 (W (Proc.devRef .tc main_v2) : S50000x128.Idx → EReal) Q)
    (hd : Pos1 (W (Proc.devRef .tc main_arg3) : S512000.Idx → BitVec 32) dst) :
    Real2 (after hostOps1_1 W (Proc.devRef .tc main_v4) : S512000x128.Idx → EReal) (fun i d => Q (dst i) d) := by
  have e : (after hostOps1_1 W (Proc.devRef .tc main_v4) : S512000x128.Idx → EReal)
      = takeTerm gather_S50000x128_S512000x1_S512000x128_1_0_n_n_0_1_1128 bcast_S512000_S512000x128_0 bcast_S_S512000x128
          (W (Proc.devRef .tc main_v2) : S50000x128.Idx → EReal) (W (Proc.devRef .tc main_arg3) : S512000.Idx → BitVec 32) := by
    after_results
    simp only [TRef.ofBuf, TRef.toBuf, cast_eq]
    rfl
  rw [e]
  exact takeTerm_real hd gather_S50000x128_S512000x1_S512000x128_1_0_n_n_0_1_1128_wf _ _ _ hQ

end Cert.KernelIdeal.Hand
-- ==== Proof.KI.Host12.lean ====
import proofs.«403660_j89129161327109_3_alg».proof.Proof.KI.Host11

noncomputable section

open scoped BigOperators

namespace Cert.KernelIdeal.Hand

open Idealize.ShloMosaic Idealize.ShloMosaic.ValueIdx Idealize.ShloMosaic.StableHlo
open Cert.KernelIdeal Cert.KernelIdeal.Gen Cert.Spec

variable (W : Valuation τ sig (Elt Ideal))

set_option maxHeartbeats 1600000 in

theorem host12_take {KV : Fin 50000 → Fin 256 → ℝ} {src : Fin 512000 → Fin 50000}
    (hKV : Real2 (W (Proc.devRef .tc main_v3) : S50000x256.Idx → EReal) KV)
    (hs : Pos1 (W (Proc.devRef .tc main_arg2) : S512000.Idx → BitVec 32) src) :
    Real2 (after hostOps1_2 W (Proc.devRef .tc main_v5) : S512000x256.Idx → EReal) (fun i j => KV (src i) j) := by
  have e : (after hostOps1_2 W (Proc.devRef .tc main_v5) : S512000x256.Idx → EReal)
      = takeTerm gather_S50000x256_S512000x1_S512000x256_1_0_n_n_0_1_1256 bcast_S512000_S512000x256_0 bcast_S_S512000x256
          (W (Proc.devRef .tc main_v3) : S50000x256.Idx → EReal) (W (Proc.devRef .tc main_arg2) : S512000.Idx → BitVec 32) := by
    after_results
    simp only [TRef.ofBuf, TRef.toBuf, cast_eq]
    rfl
  rw [e]
  exact takeTerm_real hs gather_S50000x256_S512000x1_S512000x256_1_0_n_n_0_1_1256_wf _ _ _ hKV

end Cert.KernelIdeal.Hand
-- ==== Proof.KI.Host2.lean ====
import proofs.«403660_j89129161327109_3_alg».proof.Proof.KI.HostLib

noncomputable section

open scoped BigOperators

namespace Cert.KernelIdeal.Hand

open Idealize.ShloMosaic Idealize.ShloMosaic.ValueIdx Idealize.ShloMosaic.StableHlo
open Cert.KernelIdeal Cert.KernelIdeal.Gen Cert.Spec

variable (W : Valuation τ sig (Elt Ideal))

-- The operand [N, C], scatter indices [R, 1], updates [R, C]: a scatter of whole rows.
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

-- Update (e, c) lands at (n, c) when row e's scatter index, read signed, is the position n.
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (e : Fin R) (c : Fin C) (n : Fin N)
    (hn : (idx (ix2 e (0 : Fin 1))).toInt = (n.val : ℤ)) :
    (rowScatter N R C wf).resultIdx? (ix2 e c) idx = some (ix2 n c) := by
  have hS0 : (rowScatter N R C wf).start (ix2 e c) idx (0 : Fin 2) = (n.val : ℤ) := by
    unfold ScatterDims.start
    rw [dif_pos (show (0 : Fin 2) ∈ (rowScatter N R C wf).scatterDimsToOperandDims from List.mem_singleton.mpr rfl)]
    have hsi : (rowScatter N R C wf).siIdx (ix2 e c) ⟨List.idxOf (0 : Fin 2) (rowScatter N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]; exact hn
  have hS1 : (rowScatter N R C wf).start (ix2 e c) idx (1 : Fin 2) = 0 := by
    unfold ScatterDims.start
    exact dif_neg (show (1 : Fin 2) ∉ ([0] : List (Fin 2)) by decide)
  have hW0 : (rowScatter N R C wf).window (ix2 e c) (0 : Fin 2) = 0 := by
    unfold ScatterDims.window
    exact dif_neg (show (0 : Fin 2) ∉ Shape.kept ⟨2, ![N, C]⟩ ([0] : List (Fin 2)) by
      simp [Shape.kept, List.mem_filter, List.mem_finRange])
  have hW1 : (rowScatter N R C wf).window (ix2 e c) (1 : Fin 2) = c.val := by
    unfold ScatterDims.window
    rw [dif_pos (show (1 : Fin 2) ∈ Shape.kept ⟨2, ![N, C]⟩ ([0] : List (Fin 2)) by
      simp [Shape.kept, List.mem_filter, List.mem_finRange])]
    rfl
  have hall : ∀ a : Fin 2, 0 ≤ (rowScatter N R C wf).start (ix2 e c) idx a + ((rowScatter N R C wf).window (ix2 e c) a : ℤ)
      ∧ (rowScatter N R C wf).start (ix2 e c) idx a + ((rowScatter N R C wf).window (ix2 e c) a : ℤ) < ((⟨2, ![N, C]⟩ : Shape).size a : ℤ) := by
    intro a
    match a with
    | ⟨0, _⟩ =>
      show 0 ≤ (rowScatter N R C wf).start (ix2 e c) idx (0 : Fin 2) + ((rowScatter N R C wf).window (ix2 e c) (0 : Fin 2) : ℤ)
        ∧ (rowScatter N R C wf).start (ix2 e c) idx (0 : Fin 2) + ((rowScatter N R C wf).window (ix2 e c) (0 : Fin 2) : ℤ) < (N : ℤ)
      rw [hS0, hW0]; have := n.isLt; omega
    | ⟨1, _⟩ =>
      show 0 ≤ (rowScatter N R C wf).start (ix2 e c) idx (1 : Fin 2) + ((rowScatter N R C wf).window (ix2 e c) (1 : Fin 2) : ℤ)
        ∧ (rowScatter N R C wf).start (ix2 e c) idx (1 : Fin 2) + ((rowScatter N R C wf).window (ix2 e c) (1 : Fin 2) : ℤ) < (C : ℤ)
      rw [hS1, hW1]; have := c.isLt; omega
  unfold ScatterDims.resultIdx?
  rw [dif_pos hall]
  congr 1
  funext a
  refine Fin.ext ?_
  match a with
  | ⟨0, _⟩ =>
    show ((rowScatter N R C wf).start (ix2 e c) idx (0 : Fin 2) + ((rowScatter N R C wf).window (ix2 e c) (0 : Fin 2) : ℤ)).toNat = n.val
    rw [hS0, hW0]; omega
  | ⟨1, _⟩ =>
    show ((rowScatter N R C wf).start (ix2 e c) idx (1 : Fin 2) + ((rowScatter N R C wf).window (ix2 e c) (1 : Fin 2) : ℤ)).toNat = c.val
    rw [hS1, hW1]; omega

-- At exact values a row scatter-add holds, at (n, c), the operand plus the updates of the rows whose index is n.
theorem scatterAdd_rows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (f : Fin R → Fin N) (hidx : ∀ e, (idx (ix2 e (0 : Fin 1))).toInt = ((f e).val : ℤ)) (n : Fin N) (c : Fin C) :
    Ideal.hostScatterAdd (rowScatter N R C wf) x idx upd (ix2 n c)
      = x (ix2 n c) + ∑ e : Fin R, if f e = n then upd (ix2 e c) else 0 := by
  unfold Ideal.hostScatterAdd
  congr 1
  rw [Finset.sum_filter, sum_idx2]
  refine Finset.sum_congr rfl fun e _ => ?_
  simp_rw [rowScatter_resultIdx wf idx e _ (f e) (hidx e)]
  by_cases hfe : f e = n
  · rw [if_pos hfe, Finset.sum_eq_single c]
    · rw [if_pos (by rw [hfe])]
    · intro c' _ hne
      exact if_neg fun h => hne (congrFun (Option.some.inj h) (1 : Fin 2))
    · intro h; exact absurd (Finset.mem_univ c) h
  · rw [if_neg hfe]
    exact Finset.sum_eq_zero fun c' _ => if_neg fun h => hfe (congrFun (Option.some.inj h) (0 : Fin 2))

-- A scatter-add into zeros at positions below 50000 is the segment sum.
theorem segsum_of_scatter {C : ℕ} (wf : ScatterDims.WF ⟨2, ![50000, C]⟩ ⟨2, ![512000, 1]⟩ ⟨2, ![512000, C]⟩ [1] [0] [0] 1)
    (hz : S_.BroadcastsInDim ⟨2, ![50000, C]⟩ ![])
    (a : S512000.Idx → BitVec 32) (upd : (⟨2, ![512000, C]⟩ : Shape).Idx → EReal)
    {dst : Fin 512000 → Fin 50000} {U : Fin 512000 → Fin C → ℝ} (ha : Pos1 a dst) (hU : Real2 upd U) :
    Real2 (Ideal.hostScatterAdd (rowScatter 50000 512000 C wf)
        (broadcastInDim ⟨2, ![50000, C]⟩ ![] hz (constant (F := Ideal) S_ .f32 0x00000000#32))
        (broadcastInDim S512000x1 ![0] bcast_S512000_S512000x1_0 a) upd) (Cert.Spec.segsum dst U) := by
  intro n c
  have hidx : ∀ e : Fin 512000, (broadcastInDim S512000x1 ![0] bcast_S512000_S512000x1_0 a (ix2 e (0 : Fin 1))).toInt
      = ((dst e).val : ℤ) := fun e => by
    rw [bcast_rows_apply (by decide) bcast_S512000_S512000x1_0 a e 0, ha e]
    exact Predicate.toInt_ofNat_small _ (by have := (dst e).isLt; omega)
  rw [scatterAdd_rows_apply wf _ _ upd dst hidx n c]
  have h0 : broadcastInDim ⟨2, ![50000, C]⟩ ![] hz (constant (F := Ideal) S_ .f32 0x00000000#32) (ix2 n c) = 0 :=
    Ideal.ofBits_zero_f32
  rw [h0, zero_add]
  unfold Cert.Spec.segsum
  rw [ereal_coe_sum]
  refine Finset.sum_congr rfl fun e _ => ?_
  by_cases h : dst e = n
  · rw [if_pos h, if_pos h]; exact hU e c
  · rw [if_neg h, if_neg h]; rfl

theorem host2_wV {U : Fin 512000 → Fin 128 → ℝ} {dst : Fin 512000 → Fin 50000}
    (hU : Real2 (W (Proc.devRef .tc main_v8_0) : S512000x128.Idx → EReal) U)
    (hd : Pos1 (W (Proc.devRef .tc main_arg3) : S512000.Idx → BitVec 32) dst) :
    Real2 (after hostOps2 W (Proc.devRef .tc main_v11) : S50000x128.Idx → EReal) (segsum dst U) := by
  refine real2_of_eq ?_ (segsum_of_scatter scatter_S50000x128_S512000x1_S512000x128_1_0_0_1_wf bcast_S_S50000x128 _ _ hd hU)
  after_results
  rfl

theorem host2_z {U : Fin 512000 → Fin 8 → ℝ} {dst : Fin 512000 → Fin 50000}
    (hU : Real2 (W (Proc.devRef .tc main_v8_1) : S512000x8.Idx → EReal) U)
    (hd : Pos1 (W (Proc.devRef .tc main_arg3) : S512000.Idx → BitVec 32) dst) :
    Real2 (after hostOps2 W (Proc.devRef .tc main_v14) : S50000x8.Idx → EReal) (segsum dst U) := by
  refine real2_of_eq ?_ (segsum_of_scatter scatter_S50000x8_S512000x1_S512000x8_1_0_0_1_wf bcast_S_S50000x8 _ _ hd hU)
  after_results
  rfl

theorem host2_bo {bo : Fin 128 → ℝ} (h : Real1 (W (Proc.devRef .tc main_arg9) : S128.Idx → EReal) bo) :
    Real2 (a := 1) (b := 128) (after hostOps2 W (Proc.devRef .tc main_v15)) (fun _ d => bo d) := by
  refine real2_of_eq ?_ (row_real shapeCasts_S128_S1x128 h)
  after_results
  rfl

end Cert.KernelIdeal.Hand
-- ==== Proof.KI.Host3.lean ====
import proofs.«403660_j89129161327109_3_alg».proof.Proof.KI.HostLib

noncomputable section

open scoped BigOperators

namespace Cert.KernelIdeal.Hand

open Idealize.ShloMosaic Idealize.ShloMosaic.ValueIdx Idealize.ShloMosaic.StableHlo
open Cert.KernelIdeal Cert.KernelIdeal.Gen Cert.Spec

variable (W : Valuation τ sig (Elt Ideal))

-- Sixteen rows of partial sums folded from zero: each column's sum.
theorem reduceAdd_rows_real {x : S16x128.Idx → EReal} {S : Fin 16 → Fin 128 → ℝ} (hx : Real2 x S) (d : Fin 128) :
    Host.reduceAdd (F := Ideal) x (constant (F := Ideal) S_ .f32 0x00000000#32) reducesTo_S16x128_S128_d0 h_S_ (ix1 d)
      = ((colsum S d : ℝ) : EReal) := by
  have hr : S16x128.Reduces [0] S128 := by decide
  show Ideal.hostReduceAdd reducesTo_S16x128_S128_d0 x (Ideal.ofBits .f32 0x00000000#32) (ix1 d) = _
  rw [Ideal.hostReduceAdd_single reducesTo_S16x128_S128_d0 hr x _ (ix1 d), Ideal.ofBits_zero_f32, zero_add, colsum, ereal_coe_sum]
  refine Finset.sum_congr rfl fun k _ => ?_
  have hl : hr.lift (ix1 d) k = ix2 k d := by
    funext a
    match a with
    | ⟨0, _⟩ => rfl
    | ⟨1, _⟩ => rfl
  rw [hl]
  exact hx k d

-- The folded sums, laid as one row and divided by a nonzero count, are the mean.
theorem mean_real {cw : BitVec 32} {cnt : ℝ} (hc : Ideal.ofBits .f32 cw = ((cnt : ℝ) : EReal)) (hcnt : cnt ≠ 0)
    {x : S16x128.Idx → EReal} {S : Fin 16 → Fin 128 → ℝ} (hx : Real2 x S) :
    Real2 (a := 1) (b := 128)
      (Host.divf (F := Ideal)
        (broadcastInDim S1x128 ![1] bcast_S128_S1x128_1
          (Host.reduceAdd (F := Ideal) x (constant (F := Ideal) S_ .f32 0x00000000#32) reducesTo_S16x128_S128_d0 h_S_))
        (broadcastInDim S1x128 ![] bcast_S_S1x128 (constant (F := Ideal) S_ .f32 cw)))
      (fun _ d => meanOf cnt S d) := by
  intro p q
  show Ideal.div _ (Ideal.ofBits .f32 cw) = _
  rw [bcast_cols_apply (by decide), reduceAdd_rows_real hx q, hc, Ideal.div_coe hcnt, ← EReal.coe_mul, mul_one_div]
  rfl

-- The mean of the squares less the square of the mean.
theorem var_real {cnt : ℝ} {S SS : Fin 16 → Fin 128 → ℝ} {M M2 : S1x128.Idx → EReal}
    (hM : Real2 (a := 1) (b := 128) M (fun _ d => meanOf cnt S d))
    (hM2 : Real2 (a := 1) (b := 128) M2 (fun _ d => meanOf cnt SS d)) :
    Real2 (a := 1) (b := 128) (subf (F := Ideal) (φ := .f32) M2 (mulf (F := Ideal) (φ := .f32) M M)) (fun _ d => varOf cnt S SS d) := by
  intro p q
  show M2 (ix2 p q) - M (ix2 p q) * M (ix2 p q) = _
  rw [hM p q, hM2 p q, ← EReal.coe_mul, ← EReal.coe_sub]
  rfl

theorem nE_ne : (nE : ℝ) ≠ 0 := by rw [nE_eq]; norm_num
theorem nN_ne : (nN : ℝ) ≠ 0 := by rw [nN_eq]; norm_num

theorem host3_e2mean {S : Fin 16 → Fin 128 → ℝ} (h : Real2 (W (Proc.devRef .tc main_v8_2) : S16x128.Idx → EReal) S) :
    Real2 (a := 1) (b := 128) (after hostOps3 W (Proc.devRef .tc main_v26)) (fun _ d => meanOf nE S d) := by
  refine real2_of_eq ?_ (mean_real ofBits_nE nE_ne h)
  after_results <;> rfl

theorem host3_e2var {S SS : Fin 16 → Fin 128 → ℝ} (h : Real2 (W (Proc.devRef .tc main_v8_2) : S16x128.Idx → EReal) S)
    (h' : Real2 (W (Proc.devRef .tc main_v8_3) : S16x128.Idx → EReal) SS) :
    Real2 (a := 1) (b := 128) (after hostOps3 W (Proc.devRef .tc main_v30)) (fun _ d => varOf nE S SS d) := by
  refine real2_of_eq ?_ (var_real (mean_real ofBits_nE nE_ne h) (mean_real ofBits_nE nE_ne h'))
  after_results <;> rfl

theorem host3_h2mean {S : Fin 16 → Fin 128 → ℝ} (h : Real2 (W (Proc.devRef .tc main_v16_1) : S16x128.Idx → EReal) S) :
    Real2 (a := 1) (b := 128) (after hostOps3 W (Proc.devRef .tc main_v32)) (fun _ d => meanOf nN S d) := by
  refine real2_of_eq ?_ (mean_real ofBits_nN nN_ne h)
  after_results <;> rfl

theorem host3_h2var {S SS : Fin 16 → Fin 128 → ℝ} (h : Real2 (W (Proc.devRef .tc main_v16_1) : S16x128.Idx → EReal) S)
    (h' : Real2 (W (Proc.devRef .tc main_v16_2) : S16x128.Idx → EReal) SS) :
    Real2 (a := 1) (b := 128) (after hostOps3 W (Proc.devRef .tc main_v36)) (fun _ d => varOf nN S SS d) := by
  refine real2_of_eq ?_ (var_real (mean_real ofBits_nN nN_ne h) (mean_real ofBits_nN nN_ne h'))
  after_results <;> rfl

theorem host3_g1h {v : Fin 128 → ℝ} (h : Real1 (W (Proc.devRef .tc main_arg10) : S128.Idx → EReal) v) :
    Real2 (a := 1) (b := 128) (after hostOps3 W (Proc.devRef .tc main_v37)) (fun _ d => v d) := by
  refine real2_of_eq ?_ (row_real shapeCasts_S128_S1x128 h)
  after_results <;> rfl

theorem host3_b1h {v : Fin 128 → ℝ} (h : Real1 (W (Proc.devRef .tc main_arg11) : S128.Idx → EReal) v) :
    Real2 (a := 1) (b := 128) (after hostOps3 W (Proc.devRef .tc main_v38)) (fun _ d => v d) := by
  refine real2_of_eq ?_ (row_real shapeCasts_S128_S1x128 h)
  after_results <;> rfl

theorem host3_g1e {v : Fin 128 → ℝ} (h : Real1 (W (Proc.devRef .tc main_arg12) : S128.Idx → EReal) v) :
    Real2 (a := 1) (b := 128) (after hostOps3 W (Proc.devRef .tc main_v39)) (fun _ d => v d) := by
  refine real2_of_eq ?_ (row_real shapeCasts_S128_S1x128 h)
  after_results <;> rfl

theorem host3_b1e {v : Fin 128 → ℝ} (h : Real1 (W (Proc.devRef .tc main_arg13) : S128.Idx → EReal) v) :
    Real2 (a := 1) (b := 128) (after hostOps3 W (Proc.devRef .tc main_v40)) (fun _ d => v d) := by
  refine real2_of_eq ?_ (row_real shapeCasts_S128_S1x128 h)
  after_results <;> rfl

theorem host4_b1 {v : Fin 256 → ℝ} (h : Real1 (W (Proc.devRef .tc main_arg15) : S256.Idx → EReal) v) :
    Real2 (a := 1) (b := 256) (after hostOps4 W (Proc.devRef .tc main_v42)) (fun _ d => v d) := by
  refine real2_of_eq ?_ (row_real shapeCasts_S256_S1x256 h)
  after_results <;> rfl

theorem host4_b2 {v : Fin 128 → ℝ} (h : Real1 (W (Proc.devRef .tc main_arg17) : S128.Idx → EReal) v) :
    Real2 (a := 1) (b := 128) (after hostOps4 W (Proc.devRef .tc main_v43)) (fun _ d => v d) := by
  refine real2_of_eq ?_ (row_real shapeCasts_S128_S1x128 h)
  after_results <;> rfl

theorem host5_h3mean {S : Fin 16 → Fin 128 → ℝ} (h : Real2 (W (Proc.devRef .tc main_v44_1) : S16x128.Idx → EReal) S) :
    Real2 (a := 1) (b := 128) (after hostOps5 W (Proc.devRef .tc main_v50)) (fun _ d => meanOf nN S d) := by
  refine real2_of_eq ?_ (mean_real ofBits_nN nN_ne h)
  after_results <;> rfl

theorem host5_h3var {S SS : Fin 16 → Fin 128 → ℝ} (h : Real2 (W (Proc.devRef .tc main_v44_1) : S16x128.Idx → EReal) S)
    (h' : Real2 (W (Proc.devRef .tc main_v44_2) : S16x128.Idx → EReal) SS) :
    Real2 (a := 1) (b := 128) (after hostOps5 W (Proc.devRef .tc main_v54)) (fun _ d => varOf nN S SS d) := by
  refine real2_of_eq ?_ (var_real (mean_real ofBits_nN nN_ne h) (mean_real ofBits_nN nN_ne h'))
  after_results <;> rfl

theorem host5_g2h {v : Fin 128 → ℝ} (h : Real1 (W (Proc.devRef .tc main_arg18) : S128.Idx → EReal) v) :
    Real2 (a := 1) (b := 128) (after hostOps5 W (Proc.devRef .tc main_v55)) (fun _ d => v d) := by
  refine real2_of_eq ?_ (row_real shapeCasts_S128_S1x128 h)
  after_results <;> rfl

theorem host5_b2h {v : Fin 128 → ℝ} (h : Real1 (W (Proc.devRef .tc main_arg19) : S128.Idx → EReal) v) :
    Real2 (a := 1) (b := 128) (after hostOps5 W (Proc.devRef .tc main_v56)) (fun _ d => v d) := by
  refine real2_of_eq ?_ (row_real shapeCasts_S128_S1x128 h)
  after_results <;> rfl

end Cert.KernelIdeal.Hand
-- ==== Proof.KI.Val0a.lean ====
import proofs.«403660_j89129161327109_3_alg».proof.Proof.Gen.KernelIdeal.Skeleton
import proofs.«403660_j89129161327109_3_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.StackMember

noncomputable section

open scoped BigOperators

namespace Cert.KernelIdeal.Hand

open Cert.KernelIdeal Cert.KernelIdeal.Gen
open Idealize.ShloMosaic Idealize.ShloMosaic.TcCoe Idealize.ShloMosaic.ValueIdx

open Cert.Spec (Real2)

/-- A product of an m×k by a k×n matrix accumulated from zero is, entry by entry, the sum over the contracted axis. -/
theorem matmul2_apply {m k n : ℕ} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (r : Fin m) (q : Fin n) :
    matmul D prec A B (constant _ .f32 0x00000000#32) (ix2 r q) = ∑ c : Fin k, A (ix2 r c) * B (ix2 c q) := by
  subst hD
  exact (congrFun (matmul_zero_eq_dotGeneral _ prec A B) (ix2 r q)).trans (StackMember.dotGeneral_plain_apply prec A B r q)

theorem coe_sum_fin {n : ℕ} (f : Fin n → ℝ) : ((∑ k : Fin n, f k : ℝ) : EReal) = ∑ k : Fin n, ((f k : ℝ) : EReal) := by
  refine Finset.induction_on (Finset.univ : Finset (Fin n)) (by simp) ?_
  intro a s ha ih
  rw [Finset.sum_insert ha, Finset.sum_insert ha, EReal.coe_add, ih]

/-- A sum of products of real entries is the real sum of the products. -/
theorem sum_mul_real {n : ℕ} {a b : Fin n → EReal} {A B : Fin n → ℝ} (ha : ∀ k, a k = ((A k : ℝ) : EReal))
    (hb : ∀ k, b k = ((B k : ℝ) : EReal)) : ∑ k, a k * b k = ((∑ k, A k * B k : ℝ) : EReal) := by
  rw [coe_sum_fin]
  exact Finset.sum_congr rfl fun k _ => by rw [ha, hb, EReal.coe_mul]

/-- The array of extended reals whose entries are the real numbers `X` gives. -/
def ofReal2 {a b : ℕ} (X : Fin a → Fin b → ℝ) : (⟨2, ![a, b]⟩ : Shape).Idx → EReal :=
  fun i => ((X ⟨(i 0).val, (i 0).isLt⟩ ⟨(i 1).val, (i 1).isLt⟩ : ℝ) : EReal)

/-- An array that holds `X`, read at an index named by its two coordinates. -/
theorem real2_at {a b : ℕ} {A : (⟨2, ![a, b]⟩ : Shape).Idx → EReal} {X : Fin a → Fin b → ℝ} (h : Real2 A X)
    (i : (⟨2, ![a, b]⟩ : Shape).Idx) (p : Fin a) (q : Fin b) (h0 : (i 0).val = p.val) (h1 : (i 1).val = q.val) :
    A i = ((X p q : ℝ) : EReal) := by
  obtain rfl : i = ix2 p q := Shape.idx_ext₂ h0 h1
  exact h p q

theorem real2_ofReal2 {a b : ℕ} (X : Fin a → Fin b → ℝ) : Real2 (ofReal2 X) X := fun _ _ => rfl

theorem pay0_real (x : Vec Ideal S1000x128 .f32) (w : Vec Ideal S128x384 .f32)
    (X : Fin 1000 → Fin 128 → ℝ) (W : Fin 128 → Fin 384 → ℝ)
    (hx : ∀ r k, x (ix2 r k) = ((X r k : ℝ) : EReal)) (hw : ∀ k q, w (ix2 k q) = ((W k q : ℝ) : EReal))
    (r : Fin 1000) (q : Fin 384) :
    k0_pay1 (F := Ideal) x w (ix2 r q) = ((∑ k : Fin 128, X r k * W k q : ℝ) : EReal) := by
  refine (matmul2_apply dot_S1000x128_S128x384_S1000x384_1_0_0_1_n_n rfl none _ _ r q).trans ?_
  rw [shapeCast_self]
  exact sum_mul_real (hx r) fun k => hw k q

end Cert.KernelIdeal.Hand
-- ==== Proof.KI.Val0.lean ====
import proofs.«403660_j89129161327109_3_alg».proof.Proof.KI.Reg0
import proofs.«403660_j89129161327109_3_alg».proof.Proof.KI.Val0a

noncomputable section

open scoped BigOperators

namespace Cert.KernelIdeal.Hand

open Cert.KernelIdeal Cert.KernelIdeal.Gen
open Idealize.ShloMosaic Idealize.ShloMosaic.TcCoe Idealize.ShloMosaic.ValueIdx
open Cert.Spec (Real2 mm)

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `1000 t + r`: row `r` of block `t`. -/
def row0 (t : Fin cfg0.N) (r : Fin 1000) : Fin 50000 :=
  ⟨1000 * t.val + r.val, by have := Nat.lt_of_lt_of_eq t.isLt N_0; have := r.isLt; omega⟩

theorem covered0_2 (i : S50000x384.Idx) :
    ∃ t : Fin cfg0.N, (cfg0.win 2).flush t = true ∧ i ∈ ((cfg0.win 2).blk t).view.set := by
  have h0 : (i 0).val < 50000 := (i 0).isLt
  have h1 : (i 1).val < 384 := (i 1).isLt
  have hN : (i 0).val / 1000 < cfg0.N := Nat.lt_of_lt_of_eq (by omega : (i 0).val / 1000 < 50) N_0.symm
  obtain ⟨-, -, -, -, e4, e5⟩ := idx_facts0 ⟨(i 0).val / 1000, hN⟩
  refine ⟨⟨(i 0).val / 1000, hN⟩, flush0_2 _, ?_⟩
  show i ∈ ((View.whole main_v1).slice (win0_2.rect ⟨(i 0).val / 1000, hN⟩)).set
  rw [View.set_slice_whole, Rect.mem_set_unit]
  refine Fin.forall_fin_two.mpr ⟨?_, ?_⟩
  · show win0_2.index _ 0 * 1000 ≤ (i 0).val ∧ (i 0).val < win0_2.index _ 0 * 1000 + 1000
    rw [e4]; show (i 0).val / 1000 * 1000 ≤ (i 0).val ∧ (i 0).val < (i 0).val / 1000 * 1000 + 1000; omega
  · show win0_2.index _ 1 * 384 ≤ (i 1).val ∧ (i 1).val < win0_2.index _ 1 * 384 + 384
    rw [e5]; omega

variable (c : Dev nD) (X : Fin 50000 → Fin 128 → ℝ) (W : Fin 128 → Fin 384 → ℝ)
    (hX : Cert.Spec.Real2 (a := 50000) (b := 128) (V c (Pipeline.arrRef spec0 0)) X)
    (hW : Cert.Spec.Real2 (a := 128) (b := 384) (V c (Pipeline.arrRef spec0 1)) W)
include hX hW

theorem flushed0_2_eq (t : Fin cfg0.N) :
    (dat0 (F := Ideal) V c).flushed 2 t = ((cfg0.win 2).blk t).view.read (Elt Ideal) (ofReal2 (mm X W)) := by
  show (cfg0.win 2).cut (grid0.coords t) ((dat0 (F := Ideal) V c).after 2 t) = _
  rw [after0_2]
  unfold out0_2
  rw [View.canon_unit_zero hz0]
  simp only [View.ld_unit_zero (S := S1000x128) hz0, View.ld_unit_zero (S := S128x384) hz0]
  obtain ⟨e0, e1, e2, e3, e4, e5⟩ := idx_facts0 t
  funext j
  obtain ⟨r, q, rfl⟩ : ∃ (r : Fin 1000) (q : Fin 384), j = ix2 r q := ⟨j 0, j 1, eq_ix2 j⟩
  refine (pay0_real _ _ (fun r k => X (row0 t r) k) W (fun r k => ?_) (fun k q => ?_) r q).trans ?_
  · show V c (Pipeline.arrRef spec0 0) _ = _
    exact real2_at hX _ _ _ (by show win0_0.index t 0 * 1000 + 1 * r.val = 1000 * t.val + r.val; rw [e0]; omega)
      (by show win0_0.index t 1 * 128 + 1 * k.val = k.val; rw [e1]; omega)
  · show V c (Pipeline.arrRef spec0 1) _ = _
    exact real2_at hW _ _ _ (by show win0_1.index t 0 * 128 + 1 * k.val = k.val; rw [e2]; omega)
      (by show win0_1.index t 1 * 384 + 1 * q.val = q.val; rw [e3]; omega)
  · show _ = ofReal2 _ _
    symm
    exact real2_at (real2_ofReal2 _) _ (row0 t r) q (by show win0_2.index t 0 * 1000 + 1 * r.val = 1000 * t.val + r.val; rw [e4]; omega)
      (by show win0_2.index t 1 * 384 + 1 * q.val = q.val; rw [e5]; omega)

theorem val0_2 :
    Cert.Spec.Real2 (a := 50000) (b := 384) ((dat0 (F := Ideal) V c).arrAt 2 cfg0.N) (Cert.Spec.mm X W) := by
  rw [(dat0 (F := Ideal) V c).arrAt_eq_of_cover 2 (ofReal2 (mm X W)) (fun t _ => flushed0_2_eq V c X W hX hW t) covered0_2]
  exact real2_ofReal2 _

end Cert.KernelIdeal.Hand
-- ==== Proof.KI.Val1a.lean ====
import proofs.«403660_j89129161327109_3_alg».proof.Proof.Consts
import proofs.«403660_j89129161327109_3_alg».proof.Proof.KI.Val0a

noncomputable section

open scoped BigOperators

namespace Cert.KernelIdeal.Hand

open Cert.KernelIdeal Cert.KernelIdeal.Gen
open Idealize.ShloMosaic Idealize.ShloMosaic.TcCoe Idealize.ShloMosaic.ValueIdx

theorem pay5_real1 (x0 : Vec Ideal S2048x128 .f32) (x4 : Vec Ideal S128x128 .f32) (Eb : Fin 2048 → Fin 128 → ℝ) (W : Fin 128 → Fin 128 → ℝ)
    (h0 : ∀ r k, x0 (ix2 r k) = ((Eb r k : ℝ) : EReal)) (h4 : ∀ k q, x4 (ix2 k q) = ((W k q : ℝ) : EReal)) (r : Fin 2048) (d : Fin 128) :
    k1_pay5 (F := Ideal) x0 x4 (ix2 r d) = ((∑ k : Fin 128, Eb r k * W k d : ℝ) : EReal) :=
  (matmul2_apply dot_S2048x128_S128x128_S2048x128_1_0_0_1_n_n rfl none _ _ r d).trans (sum_mul_real (h0 r) fun k => h4 k d)

theorem pay6_real1 (x0 : Vec Ideal S2048x128 .f32) (x4 : Vec Ideal S128x128 .f32) (Eb : Fin 2048 → Fin 128 → ℝ) (W : Fin 128 → Fin 128 → ℝ)
    (h0 : ∀ r k, x0 (ix2 r k) = ((Eb r k : ℝ) : EReal)) (h4 : ∀ k q, x4 (ix2 k q) = ((W k q : ℝ) : EReal)) (r : Fin 2048) (d : Fin 128) :
    k1_pay6 (F := Ideal) x0 x4 (ix2 r d) = ((Eb r d + ∑ k : Fin 128, Eb r k * W k d : ℝ) : EReal) := by
  show x0 (ix2 r d) + k1_pay5 (F := Ideal) x0 x4 (ix2 r d) = _
  rw [pay5_real1 x0 x4 Eb W h0 h4, h0, EReal.coe_add]

theorem pay9_real1 (x0 x1 x2 : Vec Ideal S2048x128 .f32) (x4 : Vec Ideal S128x128 .f32) (Eb Kb Qb : Fin 2048 → Fin 128 → ℝ) (W : Fin 128 → Fin 128 → ℝ)
    (h0 : ∀ r k, x0 (ix2 r k) = ((Eb r k : ℝ) : EReal)) (h1 : ∀ r k, x1 (ix2 r k) = ((Kb r k : ℝ) : EReal))
    (h2 : ∀ r k, x2 (ix2 r k) = ((Qb r k : ℝ) : EReal)) (h4 : ∀ k q, x4 (ix2 k q) = ((W k q : ℝ) : EReal)) (r : Fin 2048) (d : Fin 128) :
    k1_pay9 (F := Ideal) x0 x4 x1 x2 (ix2 r d) = ((Kb r d * Qb r d * Cert.Spec.quarter * ∑ k : Fin 128, Eb r k * W k d : ℝ) : EReal) := by
  unfold k1_pay9
  simp only [shapeCast_self]
  show x1 (ix2 r d) * x2 (ix2 r d) * Ideal.ofBits .f32 0x3E800000#32 * k1_pay5 (F := Ideal) x0 x4 (ix2 r d) = _
  rw [pay5_real1 x0 x4 Eb W h0 h4, h1, h2, Cert.Spec.ofBits_quarter, EReal.coe_mul, EReal.coe_mul, EReal.coe_mul]

theorem pay1_real1 (p : FVec Ideal S2048x128 .f32) (x5 : Vec Ideal S128x8 .f32) (P : Fin 2048 → Fin 128 → ℝ) (G : Fin 128 → Fin 8 → ℝ)
    (hp : ∀ r k, p (ix2 r k) = ((P r k : ℝ) : EReal)) (h5 : ∀ k g, x5 (ix2 k g) = ((G k g : ℝ) : EReal)) (r : Fin 2048) (g : Fin 8) :
    k1_pay1 (F := Ideal) p x5 (ix2 r g) = ((Real.exp (Cert.Spec.clip5 (∑ d : Fin 128, P r d * G d g)) : ℝ) : EReal) := by
  show Ideal.exp (min (Ideal.ofBits .f32 0x40A00000#32) (max (Ideal.ofBits .f32 0xC0A00000#32)
    (matmul dot_S2048x128_S128x8_S2048x8_1_0_0_1_n_n _ p x5 _ (ix2 r g)))) = _
  rw [(matmul2_apply dot_S2048x128_S128x8_S2048x8_1_0_0_1_n_n rfl _ p x5 r g).trans (sum_mul_real (hp r) fun k => h5 k g),
    Cert.Spec.ofBits_five, Cert.Spec.ofBits_mfive, ← EReal.coe_strictMono.monotone.map_max, ← EReal.coe_strictMono.monotone.map_min,
    Ideal.exp_coe]
  unfold Cert.Spec.clip5
  rw [max_comm, min_comm]

theorem pay2_real1 (p : FVec Ideal S2048x128 .f32) (x5 : Vec Ideal S128x8 .f32) (x6 : Vec Ideal S8x128 .f32) (x3 : Vec Ideal S2048x128 .f32)
    (P Vb : Fin 2048 → Fin 128 → ℝ) (G : Fin 128 → Fin 8 → ℝ) (GT : Fin 8 → Fin 128 → ℝ)
    (hp : ∀ r k, p (ix2 r k) = ((P r k : ℝ) : EReal)) (h5 : ∀ k g, x5 (ix2 k g) = ((G k g : ℝ) : EReal))
    (h6 : ∀ g d, x6 (ix2 g d) = ((GT g d : ℝ) : EReal)) (h3 : ∀ r k, x3 (ix2 r k) = ((Vb r k : ℝ) : EReal)) (r : Fin 2048) (d : Fin 128) :
    k1_pay2 (F := Ideal) p x5 x6 x3 (ix2 r d)
      = ((Vb r d * ∑ g : Fin 8, Real.exp (Cert.Spec.clip5 (∑ d' : Fin 128, P r d' * G d' g)) * GT g d : ℝ) : EReal) := by
  unfold k1_pay2
  simp only [shapeCast_self]
  show x3 (ix2 r d) * matmul dot_S2048x8_S8x128_S2048x128_1_0_0_1_n_n _ (k1_pay1 (F := Ideal) p x5) x6 _ (ix2 r d) = _
  rw [(matmul2_apply dot_S2048x8_S8x128_S2048x128_1_0_0_1_n_n rfl _ _ x6 r d).trans
      (sum_mul_real (fun g => pay1_real1 p x5 P G hp h5 r g) fun g => h6 g d), h3, EReal.coe_mul]

/-- Row 0 plus the column sums of a block, where row 0 holds `a` and column `d` of the block holds `Y`. -/
theorem colsum_real1 (f : FVec Ideal S2048x128 .f32) (v : Vec Ideal S1x128 .f32) (d : Fin 128) (a : ℝ) (Y : Fin 2048 → ℝ)
    (hv : v (ix2 0 d) = ((a : ℝ) : EReal)) (hf : ∀ r, f (ix2 r d) = ((Y r : ℝ) : EReal)) :
    addf (shapeCast S1x128 v shapeCasts_S1x128_S1x128)
        (shapeCast S1x128 (multiReduction .add [0] S128 f 0x00000000#32 reduces_S2048x128_S128 (.inl rfl) rfl) shapeCasts_S128_S1x128) (ix2 0 d)
      = ((a + ∑ r : Fin 2048, Y r : ℝ) : EReal) := by
  rw [shapeCast_self]
  show v (ix2 0 d) + shapeCast S1x128 _ shapeCasts_S128_S1x128 (ix2 0 d) = _
  rw [shapeCast_apply _ shapeCasts_S128_S1x128 (ix2 0 d) (ix1 d) (by simp [Shape.rowMajor_val_one, Shape.rowMajor_val_two]),
    hv, EReal.coe_add, coe_sum_fin]
  refine congrArg (((a : ℝ) : EReal) + ·) ((Ideal.multiReduction_add_single f _ reduces_S2048x128_S128 _ _ (ix1 d)).trans
    (Finset.sum_congr rfl fun k _ => Eq.trans (congrArg f ?_) (hf k)))
  funext a; apply Fin.ext
  match a with
  | ⟨0, _⟩ => rfl
  | ⟨1, _⟩ => rfl

theorem pay7_real1 (x0 : Vec Ideal S2048x128 .f32) (x4 : Vec Ideal S128x128 .f32) (v14 : Vec Ideal S1x128 .f32)
    (Eb : Fin 2048 → Fin 128 → ℝ) (W : Fin 128 → Fin 128 → ℝ) (a : ℝ)
    (h0 : ∀ r k, x0 (ix2 r k) = ((Eb r k : ℝ) : EReal)) (h4 : ∀ k q, x4 (ix2 k q) = ((W k q : ℝ) : EReal)) (d : Fin 128)
    (h14 : v14 (ix2 0 d) = ((a : ℝ) : EReal)) :
    k1_pay7 (F := Ideal) x0 x4 v14 (ix2 0 d) = ((a + ∑ r : Fin 2048, (Eb r d + ∑ k : Fin 128, Eb r k * W k d) : ℝ) : EReal) :=
  colsum_real1 _ v14 d a _ h14 fun r => pay6_real1 x0 x4 Eb W h0 h4 r d

theorem pay8_real1 (x0 : Vec Ideal S2048x128 .f32) (x4 : Vec Ideal S128x128 .f32) (v18 : Vec Ideal S1x128 .f32)
    (Eb : Fin 2048 → Fin 128 → ℝ) (W : Fin 128 → Fin 128 → ℝ) (a : ℝ)
    (h0 : ∀ r k, x0 (ix2 r k) = ((Eb r k : ℝ) : EReal)) (h4 : ∀ k q, x4 (ix2 k q) = ((W k q : ℝ) : EReal)) (d : Fin 128)
    (h18 : v18 (ix2 0 d) = ((a : ℝ) : EReal)) :
    k1_pay8 (F := Ideal) x0 x4 v18 (ix2 0 d)
      = ((a + ∑ r : Fin 2048, (Eb r d + ∑ k : Fin 128, Eb r k * W k d) * (Eb r d + ∑ k : Fin 128, Eb r k * W k d) : ℝ) : EReal) :=
  colsum_real1 _ v18 d a _ h18 fun r => by
    show k1_pay6 (F := Ideal) x0 x4 (ix2 r d) * k1_pay6 (F := Ideal) x0 x4 (ix2 r d) = _
    rw [pay6_real1 x0 x4 Eb W h0 h4 r d, EReal.coe_mul]

end Cert.KernelIdeal.Hand

end
-- ==== Proof.KI.Val1.lean ====
import proofs.«403660_j89129161327109_3_alg».proof.Proof.KI.Reg1
import proofs.«403660_j89129161327109_3_alg».proof.Proof.KI.Val1a

noncomputable section

open scoped BigOperators

namespace Cert.KernelIdeal.Hand

open Cert.KernelIdeal Cert.KernelIdeal.Gen
open Idealize.ShloMosaic Idealize.ShloMosaic.TcCoe Idealize.ShloMosaic.ValueIdx
open Cert.Spec (Real2 edgeProd edgeS edgeContrib)

variable (V : (c : Dev nD) → (b : Ref sig .tc) → Buf (Elt Ideal) ((c : Thread nD τ).loc b))

theorem idx_rows1_0 : ∀ t : Fin cfg1.N, win1_0.index t (0 : Fin 2) = t.val ∧ win1_0.index t (1 : Fin 2) = 0 :=
  (by decide +kernel : ∀ t : Fin grid1.N, _)
theorem idx_rows1_1 : ∀ t : Fin cfg1.N, win1_1.index t (0 : Fin 2) = t.val ∧ win1_1.index t (1 : Fin 2) = 0 :=
  (by decide +kernel : ∀ t : Fin grid1.N, _)
theorem idx_rows1_2 : ∀ t : Fin cfg1.N, win1_2.index t (0 : Fin 2) = t.val ∧ win1_2.index t (1 : Fin 2) = 0 :=
  (by decide +kernel : ∀ t : Fin grid1.N, _)
theorem idx_rows1_3 : ∀ t : Fin cfg1.N, win1_3.index t (0 : Fin 2) = t.val ∧ win1_3.index t (1 : Fin 2) = 0 :=
  (by decide +kernel : ∀ t : Fin grid1.N, _)
theorem idx_rows1_7 : ∀ t : Fin cfg1.N, win1_7.index t (0 : Fin 2) = t.val ∧ win1_7.index t (1 : Fin 2) = 0 :=
  (by decide +kernel : ∀ t : Fin grid1.N, _)
theorem idx_rows1_8 : ∀ t : Fin cfg1.N, win1_8.index t (0 : Fin 2) = t.val ∧ win1_8.index t (1 : Fin 2) = 0 :=
  (by decide +kernel : ∀ t : Fin grid1.N, _)
theorem idx_whole1_4 : ∀ t : Fin cfg1.N, win1_4.index t (0 : Fin 2) = 0 ∧ win1_4.index t (1 : Fin 2) = 0 :=
  (by decide +kernel : ∀ t : Fin grid1.N, _)
theorem idx_whole1_5 : ∀ t : Fin cfg1.N, win1_5.index t (0 : Fin 2) = 0 ∧ win1_5.index t (1 : Fin 2) = 0 :=
  (by decide +kernel : ∀ t : Fin grid1.N, _)
theorem idx_whole1_6 : ∀ t : Fin cfg1.N, win1_6.index t (0 : Fin 2) = 0 ∧ win1_6.index t (1 : Fin 2) = 0 :=
  (by decide +kernel : ∀ t : Fin grid1.N, _)

/-- Row `2048 t + r`: row `r` of block `t`. -/
def row1 (t : Fin cfg1.N) (r : Fin 2048) : Fin 512000 :=
  ⟨2048 * t.val + r.val, by have := Nat.lt_of_lt_of_eq t.isLt N_1; have := r.isLt; omega⟩

theorem blk1_0_real1 (c : Dev nD) (X : Fin 512000 → Fin 128 → ℝ)
    (hX : Real2 (a := 512000) (b := 128) (V c (Pipeline.arrRef spec1 0)) X) (t : Fin cfg1.N) (r : Fin 2048) (k : Fin 128) :
    (iblk1 V c 0 t : Vec Ideal S2048x128 .f32) (ix2 r k) = ((X (row1 t r) k : ℝ) : EReal) := by
  obtain ⟨e0, e1⟩ := idx_rows1_0 t
  show V c (Pipeline.arrRef spec1 0) _ = _
  exact real2_at hX _ _ _ (by show win1_0.index t 0 * 2048 + 1 * r.val = 2048 * t.val + r.val; rw [e0]; omega)
    (by show win1_0.index t 1 * 128 + 1 * k.val = k.val; rw [e1]; omega)

theorem blk1_1_real1 (c : Dev nD) (X : Fin 512000 → Fin 128 → ℝ)
    (hX : Real2 (a := 512000) (b := 128) (V c (Pipeline.arrRef spec1 1)) X) (t : Fin cfg1.N) (r : Fin 2048) (k : Fin 128) :
    (iblk1 V c 1 t : Vec Ideal S2048x128 .f32) (ix2 r k) = ((X (row1 t r) k : ℝ) : EReal) := by
  obtain ⟨e0, e1⟩ := idx_rows1_1 t
  show V c (Pipeline.arrRef spec1 1) _ = _
  exact real2_at hX _ _ _ (by show win1_1.index t 0 * 2048 + 1 * r.val = 2048 * t.val + r.val; rw [e0]; omega)
    (by show win1_1.index t 1 * 128 + 1 * k.val = k.val; rw [e1]; omega)

theorem blk1_2_real1 (c : Dev nD) (X : Fin 512000 → Fin 128 → ℝ)
    (hX : Real2 (a := 512000) (b := 128) (V c (Pipeline.arrRef spec1 2)) X) (t : Fin cfg1.N) (r : Fin 2048) (k : Fin 128) :
    (iblk1 V c 2 t : Vec Ideal S2048x128 .f32) (ix2 r k) = ((X (row1 t r) k : ℝ) : EReal) := by
  obtain ⟨e0, e1⟩ := idx_rows1_2 t
  show V c (Pipeline.arrRef spec1 2) _ = _
  exact real2_at hX _ _ _ (by show win1_2.index t 0 * 2048 + 1 * r.val = 2048 * t.val + r.val; rw [e0]; omega)
    (by show win1_2.index t 1 * 128 + 1 * k.val = k.val; rw [e1]; omega)

theorem blk1_3_real1 (c : Dev nD) (X : Fin 512000 → Fin 128 → ℝ)
    (hX : Real2 (a := 512000) (b := 128) (V c (Pipeline.arrRef spec1 3)) X) (t : Fin cfg1.N) (r : Fin 2048) (k : Fin 128) :
    (iblk1 V c 3 t : Vec Ideal S2048x128 .f32) (ix2 r k) = ((X (row1 t r) k : ℝ) : EReal) := by
  obtain ⟨e0, e1⟩ := idx_rows1_3 t
  show V c (Pipeline.arrRef spec1 3) _ = _
  exact real2_at hX _ _ _ (by show win1_3.index t 0 * 2048 + 1 * r.val = 2048 * t.val + r.val; rw [e0]; omega)
    (by show win1_3.index t 1 * 128 + 1 * k.val = k.val; rw [e1]; omega)

theorem blk1_4_real1 (c : Dev nD) (X : Fin 128 → Fin 128 → ℝ)
    (hX : Real2 (a := 128) (b := 128) (V c (Pipeline.arrRef spec1 4)) X) (t : Fin cfg1.N) (k : Fin 128) (q : Fin 128) :
    (iblk1 V c 4 t : Vec Ideal S128x128 .f32) (ix2 k q) = ((X k q : ℝ) : EReal) := by
  obtain ⟨e0, e1⟩ := idx_whole1_4 t
  show V c (Pipeline.arrRef spec1 4) _ = _
  exact real2_at hX _ _ _ (by show win1_4.index t 0 * 128 + 1 * k.val = k.val; rw [e0]; omega)
    (by show win1_4.index t 1 * 128 + 1 * q.val = q.val; rw [e1]; omega)

theorem blk1_5_real1 (c : Dev nD) (X : Fin 128 → Fin 8 → ℝ)
    (hX : Real2 (a := 128) (b := 8) (V c (Pipeline.arrRef spec1 5)) X) (t : Fin cfg1.N) (k : Fin 128) (q : Fin 8) :
    (iblk1 V c 5 t : Vec Ideal S128x8 .f32) (ix2 k q) = ((X k q : ℝ) : EReal) := by
  obtain ⟨e0, e1⟩ := idx_whole1_5 t
  show V c (Pipeline.arrRef spec1 5) _ = _
  exact real2_at hX _ _ _ (by show win1_5.index t 0 * 128 + 1 * k.val = k.val; rw [e0]; omega)
    (by show win1_5.index t 1 * 8 + 1 * q.val = q.val; rw [e1]; omega)

theorem blk1_6_real1 (c : Dev nD) (X : Fin 8 → Fin 128 → ℝ)
    (hX : Real2 (a := 8) (b := 128) (V c (Pipeline.arrRef spec1 6)) X) (t : Fin cfg1.N) (k : Fin 8) (q : Fin 128) :
    (iblk1 V c 6 t : Vec Ideal S8x128 .f32) (ix2 k q) = ((X k q : ℝ) : EReal) := by
  obtain ⟨e0, e1⟩ := idx_whole1_6 t
  show V c (Pipeline.arrRef spec1 6) _ = _
  exact real2_at hX _ _ _ (by show win1_6.index t 0 * 8 + 1 * k.val = k.val; rw [e0]; omega)
    (by show win1_6.index t 1 * 128 + 1 * q.val = q.val; rw [e1]; omega)

/-- Row `p` of a 512000-row array lies in the block of point `p / 2048`. -/
theorem cover_rows1 {C : ℕ} (idx : Fin cfg1.N → Fin 2 → ℕ) (hidx : ∀ t, idx t 0 = t.val ∧ idx t 1 = 0)
    (i : (⟨2, ![512000, C]⟩ : Shape).Idx) :
    ∃ t : Fin cfg1.N, ∀ a : Fin 2, idx t a * (⟨2, ![2048, C]⟩ : Shape).size a ≤ (i a).val
      ∧ (i a).val < idx t a * (⟨2, ![2048, C]⟩ : Shape).size a + (⟨2, ![2048, C]⟩ : Shape).size a := by
  have h0 : (i 0).val < 512000 := (i 0).isLt
  have h1 : (i 1).val < C := (i 1).isLt
  have hN : (i 0).val / 2048 < cfg1.N := Nat.lt_of_lt_of_eq (by omega : (i 0).val / 2048 < 250) N_1.symm
  obtain ⟨e0, e1⟩ := hidx ⟨(i 0).val / 2048, hN⟩
  refine ⟨⟨(i 0).val / 2048, hN⟩, Fin.forall_fin_two.mpr ⟨?_, ?_⟩⟩
  · rw [e0]; show (i 0).val / 2048 * 2048 ≤ (i 0).val ∧ (i 0).val < (i 0).val / 2048 * 2048 + 2048; omega
  · rw [e1]; show 0 * C ≤ (i 1).val ∧ (i 1).val < 0 * C + C; omega

theorem covered1_7 (i : S512000x128.Idx) :
    ∃ t : Fin cfg1.N, (cfg1.win 7).flush t = true ∧ i ∈ ((cfg1.win 7).blk t).view.set := by
  obtain ⟨t, hm⟩ := cover_rows1 win1_7.index idx_rows1_7 i
  refine ⟨t, flush1_7 t, ?_⟩
  show i ∈ ((View.whole main_v8_0).slice (win1_7.rect t)).set
  rw [View.set_slice_whole, Rect.mem_set_unit]
  exact hm

theorem covered1_8 (i : S512000x8.Idx) :
    ∃ t : Fin cfg1.N, (cfg1.win 8).flush t = true ∧ i ∈ ((cfg1.win 8).blk t).view.set := by
  obtain ⟨t, hm⟩ := cover_rows1 win1_8.index idx_rows1_8 i
  refine ⟨t, flush1_8 t, ?_⟩
  show i ∈ ((View.whole main_v8_1).slice (win1_8.rect t)).set
  rw [View.set_slice_whole, Rect.mem_set_unit]
  exact hm

variable (c : Dev nD) (E Ks Qd Vs : Fin 512000 → Fin 128 → ℝ) (We : Fin 128 → Fin 128 → ℝ) (G : Fin 128 → Fin 8 → ℝ) (GT : Fin 8 → Fin 128 → ℝ)
    (hE : Cert.Spec.Real2 (a := 512000) (b := 128) (V c (Pipeline.arrRef spec1 0)) E)
    (hKs : Cert.Spec.Real2 (a := 512000) (b := 128) (V c (Pipeline.arrRef spec1 1)) Ks)
    (hQd : Cert.Spec.Real2 (a := 512000) (b := 128) (V c (Pipeline.arrRef spec1 2)) Qd)
    (hVs : Cert.Spec.Real2 (a := 512000) (b := 128) (V c (Pipeline.arrRef spec1 3)) Vs)
    (hWe : Cert.Spec.Real2 (a := 128) (b := 128) (V c (Pipeline.arrRef spec1 4)) We)
    (hG : Cert.Spec.Real2 (a := 128) (b := 8) (V c (Pipeline.arrRef spec1 5)) G)
    (hGT : Cert.Spec.Real2 (a := 8) (b := 128) (V c (Pipeline.arrRef spec1 6)) GT)
include hE hKs hQd hVs hWe hG hGT

theorem prod1_real1 (t : Fin cfg1.N) (r : Fin 2048) (k : Fin 128) :
    prod1 (iblk1 V c 0 t) (iblk1 V c 1 t) (iblk1 V c 2 t) (iblk1 V c 4 t) (ix2 r k)
      = ((edgeProd E Ks Qd We (row1 t r) k : ℝ) : EReal) :=
  pay9_real1 _ _ _ _ (fun r k => E (row1 t r) k) (fun r k => Ks (row1 t r) k) (fun r k => Qd (row1 t r) k) We
    (blk1_0_real1 V c E hE t) (blk1_1_real1 V c Ks hKs t) (blk1_2_real1 V c Qd hQd t) (blk1_4_real1 V c We hWe t) r k

theorem flushed1_7_eq1 (t : Fin cfg1.N) :
    (dat1 (F := Ideal) V c).flushed 7 t = ((cfg1.win 7).blk t).view.read (Elt Ideal) (ofReal2 (edgeContrib E Ks Qd Vs We G GT)) := by
  show (cfg1.win 7).cut (grid1.coords t) ((dat1 (F := Ideal) V c).after 7 t) = _
  rw [after1_7]
  unfold out1_7
  obtain ⟨e0, e1⟩ := idx_rows1_7 t
  funext j
  obtain ⟨r, q, rfl⟩ : ∃ (r : Fin 2048) (q : Fin 128), j = ix2 r q := ⟨j 0, j 1, eq_ix2 j⟩
  refine (pay2_real1 _ _ _ _ (fun r d => edgeProd E Ks Qd We (row1 t r) d) (fun r k => Vs (row1 t r) k) G GT
      (prod1_real1 V c E Ks Qd Vs We G GT hE hKs hQd hVs hWe hG hGT t) (blk1_5_real1 V c G hG t) (blk1_6_real1 V c GT hGT t)
      (blk1_3_real1 V c Vs hVs t) r q).trans ?_
  show _ = ofReal2 _ _
  symm
  exact real2_at (real2_ofReal2 _) _ (row1 t r) q (by show win1_7.index t 0 * 2048 + 1 * r.val = 2048 * t.val + r.val; rw [e0]; omega)
    (by show win1_7.index t 1 * 128 + 1 * q.val = q.val; rw [e1]; omega)

theorem flushed1_8_eq1 (t : Fin cfg1.N) :
    (dat1 (F := Ideal) V c).flushed 8 t = ((cfg1.win 8).blk t).view.read (Elt Ideal) (ofReal2 (edgeS E Ks Qd We G)) := by
  show (cfg1.win 8).cut (grid1.coords t) ((dat1 (F := Ideal) V c).after 8 t) = _
  rw [after1_8]
  unfold out1_8
  obtain ⟨e0, e1⟩ := idx_rows1_8 t
  funext j
  obtain ⟨r, q, rfl⟩ : ∃ (r : Fin 2048) (q : Fin 8), j = ix2 r q := ⟨j 0, j 1, eq_ix2 j⟩
  refine (pay1_real1 _ _ (fun r d => edgeProd E Ks Qd We (row1 t r) d) G
      (prod1_real1 V c E Ks Qd Vs We G GT hE hKs hQd hVs hWe hG hGT t) (blk1_5_real1 V c G hG t) r q).trans ?_
  show _ = ofReal2 _ _
  symm
  exact real2_at (real2_ofReal2 _) _ (row1 t r) q (by show win1_8.index t 0 * 2048 + 1 * r.val = 2048 * t.val + r.val; rw [e0]; omega)
    (by show win1_8.index t 1 * 8 + 1 * q.val = q.val; rw [e1]; omega)

theorem val1_7 :
    Cert.Spec.Real2 (a := 512000) (b := 128) ((dat1 (F := Ideal) V c).arrAt 7 cfg1.N) (Cert.Spec.edgeContrib E Ks Qd Vs We G GT) := by
  rw [(dat1 (F := Ideal) V c).arrAt_eq_of_cover 7 (ofReal2 (edgeContrib E Ks Qd Vs We G GT))
    (fun t _ => flushed1_7_eq1 V c E Ks Qd Vs We G GT hE hKs hQd hVs hWe hG hGT t) covered1_7]
  exact real2_ofReal2 _

theorem val1_8 :
    Cert.Spec.Real2 (a := 512000) (b := 8) ((dat1 (F := Ideal) V c).arrAt 8 cfg1.N) (Cert.Spec.edgeS E Ks Qd We G) := by
  rw [(dat1 (F := Ideal) V c).arrAt_eq_of_cover 8 (ofReal2 (edgeS E Ks Qd We G))
    (fun t _ => flushed1_8_eq1 V c E Ks Qd Vs We G GT hE hKs hQd hVs hWe hG hGT t) covered1_8]
  exact real2_ofReal2 _

end Cert.KernelIdeal.Hand

end
-- ==== Proof.KI.Val1b.lean ====
import proofs.«403660_j89129161327109_3_alg».proof.Proof.Spec

noncomputable section

open scoped BigOperators

namespace Cert.KernelIdeal.Hand

/-- `Y` summed over the rows from `lo` up to, not including, `hi`. -/
def part1 (Y : Fin 512000 → ℝ) (lo hi : ℕ) : ℝ := ∑ i : Fin 512000, if lo ≤ i.val ∧ i.val < hi then Y i else 0

theorem part1_append1 (Y : Fin 512000 → ℝ) (lo mid hi : ℕ) (h1 : lo ≤ mid) (h2 : mid ≤ hi) :
    part1 Y lo hi = part1 Y lo mid + part1 Y mid hi := by
  unfold part1
  rw [← Finset.sum_add_distrib]
  refine Finset.sum_congr rfl fun i _ => ?_
  by_cases ha : lo ≤ i.val ∧ i.val < mid
  · rw [if_pos ha, if_pos ⟨ha.1, by omega⟩, if_neg (by omega), add_zero]
  · by_cases hb : mid ≤ i.val ∧ i.val < hi
    · rw [if_neg ha, if_pos hb, if_pos ⟨by omega, hb.2⟩, zero_add]
    · rw [if_neg ha, if_neg hb, if_neg (by omega), add_zero]

/-- `r ↦ 2048 n + r` is a bijection from 2048 rows onto the range of block `n`. -/
theorem part1_block1 (Y : Fin 512000 → ℝ) (n : ℕ) (hn : n < 250) :
    part1 Y (2048 * n) (2048 * (n + 1)) = ∑ r : Fin 2048, Y ⟨2048 * n + r.val, by have := r.isLt; omega⟩ := by
  unfold part1
  rw [← Finset.sum_filter]
  symm
  refine Finset.sum_bij (fun r _ => (⟨2048 * n + r.val, by have := r.isLt; omega⟩ : Fin 512000)) ?_ ?_ ?_ fun _ _ => rfl
  · intro r _
    have := r.isLt
    exact Finset.mem_filter.mpr ⟨Finset.mem_univ _, by show 2048 * n ≤ 2048 * n + r.val ∧ 2048 * n + r.val < 2048 * (n + 1); omega⟩
  · intro r _ r' _ h
    have := congrArg Fin.val h
    apply Fin.ext
    simp only at this
    omega
  · intro i hi
    obtain ⟨-, h1, h2⟩ := Finset.mem_filter.mp hi
    exact ⟨⟨i.val - 2048 * n, by omega⟩, Finset.mem_univ _, Fin.ext (by show 2048 * n + (i.val - 2048 * n) = i.val; omega)⟩

theorem part1_half1 (Y : Fin 512000 → ℝ) (o : ℕ) :
    part1 Y (256000 * o) (256000 * (o + 1)) = ∑ i : Fin 512000, if i.val / 256000 = o then Y i else 0 := by
  unfold part1
  refine Finset.sum_congr rfl fun i _ => ?_
  by_cases h : i.val / 256000 = o
  · rw [if_pos h, if_pos (by omega)]
  · rw [if_neg h, if_neg (by omega)]

end Cert.KernelIdeal.Hand

end
-- ==== Proof.KI.Val1c.lean ====
import proofs.«403660_j89129161327109_3_alg».proof.Proof.KI.Val1b
import proofs.«403660_j89129161327109_3_alg».proof.Proof.KI.Val1

noncomputable section

open scoped BigOperators

namespace Cert.KernelIdeal.Hand

open Cert.KernelIdeal Cert.KernelIdeal.Gen
open Idealize.ShloMosaic Idealize.ShloMosaic.TcCoe Idealize.ShloMosaic.ValueIdx
open Cert.Spec (Real2 edgeE2 edgeSum edgeSumSq)

variable (V : (c : Dev nD) → (b : Ref sig .tc) → Buf (Elt Ideal) ((c : Thread nD τ).loc b))

theorem idx_acc1_9 : ∀ t : Fin cfg1.N, win1_9.index t (0 : Fin 2) = t.val / 125 ∧ win1_9.index t (1 : Fin 2) = 0 :=
  (by decide +kernel : ∀ t : Fin grid1.N, _)
theorem idx_acc1_10 : ∀ t : Fin cfg1.N, win1_10.index t (0 : Fin 2) = t.val / 125 ∧ win1_10.index t (1 : Fin 2) = 0 :=
  (by decide +kernel : ∀ t : Fin grid1.N, _)

theorem rowR_idx1 (d : Fin 128) : rowR.idx (ix2 (0 : Fin 1) d) = ix2 (0 : Fin 8) d := by
  funext a
  apply Fin.ext
  match a with
  | ⟨0, _⟩ => rfl
  | ⟨1, _⟩ => show 0 + 1 * d.val = d.val; omega

theorem ld_row0_1 (prev : Vec Ideal S8x128 .f32) (d : Fin 128) : View.ld prev rowR (ix2 (0 : Fin 1) d) = prev (ix2 (0 : Fin 8) d) :=
  congrArg prev (rowR_idx1 d)

/-- Laying a row over row 0 of a block changes row 0 to it and leaves rows 1 to 7. -/
theorem overlay_row0_1 (prev : Vec Ideal S8x128 .f32) (w : Vec Ideal S1x128 .f32) (d : Fin 128) :
    rowR.overlay prev w (ix2 0 d) = w (ix2 0 d) :=
  (congrArg (rowR.overlay prev w) (rowR_idx1 d)).symm.trans (Rect.overlay_emb rowR prev w (ix2 (0 : Fin 1) d))

theorem overlay_rest1 (prev : Vec Ideal S8x128 .f32) (w : Vec Ideal S1x128 .f32) (i : Fin 8) (hi : i.val ≠ 0) (d : Fin 128) :
    rowR.overlay prev w (ix2 i d) = prev (ix2 i d) :=
  Rect.overlay_of_not_mem _ _ _ fun h => hi (by have h2 : (i.val : ℕ) < 0 + 1 := ((Rect.mem_set_unit.mp h) 0).2; omega)

/-- At the last point of a half the running sum is the sum over the half's 256000 rows. -/
theorem acc_last1 (Y : Fin 512000 → Fin 128 → ℝ) (t : ℕ) (ht : t < 250) (h124 : t % 125 = 124) (i : Fin 8) (d : Fin 128)
    (j : (⟨2, ![16, 128]⟩ : Shape).Idx) (h0 : (j 0).val = 8 * (t / 125) + i.val) (h1 : (j 1).val = d.val) :
    ((if i.val = 0 then part1 (fun p => Y p d) (2048 * (125 * (t / 125))) (2048 * (t + 1)) else 0 : ℝ) : EReal)
      = ofReal2 (Cert.Spec.acc 256000 Y) j := by
  have hi8 : i.val < 8 := i.isLt
  rw [real2_at (real2_ofReal2 _) j ⟨8 * (t / 125) + i.val, by omega⟩ d h0 h1]
  unfold Cert.Spec.acc
  by_cases hi : i.val = 0
  · rw [if_pos hi, if_pos (show (8 * (t / 125) + i.val) % 8 = 0 from by omega),
      show 2048 * (125 * (t / 125)) = 256000 * (t / 125) from by omega,
      show 2048 * (t + 1) = 256000 * (t / 125 + 1) from by omega, part1_half1,
      show (8 * (t / 125) + i.val) / 8 = t / 125 from by omega]
  · rw [if_neg hi, if_neg (show ¬(8 * (t / 125) + i.val) % 8 = 0 from by omega)]

/-- Rows `8 o .. 8 o + 7` of a 16-row array lie in the block of the last point of half `o`. -/
theorem cover_acc1 (idx : Fin cfg1.N → Fin 2 → ℕ) (hidx : ∀ t, idx t 0 = t.val / 125 ∧ idx t 1 = 0) (i : S16x128.Idx) :
    ∃ t : Fin cfg1.N, t.val % 125 = 124 ∧
      ∀ a : Fin 2, idx t a * S8x128.size a ≤ (i a).val ∧ (i a).val < idx t a * S8x128.size a + S8x128.size a := by
  have h0 : (i 0).val < 16 := (i 0).isLt
  have h1 : (i 1).val < 128 := (i 1).isLt
  have hN : 125 * ((i 0).val / 8) + 124 < cfg1.N := Nat.lt_of_lt_of_eq (by omega : 125 * ((i 0).val / 8) + 124 < 250) N_1.symm
  obtain ⟨e0, e1⟩ := hidx ⟨125 * ((i 0).val / 8) + 124, hN⟩
  refine ⟨⟨125 * ((i 0).val / 8) + 124, hN⟩, by show (125 * ((i 0).val / 8) + 124) % 125 = 124; omega,
    Fin.forall_fin_two.mpr ⟨?_, ?_⟩⟩
  · rw [e0]; show (125 * ((i 0).val / 8) + 124) / 125 * 8 ≤ (i 0).val ∧ (i 0).val < (125 * ((i 0).val / 8) + 124) / 125 * 8 + 8; omega
  · rw [e1]; show 0 * 128 ≤ (i 1).val ∧ (i 1).val < 0 * 128 + 128; omega

theorem covered1_9 (i : S16x128.Idx) :
    ∃ t : Fin cfg1.N, (cfg1.win 9).flush t = true ∧ i ∈ ((cfg1.win 9).blk t).view.set := by
  obtain ⟨t, h, hm⟩ := cover_acc1 win1_9.index idx_acc1_9 i
  refine ⟨t, (flush1_9 t).mpr h, ?_⟩
  show i ∈ ((View.whole main_v8_2).slice (win1_9.rect t)).set
  rw [View.set_slice_whole, Rect.mem_set_unit]
  exact hm

theorem covered1_10 (i : S16x128.Idx) :
    ∃ t : Fin cfg1.N, (cfg1.win 10).flush t = true ∧ i ∈ ((cfg1.win 10).blk t).view.set := by
  obtain ⟨t, h, hm⟩ := cover_acc1 win1_10.index idx_acc1_10 i
  refine ⟨t, (flush1_10 t).mpr h, ?_⟩
  show i ∈ ((View.whole main_v8_3).slice (win1_10.rect t)).set
  rw [View.set_slice_whole, Rect.mem_set_unit]
  exact hm

variable (c : Dev nD) (E Ks Qd Vs : Fin 512000 → Fin 128 → ℝ) (We : Fin 128 → Fin 128 → ℝ) (G : Fin 128 → Fin 8 → ℝ) (GT : Fin 8 → Fin 128 → ℝ)
    (hE : Cert.Spec.Real2 (a := 512000) (b := 128) (V c (Pipeline.arrRef spec1 0)) E)
    (hKs : Cert.Spec.Real2 (a := 512000) (b := 128) (V c (Pipeline.arrRef spec1 1)) Ks)
    (hQd : Cert.Spec.Real2 (a := 512000) (b := 128) (V c (Pipeline.arrRef spec1 2)) Qd)
    (hVs : Cert.Spec.Real2 (a := 512000) (b := 128) (V c (Pipeline.arrRef spec1 3)) Vs)
    (hWe : Cert.Spec.Real2 (a := 128) (b := 128) (V c (Pipeline.arrRef spec1 4)) We)
    (hG : Cert.Spec.Real2 (a := 128) (b := 8) (V c (Pipeline.arrRef spec1 5)) G)
    (hGT : Cert.Spec.Real2 (a := 8) (b := 128) (V c (Pipeline.arrRef spec1 6)) GT)
include hE hKs hQd hVs hWe hG hGT

/-- Blocks that restart from zeros every 125 steps and otherwise add the step's column sums of `f (e + e We)` to row 0 hold there the running sum since the restart. -/
theorem acc_inv1 (f : ℝ → ℝ)
    (A : (n : ℕ) → n < cfg1.N → Vec Ideal S8x128 .f32)
    (pay : Vec Ideal S2048x128 .f32 → Vec Ideal S128x128 .f32 → Vec Ideal S1x128 .f32 → FVec Ideal S1x128 .f32)
    (z : Vec Ideal S8x128 .f32) (hz : ∀ i d, z (ix2 i d) = ((0 : ℝ) : EReal))
    (hA : ∀ t : Fin cfg1.N, t.val % 125 = 0 →
      A t.val t.isLt = rowR.overlay z (pay (iblk1 V c 0 t) (iblk1 V c 4 t) (View.ld z rowR)))
    (hB : ∀ t : Fin cfg1.N, ¬t.val % 125 = 0 →
      A t.val t.isLt = rowR.overlay (A (t.val - 1) (Nat.lt_of_le_of_lt (Nat.sub_le _ _) t.isLt))
        (pay (iblk1 V c 0 t) (iblk1 V c 4 t) (View.ld (A (t.val - 1) (Nat.lt_of_le_of_lt (Nat.sub_le _ _) t.isLt)) rowR)))
    (hpay : ∀ (x0 : Vec Ideal S2048x128 .f32) (x4 : Vec Ideal S128x128 .f32) (v : Vec Ideal S1x128 .f32)
      (Eb : Fin 2048 → Fin 128 → ℝ) (W : Fin 128 → Fin 128 → ℝ) (a : ℝ),
      (∀ r k, x0 (ix2 r k) = ((Eb r k : ℝ) : EReal)) → (∀ k q, x4 (ix2 k q) = ((W k q : ℝ) : EReal)) → ∀ d : Fin 128,
      v (ix2 0 d) = ((a : ℝ) : EReal) →
      pay x0 x4 v (ix2 0 d) = ((a + ∑ r : Fin 2048, f (Eb r d + ∑ k : Fin 128, Eb r k * W k d) : ℝ) : EReal)) :
    ∀ (n : ℕ) (hn : n < cfg1.N) (i : Fin 8) (d : Fin 128),
      A n hn (ix2 i d)
        = ((if i.val = 0 then part1 (fun p => f (edgeE2 E We p d)) (2048 * (125 * (n / 125))) (2048 * (n + 1)) else 0 : ℝ) : EReal) := by
  have reset : ∀ t : Fin cfg1.N, t.val % 125 = 0 → ∀ (i : Fin 8) (d : Fin 128), A t.val t.isLt (ix2 i d)
      = ((if i.val = 0 then part1 (fun p => f (edgeE2 E We p d)) (2048 * (125 * (t.val / 125))) (2048 * (t.val + 1)) else 0 : ℝ) : EReal) := by
    intro t h0 i d
    have ht : t.val < 250 := Nat.lt_of_lt_of_eq t.isLt N_1
    rw [hA t h0]
    by_cases hi : i.val = 0
    · obtain rfl : i = 0 := Fin.ext hi
      rw [if_pos hi, overlay_row0_1,
        hpay _ _ _ (fun r k => E (row1 t r) k) We 0 (blk1_0_real1 V c E hE t) (blk1_4_real1 V c We hWe t) d
          ((ld_row0_1 _ d).trans (hz 0 d)),
        zero_add, show 125 * (t.val / 125) = t.val from by omega, part1_block1 _ t.val ht]
      rfl
    · rw [if_neg hi, overlay_rest1 _ _ i hi d]
      exact hz i d
  intro n
  induction n with
  | zero => exact fun hn => reset ⟨0, hn⟩ (Nat.zero_mod _)
  | succ n ih =>
    intro hn i d
    by_cases h0 : (n + 1) % 125 = 0
    · exact reset ⟨n + 1, hn⟩ h0 i d
    · have hN : n + 1 < 250 := Nat.lt_of_lt_of_eq hn N_1
      have hprev := ih (Nat.lt_of_succ_lt hn)
      rw [hB ⟨n + 1, hn⟩ h0]
      by_cases hi : i.val = 0
      · obtain rfl : i = 0 := Fin.ext hi
        rw [if_pos hi, overlay_row0_1]
        refine (hpay _ _ _ (fun r k => E (row1 ⟨n + 1, hn⟩ r) k) We
            (part1 (fun p => f (edgeE2 E We p d)) (2048 * (125 * (n / 125))) (2048 * (n + 1)))
            (blk1_0_real1 V c E hE ⟨n + 1, hn⟩) (blk1_4_real1 V c We hWe ⟨n + 1, hn⟩) d
            ((ld_row0_1 _ d).trans ((hprev 0 d).trans (by rw [if_pos hi])))).trans ?_
        rw [show 125 * ((n + 1) / 125) = 125 * (n / 125) from by omega,
          part1_append1 _ (2048 * (125 * (n / 125))) (2048 * (n + 1)) (2048 * (n + 1 + 1)) (by omega) (by omega),
          part1_block1 _ (n + 1) hN]
        rfl
      · rw [if_neg hi, overlay_rest1 _ _ i hi d]
        exact (hprev i d).trans (by rw [if_neg hi])

theorem flushed1_9_eq1 (t : Fin cfg1.N) (hf : (cfg1.win 9).flush t = true) :
    (dat1 (F := Ideal) V c).flushed 9 t = ((cfg1.win 9).blk t).view.read (Elt Ideal) (ofReal2 (edgeSum E We)) := by
  show (cfg1.win 9).cut (grid1.coords t) ((dat1 (F := Ideal) V c).after 9 t) = _
  rw [after1_9]
  obtain ⟨e0, e1⟩ := idx_acc1_9 t
  funext j
  obtain ⟨i, d, rfl⟩ : ∃ (i : Fin 8) (d : Fin 128), j = ix2 i d := ⟨j 0, j 1, eq_ix2 j⟩
  refine (acc_inv1 V c E Ks Qd Vs We G GT hE hKs hQd hVs hWe hG hGT (fun x => x) (acc1_9 V c) k1_pay7 (k1_pay3 (F := Ideal)) (fun _ _ => Cert.Spec.ofBits_zero)
      (acc1_9_A V c) (acc1_9_B V c) pay7_real1 t.val t.isLt i d).trans ?_
  show _ = ofReal2 _ _
  exact (acc_last1 (edgeE2 E We) t.val (Nat.lt_of_lt_of_eq t.isLt N_1) ((flush1_9 t).mp hf) i d _
      (by show win1_9.index t 0 * 8 + 1 * i.val = _; rw [e0]; omega) (by show win1_9.index t 1 * 128 + 1 * d.val = _; rw [e1]; omega))

theorem flushed1_10_eq1 (t : Fin cfg1.N) (hf : (cfg1.win 10).flush t = true) :
    (dat1 (F := Ideal) V c).flushed 10 t = ((cfg1.win 10).blk t).view.read (Elt Ideal) (ofReal2 (edgeSumSq E We)) := by
  show (cfg1.win 10).cut (grid1.coords t) ((dat1 (F := Ideal) V c).after 10 t) = _
  rw [after1_10]
  obtain ⟨e0, e1⟩ := idx_acc1_10 t
  funext j
  obtain ⟨i, d, rfl⟩ : ∃ (i : Fin 8) (d : Fin 128), j = ix2 i d := ⟨j 0, j 1, eq_ix2 j⟩
  refine (acc_inv1 V c E Ks Qd Vs We G GT hE hKs hQd hVs hWe hG hGT (fun x => x * x) (acc1_10 V c) k1_pay8 (k1_pay4 (F := Ideal)) (fun _ _ => Cert.Spec.ofBits_zero)
      (acc1_10_A V c) (acc1_10_B V c) pay8_real1 t.val t.isLt i d).trans ?_
  show _ = ofReal2 _ _
  exact (acc_last1 (fun p d => edgeE2 E We p d * edgeE2 E We p d) t.val (Nat.lt_of_lt_of_eq t.isLt N_1) ((flush1_10 t).mp hf) i d _
      (by show win1_10.index t 0 * 8 + 1 * i.val = _; rw [e0]; omega) (by show win1_10.index t 1 * 128 + 1 * d.val = _; rw [e1]; omega))

theorem val1_9 :
    Cert.Spec.Real2 (a := 16) (b := 128) ((dat1 (F := Ideal) V c).arrAt 9 cfg1.N) (Cert.Spec.edgeSum E We) := by
  rw [(dat1 (F := Ideal) V c).arrAt_eq_of_cover 9 (ofReal2 (edgeSum E We)) (flushed1_9_eq1 V c E Ks Qd Vs We G GT hE hKs hQd hVs hWe hG hGT) covered1_9]
  exact real2_ofReal2 _

theorem val1_10 :
    Cert.Spec.Real2 (a := 16) (b := 128) ((dat1 (F := Ideal) V c).arrAt 10 cfg1.N) (Cert.Spec.edgeSumSq E We) := by
  rw [(dat1 (F := Ideal) V c).arrAt_eq_of_cover 10 (ofReal2 (edgeSumSq E We)) (flushed1_10_eq1 V c E Ks Qd Vs We G GT hE hKs hQd hVs hWe hG hGT) covered1_10]
  exact real2_ofReal2 _

end Cert.KernelIdeal.Hand

end
-- ==== Proof.KI.Val2a.lean ====
import proofs.«403660_j89129161327109_3_alg».proof.Proof.Gen.KernelIdeal.Skeleton
import proofs.«403660_j89129161327109_3_alg».proof.Proof.Spec
import proofs.«403660_j89129161327109_3_alg».proof.Proof.Consts
import proofs.«403660_j89129161327109_3_alg».proof.Proof.KI.Val0a
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.ValueIdx
open Cert.Spec (mm eps6)
open scoped BigOperators

theorem hz2 : (![0, 0] : Fin 2 → Nat) = fun _ => 0 := funext fun a => by fin_cases a <;> rfl

-- An entry of an array of reals, at the index with the two given coordinates.
theorem real_at2 {a b : ℕ} {A : (⟨2, ![a, b]⟩ : Shape).Idx → EReal} {X : Fin a → Fin b → ℝ} (h : Cert.Spec.Real2 A X)
    (i : (⟨2, ![a, b]⟩ : Shape).Idx) (p : Fin a) (q : Fin b) (h0 : (i 0 : ℕ) = p) (h1 : (i 1 : ℕ) = q) :
    A i = ((X p q : ℝ) : EReal) :=
  (congrArg A (Shape.idx_ext₂ h0 h1)).trans (h p q)

-- Over real operands, a product along one contracted axis accumulated from zero is the real matrix product.
theorem mm_real2 {a k b : ℕ} {φ₁ φ₂ : FTy} (D : DotDims ⟨2, ![a, k]⟩ ⟨2, ![k, b]⟩ ⟨2, ![a, b]⟩) (prec : Option ContractPrecision)
    (hr : D.contr.rank = 1) (hs : D.contr.size ⟨0, by omega⟩ = k)
    (hl : ∀ p q j, D.lhsIdx (ix2 p q) ((contrEquiv1 D k hr hs).symm j) = ix2 p j)
    (hrr : ∀ p q j, D.rhsIdx (ix2 p q) ((contrEquiv1 D k hr hs).symm j) = ix2 j q)
    (A : FVec Ideal ⟨2, ![a, k]⟩ φ₁) (B : FVec Ideal ⟨2, ![k, b]⟩ φ₂) (X : Fin a → Fin k → ℝ) (Y : Fin k → Fin b → ℝ)
    (hA : ∀ p j, A (ix2 p j) = ((X p j : ℝ) : EReal)) (hB : ∀ j q, B (ix2 j q) = ((Y j q : ℝ) : EReal)) (p : Fin a) (q : Fin b) :
    matmul D prec A B (constant ⟨2, ![a, b]⟩ .f32 0x00000000#32) (ix2 p q) = ((mm X Y p q : ℝ) : EReal) := by
  simp only [matmul]
  rw [Ideal.matmul_constant_zero_apply, ← Equiv.sum_comp (contrEquiv1 D k hr hs).symm]
  simp only [hl, hrr, hA, hB, ← EReal.coe_mul]
  exact (coe_sum_fin _).symm

theorem colsum2 (X : FVec Ideal S1000x128 .f32) (q : Fin 128) :
    multiReduction .add [0] S128 X 0x00000000#32 reduces_S1000x128_S128 (.inl rfl) rfl (ix1 q) = ∑ r : Fin 1000, X (ix2 r q) := by
  refine (Ideal.multiReduction_add_single X 0x00000000#32 reduces_S1000x128_S128 (.inl rfl) rfl (ix1 q)).trans ?_
  refine Finset.sum_congr rfl fun r _ => congrArg X ?_
  funext a; fin_cases a <;> rfl

-- With the block's inputs the rows ρ of the real arrays, the projected block holds the projected features at those rows.
theorem pay4_apply2 (v3 : FVec Ideal S1000x8 .f32) (v5 : FVec Ideal S8x128 .f32) (v7 : FVec Ideal S1000x128 .f32)
    (v13 : FVec Ideal S128x128 .f32) (v16 : FVec Ideal S1000x128 .f32) (v18 : FVec Ideal S1x128 .f32)
    (wv : Fin 50000 → Fin 128 → ℝ) (z : Fin 50000 → Fin 8 → ℝ) (hh : Fin 50000 → Fin 128 → ℝ)
    (Wo : Fin 128 → Fin 128 → ℝ) (bo : Fin 128 → ℝ) (GT : Fin 8 → Fin 128 → ℝ) (ρ : Fin 1000 → Fin 50000)
    (h3 : ∀ p g, v3 (ix2 p g) = ((z (ρ p) g : ℝ) : EReal)) (h5 : ∀ g d, v5 (ix2 g d) = ((GT g d : ℝ) : EReal))
    (h7 : ∀ p d, v7 (ix2 p d) = ((wv (ρ p) d : ℝ) : EReal)) (h13 : ∀ k d, v13 (ix2 k d) = ((Wo k d : ℝ) : EReal))
    (h16 : ∀ p d, v16 (ix2 p d) = ((hh (ρ p) d : ℝ) : EReal)) (h18 : ∀ d, v18 (ix2 (0 : Fin 1) d) = ((bo d : ℝ) : EReal))
    (hden : ∀ n d, 0 < mm z GT n d + eps6) (p : Fin 1000) (q : Fin 128) :
    k2_pay4 (F := Ideal) v3 v5 v7 v13 v16 v18 (ix2 p q) = ((Cert.Spec.nodeH2raw wv z hh Wo bo GT (ρ p) q : ℝ) : EReal) := by
  unfold k2_pay4
  simp only [shapeCast_self]
  rw [addf_apply, addf_apply, broadcastTo_1b_ab_apply, h16, h18,
    mm_real2 _ none rfl rfl (fun p q j => by funext a; fin_cases a <;> rfl) (fun p q j => by funext a; fin_cases a <;> rfl)
      _ (truncf .bf16 v13 bitsLt_bf16_f32) (fun p k => Cert.Spec.nodeAttn wv z GT (ρ p) k) Wo (fun p k => by
        rw [truncf_apply, divf_apply, addf_apply, broadcast_apply,
          mm_real2 _ _ rfl rfl (fun p q j => by funext a; fin_cases a <;> rfl) (fun p q j => by funext a; fin_cases a <;> rfl)
            v3 v5 (fun p g => z (ρ p) g) GT h3 h5 p k, h7]
        show Ideal.div _ (((mm z GT (ρ p) k : ℝ) : EReal) + Ideal.ofBits .f32 0x358637BD#32) = _
        rw [Cert.Spec.ofBits_eps6, ← EReal.coe_add, Ideal.div_coe (ne_of_gt (hden (ρ p) k)), ← EReal.coe_mul, mul_one_div]
        rfl) h13 p q,
    ← EReal.coe_add, ← EReal.coe_add]
  rfl

end Cert.KernelIdeal.Hand

end
-- ==== Proof.KI.Val2b.lean ====
import proofs.«403660_j89129161327109_3_alg».proof.Proof.Gen.KernelIdeal.Skeleton
import proofs.«403660_j89129161327109_3_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

def rowOf2 (n : ℕ) (hn : n < 50) (r : Fin 1000) : Fin 50000 := ⟨1000 * n + r.val, by have := r.isLt; omega⟩

-- The rows m with m / 1000 = s are the rows 1000 s + r, r < 1000.
theorem blocksum2 (f : Fin 50000 → ℝ) (s : ℕ) (hs : s < 50) :
    (∑ m : Fin 50000, if m.val / 1000 = s then f m else 0) = ∑ r : Fin 1000, f (rowOf2 s hs r) := by
  rw [← Finset.sum_filter]
  refine Finset.sum_bij' (fun m _ => (⟨m.val % 1000, Nat.mod_lt _ (by norm_num)⟩ : Fin 1000)) (fun r _ => rowOf2 s hs r)
    (fun _ _ => Finset.mem_univ _) (fun r _ => ?_) (fun m hm => ?_) (fun r _ => ?_) (fun m hm => ?_)
  · rw [Finset.mem_filter]
    exact ⟨Finset.mem_univ _, by show (1000 * s + r.val) / 1000 = s; have := r.isLt; omega⟩
  · rw [Finset.mem_filter] at hm
    exact Fin.ext (by show 1000 * s + m.val % 1000 = m.val; have := hm.2; omega)
  · exact Fin.ext (by show (1000 * s + r.val) % 1000 = r.val; have := r.isLt; omega)
  · rw [Finset.mem_filter] at hm
    exact congrArg f (Fin.ext (by show m.val = 1000 * s + m.val % 1000; have := hm.2; omega))

-- Row 0 holds f's column sums over the rows of the points from the half's first up to n; the other rows are zero.
def accR2 (f : Fin 50000 → Fin 128 → ℝ) (n : ℕ) (r : Fin 8) (q : Fin 128) : ℝ :=
  if r.val = 0 then ∑ m : Fin 50000, (if 25 * (n / 25) ≤ m.val / 1000 ∧ m.val / 1000 ≤ n then f m q else 0) else 0

theorem accR2_reset (f : Fin 50000 → Fin 128 → ℝ) (n : ℕ) (hn : n < 50) (h0 : n % 25 = 0) (r : Fin 8) (q : Fin 128) :
    accR2 f n r q = if r.val = 0 then 0 + ∑ r' : Fin 1000, f (rowOf2 n hn r') q else 0 := by
  unfold accR2
  rw [zero_add, ← blocksum2 (fun m => f m q) n hn]
  exact if_congr Iff.rfl (Finset.sum_congr rfl fun m _ => if_congr (by omega) rfl rfl) rfl

theorem accR2_step (f : Fin 50000 → Fin 128 → ℝ) (n : ℕ) (hn : n < 50) (h0 : ¬n % 25 = 0) (r : Fin 8) (q : Fin 128) :
    accR2 f n r q = if r.val = 0 then accR2 f (n - 1) 0 q + ∑ r' : Fin 1000, f (rowOf2 n hn r') q else accR2 f (n - 1) r q := by
  unfold accR2
  by_cases hr : r.val = 0
  · simp only [if_pos hr]
    rw [if_pos (show ((0 : Fin 8) : ℕ) = 0 from rfl), ← blocksum2 (fun m => f m q) n hn, ← Finset.sum_add_distrib]
    refine Finset.sum_congr rfl fun m _ => ?_
    by_cases h1 : m.val / 1000 = n
    · rw [if_pos h1, if_pos (by omega), if_neg (by omega), zero_add]
    · rw [if_neg h1, add_zero]
      exact if_congr (by omega) rfl rfl
  · simp only [if_neg hr]

-- After a half's last point the block is that half's 8 rows of the 16-row array of running sums.
theorem accR2_final (f : Fin 50000 → Fin 128 → ℝ) (n : ℕ) (hn : n < 50) (h24 : n % 25 = 24) (r : Fin 8) (q : Fin 128) :
    accR2 f n r q = Cert.Spec.acc 25000 f ⟨8 * (n / 25) + r.val, by have := r.isLt; omega⟩ q := by
  unfold accR2 Cert.Spec.acc
  have hr := r.isLt
  by_cases h0 : r.val = 0
  · rw [if_pos h0, if_pos (by show (8 * (n / 25) + r.val) % 8 = 0; omega)]
    refine Finset.sum_congr rfl fun m _ => if_congr ?_ rfl rfl
    have hm := m.isLt
    show _ ↔ m.val / 25000 = (8 * (n / 25) + r.val) / 8
    omega
  · rw [if_neg h0, if_neg (by show ¬(8 * (n / 25) + r.val) % 8 = 0; omega)]

abbrev row0_2 : Rect S8x128 := Rect.unit (s := S8x128) ![0, 0] S1x128.size inb_S8x128_S1x128_0_0

theorem row0_emb2 (q : Fin 128) : row0_2.emb (ix2 (0 : Fin 1) q) = ix2 (0 : Fin 8) q := by
  funext a; apply Fin.ext
  match a with
  | ⟨0, _⟩ => show 0 + 1 * 0 = 0; rfl
  | ⟨1, _⟩ => show 0 + 1 * q.val = q.val; omega

-- Replacing row 0: row 0 is the new row, the other rows are unchanged.
theorem overlay_row0_2 {α : Type} (X : S8x128.Idx → α) (G : S1x128.Idx → α) (r : Fin 8) (q : Fin 128) :
    row0_2.overlay X G (ix2 r q) = if r.val = 0 then G (ix2 (0 : Fin 1) q) else X (ix2 r q) := by
  by_cases hr : r.val = 0
  · obtain rfl : r = 0 := Fin.ext hr
    rw [if_pos hr, ← row0_emb2 q]
    exact row0_2.overlay_emb X G _
  · rw [if_neg hr]
    refine row0_2.overlay_of_not_mem X G fun h => hr ?_
    have := ((Rect.mem_set_unit.mp h) 0).2
    have e : ((ix2 r q : S8x128.Idx) 0).val = r.val := rfl
    have e2 : (![0, 0] : Fin 2 → ℕ) 0 + S1x128.size 0 = 1 := rfl
    omega

end Cert.KernelIdeal.Hand

end
-- ==== Proof.KI.Val2c.lean ====
import proofs.«403660_j89129161327109_3_alg».proof.Proof.KI.Reg2
import proofs.«403660_j89129161327109_3_alg».proof.Proof.KI.Val2a
import proofs.«403660_j89129161327109_3_alg».proof.Proof.KI.Val2b

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.Spec (mm eps6 Real2)
open scoped BigOperators

section Pieces
variable {F : FTy → Type} [FloatOps F] {c : Dev nD} {i : grid2.Coords}
  {arg2 : Memref sig .tc .vmem S1000x128 .f32} {harg2 : arg2.IsWhole} {arg3 : Memref sig .tc .vmem S1000x8 .f32} {harg3 : arg3.IsWhole}
  {arg4 : Memref sig .tc .vmem S1000x128 .f32} {harg4 : arg4.IsWhole} {arg5 : Memref sig .tc .vmem S128x128 .f32} {harg5 : arg5.IsWhole}
  {arg6 : Memref sig .tc .vmem S1x128 .f32} {harg6 : arg6.IsWhole} {arg7 : Memref sig .tc .vmem S8x128 .f32} {harg7 : arg7.IsWhole}
  {arg8 : Memref sig .tc .vmem S1000x128 .f32} {harg8 : arg8.IsWhole} {arg9 : Memref sig .tc .vmem S8x128 .f32} {harg9 : arg9.IsWhole}
  {arg10 : Memref sig .tc .vmem S8x128 .f32} {harg10 : arg10.IsWhole}
  {x0 : Vec F S1000x128 .f32} {x1 : Vec F S1000x8 .f32} {x2 : Vec F S1000x128 .f32} {x3 : Vec F S128x128 .f32} {x4 : Vec F S1x128 .f32}
  {x5 : Vec F S8x128 .f32} {xo7 xo8 : Vec F S8x128 .f32}

-- At a half's first point: the projected block; and in each running block row 0 of the zero block + the column sums, over zeros.
theorem piecesA_2 {hc : cond2 i} :
    out2_A_6 c i arg2 harg2 arg3 harg3 arg4 harg4 arg5 harg5 arg6 harg6 arg7 harg7 arg8 harg8 arg9 harg9 arg10 harg10 hc x0 x1 x2 x3 x4 x5 = k2_pay4 x1 x5 x0 x3 x2 x4
    ∧ out2_A_7 c i arg2 harg2 arg3 harg3 arg4 harg4 arg5 harg5 arg6 harg6 arg7 harg7 arg8 harg8 arg9 harg9 arg10 harg10 hc x0 x1 x2 x3 x4 x5
      = row0_2.overlay (k2_pay2 (F := F)) (k2_pay6 x1 x5 x0 x3 x2 x4 (View.ld (k2_pay2 (F := F)) row0_2))
    ∧ out2_A_8 c i arg2 harg2 arg3 harg3 arg4 harg4 arg5 harg5 arg6 harg6 arg7 harg7 arg8 harg8 arg9 harg9 arg10 harg10 hc x0 x1 x2 x3 x4 x5
      = row0_2.overlay (k2_pay3 (F := F)) (k2_pay1 (k2_pay5 x1 x5 x0 x3 x2 x4) (View.ld (k2_pay3 (F := F)) row0_2)) := by
  unfold out2_A_6 out2_A_7 out2_A_8 kernelRun2_A
  dsimp only
  sl_unfold_words
  refine ⟨?_, ?_, ?_⟩ <;>
  · first
      | rw [View.canon_cons, View.canon_unit_zero hz2, View.readCov_eq_canon', View.canon_unit_zero hz2]
      | rw [View.canon_unit_zero hz2]
    simp only [View.readAt_eq_ld, harg2.read_unread, harg3.read_unread, harg4.read_unread, harg5.read_unread, harg6.read_unread,
      harg7.read_unread, View.ld_unit_zero (S := S1000x128) hz2, View.ld_unit_zero (S := S1000x8) hz2, View.ld_unit_zero (S := S8x128) hz2,
      View.ld_unit_zero (S := S128x128) hz2, View.ld_unit_zero (S := S1x128) hz2]

-- At any other point: the projected block; and each running block with its row 0 + the column sums in row 0.
theorem piecesB_2 {hc : ¬cond2 i} :
    out2_B_6 c i arg2 harg2 arg3 harg3 arg4 harg4 arg5 harg5 arg6 harg6 arg7 harg7 arg8 harg8 arg9 harg9 arg10 harg10 hc x0 x1 x2 x3 x4 x5 xo7 xo8 = k2_pay4 x1 x5 x0 x3 x2 x4
    ∧ out2_B_7 c i arg2 harg2 arg3 harg3 arg4 harg4 arg5 harg5 arg6 harg6 arg7 harg7 arg8 harg8 arg9 harg9 arg10 harg10 hc x0 x1 x2 x3 x4 x5 xo7 xo8 = row0_2.overlay xo7 (k2_pay6 x1 x5 x0 x3 x2 x4 (View.ld xo7 row0_2))
    ∧ out2_B_8 c i arg2 harg2 arg3 harg3 arg4 harg4 arg5 harg5 arg6 harg6 arg7 harg7 arg8 harg8 arg9 harg9 arg10 harg10 hc x0 x1 x2 x3 x4 x5 xo7 xo8 = row0_2.overlay xo8 (k2_pay1 (k2_pay5 x1 x5 x0 x3 x2 x4) (View.ld xo8 row0_2)) := by
  unfold out2_B_6 out2_B_7 out2_B_8 kernelRun2_B
  dsimp only
  sl_unfold_words
  refine ⟨?_, ?_, ?_⟩ <;>
  · try rw [View.canon_unit_zero hz2]
    simp only [laid2, View.readAt_eq_ld, harg2.read_unread, harg3.read_unread, harg4.read_unread, harg5.read_unread, harg6.read_unread,
      harg7.read_unread, harg9.read_unread, harg10.read_unread, View.ld_unit_zero (S := S1000x128) hz2, View.ld_unit_zero (S := S1000x8) hz2,
      View.ld_unit_zero (S := S8x128) hz2, View.ld_unit_zero (S := S128x128) hz2, View.ld_unit_zero (S := S1x128) hz2]

end Pieces

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val / 25 ∧ win2_7.index t (1 : Fin 2) = 0
    ∧ win2_8.index t (0 : Fin 2) = t.val / 25 ∧ win2_8.index t (1 : Fin 2) = 0 :=
  (by decide +kernel : ∀ t : Fin grid2.N, _)

-- Replacing row 0 of a block of reals by (row 0 + the column sums of a block of reals).
theorem step2 (P : FVec Ideal S1000x128 .f32) (H : Fin 1000 → Fin 128 → ℝ) (hP : ∀ p q, P (ix2 p q) = ((H p q : ℝ) : EReal))
    (X : Vec Ideal S8x128 .f32) (a : Fin 8 → Fin 128 → ℝ) (hX : ∀ r q, X (ix2 r q) = ((a r q : ℝ) : EReal)) (r : Fin 8) (q : Fin 128) :
    row0_2.overlay X (addf (shapeCast S1x128 (View.ld X row0_2) shapeCasts_S1x128_S1x128)
        (shapeCast S1x128 (multiReduction .add [0] S128 P 0x00000000#32 reduces_S1000x128_S128 (.inl rfl) rfl) shapeCasts_S128_S1x128))
        (ix2 r q)
      = ((if r.val = 0 then a 0 q + ∑ r' : Fin 1000, H r' q else a r q : ℝ) : EReal) := by
  rw [overlay_row0_2]
  by_cases hr : r.val = 0
  · rw [if_pos hr, if_pos hr, addf_apply, shapeCast_self, shapeCast_a_1a_apply, colsum2, EReal.coe_add, coe_sum_fin]
    exact congrArg₂ (· + ·) ((congrArg X (row0_emb2 q)).trans (hX 0 q)) (Finset.sum_congr rfl fun r' _ => hP r' q)
  · rw [if_neg hr, if_neg hr]
    exact hX r q

section AtIdeal
variable (V : (c : Dev nD) → (b : Ref sig .tc) → Buf (Elt Ideal) ((c : Thread nD τ).loc b))

variable (wv : Fin 50000 → Fin 128 → ℝ) (z : Fin 50000 → Fin 8 → ℝ) (hh : Fin 50000 → Fin 128 → ℝ)
  (Wo : Fin 128 → Fin 128 → ℝ) (bo : Fin 128 → ℝ) (GT : Fin 8 → Fin 128 → ℝ)

-- The region's six input arrays hold real numbers, and the quotient's denominators are positive.
structure Ins2 (c : Dev nD) : Prop where
  hwv : Real2 (a := 50000) (b := 128) (V c (Pipeline.arrRef spec2 0)) wv
  hz : Real2 (a := 50000) (b := 8) (V c (Pipeline.arrRef spec2 1)) z
  hhh : Real2 (a := 50000) (b := 128) (V c (Pipeline.arrRef spec2 2)) hh
  hWo : Real2 (a := 128) (b := 128) (V c (Pipeline.arrRef spec2 3)) Wo
  hbo : Real2 (a := 1) (b := 128) (V c (Pipeline.arrRef spec2 4)) (fun _ d => bo d)
  hGT : Real2 (a := 8) (b := 128) (V c (Pipeline.arrRef spec2 5)) GT
  hden : ∀ n d, 0 < mm z GT n d + eps6

abbrev Hn2 : Fin 50000 → Fin 128 → ℝ := Cert.Spec.nodeH2raw wv z hh Wo bo GT
abbrev Hsq2 : Fin 50000 → Fin 128 → ℝ := fun n d => Cert.Spec.nodeH2raw wv z hh Wo bo GT n d * Cert.Spec.nodeH2raw wv z hh Wo bo GT n d

-- The projected block at point t holds the projected features at rows 1000 t ….
theorem pay4_blk2 (c : Dev nD) (t : Fin cfg2.N) (ht : t.val < 50) (H : Ins2 V wv z hh Wo bo GT c) (r : Fin 1000) (q : Fin 128) :
    k2_pay4 (F := Ideal) (iblk2 V c 1 t) (iblk2 V c 5 t) (iblk2 V c 0 t) (iblk2 V c 3 t) (iblk2 V c 2 t) (iblk2 V c 4 t) (ix2 r q)
      = ((Hn2 wv z hh Wo bo GT (rowOf2 t.val ht r) q : ℝ) : EReal) := by
  obtain ⟨a0, a1, b0, b1, c0, c1, d0, d1, e0, e1, f0, f1, -⟩ := idx_facts2 t
  exact pay4_apply2 _ _ _ _ _ _ wv z hh Wo bo GT (rowOf2 t.val ht)
    (fun p q => real_at2 H.hz (((cfg2.win 1).blk t).view.emb (ix2 p q)) _ q
      (by show win2_1.index t (0 : Fin 2) * 1000 + 1 * p.val = 1000 * t.val + p.val; omega)
      (by show win2_1.index t (1 : Fin 2) * 8 + 1 * q.val = q.val; omega))
    (fun g q => real_at2 H.hGT (((cfg2.win 5).blk t).view.emb (ix2 g q)) _ q
      (by show win2_5.index t (0 : Fin 2) * 8 + 1 * g.val = g.val; omega)
      (by show win2_5.index t (1 : Fin 2) * 128 + 1 * q.val = q.val; omega))
    (fun p q => real_at2 H.hwv (((cfg2.win 0).blk t).view.emb (ix2 p q)) _ q
      (by show win2_0.index t (0 : Fin 2) * 1000 + 1 * p.val = 1000 * t.val + p.val; omega)
      (by show win2_0.index t (1 : Fin 2) * 128 + 1 * q.val = q.val; omega))
    (fun k q => real_at2 H.hWo (((cfg2.win 3).blk t).view.emb (ix2 k q)) _ q
      (by show win2_3.index t (0 : Fin 2) * 128 + 1 * k.val = k.val; omega)
      (by show win2_3.index t (1 : Fin 2) * 128 + 1 * q.val = q.val; omega))
    (fun p q => real_at2 H.hhh (((cfg2.win 2).blk t).view.emb (ix2 p q)) _ q
      (by show win2_2.index t (0 : Fin 2) * 1000 + 1 * p.val = 1000 * t.val + p.val; omega)
      (by show win2_2.index t (1 : Fin 2) * 128 + 1 * q.val = q.val; omega))
    (fun q => real_at2 H.hbo (((cfg2.win 4).blk t).view.emb (ix2 (0 : Fin 1) q)) 0 q
      (by show win2_4.index t (0 : Fin 2) * 1 + 1 * 0 = 0; omega) (by show win2_4.index t (1 : Fin 2) * 128 + 1 * q.val = q.val; omega))
    H.hden r q

-- In either case the first output at point t is the projected block of the point's input blocks.
theorem out2_6At_eq (c : Dev nD) (t : Fin cfg2.N) :
    out2_6At V c t = k2_pay4 (F := Ideal) (iblk2 V c 1 t) (iblk2 V c 5 t) (iblk2 V c 0 t) (iblk2 V c 3 t) (iblk2 V c 2 t) (iblk2 V c 4 t) := by
  unfold out2_6At
  by_cases h0 : t.val % 25 = 0
  · rw [dif_pos h0]; exact piecesA_2.1
  · rw [dif_neg h0]; exact piecesB_2.1

abbrev G6_2 : S50000x128.Idx → Elt Ideal .f32 :=
  fun i => ((Hn2 wv z hh Wo bo GT ⟨(i 0).val, idx2_lt0 i⟩ ⟨(i 1).val, idx2_lt1 i⟩ : ℝ) : EReal)

-- The result block of point t is rows 1000 t … of the projected features.
theorem flushed2_6_eq (c : Dev nD) (H : Ins2 V wv z hh Wo bo GT c) (t : Fin cfg2.N) :
    (dat2 V c).flushed 6 t = ((cfg2.win 6).blk t).view.read (Elt Ideal) (G6_2 wv z hh Wo bo GT) := by
  have ht : t.val < 50 := lt_of_lt_of_eq t.isLt N_2
  obtain ⟨-, -, -, -, -, -, -, -, -, -, -, -, e0, e1, -⟩ := idx_facts2 t
  show (cfg2.win 6).cut (grid2.coords t) ((dat2 V c).after 6 t) = _
  rw [after2_6, out2_6At_eq]
  funext j
  obtain ⟨r, q, rfl⟩ : ∃ (r : Fin 1000) (q : Fin 128), j = ix2 r q := ⟨j 0, j 1, eq_ix2 j⟩
  refine (pay4_blk2 V wv z hh Wo bo GT c t ht H r q).trans ?_
  show _ = G6_2 wv z hh Wo bo GT (((cfg2.win 6).blk t).view.emb (ix2 r q))
  show ((Hn2 wv z hh Wo bo GT _ q : ℝ) : EReal) = ((Hn2 wv z hh Wo bo GT _ _ : ℝ) : EReal)
  congr 2 <;> apply Fin.ext
  · show 1000 * t.val + r.val = win2_6.index t (0 : Fin 2) * 1000 + 1 * r.val; omega
  · show q.val = win2_6.index t (1 : Fin 2) * 128 + 1 * q.val; omega

-- The blocks of 1000 rows tile the 50000.
theorem cover2_6 (i : S50000x128.Idx) : ∃ t : Fin cfg2.N, (cfg2.win 6).flush t = true ∧ i ∈ ((cfg2.win 6).blk t).view.set := by
  have hi0 : (i 0).val < 50000 := idx2_lt0 i
  have hi1 : (i 1).val < 128 := idx2_lt1 i
  have hN : cfg2.N = 50 := N_2
  let t : Fin cfg2.N := ⟨(i 0).val / 1000, by rw [hN]; omega⟩
  have ht : t.val = (i 0).val / 1000 := rfl
  obtain ⟨-, -, -, -, -, -, -, -, -, -, -, -, e0, e1, -⟩ := idx_facts2 t
  refine ⟨t, flush2_6 t, ?_⟩
  show i ∈ ((View.whole main_v16_0).slice (win2_6.rect t)).set
  rw [View.set_slice_whole, Rect.mem_set_unit]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 128 ≤ (i 1).val ∧ (i 1).val < win2_6.index t (1 : Fin 2) * 128 + 128; omega

end AtIdeal

end Cert.KernelIdeal.Hand

end
-- ==== Proof.KI.Val2.lean ====
import proofs.«403660_j89129161327109_3_alg».proof.Proof.KI.Val2c

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.Spec (mm eps6 Real2)
open scoped BigOperators

section AtIdeal
variable (V : (c : Dev nD) → (b : Ref sig .tc) → Buf (Elt Ideal) ((c : Thread nD τ).loc b))
variable (wv : Fin 50000 → Fin 128 → ℝ) (z : Fin 50000 → Fin 8 → ℝ) (hh : Fin 50000 → Fin 128 → ℝ)
  (Wo : Fin 128 → Fin 128 → ℝ) (bo : Fin 128 → ℝ) (GT : Fin 8 → Fin 128 → ℝ)

theorem zero2 : Ideal.ofBits .f32 0x00000000#32 = ((0 : ℝ) : EReal) := by rw [Ideal.ofBits_zero_f32, EReal.coe_zero]

-- By induction on the point: row 0 of each running block holds the column sums since the half's first point, the other rows zeros.
theorem accs2_real (c : Dev nD) (H : Ins2 V wv z hh Wo bo GT c) : ∀ (n : ℕ) (hn : n < cfg2.N) (r : Fin 8) (q : Fin 128),
    (accs2 V c n hn).1 (ix2 r q) = ((accR2 (Hn2 wv z hh Wo bo GT) n r q : ℝ) : EReal)
    ∧ (accs2 V c n hn).2 (ix2 r q) = ((accR2 (Hsq2 wv z hh Wo bo GT) n r q : ℝ) : EReal) := by
  intro n
  induction n using Nat.strong_induction_on with | _ n ih => ?_
  intro hn r q
  have ht : n < 50 := lt_of_lt_of_eq hn N_2
  have h4 := pay4_blk2 V wv z hh Wo bo GT c ⟨n, hn⟩ ht H
  by_cases h0 : n % 25 = 0
  · rw [show accs2 V c n hn = _ from accs2_A V c ⟨n, hn⟩ h0]
    dsimp only
    rw [piecesA_2.2.1, piecesA_2.2.2, accR2_reset _ n ht h0, accR2_reset _ n ht h0]
    exact ⟨step2 _ _ h4 _ (fun _ _ => 0) (fun _ _ => zero2) r q, step2 _ _ (fun p q => by rw [mulf_apply, h4, ← EReal.coe_mul]) _ (fun _ _ => 0) (fun _ _ => zero2) r q⟩
  · rw [show accs2 V c n hn = _ from accs2_B V c ⟨n, hn⟩ h0]
    dsimp only
    rw [piecesB_2.2.1, piecesB_2.2.2, accR2_step _ n ht h0, accR2_step _ n ht h0]
    exact ⟨step2 _ _ h4 _ _ (fun r q => (ih (n - 1) (by omega) _ r q).1) r q,
      step2 _ _ (fun p q => by rw [mulf_apply, h4, ← EReal.coe_mul]) _ _ (fun r q => (ih (n - 1) (by omega) _ r q).2) r q⟩

abbrev GS_2 (f : Fin 50000 → Fin 128 → ℝ) : S16x128.Idx → Elt Ideal .f32 :=
  fun i => ((Cert.Spec.acc 25000 f ⟨(i 0).val, idx2_lt0 i⟩ ⟨(i 1).val, idx2_lt1 i⟩ : ℝ) : EReal)

-- After a half's last point, entry (r, q) of the running block is entry (8 (t / 25) + r, q) of the 16-row array.
theorem GS_at2 (f : Fin 50000 → Fin 128 → ℝ) (t : Fin cfg2.N) (h24 : t.val % 25 = 24) (i : S16x128.Idx) (r : Fin 8) (q : Fin 128)
    (h0 : (i 0).val = 8 * (t.val / 25) + r.val) (h1 : (i 1).val = q.val) : ((accR2 f t.val r q : ℝ) : EReal) = GS_2 f i := by
  rw [accR2_final f t.val (lt_of_lt_of_eq t.isLt N_2) h24 r q]
  show ((Cert.Spec.acc 25000 f _ q : ℝ) : EReal) = ((Cert.Spec.acc 25000 f _ _ : ℝ) : EReal)
  congr 2 <;> apply Fin.ext
  · exact h0.symm
  · exact h1.symm

theorem flushed2_7_eq (c : Dev nD) (H : Ins2 V wv z hh Wo bo GT c) (t : Fin cfg2.N) (hf : (cfg2.win 7).flush t = true) :
    (dat2 V c).flushed 7 t = ((cfg2.win 7).blk t).view.read (Elt Ideal) (GS_2 (Hn2 wv z hh Wo bo GT)) := by
  obtain ⟨-, -, -, -, -, -, -, -, -, -, -, -, -, -, e0, e1, -⟩ := idx_facts2 t
  show (cfg2.win 7).cut (grid2.coords t) ((dat2 V c).after 7 t) = _
  rw [after2_7]
  unfold acc2_7At
  funext j
  obtain ⟨r, q, rfl⟩ : ∃ (r : Fin 8) (q : Fin 128), j = ix2 r q := ⟨j 0, j 1, eq_ix2 j⟩
  exact ((accs2_real V wv z hh Wo bo GT c H t.val t.isLt r q).1).trans (GS_at2 _ t ((flush2_7 t).mp hf) _ r q
    (by show win2_7.index t (0 : Fin 2) * 8 + 1 * r.val = 8 * (t.val / 25) + r.val; omega)
    (by show win2_7.index t (1 : Fin 2) * 128 + 1 * q.val = q.val; omega))
theorem flushed2_8_eq (c : Dev nD) (H : Ins2 V wv z hh Wo bo GT c) (t : Fin cfg2.N) (hf : (cfg2.win 8).flush t = true) :
    (dat2 V c).flushed 8 t = ((cfg2.win 8).blk t).view.read (Elt Ideal) (GS_2 (Hsq2 wv z hh Wo bo GT)) := by
  obtain ⟨-, -, -, -, -, -, -, -, -, -, -, -, -, -, -, -, e0, e1⟩ := idx_facts2 t
  show (cfg2.win 8).cut (grid2.coords t) ((dat2 V c).after 8 t) = _
  rw [after2_8]
  unfold acc2_8At
  funext j
  obtain ⟨r, q, rfl⟩ : ∃ (r : Fin 8) (q : Fin 128), j = ix2 r q := ⟨j 0, j 1, eq_ix2 j⟩
  exact ((accs2_real V wv z hh Wo bo GT c H t.val t.isLt r q).2).trans (GS_at2 _ t ((flush2_8 t).mp hf) _ r q
    (by show win2_8.index t (0 : Fin 2) * 8 + 1 * r.val = 8 * (t.val / 25) + r.val; omega)
    (by show win2_8.index t (1 : Fin 2) * 128 + 1 * q.val = q.val; omega))
theorem cover2_7 (i : S16x128.Idx) : ∃ t : Fin cfg2.N, (cfg2.win 7).flush t = true ∧ i ∈ ((cfg2.win 7).blk t).view.set := by
  have hi0 : (i 0).val < 16 := idx2_lt0 i
  have hi1 : (i 1).val < 128 := idx2_lt1 i
  have hN : cfg2.N = 50 := N_2
  let t : Fin cfg2.N := ⟨25 * ((i 0).val / 8) + 24, by rw [hN]; omega⟩
  have ht : t.val = 25 * ((i 0).val / 8) + 24 := rfl
  obtain ⟨-, -, -, -, -, -, -, -, -, -, -, -, -, -, e0, e1, -⟩ := idx_facts2 t
  refine ⟨t, (flush2_7 t).mpr (by omega), ?_⟩
  show i ∈ ((View.whole main_v16_1).slice (win2_7.rect t)).set
  rw [View.set_slice_whole, Rect.mem_set_unit]
  intro a
  match a with
  | ⟨0, _⟩ => show win2_7.index t (0 : Fin 2) * 8 ≤ (i 0).val ∧ (i 0).val < win2_7.index t (0 : Fin 2) * 8 + 8; omega
  | ⟨1, _⟩ => show win2_7.index t (1 : Fin 2) * 128 ≤ (i 1).val ∧ (i 1).val < win2_7.index t (1 : Fin 2) * 128 + 128; omega
theorem cover2_8 (i : S16x128.Idx) : ∃ t : Fin cfg2.N, (cfg2.win 8).flush t = true ∧ i ∈ ((cfg2.win 8).blk t).view.set := by
  have hi0 : (i 0).val < 16 := idx2_lt0 i
  have hi1 : (i 1).val < 128 := idx2_lt1 i
  have hN : cfg2.N = 50 := N_2
  let t : Fin cfg2.N := ⟨25 * ((i 0).val / 8) + 24, by rw [hN]; omega⟩
  have ht : t.val = 25 * ((i 0).val / 8) + 24 := rfl
  obtain ⟨-, -, -, -, -, -, -, -, -, -, -, -, -, -, -, -, e0, e1⟩ := idx_facts2 t
  refine ⟨t, (flush2_8 t).mpr (by omega), ?_⟩
  show i ∈ ((View.whole main_v16_2).slice (win2_8.rect t)).set
  rw [View.set_slice_whole, Rect.mem_set_unit]
  intro a
  match a with
  | ⟨0, _⟩ => show win2_8.index t (0 : Fin 2) * 8 ≤ (i 0).val ∧ (i 0).val < win2_8.index t (0 : Fin 2) * 8 + 8; omega
  | ⟨1, _⟩ => show win2_8.index t (1 : Fin 2) * 128 ≤ (i 1).val ∧ (i 1).val < win2_8.index t (1 : Fin 2) * 128 + 128; omega

variable (c : Dev nD)
    (hwv : Real2 (a := 50000) (b := 128) (V c (Pipeline.arrRef spec2 0)) wv) (hz : Real2 (a := 50000) (b := 8) (V c (Pipeline.arrRef spec2 1)) z)
    (hhh : Real2 (a := 50000) (b := 128) (V c (Pipeline.arrRef spec2 2)) hh) (hWo : Real2 (a := 128) (b := 128) (V c (Pipeline.arrRef spec2 3)) Wo)
    (hbo : Real2 (a := 1) (b := 128) (V c (Pipeline.arrRef spec2 4)) (fun _ d => bo d)) (hGT : Real2 (a := 8) (b := 128) (V c (Pipeline.arrRef spec2 5)) GT)
    (hden : ∀ n d, 0 < mm z GT n d + eps6)
include hwv hz hhh hWo hbo hGT hden

theorem val2_6 : Real2 (a := 50000) (b := 128) ((dat2 (F := Ideal) V c).arrAt 6 cfg2.N) (Cert.Spec.nodeH2raw wv z hh Wo bo GT) := by
  intro p q
  exact (congrFun ((dat2 V c).arrAt_eq_of_cover 6 (G6_2 wv z hh Wo bo GT)
    (fun t _ => flushed2_6_eq V wv z hh Wo bo GT c ⟨hwv, hz, hhh, hWo, hbo, hGT, hden⟩ t) cover2_6) (ix2 p q)).trans rfl
theorem val2_7 : Real2 (a := 16) (b := 128) ((dat2 (F := Ideal) V c).arrAt 7 cfg2.N) (Cert.Spec.nodeSum wv z hh Wo bo GT) := by
  intro p q
  exact (congrFun ((dat2 V c).arrAt_eq_of_cover 7 (GS_2 (Hn2 wv z hh Wo bo GT))
    (fun t hf => flushed2_7_eq V wv z hh Wo bo GT c ⟨hwv, hz, hhh, hWo, hbo, hGT, hden⟩ t hf) cover2_7) (ix2 p q)).trans rfl
theorem val2_8 : Real2 (a := 16) (b := 128) ((dat2 (F := Ideal) V c).arrAt 8 cfg2.N) (Cert.Spec.nodeSumSq wv z hh Wo bo GT) := by
  intro p q
  exact (congrFun ((dat2 V c).arrAt_eq_of_cover 8 (GS_2 (Hsq2 wv z hh Wo bo GT))
    (fun t hf => flushed2_8_eq V wv z hh Wo bo GT c ⟨hwv, hz, hhh, hWo, hbo, hGT, hden⟩ t hf) cover2_8) (ix2 p q)).trans rfl

end AtIdeal

end Cert.KernelIdeal.Hand

end
-- ==== Proof.KI.Val3a.lean ====
import proofs.«403660_j89129161327109_3_alg».proof.Proof.KI.Val2a

noncomputable section

namespace Cert.KernelIdeal.Hand

open Cert.KernelIdeal Cert.KernelIdeal.Gen
open Idealize.ShloMosaic Idealize.ShloMosaic.ValueIdx
open Cert.Spec (mm eps6)
open scoped BigOperators

-- With the block's rows the rows ρ of E, the result is the batch norm of E + E·We at those rows.
theorem pay3_apply (x0 : FVec Ideal S2048x128 .f32) (x1 : FVec Ideal S128x128 .f32) (xvar xg xmean xb : FVec Ideal S1x128 .f32)
    (E : Fin 512000 → Fin 128 → ℝ) (We : Fin 128 → Fin 128 → ℝ) (mean var g b : Fin 128 → ℝ) (ρ : Fin 2048 → Fin 512000)
    (h0 : ∀ p q, x0 (ix2 p q) = ((E (ρ p) q : ℝ) : EReal)) (h1 : ∀ k q, x1 (ix2 k q) = ((We k q : ℝ) : EReal))
    (hvar : ∀ q, xvar (ix2 (0 : Fin 1) q) = ((var q : ℝ) : EReal)) (hg : ∀ q, xg (ix2 (0 : Fin 1) q) = ((g q : ℝ) : EReal))
    (hmean : ∀ q, xmean (ix2 (0 : Fin 1) q) = ((mean q : ℝ) : EReal)) (hb : ∀ q, xb (ix2 (0 : Fin 1) q) = ((b q : ℝ) : EReal))
    (hpos : ∀ q, 0 < var q + Cert.Spec.eps5) (p : Fin 2048) (q : Fin 128) :
    k3_pay1 (F := Ideal) x0 x1 xvar xg xmean xb (ix2 p q)
      = ((Cert.Spec.bnK g b mean var (Cert.Spec.edgeE2 E We) (ρ p) q : ℝ) : EReal) := by
  unfold k3_pay1
  simp only [shapeCast_self]
  rw [addf_apply, mulf_apply, mulf_apply, subf_apply, addf_apply, broadcastTo_1b_ab_apply, broadcastTo_1b_ab_apply,
    broadcastTo_1b_ab_apply, broadcastTo_1b_ab_apply, h0, hg, hmean, hb,
    mm_real2 _ none rfl rfl (fun p q j => by funext a; fin_cases a <;> rfl) (fun p q j => by funext a; fin_cases a <;> rfl)
      (truncf .bf16 x0 bitsLt_bf16_f32) (truncf .bf16 x1 bitsLt_bf16_f32) (fun p k => E (ρ p) k) We h0 h1 p q]
  show _ * _ * Ideal.rsqrt (xvar (ix2 0 q) + Ideal.ofBits .f32 0x3727C5AC#32) + _ = _
  rw [hvar, Cert.Spec.ofBits_eps5, ← EReal.coe_add (var q), Ideal.rsqrt_coe, if_neg (not_lt.mpr (hpos q).le), if_neg (hpos q).ne']
  simp only [← EReal.coe_add, ← EReal.coe_sub, ← EReal.coe_mul]
  rfl

end Cert.KernelIdeal.Hand

end
-- ==== Proof.KI.Val3.lean ====
import proofs.«403660_j89129161327109_3_alg».proof.Proof.KI.Reg3
import proofs.«403660_j89129161327109_3_alg».proof.Proof.KI.Val3a

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (mm eps6)
open scoped BigOperators

variable (V : (c : Dev nD) → (b : Ref sig .tc) → Buf (Elt Ideal) ((c : Thread nD τ).loc b))

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem row_lt3 (t : Fin cfg3.N) (p : Fin 2048) : 2048 * t.val + p.val < 512000 := by
  have ht : t.val < 250 := Nat.lt_of_lt_of_eq t.isLt N_3
  have hp := p.isLt
  omega

abbrev bnReal3 (E : Fin 512000 → Fin 128 → ℝ) (We : Fin 128 → Fin 128 → ℝ) (mean var g b : Fin 128 → ℝ) : S512000x128.Idx → EReal :=
  fun i => ((Cert.Spec.bnK g b mean var (Cert.Spec.edgeE2 E We) (i 0) (i 1) : ℝ) : EReal)

section Blocks
variable (c : Dev nD) (E : Fin 512000 → Fin 128 → ℝ) (We : Fin 128 → Fin 128 → ℝ) (mean var g b : Fin 128 → ℝ)

-- Row i of the 512000 lies in the block of point i / 2048.
theorem cover3 (i : S512000x128.Idx) : ∃ t : Fin cfg3.N, (cfg3.win 6).flush t = true ∧ i ∈ ((cfg3.win 6).blk t).view.set := by
  have hi0 : (i 0).val < 512000 := (i 0).isLt
  have hi1 : (i 1).val < 128 := (i 1).isLt
  have hN : cfg3.N = 250 := N_3
  let t : Fin cfg3.N := ⟨(i 0).val / 2048, by rw [hN]; omega⟩
  obtain ⟨-, -, -, -, -, -, -, -, -, -, -, -, e0, e1⟩ := idx_facts3 t
  refine ⟨t, flush3_6 t, ?_⟩
  show i ∈ ((View.whole main_v41).slice (win3_6.rect t)).set
  rw [View.set_slice_whole, Rect.mem_set_unit]
  have ht : t.val = (i 0).val / 2048 := rfl
  intro a
  match a with
  | ⟨0, _⟩ => show win3_6.index t (0 : Fin 2) * 2048 ≤ (i 0).val ∧ (i 0).val < win3_6.index t (0 : Fin 2) * 2048 + 2048; omega
  | ⟨1, _⟩ => show win3_6.index t (1 : Fin 2) * 128 ≤ (i 1).val ∧ (i 1).val < win3_6.index t (1 : Fin 2) * 128 + 128; omega

variable (hE : Cert.Spec.Real2 (a := 512000) (b := 128) (V c (Pipeline.arrRef spec3 0)) E)
    (hW : Cert.Spec.Real2 (a := 128) (b := 128) (V c (Pipeline.arrRef spec3 1)) We)
    (hmean : Cert.Spec.Real2 (a := 1) (b := 128) (V c (Pipeline.arrRef spec3 2)) (fun _ d => mean d))
    (hvar : Cert.Spec.Real2 (a := 1) (b := 128) (V c (Pipeline.arrRef spec3 3)) (fun _ d => var d))
    (hg : Cert.Spec.Real2 (a := 1) (b := 128) (V c (Pipeline.arrRef spec3 4)) (fun _ d => g d))
    (hb : Cert.Spec.Real2 (a := 1) (b := 128) (V c (Pipeline.arrRef spec3 5)) (fun _ d => b d))
    (hpos : ∀ d, 0 < var d + Cert.Spec.eps5)
include hE hW hmean hvar hg hb hpos

-- The result block of point t, entry by entry.
theorem pay3_blk (t : Fin cfg3.N) (p : Fin 2048) (q : Fin 128) :
    k3_pay1 (F := Ideal) (iblk3 V c 0 t) (iblk3 V c 1 t) (iblk3 V c 3 t) (iblk3 V c 4 t) (iblk3 V c 2 t) (iblk3 V c 5 t) (ix2 p q)
      = ((Cert.Spec.bnK g b mean var (Cert.Spec.edgeE2 E We) ⟨2048 * t.val + p.val, row_lt3 t p⟩ q : ℝ) : EReal) := by
  obtain ⟨a0, a1, b0, b1, c0, c1, d0, d1, e0, e1, f0, f1, -⟩ := idx_facts3 t
  exact pay3_apply _ _ _ _ _ _ E We mean var g b (fun p => ⟨2048 * t.val + p.val, row_lt3 t p⟩)
    (fun p q => real_at2 hE (((cfg3.win 0).blk t).view.emb (ix2 p q)) _ q
      (by show win3_0.index t (0 : Fin 2) * 2048 + 1 * p.val = 2048 * t.val + p.val; omega)
      (by show win3_0.index t (1 : Fin 2) * 128 + 1 * q.val = q.val; omega))
    (fun k q => real_at2 hW (((cfg3.win 1).blk t).view.emb (ix2 k q)) k q
      (by show win3_1.index t (0 : Fin 2) * 128 + 1 * k.val = k.val; omega) (by show win3_1.index t (1 : Fin 2) * 128 + 1 * q.val = q.val; omega))
    (fun q => real_at2 hvar (((cfg3.win 3).blk t).view.emb (ix2 (0 : Fin 1) q)) 0 q
      (by show win3_3.index t (0 : Fin 2) * 1 + 1 * 0 = 0; omega) (by show win3_3.index t (1 : Fin 2) * 128 + 1 * q.val = q.val; omega))
    (fun q => real_at2 hg (((cfg3.win 4).blk t).view.emb (ix2 (0 : Fin 1) q)) 0 q
      (by show win3_4.index t (0 : Fin 2) * 1 + 1 * 0 = 0; omega) (by show win3_4.index t (1 : Fin 2) * 128 + 1 * q.val = q.val; omega))
    (fun q => real_at2 hmean (((cfg3.win 2).blk t).view.emb (ix2 (0 : Fin 1) q)) 0 q
      (by show win3_2.index t (0 : Fin 2) * 1 + 1 * 0 = 0; omega) (by show win3_2.index t (1 : Fin 2) * 128 + 1 * q.val = q.val; omega))
    (fun q => real_at2 hb (((cfg3.win 5).blk t).view.emb (ix2 (0 : Fin 1) q)) 0 q
      (by show win3_5.index t (0 : Fin 2) * 1 + 1 * 0 = 0; omega) (by show win3_5.index t (1 : Fin 2) * 128 + 1 * q.val = q.val; omega))
    hpos p q

-- The result block of point t is rows 2048 t … of the batch-normed E + E·We.
theorem flushed3_eq (t : Fin cfg3.N) :
    (dat3 (F := Ideal) V c).flushed 6 t = ((cfg3.win 6).blk t).view.read (Elt Ideal) (bnReal3 E We mean var g b) := by
  obtain ⟨-, -, -, -, -, -, -, -, -, -, -, -, e0, e1⟩ := idx_facts3 t
  show (cfg3.win 6).cut (grid3.coords t) ((dat3 (F := Ideal) V c).after 6 t) = _
  rw [after3_6]
  unfold bnOut3
  rw [View.canon_unit_zero hz2]
  simp only [View.ld_unit_zero (S := S2048x128) hz2, View.ld_unit_zero (S := S128x128) hz2, View.ld_unit_zero (S := S1x128) hz2]
  funext j
  obtain ⟨p, q, rfl⟩ : ∃ (p : Fin 2048) (q : Fin 128), j = ix2 p q := ⟨j 0, j 1, eq_ix2 j⟩
  refine (pay3_blk V c E We mean var g b hE hW hmean hvar hg hb hpos t p q).trans ?_
  show _ = bnReal3 E We mean var g b (((cfg3.win 6).blk t).view.emb (ix2 p q))
  congr 2 <;> apply Fin.ext
  · show 2048 * t.val + p.val = win3_6.index t (0 : Fin 2) * 2048 + 1 * p.val; omega
  · show q.val = win3_6.index t (1 : Fin 2) * 128 + 1 * q.val; omega

theorem val3_6 : Cert.Spec.Real2 (a := 512000) (b := 128) ((dat3 (F := Ideal) V c).arrAt 6 cfg3.N)
    (Cert.Spec.bnK g b mean var (Cert.Spec.edgeE2 E We)) := by
  intro p q
  rw [(dat3 (F := Ideal) V c).arrAt_eq_of_cover 6 (bnReal3 E We mean var g b)
    (fun t _ => flushed3_eq V c E We mean var g b hE hW hmean hvar hg hb hpos t) cover3]

end Blocks

end Cert.KernelIdeal.Hand

end
-- ==== Proof.KI.Val5a.lean ====
import proofs.«403660_j89129161327109_3_alg».proof.Proof.Gen.KernelIdeal.Skeleton
import proofs.«403660_j89129161327109_3_alg».proof.Proof.Spec
import proofs.«403660_j89129161327109_3_alg».proof.Proof.Consts
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.ValueIdx

theorem rsqrt_at {s : Shape} {φ : FTy} (a : FVec Ideal s φ) (i : s.Idx) : rsqrt a i = Ideal.rsqrt (a i) := rfl

theorem rsqrt_of_pos (r : ℝ) (h : 0 < r) : Ideal.rsqrt ((r : ℝ) : EReal) = ((Cert.Spec.rs r : ℝ) : EReal) := by
  rw [Ideal.rsqrt_coe, if_neg (not_lt.mpr h.le), if_neg (ne_of_gt h)]
  rfl

-- Sums, differences and products of reals stay real, and `v + ε` is positive.
theorem pay5_at (x0 : FVec Ideal S1000x128 .f32) (xvar xg xmean xb : FVec Ideal S1x128 .f32)
    (p : Fin 1000) (q : Fin 128) (X v g m b : ℝ)
    (hx : x0 (ix2 p q) = ((X : ℝ) : EReal))
    (hv : xvar (ix2 (0 : Fin 1) q) = ((v : ℝ) : EReal)) (hg : xg (ix2 (0 : Fin 1) q) = ((g : ℝ) : EReal))
    (hm : xmean (ix2 (0 : Fin 1) q) = ((m : ℝ) : EReal)) (hb : xb (ix2 (0 : Fin 1) q) = ((b : ℝ) : EReal))
    (hpos : 0 < v + Cert.Spec.eps5) :
    k5_pay1 (F := Ideal) x0 xvar xg xmean xb (ix2 p q)
      = ((g * (X - m) * Cert.Spec.rs (v + Cert.Spec.eps5) + b : ℝ) : EReal) := by
  unfold k5_pay1
  simp only [addf_apply, mulf_apply, subf_apply, rsqrt_at, shapeCast_self, broadcastTo_1b_ab_apply, broadcast_apply]
  rw [hx, hv, hg, hm, hb,
    show FloatOps.ofBits (F := Ideal) FTy.f32 0x3727C5AC#32 = ((Cert.Spec.eps5 : ℝ) : EReal) from Cert.Spec.ofBits_eps5,
    ← EReal.coe_add, rsqrt_of_pos _ hpos, ← EReal.coe_sub, ← EReal.coe_mul, ← EReal.coe_mul, ← EReal.coe_add]

end Cert.KernelIdeal.Hand
-- ==== Proof.KI.Val4a.lean ====
import proofs.«403660_j89129161327109_3_alg».proof.Proof.KI.Val0a
import proofs.«403660_j89129161327109_3_alg».proof.Proof.KI.Val5a
import Idealize.ShloMosaic.Lib.StackMember

noncomputable section

open scoped BigOperators

namespace Cert.KernelIdeal.Hand

open Cert.KernelIdeal Cert.KernelIdeal.Gen
open Idealize.ShloMosaic Idealize.ShloMosaic.TcCoe Idealize.ShloMosaic.ValueIdx

-- A matrix product accumulated from zero is the sum over the contracted index.
theorem mm_apply4 {m k n : ℕ} {φ₁ φ₂ : FTy} (l : FVec Ideal ⟨2, ![m, k]⟩ φ₁) (r : FVec Ideal ⟨2, ![k, n]⟩ φ₂) (p : Fin m) (c : Fin n) :
    FloatOps.matmul (DotDims.plain m k n) none l r (constant ⟨2, ![m, n]⟩ .f32 0x00000000#32) (ix2 p c)
      = ∑ j : Fin k, l (ix2 p j) * r (ix2 j c) :=
  (congrFun (matmul_zero_eq_dotGeneral _ none l r) _).trans (StackMember.dotGeneral_plain_apply none l r p c)

-- A sum of products of real entries is the real sum of products.
theorem sum_mul_real4 {n : ℕ} (l r : Fin n → EReal) (L R : Fin n → ℝ) (hl : ∀ k, l k = ((L k : ℝ) : EReal))
    (hr : ∀ k, r k = ((R k : ℝ) : EReal)) : ∑ k, l k * r k = ((∑ k, L k * R k : ℝ) : EReal) := by
  rw [coe_sum_fin]
  exact Finset.sum_congr rfl fun k _ => by rw [hl, hr, EReal.coe_mul]

theorem pay7_at4 (xvar xg : Vec Ideal S1x128 .f32) (x0 : Vec Ideal S1000x128 .f32) (xmean xb : Vec Ideal S1x128 .f32)
    (w1 : Vec Ideal S128x256 .f32) (b1v : Vec Ideal S1x256 .f32)
    (p : Fin 1000) (j : Fin 256) (H2 : Fin 128 → ℝ) (W1 : Fin 128 → ℝ) (b1 : ℝ)
    (h2 : ∀ k, k4_pay6 (F := Ideal) xvar xg x0 xmean xb (ix2 p k) = ((H2 k : ℝ) : EReal))
    (hw : ∀ k, w1 (ix2 k j) = ((W1 k : ℝ) : EReal)) (hb : b1v (ix2 (0 : Fin 1) j) = ((b1 : ℝ) : EReal)) :
    k4_pay7 (F := Ideal) xvar xg x0 xmean xb w1 b1v (ix2 p j)
      = ((Cert.Spec.relu (∑ k : Fin 128, H2 k * W1 k + b1) : ℝ) : EReal) := by
  unfold k4_pay7
  simp only [truncf_apply, maximumf_apply, addf_apply, broadcastTo_1b_ab_apply, broadcast_apply, shapeCast_self, matmul]
  rw [show dot_S1000x128_S128x256_S1000x256_1_0_0_1_n_n = DotDims.plain 1000 128 256 from rfl, mm_apply4]
  simp only [truncf_apply]
  rw [hb, show FloatOps.ofBits (F := Ideal) FTy.f32 0x00000000#32 = ((0 : ℝ) : EReal) from Cert.Spec.ofBits_zero,
    sum_mul_real4 _ _ H2 W1 h2 hw, ← EReal.coe_add, ← EReal.coe_strictMono.monotone.map_max]
  rfl

section Result

variable (v23 : FVec Ideal S1000x128 .f32) (v34 : FVec Ideal S1000x256 .bf16) (w2 : Vec Ideal S256x128 .f32)
  (b2v : Vec Ideal S1x128 .f32)

theorem pay1_at4 (p : Fin 1000) (q : Fin 128) (h2 : ℝ) (Hid : Fin 256 → ℝ) (W2 : Fin 256 → ℝ) (b2 : ℝ)
    (hh : v23 (ix2 p q) = ((h2 : ℝ) : EReal)) (hhid : ∀ j, v34 (ix2 p j) = ((Hid j : ℝ) : EReal))
    (hw : ∀ j, w2 (ix2 j q) = ((W2 j : ℝ) : EReal)) (hb : b2v (ix2 (0 : Fin 1) q) = ((b2 : ℝ) : EReal)) :
    k4_pay1 (F := Ideal) v23 v34 w2 b2v (ix2 p q) = ((h2 + (∑ j : Fin 256, Hid j * W2 j + b2) : ℝ) : EReal) := by
  unfold k4_pay1
  simp only [truncf_apply, addf_apply, broadcastTo_1b_ab_apply, shapeCast_self, matmul]
  rw [show dot_S1000x256_S256x128_S1000x128_1_0_0_1_n_n = DotDims.plain 1000 256 128 from rfl, mm_apply4]
  simp only [truncf_apply]
  rw [hh, hb, sum_mul_real4 _ _ Hid W2 hhid hw, ← EReal.coe_add, ← EReal.coe_add]

-- A row of real entries plus the column sums of a block of real entries, read at column `q`.
theorem add_colsum_real4 (acc : Vec Ideal S1x128 .f32) (y : FVec Ideal S1000x128 .f32) (q : Fin 128) (a : ℝ) (Y : Fin 1000 → ℝ)
    (ha : acc (ix2 (0 : Fin 1) q) = ((a : ℝ) : EReal)) (hy : ∀ p, y (ix2 p q) = ((Y p : ℝ) : EReal)) :
    acc (ix2 (0 : Fin 1) q) + shapeCast S1x128 (multiReduction .add [0] S128 y 0x00000000#32 reduces_S1000x128_S128 (.inl rfl) rfl)
        shapeCasts_S128_S1x128 (ix2 (0 : Fin 1) q) = ((a + ∑ p : Fin 1000, Y p : ℝ) : EReal) := by
  rw [ha, EReal.coe_add, coe_sum_fin]
  refine congrArg (((a : ℝ) : EReal) + ·) ((shapeCast_addUnit_apply (n := 1) ![128] _ _ (ix2 (0 : Fin 1) q)).trans ?_)
  rw [show (fun a : Fin 1 => (ix2 (0 : Fin 1) q : (⟨2, ![1, 128]⟩ : Shape).Idx) a.succ) = ix1 q from
    funext fun a => by match a with | ⟨0, _⟩ => rfl]
  refine (Ideal.multiReduction_add_single y _ reduces_S1000x128_S128 _ _ (ix1 q)).trans ?_
  exact Finset.sum_congr rfl fun p _ => (congrArg y (funext fun a => by fin_cases a <;> rfl)).trans (hy p)

theorem pay2_real4 (v49 : Vec Ideal S1x128 .f32) (q : Fin 128) (a : ℝ) (Y : Fin 1000 → ℝ)
    (ha : v49 (ix2 (0 : Fin 1) q) = ((a : ℝ) : EReal))
    (hy : ∀ p, k4_pay1 (F := Ideal) v23 v34 w2 b2v (ix2 p q) = ((Y p : ℝ) : EReal)) :
    k4_pay2 (F := Ideal) v23 v34 w2 b2v v49 (ix2 (0 : Fin 1) q) = ((a + ∑ p : Fin 1000, Y p : ℝ) : EReal) := by
  unfold k4_pay2
  simp only [addf_apply, shapeCast_self]
  exact add_colsum_real4 _ _ q a Y ha hy

theorem pay3_real4 (v53 : Vec Ideal S1x128 .f32) (q : Fin 128) (a : ℝ) (Y : Fin 1000 → ℝ)
    (ha : v53 (ix2 (0 : Fin 1) q) = ((a : ℝ) : EReal))
    (hy : ∀ p, k4_pay1 (F := Ideal) v23 v34 w2 b2v (ix2 p q) = ((Y p : ℝ) : EReal)) :
    k4_pay3 (F := Ideal) v23 v34 w2 b2v v53 (ix2 (0 : Fin 1) q) = ((a + ∑ p : Fin 1000, Y p * Y p : ℝ) : EReal) := by
  unfold k4_pay3
  simp only [addf_apply, shapeCast_self]
  exact add_colsum_real4 _ _ q a _ ha fun p => by rw [mulf_apply, hy p, EReal.coe_mul]

end Result

theorem pay4_at4 (i : S8x128.Idx) : k4_pay4 (F := Ideal) i = ((0 : ℝ) : EReal) := Cert.Spec.ofBits_zero
theorem pay5_at4 (i : S8x128.Idx) : k4_pay5 (F := Ideal) i = ((0 : ℝ) : EReal) := Cert.Spec.ofBits_zero

end Cert.KernelIdeal.Hand

end
-- ==== Proof.KI.Val4b.lean ====
import proofs.«403660_j89129161327109_3_alg».proof.Proof.Gen.KernelIdeal.Points
import proofs.«403660_j89129161327109_3_alg».proof.Proof.Gen.KernelIdeal.Launch
import proofs.«403660_j89129161327109_3_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

theorem hz4 : (![0, 0] : Fin 2 → Nat) = fun _ => 0 := funext fun a => by fin_cases a <;> rfl

theorem N4_lt (t : Fin cfg4.N) : t.val < 50 := lt_of_lt_of_eq t.isLt N_4

theorem idx4_0 : ∀ t : Fin cfg4.N, win4_0.index t (0 : Fin 2) = t.val ∧ win4_0.index t (1 : Fin 2) = 0 :=
  (by decide +kernel : ∀ t : Fin grid4.N, _)
theorem idx4_9 : ∀ t : Fin cfg4.N, win4_9.index t (0 : Fin 2) = t.val ∧ win4_9.index t (1 : Fin 2) = 0 :=
  (by decide +kernel : ∀ t : Fin grid4.N, _)
theorem idx4_10 : ∀ t : Fin cfg4.N, win4_10.index t (0 : Fin 2) = t.val / 25 ∧ win4_10.index t (1 : Fin 2) = 0 :=
  (by decide +kernel : ∀ t : Fin grid4.N, _)
theorem idx4_11 : ∀ t : Fin cfg4.N, win4_11.index t (0 : Fin 2) = t.val / 25 ∧ win4_11.index t (1 : Fin 2) = 0 :=
  (by decide +kernel : ∀ t : Fin grid4.N, _)
theorem idx4_whole : ∀ (t : Fin cfg4.N) (a : Fin 2), win4_1.index t a = 0 ∧ win4_2.index t a = 0 ∧ win4_3.index t a = 0
    ∧ win4_4.index t a = 0 ∧ win4_5.index t a = 0 ∧ win4_6.index t a = 0 ∧ win4_7.index t a = 0 ∧ win4_8.index t a = 0 :=
  (by decide +kernel : ∀ (t : Fin grid4.N) (a : Fin 2), _)

theorem row_lt4 (t : Fin cfg4.N) (p : Fin 1000) : 1000 * t.val + p.val < 50000 := by
  have := N4_lt t; have := p.isLt; omega

theorem arow_lt4 (t : Fin cfg4.N) (r : Fin 8) : 8 * (t.val / 25) + r.val < 16 := by
  have := N4_lt t; have := r.isLt; omega

theorem emb4_0 (t : Fin cfg4.N) (p : Fin 1000) (q : Fin 128) :
    ((cfg4.win 0).blk t).view.emb (ix2 p q) = ix2 (⟨1000 * t.val + p.val, row_lt4 t p⟩ : Fin 50000) q :=
  Shape.idx_ext₂ ((win4_0.rect_emb_val t _ 0).trans (by have := (idx4_0 t).1; show win4_0.index t 0 * 1000 + p.val = 1000 * t.val + p.val; omega))
    ((win4_0.rect_emb_val t _ 1).trans (by have := (idx4_0 t).2; show win4_0.index t 1 * 128 + q.val = q.val; omega))
theorem emb4_9 (t : Fin cfg4.N) (p : Fin 1000) (q : Fin 128) :
    ((cfg4.win 9).blk t).view.emb (ix2 p q) = ix2 (⟨1000 * t.val + p.val, row_lt4 t p⟩ : Fin 50000) q :=
  Shape.idx_ext₂ ((win4_9.rect_emb_val t _ 0).trans (by have := (idx4_9 t).1; show win4_9.index t 0 * 1000 + p.val = 1000 * t.val + p.val; omega))
    ((win4_9.rect_emb_val t _ 1).trans (by have := (idx4_9 t).2; show win4_9.index t 1 * 128 + q.val = q.val; omega))
theorem emb4_1 (t : Fin cfg4.N) (y : S1x128.Idx) : ((cfg4.win 1).blk t).view.emb y = y :=
  funext fun a => Fin.ext (win4_1.rect_emb_val_of_index_zero t a ((idx4_whole t a).1) y)
theorem emb4_2 (t : Fin cfg4.N) (y : S1x128.Idx) : ((cfg4.win 2).blk t).view.emb y = y :=
  funext fun a => Fin.ext (win4_2.rect_emb_val_of_index_zero t a ((idx4_whole t a).2.1) y)
theorem emb4_3 (t : Fin cfg4.N) (y : S1x128.Idx) : ((cfg4.win 3).blk t).view.emb y = y :=
  funext fun a => Fin.ext (win4_3.rect_emb_val_of_index_zero t a ((idx4_whole t a).2.2.1) y)
theorem emb4_4 (t : Fin cfg4.N) (y : S1x128.Idx) : ((cfg4.win 4).blk t).view.emb y = y :=
  funext fun a => Fin.ext (win4_4.rect_emb_val_of_index_zero t a ((idx4_whole t a).2.2.2.1) y)
theorem emb4_5 (t : Fin cfg4.N) (y : S128x256.Idx) : ((cfg4.win 5).blk t).view.emb y = y :=
  funext fun a => Fin.ext (win4_5.rect_emb_val_of_index_zero t a ((idx4_whole t a).2.2.2.2.1) y)
theorem emb4_6 (t : Fin cfg4.N) (y : S1x256.Idx) : ((cfg4.win 6).blk t).view.emb y = y :=
  funext fun a => Fin.ext (win4_6.rect_emb_val_of_index_zero t a ((idx4_whole t a).2.2.2.2.2.1) y)
theorem emb4_7 (t : Fin cfg4.N) (y : S256x128.Idx) : ((cfg4.win 7).blk t).view.emb y = y :=
  funext fun a => Fin.ext (win4_7.rect_emb_val_of_index_zero t a ((idx4_whole t a).2.2.2.2.2.2.1) y)
theorem emb4_8 (t : Fin cfg4.N) (y : S1x128.Idx) : ((cfg4.win 8).blk t).view.emb y = y :=
  funext fun a => Fin.ext (win4_8.rect_emb_val_of_index_zero t a ((idx4_whole t a).2.2.2.2.2.2.2) y)
theorem emb4_10 (t : Fin cfg4.N) (r : Fin 8) (q : Fin 128) :
    ((cfg4.win 10).blk t).view.emb (ix2 r q) = ix2 (⟨8 * (t.val / 25) + r.val, arow_lt4 t r⟩ : Fin 16) q :=
  Shape.idx_ext₂ ((win4_10.rect_emb_val t _ 0).trans (by have := (idx4_10 t).1; show win4_10.index t 0 * 8 + r.val = 8 * (t.val / 25) + r.val; omega))
    ((win4_10.rect_emb_val t _ 1).trans (by have := (idx4_10 t).2; show win4_10.index t 1 * 128 + q.val = q.val; omega))
theorem emb4_11 (t : Fin cfg4.N) (r : Fin 8) (q : Fin 128) :
    ((cfg4.win 11).blk t).view.emb (ix2 r q) = ix2 (⟨8 * (t.val / 25) + r.val, arow_lt4 t r⟩ : Fin 16) q :=
  Shape.idx_ext₂ ((win4_11.rect_emb_val t _ 0).trans (by have := (idx4_11 t).1; show win4_11.index t 0 * 8 + r.val = 8 * (t.val / 25) + r.val; omega))
    ((win4_11.rect_emb_val t _ 1).trans (by have := (idx4_11 t).2; show win4_11.index t 1 * 128 + q.val = q.val; omega))

-- Row `R` of the result is row `R % 1000` of the block of point `R / 1000`.
theorem covered4_9 (i : S50000x128.Idx) :
    ∃ t : Fin cfg4.N, (cfg4.win 9).flush t = true ∧ i ∈ ((cfg4.win 9).blk t).view.set := by
  have h0 : (i 0).val < 50000 := (i 0).isLt
  have hN : (i 0).val / 1000 < cfg4.N := lt_of_lt_of_eq (show _ < 50 by omega) N_4.symm
  have e : ((cfg4.win 9).blk ⟨_, hN⟩).view.emb (ix2 (⟨(i 0).val % 1000, Nat.mod_lt _ (by decide)⟩ : Fin 1000) (⟨(i 1).val, (i 1).isLt⟩ : Fin 128)) = i := by
    rw [emb4_9]
    exact Shape.idx_ext₂ (show 1000 * ((i 0).val / 1000) + (i 0).val % 1000 = (i 0).val by omega) rfl
  exact ⟨_, flush4_9 _, (congrArg (· ∈ _) e).mp (View.emb_mem_set _ _)⟩

-- Row `R` of a 16-row array is row `R % 8` of the block at point `25 (R / 8) + 24`.
theorem covered4_10 (i : S16x128.Idx) :
    ∃ t : Fin cfg4.N, (cfg4.win 10).flush t = true ∧ i ∈ ((cfg4.win 10).blk t).view.set := by
  have h0 : (i 0).val < 16 := (i 0).isLt
  have hN : 25 * ((i 0).val / 8) + 24 < cfg4.N := lt_of_lt_of_eq (show _ < 50 by omega) N_4.symm
  have e : ((cfg4.win 10).blk ⟨_, hN⟩).view.emb (ix2 (⟨(i 0).val % 8, Nat.mod_lt _ (by decide)⟩ : Fin 8) (⟨(i 1).val, (i 1).isLt⟩ : Fin 128)) = i := by
    rw [emb4_10]
    exact Shape.idx_ext₂ (show 8 * ((25 * ((i 0).val / 8) + 24) / 25) + (i 0).val % 8 = (i 0).val by omega) rfl
  exact ⟨_, (flush4_10 _).mpr (show (25 * ((i 0).val / 8) + 24) % 25 = 24 by omega), (congrArg (· ∈ _) e).mp (View.emb_mem_set _ _)⟩
theorem covered4_11 (i : S16x128.Idx) :
    ∃ t : Fin cfg4.N, (cfg4.win 11).flush t = true ∧ i ∈ ((cfg4.win 11).blk t).view.set := by
  have h0 : (i 0).val < 16 := (i 0).isLt
  have hN : 25 * ((i 0).val / 8) + 24 < cfg4.N := lt_of_lt_of_eq (show _ < 50 by omega) N_4.symm
  have e : ((cfg4.win 11).blk ⟨_, hN⟩).view.emb (ix2 (⟨(i 0).val % 8, Nat.mod_lt _ (by decide)⟩ : Fin 8) (⟨(i 1).val, (i 1).isLt⟩ : Fin 128)) = i := by
    rw [emb4_11]
    exact Shape.idx_ext₂ (show 8 * ((25 * ((i 0).val / 8) + 24) / 25) + (i 0).val % 8 = (i 0).val by omega) rfl
  exact ⟨_, (flush4_11 _).mpr (show (25 * ((i 0).val / 8) + 24) % 25 = 24 by omega), (congrArg (· ∈ _) e).mp (View.emb_mem_set _ _)⟩

def ext4 (f : Fin 50000 → ℝ) (i : ℕ) : ℝ := if h : i < 50000 then f ⟨i, h⟩ else 0

theorem ext4_of_lt (f : Fin 50000 → ℝ) (i : ℕ) (h : i < 50000) : ext4 f i = f ⟨i, h⟩ := dif_pos h

theorem sum_half4 (f : Fin 50000 → ℝ) (J : ℕ) (hJ : J < 2) :
    ∑ i ∈ Finset.Ico (25000 * J) (25000 * (J + 1)), ext4 f i
      = ∑ i : Fin 50000, (if i.val / 25000 = J then f i else 0) := by
  have h1 : ∑ i : Fin 50000, (if i.val / 25000 = J then f i else 0)
      = ∑ i ∈ Finset.range 50000, (if i / 25000 = J then ext4 f i else 0) := by
    rw [← Fin.sum_univ_eq_sum_range (fun i => if i / 25000 = J then ext4 f i else 0) 50000]
    exact Finset.sum_congr rfl fun i _ => by rw [ext4_of_lt f i.val i.isLt]
  rw [h1, ← Finset.sum_filter]
  refine Finset.sum_congr ?_ fun _ _ => rfl
  ext i
  simp only [Finset.mem_Ico, Finset.mem_filter, Finset.mem_range]
  omega

end Cert.KernelIdeal.Hand

end
-- ==== Proof.KI.Val4c.lean ====
import proofs.«403660_j89129161327109_3_alg».proof.Proof.KI.Reg4
import proofs.«403660_j89129161327109_3_alg».proof.Proof.KI.Val4a
import proofs.«403660_j89129161327109_3_alg».proof.Proof.KI.Val4b
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem

-- The result block as a function of the nine loaded blocks.
abbrev Y4 (x0 : Vec Ideal S1000x128 .f32) (x1 x2 x3 x4 : Vec Ideal S1x128 .f32) (x5 : Vec Ideal S128x256 .f32)
    (x6 : Vec Ideal S1x256 .f32) (x7 : Vec Ideal S256x128 .f32) (x8 : Vec Ideal S1x128 .f32) : FVec Ideal S1000x128 .f32 :=
  k4_pay1 (F := Ideal) (k4_pay6 (F := Ideal) x2 x3 x0 x1 x4) (k4_pay7 (F := Ideal) x2 x3 x0 x1 x4 x5 x6) x7 x8

abbrev row0_4 : Rect S8x128 := Rect.unit (s := S8x128) ![0, 0] S1x128.size inb_S8x128_S1x128_0_0

theorem row0_emb4 (q : Fin 128) : row0_4.emb (ix2 (0 : Fin 1) q) = ix2 (0 : Fin 8) q :=
  Shape.idx_ext₂ rfl (show 0 + 1 * q.val = q.val by omega)

theorem not_mem_row0_4 (r : Fin 8) (q : Fin 128) (h : r.val ≠ 0) : ix2 r q ∉ row0_4.set := by
  rw [Rect.mem_set_unit]
  intro hh
  have h0 : r.val < 0 + 1 := (hh 0).2
  omega

section Pieces

variable {c : Dev nD} {i : grid4.Coords}
  {arg2 arg11 : Memref sig .tc .vmem S1000x128 .f32} {arg3 arg4 arg5 arg6 arg10 : Memref sig .tc .vmem S1x128 .f32}
  {arg7 : Memref sig .tc .vmem S128x256 .f32} {arg8 : Memref sig .tc .vmem S1x256 .f32}
  {arg9 : Memref sig .tc .vmem S256x128 .f32} {arg12 arg13 : Memref sig .tc .vmem S8x128 .f32}
  {harg2 : arg2.IsWhole} {harg3 : arg3.IsWhole} {harg4 : arg4.IsWhole} {harg5 : arg5.IsWhole} {harg6 : arg6.IsWhole}
  {harg7 : arg7.IsWhole} {harg8 : arg8.IsWhole} {harg9 : arg9.IsWhole} {harg10 : arg10.IsWhole} {harg11 : arg11.IsWhole}
  {harg12 : arg12.IsWhole} {harg13 : arg13.IsWhole}
  {x0 : Vec Ideal S1000x128 .f32} {x1 x2 x3 x4 x8 : Vec Ideal S1x128 .f32} {x5 : Vec Ideal S128x256 .f32}
  {x6 : Vec Ideal S1x256 .f32} {x7 : Vec Ideal S256x128 .f32}

theorem outA9_eq4 (hc0 : cond4_0 i) :
    out4_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = Y4 x0 x1 x2 x3 x4 x5 x6 x7 x8 := by
  unfold out4_A_9
  rw [View.read_writes_junk_eq_canon]
  unfold kernelRun4_A
  dsimp only
  sl_unfold_words
  rw [View.canon_unit_zero hz4]
  simp only [View.readAt_eq_ld, Memref.IsWhole.read_unread, View.ld_unit_zero (S := S1000x128) hz4, View.ld_unit_zero (S := S1x128) hz4, View.ld_unit_zero (S := S128x256) hz4, View.ld_unit_zero (S := S1x256) hz4, View.ld_unit_zero (S := S256x128) hz4]

theorem outB9_eq4 (hc0 : ¬cond4_0 i) {xo10 xo11 : Vec Ideal S8x128 .f32} :
    out4_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 = Y4 x0 x1 x2 x3 x4 x5 x6 x7 x8 := by
  unfold out4_B_9
  rw [View.read_writes_junk_eq_canon]
  unfold kernelRun4_B
  dsimp only
  sl_unfold_words
  rw [View.canon_unit_zero hz4]
  simp only [View.readAt_eq_ld, Memref.IsWhole.read_unread, View.ld_unit_zero (S := S1000x128) hz4, View.ld_unit_zero (S := S1x128) hz4, View.ld_unit_zero (S := S128x256) hz4, View.ld_unit_zero (S := S1x256) hz4, View.ld_unit_zero (S := S256x128) hz4]

-- Row 0 of the cleared accumulator takes the block's column sums; rows 1 to 7 stay zero.
theorem outA10_at4 (hc0 : cond4_0 i) {r : Fin 8} {q : Fin 128} {Y : Fin 1000 → ℝ}
    (hy : ∀ p, Y4 x0 x1 x2 x3 x4 x5 x6 x7 x8 (ix2 p q) = ((Y p : ℝ) : EReal)) :
    out4_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 r q)
      = ((if r.val = 0 then 0 + ∑ p : Fin 1000, Y p else 0 : ℝ) : EReal) := by
  unfold out4_A_10
  rw [View.read_writes_junk_eq_canon]
  unfold kernelRun4_A
  dsimp only
  sl_unfold_words
  simp only [View.readAt_eq_ld, Memref.IsWhole.read_unread, View.ld_unit_zero (S := S1000x128) hz4, View.ld_unit_zero (S := S1x128) hz4, View.ld_unit_zero (S := S128x256) hz4, View.ld_unit_zero (S := S1x256) hz4, View.ld_unit_zero (S := S256x128) hz4]
  by_cases hr : r.val = 0
  · obtain rfl : r = 0 := Fin.ext hr
    rw [if_pos hr, ← row0_emb4 q]
    refine (View.canon_cons_emb row0_4 _ _ (ix2 (0 : Fin 1) q)).trans ?_
    refine pay2_real4 _ _ _ _ _ q 0 Y ?_ hy
    refine (congrFun (View.readCov_eq_canon' _ _ _) _).trans ?_
    refine (congrFun (View.canon_unit_zero hz4 _ _) _).trans ?_
    exact pay4_at4 _
  · rw [if_neg hr]
    refine (View.canon_cons_of_not_mem _ _ (not_mem_row0_4 r q hr)).trans ?_
    refine (congrFun (View.canon_unit_zero hz4 _ _) _).trans ?_
    exact pay4_at4 _

theorem outA11_at4 (hc0 : cond4_0 i) {r : Fin 8} {q : Fin 128} {Y : Fin 1000 → ℝ}
    (hy : ∀ p, Y4 x0 x1 x2 x3 x4 x5 x6 x7 x8 (ix2 p q) = ((Y p : ℝ) : EReal)) :
    out4_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 r q)
      = ((if r.val = 0 then 0 + ∑ p : Fin 1000, Y p * Y p else 0 : ℝ) : EReal) := by
  unfold out4_A_11
  rw [View.read_writes_junk_eq_canon]
  unfold kernelRun4_A
  dsimp only
  sl_unfold_words
  simp only [View.readAt_eq_ld, Memref.IsWhole.read_unread, View.ld_unit_zero (S := S1000x128) hz4, View.ld_unit_zero (S := S1x128) hz4, View.ld_unit_zero (S := S128x256) hz4, View.ld_unit_zero (S := S1x256) hz4, View.ld_unit_zero (S := S256x128) hz4]
  by_cases hr : r.val = 0
  · obtain rfl : r = 0 := Fin.ext hr
    rw [if_pos hr, ← row0_emb4 q]
    refine (View.canon_cons_emb row0_4 _ _ (ix2 (0 : Fin 1) q)).trans ?_
    refine pay3_real4 _ _ _ _ _ q 0 Y ?_ hy
    refine (congrFun (View.readCov_eq_canon' _ _ _) _).trans ?_
    refine (congrFun (View.canon_unit_zero hz4 _ _) _).trans ?_
    exact pay5_at4 _
  · rw [if_neg hr]
    refine (View.canon_cons_of_not_mem _ _ (not_mem_row0_4 r q hr)).trans ?_
    refine (congrFun (View.canon_unit_zero hz4 _ _) _).trans ?_
    exact pay5_at4 _

end Pieces

end Cert.KernelIdeal.Hand

end
-- ==== Proof.KI.Val4d.lean ====
import proofs.«403660_j89129161327109_3_alg».proof.Proof.KI.Val4c

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem

section Pieces

variable {c : Dev nD} {i : grid4.Coords}
  {arg2 arg11 : Memref sig .tc .vmem S1000x128 .f32} {arg3 arg4 arg5 arg6 arg10 : Memref sig .tc .vmem S1x128 .f32}
  {arg7 : Memref sig .tc .vmem S128x256 .f32} {arg8 : Memref sig .tc .vmem S1x256 .f32}
  {arg9 : Memref sig .tc .vmem S256x128 .f32} {arg12 arg13 : Memref sig .tc .vmem S8x128 .f32}
  {harg2 : arg2.IsWhole} {harg3 : arg3.IsWhole} {harg4 : arg4.IsWhole} {harg5 : arg5.IsWhole} {harg6 : arg6.IsWhole}
  {harg7 : arg7.IsWhole} {harg8 : arg8.IsWhole} {harg9 : arg9.IsWhole} {harg10 : arg10.IsWhole} {harg11 : arg11.IsWhole}
  {harg12 : arg12.IsWhole} {harg13 : arg13.IsWhole}
  {x0 : Vec Ideal S1000x128 .f32} {x1 x2 x3 x4 x8 : Vec Ideal S1x128 .f32} {x5 : Vec Ideal S128x256 .f32}
  {x6 : Vec Ideal S1x256 .f32} {x7 : Vec Ideal S256x128 .f32}

-- Row 0 of a running accumulator gains the block's column sums; rows 1 to 7 keep what they held.
theorem outB10_at4 (hc0 : ¬cond4_0 i) {xo10 xo11 : Vec Ideal S8x128 .f32} {r : Fin 8} {q : Fin 128} {a : ℝ} {Y : Fin 1000 → ℝ}
    (ha : xo10 (ix2 r q) = ((a : ℝ) : EReal))
    (hy : ∀ p, Y4 x0 x1 x2 x3 x4 x5 x6 x7 x8 (ix2 p q) = ((Y p : ℝ) : EReal)) :
    out4_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix2 r q)
      = ((if r.val = 0 then a + ∑ p : Fin 1000, Y p else a : ℝ) : EReal) := by
  unfold out4_B_10
  unfold kernelRun4_B
  dsimp only
  sl_unfold_words
  simp only [View.readAt_eq_ld, Memref.IsWhole.read_unread, View.ld_unit_zero (S := S1000x128) hz4, View.ld_unit_zero (S := S1x128) hz4, View.ld_unit_zero (S := S128x256) hz4, View.ld_unit_zero (S := S1x256) hz4, View.ld_unit_zero (S := S256x128) hz4]
  by_cases hr : r.val = 0
  · obtain rfl : r = 0 := Fin.ext hr
    rw [if_pos hr, ← row0_emb4 q]
    refine (View.read_writes_cons_emb _ _ row0_4 _ _ (ix2 (0 : Fin 1) q)).trans ?_
    refine pay2_real4 _ _ _ _ _ q a Y ?_ hy
    show xo10 (row0_4.emb (ix2 (0 : Fin 1) q)) = _
    rw [row0_emb4]; exact ha
  · rw [if_neg hr]
    refine (View.read_writes_apply_of_forall_not_mem _ _ (ix2 r q) _ ?_).trans ?_
    · intro pc hpc
      rw [List.mem_singleton] at hpc
      subst hpc
      exact not_mem_row0_4 r q hr
    · rw [Memref.IsWhole.read_unread]; exact ha

theorem outB11_at4 (hc0 : ¬cond4_0 i) {xo10 xo11 : Vec Ideal S8x128 .f32} {r : Fin 8} {q : Fin 128} {a : ℝ} {Y : Fin 1000 → ℝ}
    (ha : xo11 (ix2 r q) = ((a : ℝ) : EReal))
    (hy : ∀ p, Y4 x0 x1 x2 x3 x4 x5 x6 x7 x8 (ix2 p q) = ((Y p : ℝ) : EReal)) :
    out4_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix2 r q)
      = ((if r.val = 0 then a + ∑ p : Fin 1000, Y p * Y p else a : ℝ) : EReal) := by
  unfold out4_B_11
  unfold kernelRun4_B
  dsimp only
  sl_unfold_words
  simp only [View.readAt_eq_ld, Memref.IsWhole.read_unread, View.ld_unit_zero (S := S1000x128) hz4, View.ld_unit_zero (S := S1x128) hz4, View.ld_unit_zero (S := S128x256) hz4, View.ld_unit_zero (S := S1x256) hz4, View.ld_unit_zero (S := S256x128) hz4]
  by_cases hr : r.val = 0
  · obtain rfl : r = 0 := Fin.ext hr
    rw [if_pos hr, ← row0_emb4 q]
    refine (View.read_writes_cons_emb _ _ row0_4 _ _ (ix2 (0 : Fin 1) q)).trans ?_
    refine pay3_real4 _ _ _ _ _ q a Y ?_ hy
    show xo11 (row0_4.emb (ix2 (0 : Fin 1) q)) = _
    rw [row0_emb4]; exact ha
  · rw [if_neg hr]
    refine (View.read_writes_apply_of_forall_not_mem _ _ (ix2 r q) _ ?_).trans ?_
    · intro pc hpc
      rw [List.mem_singleton] at hpc
      subst hpc
      exact not_mem_row0_4 r q hr
    · rw [Memref.IsWhole.read_unread]; exact ha

end Pieces

end Cert.KernelIdeal.Hand

end
-- ==== Proof.KI.Val4.lean ====
import proofs.«403660_j89129161327109_3_alg».proof.Proof.KI.Val4d

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (ffnH2 ffnHid ffnH3raw ffnSum ffnSumSq)

-- The sum of `f` over the rows from the start of point `n`'s half to the end of point `n`'s own rows.
def S4 (f : Fin 50000 → ℝ) (n : ℕ) : ℝ := ∑ i ∈ Finset.Ico (25000 * (n / 25)) (1000 * (n + 1)), ext4 f i

theorem sum_rows_fin4 (f : Fin 50000 → ℝ) (t : ℕ) (h : ∀ p : Fin 1000, 1000 * t + p.val < 50000) :
    ∑ p : Fin 1000, f ⟨1000 * t + p.val, h p⟩ = ∑ i ∈ Finset.Ico (1000 * t) (1000 * (t + 1)), ext4 f i := by
  rw [Finset.sum_Ico_eq_sum_range, show 1000 * (t + 1) - 1000 * t = 1000 by omega,
    ← Fin.sum_univ_eq_sum_range (fun p => ext4 f (1000 * t + p)) 1000]
  exact Finset.sum_congr rfl fun p _ => (ext4_of_lt f _ (h p)).symm

theorem S4_reset (f : Fin 50000 → ℝ) (n : ℕ) (h0 : n % 25 = 0) (h : ∀ p : Fin 1000, 1000 * n + p.val < 50000) :
    0 + ∑ p : Fin 1000, f ⟨1000 * n + p.val, h p⟩ = S4 f n := by
  unfold S4
  rw [zero_add, sum_rows_fin4 f n h, show 25000 * (n / 25) = 1000 * n by omega]

theorem S4_step (f : Fin 50000 → ℝ) (n : ℕ) (h0 : ¬n % 25 = 0) (h : ∀ p : Fin 1000, 1000 * n + p.val < 50000) :
    S4 f (n - 1) + ∑ p : Fin 1000, f ⟨1000 * n + p.val, h p⟩ = S4 f n := by
  unfold S4
  rw [sum_rows_fin4 f n h, show (n - 1) / 25 = n / 25 by omega, show 1000 * (n - 1 + 1) = 1000 * n by omega]
  exact Finset.sum_Ico_consecutive (ext4 f) (by omega) (by omega)

-- A block whose row 0 restarts from the point's own rows at the first point of each half and gains them at every other point holds the running sum of its half; its other rows stay zero.
theorem run_sum4 (f : Fin 50000 → ℝ) {N : ℕ} (hN : N = 50) (A : (n : ℕ) → n < N → Fin 8 → EReal)
    (hA : ∀ (n : ℕ) (hn : n < N) (r : Fin 8), n % 25 = 0 →
      A n hn r = ((if r.val = 0 then 0 + ∑ p : Fin 1000, f ⟨1000 * n + p.val, by have := p.isLt; omega⟩ else 0 : ℝ) : EReal))
    (hB : ∀ (n : ℕ) (hn : n < N) (r : Fin 8) (a : ℝ), ¬n % 25 = 0 → A (n - 1) (by omega) r = ((a : ℝ) : EReal) →
      A n hn r = ((if r.val = 0 then a + ∑ p : Fin 1000, f ⟨1000 * n + p.val, by have := p.isLt; omega⟩ else a : ℝ) : EReal))
    (n : ℕ) : ∀ (hn : n < N) (r : Fin 8), A n hn r = ((if r.val = 0 then S4 f n else 0 : ℝ) : EReal) := by
  induction n using Nat.strong_induction_on with
  | _ n ih =>
    intro hn r
    by_cases h0 : n % 25 = 0
    · rw [hA n hn r h0, S4_reset f n h0]
    · rw [hB n hn r _ h0 (ih (n - 1) (by omega) (by omega) r)]
      by_cases hr : r.val = 0
      · rw [if_pos hr, if_pos hr, if_pos hr, S4_step f n h0]
      · rw [if_neg hr, if_neg hr, if_neg hr]

-- At the last point of a half the running sum is the half's column sum, the entry the two-halves sum has in row `8 (t / 25)`.
theorem acc_last4 (Yf : Fin 50000 → Fin 128 → ℝ) (t : ℕ) (ht : t < 50) (h24 : t % 25 = 24) (r : Fin 8) (q : Fin 128)
    (hR : 8 * (t / 25) + r.val < 16) :
    (if r.val = 0 then S4 (fun i => Yf i q) t else 0) = Cert.Spec.acc 25000 Yf ⟨8 * (t / 25) + r.val, hR⟩ q := by
  unfold Cert.Spec.acc
  have hr8 := r.isLt
  have hmod : (8 * (t / 25) + r.val) % 8 = r.val := by omega
  have hdiv : (8 * (t / 25) + r.val) / 8 = t / 25 := by omega
  dsimp only
  rw [hmod, hdiv]
  by_cases hr : r.val = 0
  · rw [if_pos hr, if_pos hr]
    unfold S4
    rw [show 1000 * (t + 1) = 25000 * (t / 25 + 1) by omega]
    exact sum_half4 (fun i => Yf i q) (t / 25) (by omega)
  · rw [if_neg hr, if_neg hr]

-- A real function of row and column as an array of extended reals.
def G4 {a : ℕ} (F : Fin a → Fin 128 → ℝ) : (⟨2, ![a, 128]⟩ : Shape).Idx → EReal := fun i => ((F (i 0) (i 1) : ℝ) : EReal)

variable (V : (c : Dev nD) → (b : Ref sig .tc) → Buf (Elt Ideal) ((c : Thread nD τ).loc b))

section Assembly

variable (c : Dev nD) (X : Fin 50000 → Fin 128 → ℝ) (mean var g b : Fin 128 → ℝ)
  (W1 : Fin 128 → Fin 256 → ℝ) (b1 : Fin 256 → ℝ) (W2 : Fin 256 → Fin 128 → ℝ) (b2 : Fin 128 → ℝ)

structure Ins4 : Prop where
  h0 : Cert.Spec.Real2 (a := 50000) (b := 128) (V c (Pipeline.arrRef spec4 0)) X
  h1 : Cert.Spec.Real2 (a := 1) (b := 128) (V c (Pipeline.arrRef spec4 1)) (fun _ d => mean d)
  h2 : Cert.Spec.Real2 (a := 1) (b := 128) (V c (Pipeline.arrRef spec4 2)) (fun _ d => var d)
  h3 : Cert.Spec.Real2 (a := 1) (b := 128) (V c (Pipeline.arrRef spec4 3)) (fun _ d => g d)
  h4 : Cert.Spec.Real2 (a := 1) (b := 128) (V c (Pipeline.arrRef spec4 4)) (fun _ d => b d)
  h5 : Cert.Spec.Real2 (a := 128) (b := 256) (V c (Pipeline.arrRef spec4 5)) W1
  h6 : Cert.Spec.Real2 (a := 1) (b := 256) (V c (Pipeline.arrRef spec4 6)) (fun _ j => b1 j)
  h7 : Cert.Spec.Real2 (a := 256) (b := 128) (V c (Pipeline.arrRef spec4 7)) W2
  h8 : Cert.Spec.Real2 (a := 1) (b := 128) (V c (Pipeline.arrRef spec4 8)) (fun _ d => b2 d)
  hvar : ∀ d, 0 < var d + Cert.Spec.eps5

abbrev rowOf4 (t : Fin cfg4.N) (p : Fin 1000) : Fin 50000 := ⟨1000 * t.val + p.val, row_lt4 t p⟩

section Point

variable {V c X mean var g b W1 b1 W2 b2}
variable (hI : Ins4 V c X mean var g b W1 b1 W2 b2)
include hI

theorem blk4_0 (t : Fin cfg4.N) (p : Fin 1000) (q : Fin 128) : (iblk4 V c 0 t : Vec Ideal S1000x128 .f32) (ix2 p q) = ((X (rowOf4 t p) q : ℝ) : EReal) :=
  (congrArg (V c (Pipeline.arrRef spec4 0)) (emb4_0 t p q)).trans (hI.h0 _ q)
theorem blk4_1 (t : Fin cfg4.N) (q : Fin 128) : (iblk4 V c 1 t : Vec Ideal S1x128 .f32) (ix2 (0 : Fin 1) q) = ((mean q : ℝ) : EReal) :=
  (congrArg (V c (Pipeline.arrRef spec4 1)) (emb4_1 t _)).trans (hI.h1 0 q)
theorem blk4_2 (t : Fin cfg4.N) (q : Fin 128) : (iblk4 V c 2 t : Vec Ideal S1x128 .f32) (ix2 (0 : Fin 1) q) = ((var q : ℝ) : EReal) :=
  (congrArg (V c (Pipeline.arrRef spec4 2)) (emb4_2 t _)).trans (hI.h2 0 q)
theorem blk4_3 (t : Fin cfg4.N) (q : Fin 128) : (iblk4 V c 3 t : Vec Ideal S1x128 .f32) (ix2 (0 : Fin 1) q) = ((g q : ℝ) : EReal) :=
  (congrArg (V c (Pipeline.arrRef spec4 3)) (emb4_3 t _)).trans (hI.h3 0 q)
theorem blk4_4 (t : Fin cfg4.N) (q : Fin 128) : (iblk4 V c 4 t : Vec Ideal S1x128 .f32) (ix2 (0 : Fin 1) q) = ((b q : ℝ) : EReal) :=
  (congrArg (V c (Pipeline.arrRef spec4 4)) (emb4_4 t _)).trans (hI.h4 0 q)
theorem blk4_5 (t : Fin cfg4.N) (k : Fin 128) (q : Fin 256) : (iblk4 V c 5 t : Vec Ideal S128x256 .f32) (ix2 k q) = ((W1 k q : ℝ) : EReal) :=
  (congrArg (V c (Pipeline.arrRef spec4 5)) (emb4_5 t _)).trans (hI.h5 k q)
theorem blk4_6 (t : Fin cfg4.N) (q : Fin 256) : (iblk4 V c 6 t : Vec Ideal S1x256 .f32) (ix2 (0 : Fin 1) q) = ((b1 q : ℝ) : EReal) :=
  (congrArg (V c (Pipeline.arrRef spec4 6)) (emb4_6 t _)).trans (hI.h6 0 q)
theorem blk4_7 (t : Fin cfg4.N) (k : Fin 256) (q : Fin 128) : (iblk4 V c 7 t : Vec Ideal S256x128 .f32) (ix2 k q) = ((W2 k q : ℝ) : EReal) :=
  (congrArg (V c (Pipeline.arrRef spec4 7)) (emb4_7 t _)).trans (hI.h7 k q)
theorem blk4_8 (t : Fin cfg4.N) (q : Fin 128) : (iblk4 V c 8 t : Vec Ideal S1x128 .f32) (ix2 (0 : Fin 1) q) = ((b2 q : ℝ) : EReal) :=
  (congrArg (V c (Pipeline.arrRef spec4 8)) (emb4_8 t _)).trans (hI.h8 0 q)

-- Entry `(p, q)` of the result block at point `t` is the feed-forward map with its residual at row `1000 t + p`.
theorem h3_real4 (t : Fin cfg4.N) (p : Fin 1000) (q : Fin 128) :
    Y4 (iblk4 V c 0 t) (iblk4 V c 1 t) (iblk4 V c 2 t) (iblk4 V c 3 t) (iblk4 V c 4 t) (iblk4 V c 5 t) (iblk4 V c 6 t) (iblk4 V c 7 t) (iblk4 V c 8 t) (ix2 p q)
      = ((ffnH3raw X mean var g b W1 b1 W2 b2 (rowOf4 t p) q : ℝ) : EReal) := by
  have h6 : ∀ k : Fin 128, k4_pay6 (F := Ideal) (iblk4 V c 2 t) (iblk4 V c 3 t) (iblk4 V c 0 t) (iblk4 V c 1 t) (iblk4 V c 4 t) (ix2 p k)
      = ((ffnH2 X mean var g b (rowOf4 t p) k : ℝ) : EReal) := fun k =>
    pay5_at _ _ _ _ _ p k _ _ _ _ _ (blk4_0 hI t p k) (blk4_2 hI t k) (blk4_3 hI t k) (blk4_1 hI t k) (blk4_4 hI t k) (hI.hvar k)
  exact pay1_at4 _ _ _ _ p q _ (fun j => ffnHid X mean var g b W1 b1 (rowOf4 t p) j) (fun j => W2 j q) (b2 q) (h6 q)
    (fun j => pay7_at4 _ _ _ _ _ _ _ p j (fun k => ffnH2 X mean var g b (rowOf4 t p) k) (fun k => W1 k j) (b1 j) h6
      (fun k => blk4_5 hI t k j) (blk4_6 hI t j))
    (fun j => blk4_7 hI t j q) (blk4_8 hI t q)

theorem acc10_real4 (q : Fin 128) : ∀ (n : ℕ) (hn : n < cfg4.N) (r : Fin 8), (outsAt4 V c n hn).2.1 (ix2 r q)
    = ((if r.val = 0 then S4 (fun i => ffnH3raw X mean var g b W1 b1 W2 b2 i q) n else 0 : ℝ) : EReal) :=
  run_sum4 _ N_4 (fun n hn r => (outsAt4 V c n hn).2.1 (ix2 r q))
    (fun n hn r h0 => by
      rw [outsAt4_A V c ⟨n, hn⟩ h0]
      unfold outsA4
      dsimp only
      exact outA10_at4 _ fun p => h3_real4 hI ⟨n, hn⟩ p q)
    (fun n hn r a h0 ha => by
      rw [outsAt4_B V c ⟨n, hn⟩ h0]
      unfold outsB4
      dsimp only
      exact outB10_at4 _ ha fun p => h3_real4 hI ⟨n, hn⟩ p q)

theorem acc11_real4 (q : Fin 128) : ∀ (n : ℕ) (hn : n < cfg4.N) (r : Fin 8), (outsAt4 V c n hn).2.2 (ix2 r q)
    = ((if r.val = 0 then S4 (fun i => ffnH3raw X mean var g b W1 b1 W2 b2 i q * ffnH3raw X mean var g b W1 b1 W2 b2 i q) n else 0 : ℝ) : EReal) :=
  run_sum4 _ N_4 (fun n hn r => (outsAt4 V c n hn).2.2 (ix2 r q))
    (fun n hn r h0 => by
      rw [outsAt4_A V c ⟨n, hn⟩ h0]
      unfold outsA4
      dsimp only
      exact outA11_at4 _ fun p => h3_real4 hI ⟨n, hn⟩ p q)
    (fun n hn r a h0 ha => by
      rw [outsAt4_B V c ⟨n, hn⟩ h0]
      unfold outsB4
      dsimp only
      exact outB11_at4 _ ha fun p => h3_real4 hI ⟨n, hn⟩ p q)

end Point

theorem val4_9 (hI : Ins4 V c X mean var g b W1 b1 W2 b2) :
    Cert.Spec.Real2 (a := 50000) (b := 128) ((dat4 (F := Ideal) V c).arrAt 9 cfg4.N) (Cert.Spec.ffnH3raw X mean var g b W1 b1 W2 b2) := by
  intro R d
  rw [(dat4 (F := Ideal) V c).arrAt_eq_of_cover 9 (G4 (ffnH3raw X mean var g b W1 b1 W2 b2)) (fun t _ => ?_) covered4_9]
  · rfl
  show (cfg4.win 9).cut (grid4.coords t) ((dat4 (F := Ideal) V c).after 9 t) = _
  rw [after4_9]
  funext j
  obtain ⟨p, q, rfl⟩ : ∃ (p : Fin 1000) (q : Fin 128), j = ix2 p q := ⟨j 0, j 1, eq_ix2 j⟩
  rw [View.read_apply]
  show _ = G4 _ (((cfg4.win 9).blk t).view.emb (ix2 p q))
  rw [emb4_9]
  refine Eq.trans ?_ (h3_real4 hI t p q)
  by_cases h0 : t.val % 25 = 0
  · rw [outsAt4_A V c t h0]
    unfold outsA4
    dsimp only
    rw [outA9_eq4]
    rfl
  · rw [outsAt4_B V c t h0]
    unfold outsB4
    dsimp only
    rw [outB9_eq4]
    rfl

theorem val4_10 (hI : Ins4 V c X mean var g b W1 b1 W2 b2) :
    Cert.Spec.Real2 (a := 16) (b := 128) ((dat4 (F := Ideal) V c).arrAt 10 cfg4.N) (Cert.Spec.ffnSum X mean var g b W1 b1 W2 b2) := by
  intro R d
  rw [(dat4 (F := Ideal) V c).arrAt_eq_of_cover 10 (G4 (ffnSum X mean var g b W1 b1 W2 b2)) (fun t hf => ?_) covered4_10]
  · rfl
  show (cfg4.win 10).cut (grid4.coords t) ((dat4 (F := Ideal) V c).after 10 t) = _
  rw [after4_10]
  funext j
  obtain ⟨r, q, rfl⟩ : ∃ (r : Fin 8) (q : Fin 128), j = ix2 r q := ⟨j 0, j 1, eq_ix2 j⟩
  rw [View.read_apply]
  refine (acc10_real4 hI q t.val t.isLt r).trans ?_
  show _ = G4 _ (((cfg4.win 10).blk t).view.emb (ix2 r q))
  rw [emb4_10]
  exact congrArg _ (acc_last4 (ffnH3raw X mean var g b W1 b1 W2 b2) t.val (N4_lt t) ((flush4_10 t).mp hf) r q (arow_lt4 t r))

theorem val4_11 (hI : Ins4 V c X mean var g b W1 b1 W2 b2) :
    Cert.Spec.Real2 (a := 16) (b := 128) ((dat4 (F := Ideal) V c).arrAt 11 cfg4.N) (Cert.Spec.ffnSumSq X mean var g b W1 b1 W2 b2) := by
  intro R d
  rw [(dat4 (F := Ideal) V c).arrAt_eq_of_cover 11 (G4 (ffnSumSq X mean var g b W1 b1 W2 b2)) (fun t hf => ?_) covered4_11]
  · rfl
  show (cfg4.win 11).cut (grid4.coords t) ((dat4 (F := Ideal) V c).after 11 t) = _
  rw [after4_11]
  funext j
  obtain ⟨r, q, rfl⟩ : ∃ (r : Fin 8) (q : Fin 128), j = ix2 r q := ⟨j 0, j 1, eq_ix2 j⟩
  rw [View.read_apply]
  refine (acc11_real4 hI q t.val t.isLt r).trans ?_
  show _ = G4 _ (((cfg4.win 11).blk t).view.emb (ix2 r q))
  rw [emb4_11]
  exact congrArg _ (acc_last4 (fun n d => ffnH3raw X mean var g b W1 b1 W2 b2 n d * ffnH3raw X mean var g b W1 b1 W2 b2 n d) t.val (N4_lt t) ((flush4_11 t).mp hf) r q (arow_lt4 t r))

end Assembly

end Cert.KernelIdeal.Hand

end
-- ==== Proof.KI.Val5b.lean ====
import proofs.«403660_j89129161327109_3_alg».proof.Proof.Gen.KernelIdeal.Points
import proofs.«403660_j89129161327109_3_alg».proof.Proof.Gen.KernelIdeal.Launch
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

theorem hz5 : (![0, 0] : Fin 2 → Nat) = fun _ => 0 := funext fun a => by fin_cases a <;> rfl

theorem idx5_0 : ∀ t : Fin cfg5.N, win5_0.index t (0 : Fin 2) = t.val ∧ win5_0.index t (1 : Fin 2) = 0 :=
  (by decide +kernel : ∀ t : Fin grid5.N, _)
theorem idx5_5 : ∀ t : Fin cfg5.N, win5_5.index t (0 : Fin 2) = t.val ∧ win5_5.index t (1 : Fin 2) = 0 :=
  (by decide +kernel : ∀ t : Fin grid5.N, _)
theorem idx5_whole : ∀ (t : Fin cfg5.N) (a : Fin 2), win5_1.index t a = 0 ∧ win5_2.index t a = 0 ∧ win5_3.index t a = 0
    ∧ win5_4.index t a = 0 :=
  (by decide +kernel : ∀ (t : Fin grid5.N) (a : Fin 2), _)

theorem row_lt5 (t : Fin cfg5.N) (p : Fin 1000) : t.val * 1000 + p.val < 50000 := by
  have := lt_of_lt_of_eq t.isLt N_5; have := p.isLt; omega

theorem emb5_0 (t : Fin cfg5.N) (p : Fin 1000) (q : Fin 128) :
    ((cfg5.win 0).blk t).view.emb (ix2 p q) = ix2 (⟨t.val * 1000 + p.val, row_lt5 t p⟩ : Fin 50000) q :=
  Shape.idx_ext₂ ((win5_0.rect_emb_val t _ 0).trans (by have := (idx5_0 t).1; show win5_0.index t 0 * 1000 + p.val = t.val * 1000 + p.val; omega))
    ((win5_0.rect_emb_val t _ 1).trans (by have := (idx5_0 t).2; show win5_0.index t 1 * 128 + q.val = q.val; omega))
theorem emb5_5 (t : Fin cfg5.N) (p : Fin 1000) (q : Fin 128) :
    ((cfg5.win 5).blk t).view.emb (ix2 p q) = ix2 (⟨t.val * 1000 + p.val, row_lt5 t p⟩ : Fin 50000) q :=
  Shape.idx_ext₂ ((win5_5.rect_emb_val t _ 0).trans (by have := (idx5_5 t).1; show win5_5.index t 0 * 1000 + p.val = t.val * 1000 + p.val; omega))
    ((win5_5.rect_emb_val t _ 1).trans (by have := (idx5_5 t).2; show win5_5.index t 1 * 128 + q.val = q.val; omega))
theorem emb5_1 (t : Fin cfg5.N) (y : S1x128.Idx) : ((cfg5.win 1).blk t).view.emb y = y :=
  funext fun a => Fin.ext (win5_1.rect_emb_val_of_index_zero t a ((idx5_whole t a).1) y)
theorem emb5_2 (t : Fin cfg5.N) (y : S1x128.Idx) : ((cfg5.win 2).blk t).view.emb y = y :=
  funext fun a => Fin.ext (win5_2.rect_emb_val_of_index_zero t a ((idx5_whole t a).2.1) y)
theorem emb5_3 (t : Fin cfg5.N) (y : S1x128.Idx) : ((cfg5.win 3).blk t).view.emb y = y :=
  funext fun a => Fin.ext (win5_3.rect_emb_val_of_index_zero t a ((idx5_whole t a).2.2.1) y)
theorem emb5_4 (t : Fin cfg5.N) (y : S1x128.Idx) : ((cfg5.win 4).blk t).view.emb y = y :=
  funext fun a => Fin.ext (win5_4.rect_emb_val_of_index_zero t a ((idx5_whole t a).2.2.2) y)

-- Row `R` of the result is row `R % 1000` of the block of point `R / 1000`.
theorem covered5 (i : S50000x128.Idx) :
    ∃ t : Fin cfg5.N, (cfg5.win 5).flush t = true ∧ i ∈ ((cfg5.win 5).blk t).view.set := by
  have h0 : (i 0).val < 50000 := (i 0).isLt
  have hN : (i 0).val / 1000 < cfg5.N := lt_of_lt_of_eq (show _ < 50 by omega) N_5.symm
  have e : ((cfg5.win 5).blk ⟨_, hN⟩).view.emb (ix2 (⟨(i 0).val % 1000, Nat.mod_lt _ (by decide)⟩ : Fin 1000) (⟨(i 1).val, (i 1).isLt⟩ : Fin 128)) = i := by
    rw [emb5_5]
    exact Shape.idx_ext₂ (show (i 0).val / 1000 * 1000 + (i 0).val % 1000 = (i 0).val by omega) rfl
  exact ⟨_, flush5_5 _, (congrArg (· ∈ _) e).mp (View.emb_mem_set _ _)⟩

end Cert.KernelIdeal.Hand
-- ==== Proof.KI.Val5.lean ====
import proofs.«403660_j89129161327109_3_alg».proof.Proof.KI.Reg5
import proofs.«403660_j89129161327109_3_alg».proof.Proof.KI.Val5a
import proofs.«403660_j89129161327109_3_alg».proof.Proof.KI.Val5b

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

-- Block `t` of the result is rows `1000 t` to `1000 t + 999` of the batch norm of `X`, and the 50 blocks cover the array.
theorem val5_5 (c : Dev nD) (X : Fin 50000 → Fin 128 → ℝ) (mean var g b : Fin 128 → ℝ)
    (hX : Cert.Spec.Real2 (a := 50000) (b := 128) (V c main_v44_0) X)
    (hmean : Cert.Spec.Real2 (a := 1) (b := 128) (V c main_v50) (fun _ d => mean d))
    (hvarR : Cert.Spec.Real2 (a := 1) (b := 128) (V c main_v54) (fun _ d => var d))
    (hg : Cert.Spec.Real2 (a := 1) (b := 128) (V c main_v55) (fun _ d => g d))
    (hb : Cert.Spec.Real2 (a := 1) (b := 128) (V c main_v56) (fun _ d => b d))
    (hvar : ∀ d, 0 < var d + Cert.Spec.eps5) :
    Cert.Spec.Real2 (a := 50000) (b := 128) ((dat5 (F := Ideal) V c).arrAt 5 cfg5.N) (Cert.Spec.bnK g b mean var X) := by
  intro R d
  rw [(dat5 (F := Ideal) V c).arrAt_eq_of_cover 5 (fun i => ((Cert.Spec.bnK g b mean var X (i 0) (i 1) : ℝ) : EReal)) (fun t _ => ?_) covered5]
  · rfl
  show (cfg5.win 5).cut (grid5.coords t) ((dat5 (F := Ideal) V c).after 5 t) = _
  rw [after5_5]
  unfold out5_5
  rw [View.canon_unit_zero hz5]
  simp only [View.ld_unit_zero (S := S1000x128) hz5, View.ld_unit_zero (S := S1x128) hz5]
  funext j
  obtain ⟨p, q, rfl⟩ : ∃ (p : Fin 1000) (q : Fin 128), j = ix2 p q := ⟨j 0, j 1, eq_ix2 j⟩
  refine (pay5_at (iblk5 V c 0 t) (iblk5 V c 2 t) (iblk5 V c 3 t) (iblk5 V c 1 t) (iblk5 V c 4 t) p q _ _ _ _ _
    ((congrArg (V c main_v44_0) (emb5_0 t p q)).trans (hX _ q)) ((congrArg (V c main_v54) (emb5_2 t _)).trans (hvarR 0 q))
    ((congrArg (V c main_v55) (emb5_3 t _)).trans (hg 0 q)) ((congrArg (V c main_v50) (emb5_1 t _)).trans (hmean 0 q))
    ((congrArg (V c main_v56) (emb5_4 t _)).trans (hb 0 q)) (hvar q)).trans ?_
  rw [View.read_apply, emb5_5]
  rfl

end Cert.KernelIdeal.Hand
-- ==== Proof.Bridge.lean ====
import proofs.«403660_j89129161327109_3_alg».proof.Proof.Spec
import Mathlib.Algebra.BigOperators.Fin
import Mathlib.Algebra.BigOperators.Group.Finset.Basic
import Mathlib.Algebra.Order.BigOperators.Group.Finset
import Mathlib.Data.Fintype.BigOperators
import Mathlib.Tactic.FieldSimp
import Mathlib.Tactic.Ring
import Mathlib.Tactic.Linarith
import Mathlib.Tactic.Positivity

noncomputable section

open scoped BigOperators

namespace Cert.Spec

theorem sum_fin16 (F : ℕ → ℝ) :
    ∑ r : Fin 16, F r.val = F 0 + F 1 + F 2 + F 3 + F 4 + F 5 + F 6 + F 7 + F 8 + F 9 + F 10 + F 11 + F 12 + F 13
      + F 14 + F 15 := by
  rw [Fin.sum_univ_eq_sum_range F 16]
  simp only [Finset.sum_range_succ, Finset.sum_range_zero, zero_add]

theorem sum_rows_kept (G : ℕ → ℝ) :
    ∑ r : Fin 16, (if r.val % 8 = 0 then G (r.val / 8) else 0) = G 0 + G 1 := by
  rw [sum_fin16 (fun r => if r % 8 = 0 then G (r / 8) else 0)]
  norm_num

theorem colsum_acc {a b : ℕ} (hs : ℕ) (ha : a = 2 * hs) (X : Fin a → Fin b → ℝ) (d : Fin b) :
    colsum (acc hs X) d = colsum X d := by
  subst ha
  unfold colsum acc
  refine (sum_rows_kept (fun q => ∑ i : Fin (2 * hs), (if i.val / hs = q then X i d else 0))).trans ?_
  show (∑ i : Fin (2 * hs), (if i.val / hs = 0 then X i d else 0))
      + (∑ i : Fin (2 * hs), (if i.val / hs = 1 then X i d else 0)) = _
  rw [← Finset.sum_add_distrib]
  refine Finset.sum_congr rfl (fun i _ => ?_)
  have hi := i.isLt
  rcases Nat.eq_zero_or_pos hs with h0 | hpos
  · subst h0; omega
  · have h2 : i.val / hs < 2 := (Nat.div_lt_iff_lt_mul hpos).2 hi
    generalize i.val / hs = q at h2
    have h01 : q = 0 ∨ q = 1 := by omega
    rcases h01 with rfl | rfl <;> simp

theorem meanOf_acc {a : ℕ} (hs : ℕ) (ha : a = 2 * hs) (cnt : ℝ) (X : Fin a → Fin 128 → ℝ) (d : Fin 128) :
    meanOf cnt (acc hs X) d = colsum X d / cnt := by
  unfold meanOf
  rw [colsum_acc hs ha]

theorem varOf_acc {a : ℕ} (hs : ℕ) (ha : a = 2 * hs) (cnt : ℝ) (X : Fin a → Fin 128 → ℝ) (d : Fin 128) :
    varOf cnt (acc hs X) (acc hs (fun i d => X i d * X i d)) d
      = colsum (fun i d => X i d * X i d) d / cnt - colsum X d / cnt * (colsum X d / cnt) := by
  unfold varOf
  rw [meanOf_acc hs ha, colsum_acc hs ha]

theorem var_identity {a b : ℕ} (cnt : ℝ) (hc : cnt = a) (hpos : 0 < a) (X : Fin a → Fin b → ℝ) (d : Fin b) :
    colsum (fun i d => X i d * X i d) d / cnt - colsum X d / cnt * (colsum X d / cnt)
      = colsum (fun i d => (X i d - colsum X d / cnt) * (X i d - colsum X d / cnt)) d / cnt := by
  have hcnt : cnt ≠ 0 := by
    rw [hc]; exact_mod_cast hpos.ne'
  show (∑ i : Fin a, X i d * X i d) / cnt - (∑ i : Fin a, X i d) / cnt * ((∑ i : Fin a, X i d) / cnt)
    = (∑ i : Fin a, (X i d - (∑ i : Fin a, X i d) / cnt) * (X i d - (∑ i : Fin a, X i d) / cnt)) / cnt
  generalize hS : (∑ i : Fin a, X i d) = S
  generalize hm : S / cnt = m
  have hSm : S = m * cnt := by rw [← hm]; field_simp
  have hexp : ∀ i : Fin a, (X i d - m) * (X i d - m) = X i d * X i d - 2 * m * X i d + m * m := fun i => by ring
  have hsum : (∑ i : Fin a, (X i d - m) * (X i d - m)) = (∑ i : Fin a, X i d * X i d) - 2 * m * S + cnt * (m * m) := by
    simp only [hexp, Finset.sum_add_distrib, Finset.sum_sub_distrib, ← Finset.mul_sum, hS, Finset.sum_const,
      Finset.card_univ, Fintype.card_fin, nsmul_eq_mul, hc]
    ring
  rw [hsum, hSm]
  field_simp
  ring

theorem centred_nonneg {a b : ℕ} (cnt : ℝ) (hcnt : 0 < cnt) (X : Fin a → Fin b → ℝ) (d : Fin b) :
    0 ≤ colsum (fun i d => (X i d - colsum X d / cnt) * (X i d - colsum X d / cnt)) d / cnt := by
  show 0 ≤ (∑ i : Fin a, (X i d - colsum X d / cnt) * (X i d - colsum X d / cnt)) / cnt
  exact div_nonneg (Finset.sum_nonneg (fun i _ => mul_self_nonneg _)) hcnt.le

theorem varOf_acc_nonneg {a : ℕ} (hs : ℕ) (ha : a = 2 * hs) (cnt : ℝ) (hc : cnt = a) (hpos : 0 < a)
    (X : Fin a → Fin 128 → ℝ) (d : Fin 128) :
    0 ≤ varOf cnt (acc hs X) (acc hs (fun i d => X i d * X i d)) d := by
  have hcnt : 0 < cnt := by rw [hc]; exact_mod_cast hpos
  rw [varOf_acc hs ha, var_identity cnt hc hpos]
  exact centred_nonneg cnt hcnt X d

theorem bnK_acc_eq_bnR {a : ℕ} (hs : ℕ) (ha : a = 2 * hs) (cnt : ℝ) (hc : cnt = a) (hpos : 0 < a)
    (g b : Fin 128 → ℝ) (X : Fin a → Fin 128 → ℝ) :
    bnK g b (meanOf cnt (acc hs X)) (varOf cnt (acc hs X) (acc hs (fun i d => X i d * X i d))) X = bnR cnt g b X := by
  funext i d
  show g d * (X i d - meanOf cnt (acc hs X) d)
        * (Real.sqrt (varOf cnt (acc hs X) (acc hs (fun i d => X i d * X i d)) d + eps5))⁻¹ + b d
      = g d * (X i d - colsum X d / cnt)
        / Real.sqrt (colsum (fun i d => (X i d - colsum X d / cnt) * (X i d - colsum X d / cnt)) d / cnt + eps5) + b d
  rw [meanOf_acc hs ha, varOf_acc hs ha, var_identity cnt hc hpos]
  exact congrArg (fun t => t + b d) (div_eq_mul_inv _ _).symm

def colEquiv : Fin 8 × Fin 16 ≃ Fin 128 where
  toFun p := col p.1 p.2
  invFun d := (hd d, ⟨d.val % 16, Nat.mod_lt _ (by norm_num)⟩)
  left_inv p := by
    rcases p with ⟨g, j⟩
    have hg := g.isLt
    have hj := j.isLt
    refine Prod.ext (Fin.ext ?_) (Fin.ext ?_)
    · show (g.val * 16 + j.val) / 16 = g.val
      omega
    · show (g.val * 16 + j.val) % 16 = j.val
      omega
  right_inv d := by
    refine Fin.ext ?_
    show d.val / 16 * 16 + d.val % 16 = d.val
    omega

theorem sum_cols (F : Fin 128 → ℝ) : ∑ d : Fin 128, F d = ∑ g : Fin 8, ∑ j : Fin 16, F (col g j) := by
  rw [← Fintype.sum_prod_type' (fun g j => F (col g j))]
  exact (Fintype.sum_equiv colEquiv (fun p => F (col p.1 p.2)) F (fun _ => rfl)).symm

theorem hd_col (g : Fin 8) (j : Fin 16) : hd (col g j) = g := by
  have hj := j.isLt
  refine Fin.ext ?_
  show (g.val * 16 + j.val) / 16 = g.val
  omega

theorem sel_eq (d : Fin 128) (g : Fin 8) : sel d g = if hd d = g then 1 else 0 := by
  unfold sel
  exact if_congr (Fin.ext_iff (a := hd d) (b := g)).symm rfl rfl

theorem mm_sel {a : ℕ} (P : Fin a → Fin 128 → ℝ) (i : Fin a) (g : Fin 8) :
    mm P sel i g = ∑ j : Fin 16, P i (col g j) := by
  unfold mm
  rw [sum_cols (fun t => P i t * sel t g)]
  have hin : ∀ g' : Fin 8, (∑ j : Fin 16, P i (col g' j) * sel (col g' j) g)
      = if g' = g then ∑ j : Fin 16, P i (col g' j) else 0 := by
    intro g'
    simp only [sel_eq, hd_col]
    split_ifs with h
    · simp only [mul_one]
    · simp only [mul_zero, Finset.sum_const_zero]
  simp only [hin, Finset.sum_ite_eq', Finset.mem_univ, if_true]

theorem mm_selT {a : ℕ} (S : Fin a → Fin 8 → ℝ) (i : Fin a) (d : Fin 128) : mm S selT i d = S i (hd d) := by
  unfold mm selT
  have hin : ∀ g : Fin 8, S i g * sel d g = if g = hd d then S i g else 0 := by
    intro g
    rw [sel_eq]
    by_cases h : hd d = g
    · rw [if_pos h, if_pos h.symm, mul_one]
    · rw [if_neg h, if_neg (fun h' => h h'.symm), mul_zero]
  simp only [hin, Finset.sum_ite_eq', Finset.mem_univ, if_true]

variable (x : Inputs)

theorem KWqkv_q (k d : Fin 128) (h : d.val < 384) : KWqkv x k ⟨d.val, h⟩ = x.Wq k d := by
  unfold KWqkv
  exact dif_pos d.isLt

theorem KWqkv_k (k d : Fin 128) (h : d.val + 128 < 384) : KWqkv x k ⟨d.val + 128, h⟩ = x.Wk k d := by
  have hd := d.isLt
  unfold KWqkv
  rw [dif_neg (show ¬ (d.val + 128 < 128) by omega), dif_pos (show d.val + 128 < 256 by omega)]
  exact congrArg (x.Wk k) (Fin.ext (show d.val + 128 - 128 = d.val by omega))

theorem KWqkv_v (k d : Fin 128) (h : d.val + 128 + 128 < 384) : KWqkv x k ⟨d.val + 128 + 128, h⟩ = x.Wv k d := by
  have hd := d.isLt
  unfold KWqkv
  rw [dif_neg (show ¬ (d.val + 128 + 128 < 128) by omega), dif_neg (show ¬ (d.val + 128 + 128 < 256) by omega)]
  exact congrArg (x.Wv k) (Fin.ext (show d.val + 128 + 128 - 256 = d.val by omega))

theorem KQ_eq : KQ x = RQ x := by
  funext n d
  show (∑ t : Fin 128, x.h n t * KWqkv x t ⟨d.val, _⟩) = ∑ t : Fin 128, x.h n t * x.Wq t d
  simp only [KWqkv_q]

theorem KKsrc_eq : KKsrc x = fun i d => RK x (x.src i) d := by
  funext i d
  show (∑ t : Fin 128, x.h (x.src i) t * KWqkv x t ⟨d.val + 128, _⟩) = ∑ t : Fin 128, x.h (x.src i) t * x.Wk t d
  simp only [KWqkv_k]

theorem KVsrc_eq : KVsrc x = fun i d => RV x (x.src i) d := by
  funext i d
  show (∑ t : Fin 128, x.h (x.src i) t * KWqkv x t ⟨d.val + 128 + 128, _⟩)
    = ∑ t : Fin 128, x.h (x.src i) t * x.Wv t d
  simp only [KWqkv_v]

theorem KQdst_eq : KQdst x = fun i d => RQ x (x.dst i) d := by
  funext i d
  show KQ x (x.dst i) d = RQ x (x.dst i) d
  rw [KQ_eq]

theorem scale_eq (hq : quarter = 1 / 4) (h4 : four = 4) (a b c : ℝ) : a * b * quarter * c = a * b / four * c := by
  rw [hq, h4]; ring

theorem KS_eq (hq : quarter = 1 / 4) (h4 : four = 4) : KS x = RS x := by
  funext i g
  show Real.exp (clip5 (mm (edgeProd x.e (KKsrc x) (KQdst x) x.We) sel i g))
    = Real.exp (clip5 (∑ j : Fin 16, RScore x i (col g j)))
  rw [mm_sel]
  refine congrArg Real.exp (congrArg clip5 (Finset.sum_congr rfl (fun j _ => ?_)))
  show KKsrc x i (col g j) * KQdst x i (col g j) * quarter * mm x.e x.We i (col g j)
    = RK x (x.src i) (col g j) * RQ x (x.dst i) (col g j) / four * REh x i (col g j)
  rw [KKsrc_eq, KQdst_eq]
  exact scale_eq hq h4 _ _ _

theorem KS_pos (i : Fin 512000) (g : Fin 8) : 0 < KS x i g := by
  unfold KS edgeS
  exact Real.exp_pos _

theorem RS_pos (i : Fin 512000) (g : Fin 8) : 0 < RS x i g := by
  unfold RS
  exact Real.exp_pos _

theorem KContrib_eq (hq : quarter = 1 / 4) (h4 : four = 4) :
    KContrib x = fun i d => RV x (x.src i) d * RS x i (hd d) := by
  funext i d
  show KVsrc x i d * mm (KS x) selT i d = RV x (x.src i) d * RS x i (hd d)
  rw [mm_selT, KVsrc_eq, KS_eq x hq h4]

theorem KwV_eq (hq : quarter = 1 / 4) (h4 : four = 4) : KwV x = RwV x := by
  unfold KwV RwV
  rw [KContrib_eq x hq h4]

theorem Kz_eq (hq : quarter = 1 / 4) (h4 : four = 4) : Kz x = Rz x := by
  unfold Kz Rz
  rw [KS_eq x hq h4]

theorem segsum_nonneg {b : ℕ} (dst : Fin 512000 → Fin 50000) (U : Fin 512000 → Fin b → ℝ)
    (hU : ∀ i d, 0 ≤ U i d) (n : Fin 50000) (d : Fin b) : 0 ≤ segsum dst U n d := by
  unfold segsum
  refine Finset.sum_nonneg (fun i _ => ?_)
  split_ifs
  · exact hU i d
  · exact le_rfl

theorem Kz_den_pos (h6 : 0 < eps6) (n : Fin 50000) (d : Fin 128) : 0 < mm (Kz x) selT n d + eps6 := by
  rw [mm_selT]
  exact add_pos_of_nonneg_of_pos (segsum_nonneg x.dst (KS x) (fun i g => (KS_pos x i g).le) n (hd d)) h6

theorem Rz_den_pos (h6 : 0 < eps6) (n : Fin 50000) (d : Fin 128) : 0 < Rz x n (hd d) + eps6 :=
  add_pos_of_nonneg_of_pos (segsum_nonneg x.dst (RS x) (fun i g => (RS_pos x i g).le) n (hd d)) h6

theorem nodeAttn_eq (hq : quarter = 1 / 4) (h4 : four = 4) : nodeAttn (KwV x) (Kz x) selT = RAttn x := by
  funext n d
  show KwV x n d / (mm (Kz x) selT n d + eps6) = RwV x n d / (Rz x n (hd d) + eps6)
  rw [mm_selT, KwV_eq x hq h4, Kz_eq x hq h4]

theorem KH2raw_eq (hq : quarter = 1 / 4) (h4 : four = 4) : KH2raw x = RH2raw x := by
  funext n d
  show x.h n d + mm (nodeAttn (KwV x) (Kz x) selT) x.Wo n d + x.bo d = x.h n d + (mm (RAttn x) x.Wo n d + x.bo d)
  rw [nodeAttn_eq x hq h4, add_assoc]

theorem KE2raw_eq : KE2raw x = RE2raw x := rfl

theorem nE_cast (hE : nE = 512000) : nE = ((512000 : ℕ) : ℝ) := by rw [hE]; norm_num

theorem nN_cast (hN : nN = 50000) : nN = ((50000 : ℕ) : ℝ) := by rw [hN]; norm_num

theorem KE2_eq (hE : nE = 512000) : KE2 x = RE2 x := by
  show bnK x.g1e x.b1e (meanOf nE (acc 256000 (KE2raw x)))
      (varOf nE (acc 256000 (KE2raw x)) (acc 256000 (fun i d => KE2raw x i d * KE2raw x i d))) (KE2raw x)
    = bnR nE x.g1e x.b1e (RE2raw x)
  rw [bnK_acc_eq_bnR 256000 (by norm_num) nE (nE_cast hE) (by norm_num), KE2raw_eq]

theorem KE2var_pos (hE : nE = 512000) (h5 : 0 < eps5) (d : Fin 128) : 0 < KE2var x d + eps5 :=
  add_pos_of_nonneg_of_pos
    (varOf_acc_nonneg 256000 (by norm_num) nE (nE_cast hE) (by norm_num) (KE2raw x) d) h5

theorem KH2_eq (hq : quarter = 1 / 4) (h4 : four = 4) (hN : nN = 50000) :
    bnK x.g1h x.b1h (KH2mean x) (KH2var x) (KH2raw x) = RH2 x := by
  show bnK x.g1h x.b1h (meanOf nN (acc 25000 (KH2raw x)))
      (varOf nN (acc 25000 (KH2raw x)) (acc 25000 (fun n d => KH2raw x n d * KH2raw x n d))) (KH2raw x)
    = bnR nN x.g1h x.b1h (RH2raw x)
  rw [bnK_acc_eq_bnR 25000 (by norm_num) nN (nN_cast hN) (by norm_num), KH2raw_eq x hq h4]

theorem KH2var_pos (hN : nN = 50000) (h5 : 0 < eps5) (d : Fin 128) : 0 < KH2var x d + eps5 :=
  add_pos_of_nonneg_of_pos
    (varOf_acc_nonneg 25000 (by norm_num) nN (nN_cast hN) (by norm_num) (KH2raw x) d) h5

theorem KH3raw_eq (hq : quarter = 1 / 4) (h4 : four = 4) (hN : nN = 50000) :
    KH3raw x = fun n d => RH2 x n d + RR x n d := by
  funext n d
  show bnK x.g1h x.b1h (KH2mean x) (KH2var x) (KH2raw x) n d
      + (mm (fun n j => relu (mm (bnK x.g1h x.b1h (KH2mean x) (KH2var x) (KH2raw x)) x.W1 n j + x.b1 j)) x.W2 n d
        + x.b2 d)
    = RH2 x n d + (mm (fun n j => relu (mm (RH2 x) x.W1 n j + x.b1 j)) x.W2 n d + x.b2 d)
  rw [KH2_eq x hq h4 hN]

theorem KH3var_pos (hN : nN = 50000) (h5 : 0 < eps5) (d : Fin 128) : 0 < KH3var x d + eps5 :=
  add_pos_of_nonneg_of_pos
    (varOf_acc_nonneg 25000 (by norm_num) nN (nN_cast hN) (by norm_num) (KH3raw x) d) h5

theorem KH3_eq (hq : quarter = 1 / 4) (h4 : four = 4) (hN : nN = 50000) : KH3 x = RH3 x := by
  show bnK x.g2h x.b2h (meanOf nN (acc 25000 (KH3raw x)))
      (varOf nN (acc 25000 (KH3raw x)) (acc 25000 (fun n d => KH3raw x n d * KH3raw x n d))) (KH3raw x)
    = bnR nN x.g2h x.b2h (fun n d => RH2 x n d + RR x n d)
  rw [bnK_acc_eq_bnR 25000 (by norm_num) nN (nN_cast hN) (by norm_num), KH3raw_eq x hq h4 hN]

theorem layer_eq (hq : quarter = 1 / 4) (h4 : four = 4) (hN : nN = 50000) (hE : nE = 512000) :
    KH3 x = RH3 x ∧ KE2 x = RE2 x :=
  ⟨KH3_eq x hq h4 hN, KE2_eq x hE⟩

end Cert.Spec

end
-- ==== Proof.KI.Values.lean ====
import proofs.«403660_j89129161327109_3_alg».proof.Proof.KI.Outs
import proofs.«403660_j89129161327109_3_alg».proof.Proof.KI.Host0
import proofs.«403660_j89129161327109_3_alg».proof.Proof.KI.Host1
import proofs.«403660_j89129161327109_3_alg».proof.Proof.KI.Host12
import proofs.«403660_j89129161327109_3_alg».proof.Proof.KI.Host2
import proofs.«403660_j89129161327109_3_alg».proof.Proof.KI.Host3
import proofs.«403660_j89129161327109_3_alg».proof.Proof.KI.Val0
import proofs.«403660_j89129161327109_3_alg».proof.Proof.KI.Val1
import proofs.«403660_j89129161327109_3_alg».proof.Proof.KI.Val1c
import proofs.«403660_j89129161327109_3_alg».proof.Proof.KI.Val2
import proofs.«403660_j89129161327109_3_alg».proof.Proof.KI.Val3
import proofs.«403660_j89129161327109_3_alg».proof.Proof.KI.Val4
import proofs.«403660_j89129161327109_3_alg».proof.Proof.KI.Val5
import proofs.«403660_j89129161327109_3_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat)
open Cert.Spec

variable {m : (ℓ : Loc nD τ sig) → Buf (Elt Ideal) ℓ} {c : Dev nD} {x : Cert.Spec.Inputs}

section Steps
variable {o : Gen.Outs (F := Ideal)}

-- An item leaves every buffer it does not write as it was.
theorem s1 (r : Ref sig .tc) (h : r ∉ hostOps0_W := by decide) : Gen.V1 m c r = Gen.V0 m c r := Gen.V1_of m c r h
theorem s2 (r : Ref sig .tc) (h : r ∉ ([main_v1] : List (Ref sig .tc)) := by decide) : Gen.V2 m o c r = Gen.V1 m c r := Gen.V2_of m o c r h
theorem s3 (r : Ref sig .tc) (h : r ∉ hostOps1_W := by decide) : Gen.V3 m o c r = Gen.V2 m o c r := Gen.V3_of m o c r h
theorem s4 (r : Ref sig .tc) (h : r ∉ hostOps1_1_W := by decide) : Gen.V4 m o c r = Gen.V3 m o c r := Gen.V4_of m o c r h
theorem s5 (r : Ref sig .tc) (h : r ∉ hostOps1_2_W := by decide) : Gen.V5 m o c r = Gen.V4 m o c r := Gen.V5_of m o c r h
theorem s6 (r : Ref sig .tc) (h : r ∉ hostOps1_3_W := by decide) : Gen.V6 m o c r = Gen.V5 m o c r := Gen.V6_of m o c r h
theorem s7 (r : Ref sig .tc) (h : r ∉ ([main_v8_0, main_v8_1, main_v8_2, main_v8_3] : List (Ref sig .tc)) := by decide) : Gen.V7 m o c r = Gen.V6 m o c r := Gen.V7_of m o c r h
theorem s8 (r : Ref sig .tc) (h : r ∉ hostOps2_W := by decide) : Gen.V8 m o c r = Gen.V7 m o c r := Gen.V8_of m o c r h
theorem s9 (r : Ref sig .tc) (h : r ∉ ([main_v16_0, main_v16_1, main_v16_2] : List (Ref sig .tc)) := by decide) : Gen.V9 m o c r = Gen.V8 m o c r := Gen.V9_of m o c r h
theorem s10 (r : Ref sig .tc) (h : r ∉ hostOps3_W := by decide) : Gen.V10 m o c r = Gen.V9 m o c r := Gen.V10_of m o c r h
theorem s11 (r : Ref sig .tc) (h : r ∉ ([main_v41] : List (Ref sig .tc)) := by decide) : Gen.V11 m o c r = Gen.V10 m o c r := Gen.V11_of m o c r h
theorem s12 (r : Ref sig .tc) (h : r ∉ hostOps4_W := by decide) : Gen.V12 m o c r = Gen.V11 m o c r := Gen.V12_of m o c r h
theorem s13 (r : Ref sig .tc) (h : r ∉ ([main_v44_0, main_v44_1, main_v44_2] : List (Ref sig .tc)) := by decide) : Gen.V13 m o c r = Gen.V12 m o c r := Gen.V13_of m o c r h
theorem s14 (r : Ref sig .tc) (h : r ∉ hostOps5_W := by decide) : Gen.V14 m o c r = Gen.V13 m o c r := Gen.V14_of m o c r h
theorem s15 (r : Ref sig .tc) (h : r ∉ ([main_v57] : List (Ref sig .tc)) := by decide) : Gen.V15 m o c r = Gen.V14 m o c r := Gen.V15_of m o c r h

def args : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18, main_arg19]

-- No item writes an argument: it holds its launch contents all along.
theorem keep1 (r : Ref sig .tc) (h : r ∈ args := by decide) : Gen.V1 m c r = Gen.V0 m c r := s1 r (by revert r; decide)
theorem keep2 (r : Ref sig .tc) (h : r ∈ args := by decide) : Gen.V2 m o c r = Gen.V0 m c r :=
  (s2 r (by revert r; decide)).trans (keep1 r h)
theorem keep3 (r : Ref sig .tc) (h : r ∈ args := by decide) : Gen.V3 m o c r = Gen.V0 m c r :=
  (s3 r (by revert r; decide)).trans (keep2 r h)
theorem keep4 (r : Ref sig .tc) (h : r ∈ args := by decide) : Gen.V4 m o c r = Gen.V0 m c r :=
  (s4 r (by revert r; decide)).trans (keep3 r h)
theorem keep5 (r : Ref sig .tc) (h : r ∈ args := by decide) : Gen.V5 m o c r = Gen.V0 m c r :=
  (s5 r (by revert r; decide)).trans (keep4 r h)
theorem keep6 (r : Ref sig .tc) (h : r ∈ args := by decide) : Gen.V6 m o c r = Gen.V0 m c r :=
  (s6 r (by revert r; decide)).trans (keep5 r h)
theorem keep7 (r : Ref sig .tc) (h : r ∈ args := by decide) : Gen.V7 m o c r = Gen.V0 m c r :=
  (s7 r (by revert r; decide)).trans (keep6 r h)
theorem keep8 (r : Ref sig .tc) (h : r ∈ args := by decide) : Gen.V8 m o c r = Gen.V0 m c r :=
  (s8 r (by revert r; decide)).trans (keep7 r h)
theorem keep9 (r : Ref sig .tc) (h : r ∈ args := by decide) : Gen.V9 m o c r = Gen.V0 m c r :=
  (s9 r (by revert r; decide)).trans (keep8 r h)
theorem keep10 (r : Ref sig .tc) (h : r ∈ args := by decide) : Gen.V10 m o c r = Gen.V0 m c r :=
  (s10 r (by revert r; decide)).trans (keep9 r h)
theorem keep11 (r : Ref sig .tc) (h : r ∈ args := by decide) : Gen.V11 m o c r = Gen.V0 m c r :=
  (s11 r (by revert r; decide)).trans (keep10 r h)
theorem keep12 (r : Ref sig .tc) (h : r ∈ args := by decide) : Gen.V12 m o c r = Gen.V0 m c r :=
  (s12 r (by revert r; decide)).trans (keep11 r h)
theorem keep13 (r : Ref sig .tc) (h : r ∈ args := by decide) : Gen.V13 m o c r = Gen.V0 m c r :=
  (s13 r (by revert r; decide)).trans (keep12 r h)

-- A region's exit valuation at the arrays the region writes.
theorem V2_at_v1 : Gen.V2 m o c main_v1 = o 2 main_v1 c := upd_at c (Gen.V1 m c) main_v1 _
theorem V7_at_v8_0 : Gen.V7 m o c main_v8_0 = o 7 main_v8_0 c :=
  (upd_off c _ main_v8_3 main_v8_0 (by decide) _).trans ((upd_off c _ main_v8_2 main_v8_0 (by decide) _).trans
    ((upd_off c _ main_v8_1 main_v8_0 (by decide) _).trans (upd_at c (Gen.V6 m o c) main_v8_0 _)))
theorem V7_at_v8_1 : Gen.V7 m o c main_v8_1 = o 7 main_v8_1 c :=
  (upd_off c _ main_v8_3 main_v8_1 (by decide) _).trans ((upd_off c _ main_v8_2 main_v8_1 (by decide) _).trans (upd_at c _ main_v8_1 _))
theorem V7_at_v8_2 : Gen.V7 m o c main_v8_2 = o 7 main_v8_2 c :=
  (upd_off c _ main_v8_3 main_v8_2 (by decide) _).trans (upd_at c _ main_v8_2 _)
theorem V7_at_v8_3 : Gen.V7 m o c main_v8_3 = o 7 main_v8_3 c := upd_at c _ main_v8_3 _
theorem V9_at_v16_0 : Gen.V9 m o c main_v16_0 = o 9 main_v16_0 c :=
  (upd_off c _ main_v16_2 main_v16_0 (by decide) _).trans ((upd_off c _ main_v16_1 main_v16_0 (by decide) _).trans (upd_at c (Gen.V8 m o c) main_v16_0 _))
theorem V9_at_v16_1 : Gen.V9 m o c main_v16_1 = o 9 main_v16_1 c :=
  (upd_off c _ main_v16_2 main_v16_1 (by decide) _).trans (upd_at c _ main_v16_1 _)
theorem V9_at_v16_2 : Gen.V9 m o c main_v16_2 = o 9 main_v16_2 c := upd_at c _ main_v16_2 _
theorem V11_at_v41 : Gen.V11 m o c main_v41 = o 11 main_v41 c := upd_at c (Gen.V10 m o c) main_v41 _
theorem V13_at_v44_0 : Gen.V13 m o c main_v44_0 = o 13 main_v44_0 c :=
  (upd_off c _ main_v44_2 main_v44_0 (by decide) _).trans ((upd_off c _ main_v44_1 main_v44_0 (by decide) _).trans (upd_at c (Gen.V12 m o c) main_v44_0 _))
theorem V13_at_v44_1 : Gen.V13 m o c main_v44_1 = o 13 main_v44_1 c :=
  (upd_off c _ main_v44_2 main_v44_1 (by decide) _).trans (upd_at c _ main_v44_1 _)
theorem V13_at_v44_2 : Gen.V13 m o c main_v44_2 = o 13 main_v44_2 c := upd_at c _ main_v44_2 _
theorem V15_at_v57 : Gen.V15 m o c main_v57 = o 15 main_v57 c := upd_at c (Gen.V14 m o c) main_v57 _
end Steps

variable (m c x) in
-- Core c's twenty argument arrays hold the inputs x.
structure Holds : Prop where
  a0 : Real2 (a := 50000) (b := 128) (Gen.V0 m c main_arg0) x.h
  a1 : Real2 (a := 512000) (b := 128) (Gen.V0 m c main_arg1) x.e
  a2 : Pos1 (Gen.V0 m c main_arg2) x.src
  a3 : Pos1 (Gen.V0 m c main_arg3) x.dst
  a4 : Real2 (a := 128) (b := 128) (Gen.V0 m c main_arg4) x.Wq
  a5 : Real2 (a := 128) (b := 128) (Gen.V0 m c main_arg5) x.Wk
  a6 : Real2 (a := 128) (b := 128) (Gen.V0 m c main_arg6) x.Wv
  a7 : Real2 (a := 128) (b := 128) (Gen.V0 m c main_arg7) x.We
  a8 : Real2 (a := 128) (b := 128) (Gen.V0 m c main_arg8) x.Wo
  a9 : Real1 (a := 128) (Gen.V0 m c main_arg9) x.bo
  a10 : Real1 (a := 128) (Gen.V0 m c main_arg10) x.g1h
  a11 : Real1 (a := 128) (Gen.V0 m c main_arg11) x.b1h
  a12 : Real1 (a := 128) (Gen.V0 m c main_arg12) x.g1e
  a13 : Real1 (a := 128) (Gen.V0 m c main_arg13) x.b1e
  a14 : Real2 (a := 128) (b := 256) (Gen.V0 m c main_arg14) x.W1
  a15 : Real1 (a := 256) (Gen.V0 m c main_arg15) x.b1
  a16 : Real2 (a := 256) (b := 128) (Gen.V0 m c main_arg16) x.W2
  a17 : Real1 (a := 128) (Gen.V0 m c main_arg17) x.b2
  a18 : Real1 (a := 128) (Gen.V0 m c main_arg18) x.g2h
  a19 : Real1 (a := 128) (Gen.V0 m c main_arg19) x.b2h

section Walk
variable (H : Holds m c x)
include H

theorem at_V1_v0 : Real2 (Gen.V1 m c main_v0 : S128x384.Idx → EReal) (KWqkv x) := host0_Wqkv (Gen.V0 m c) H.a4 H.a5 H.a6
theorem at_V2_v1 : Real2 (Gen.V2 m (outs m) c main_v1 : S50000x384.Idx → EReal) (Kqkv x) :=
  real2_of_eq (V2_at_v1.trans (outs_main_v1 m c))
    (val0_2 (atTc (Gen.V1 m)) c _ _ (real2_of_eq (keep1 main_arg0) H.a0) (at_V1_v0 H))
theorem at_V3_v3 : Real2 (Gen.V3 m (outs m) c main_v3 : S50000x256.Idx → EReal) (KKV x) := host1_KV (Gen.V2 m (outs m) c) (at_V2_v1 H)
theorem at_V4_v4 : Real2 (Gen.V4 m (outs m) c main_v4 : S512000x128.Idx → EReal) (KQdst x) :=
  host11_take (Gen.V3 m (outs m) c) (host1_Q (Gen.V2 m (outs m) c) (at_V2_v1 H)) (pos1_of_eq (keep3 main_arg3) H.a3)
theorem at_V5_v5 : Real2 (Gen.V5 m (outs m) c main_v5 : S512000x256.Idx → EReal) (KKVsrc x) :=
  host12_take (Gen.V4 m (outs m) c) (real2_of_eq (s4 main_v3) (at_V3_v3 H)) (pos1_of_eq (keep4 main_arg2) H.a2)
theorem at_V6_GT : Real2 (Gen.V6 m (outs m) c main_cst_0 : S8x128.Idx → EReal) selT :=
  real2_of_eq ((s6 main_cst_0).trans ((s5 main_cst_0).trans ((s4 main_cst_0).trans ((s3 main_cst_0).trans (s2 main_cst_0)))))
    (host0_GT (Gen.V0 m c))

-- The edge chain's four results.
theorem at_V7 : Real2 (Gen.V7 m (outs m) c main_v8_0 : S512000x128.Idx → EReal) (KContrib x) ∧ Real2 (Gen.V7 m (outs m) c main_v8_1 : S512000x8.Idx → EReal) (KS x)
    ∧ Real2 (Gen.V7 m (outs m) c main_v8_2 : S16x128.Idx → EReal) (edgeSum x.e x.We) ∧ Real2 (Gen.V7 m (outs m) c main_v8_3 : S16x128.Idx → EReal) (edgeSumSq x.e x.We) := by
  have e : Real2 (Gen.V6 m (outs m) c main_arg1 : S512000x128.Idx → EReal) x.e := real2_of_eq (keep6 main_arg1) H.a1
  have k : Real2 (Gen.V6 m (outs m) c main_v6 : S512000x128.Idx → EReal) (KKsrc x) := host13_K (Gen.V5 m (outs m) c) (at_V5_v5 H)
  have q : Real2 (Gen.V6 m (outs m) c main_v4 : S512000x128.Idx → EReal) (KQdst x) := real2_of_eq ((s6 main_v4).trans (s5 main_v4)) (at_V4_v4 H)
  have v : Real2 (Gen.V6 m (outs m) c main_v7 : S512000x128.Idx → EReal) (KVsrc x) := host13_V (Gen.V5 m (outs m) c) (at_V5_v5 H)
  have w : Real2 (Gen.V6 m (outs m) c main_arg7 : S128x128.Idx → EReal) x.We := real2_of_eq (keep6 main_arg7) H.a7
  have g : Real2 (Gen.V6 m (outs m) c main_cst : S128x8.Idx → EReal) sel :=
    real2_of_eq ((s6 main_cst).trans ((s5 main_cst).trans ((s4 main_cst).trans ((s3 main_cst).trans (s2 main_cst))))) (host0_G (Gen.V0 m c))
  have t := at_V6_GT H
  exact ⟨real2_of_eq (V7_at_v8_0.trans (outs_main_v8_0 m c)) (val1_7 (atTc (Gen.V6 m (outs m))) c _ _ _ _ _ _ _ e k q v w g t),
    real2_of_eq (V7_at_v8_1.trans (outs_main_v8_1 m c)) (val1_8 (atTc (Gen.V6 m (outs m))) c _ _ _ _ _ _ _ e k q v w g t),
    real2_of_eq (V7_at_v8_2.trans (outs_main_v8_2 m c)) (val1_9 (atTc (Gen.V6 m (outs m))) c _ _ _ _ _ _ _ e k q v w g t),
    real2_of_eq (V7_at_v8_3.trans (outs_main_v8_3 m c)) (val1_10 (atTc (Gen.V6 m (outs m))) c _ _ _ _ _ _ _ e k q v w g t)⟩

-- The node projection's three results.
theorem at_V9 : Real2 (Gen.V9 m (outs m) c main_v16_0 : S50000x128.Idx → EReal) (KH2raw x)
    ∧ Real2 (Gen.V9 m (outs m) c main_v16_1 : S16x128.Idx → EReal) (nodeSum (KwV x) (Kz x) x.h x.Wo x.bo selT)
    ∧ Real2 (Gen.V9 m (outs m) c main_v16_2 : S16x128.Idx → EReal) (nodeSumSq (KwV x) (Kz x) x.h x.Wo x.bo selT) := by
  have d := pos1_of_eq (keep7 (o := outs m) main_arg3) H.a3
  have wv : Real2 (Gen.V8 m (outs m) c main_v11 : S50000x128.Idx → EReal) (KwV x) := host2_wV (Gen.V7 m (outs m) c) (at_V7 H).1 d
  have z : Real2 (Gen.V8 m (outs m) c main_v14 : S50000x8.Idx → EReal) (Kz x) := host2_z (Gen.V7 m (outs m) c) (at_V7 H).2.1 d
  have b : Real2 (Gen.V8 m (outs m) c main_v15 : S1x128.Idx → EReal) (fun _ d => x.bo d) := host2_bo (Gen.V7 m (outs m) c) (real1_of_eq (keep7 main_arg9) H.a9)
  have h : Real2 (Gen.V8 m (outs m) c main_arg0 : S50000x128.Idx → EReal) x.h := real2_of_eq (keep8 main_arg0) H.a0
  have w : Real2 (Gen.V8 m (outs m) c main_arg8 : S128x128.Idx → EReal) x.Wo := real2_of_eq (keep8 main_arg8) H.a8
  have t : Real2 (Gen.V8 m (outs m) c main_cst_0 : S8x128.Idx → EReal) selT := real2_of_eq ((s8 main_cst_0).trans (s7 main_cst_0)) (at_V6_GT H)
  have p := Kz_den_pos x eps6_pos
  exact ⟨real2_of_eq (V9_at_v16_0.trans (outs_main_v16_0 m c)) (val2_6 (atTc (Gen.V8 m (outs m))) _ _ _ _ _ _ c wv z h w b t p),
    real2_of_eq (V9_at_v16_1.trans (outs_main_v16_1 m c)) (val2_7 (atTc (Gen.V8 m (outs m))) _ _ _ _ _ _ c wv z h w b t p),
    real2_of_eq (V9_at_v16_2.trans (outs_main_v16_2 m c)) (val2_8 (atTc (Gen.V8 m (outs m))) _ _ _ _ _ _ c wv z h w b t p)⟩

-- The edge features' batch norm, the program's second result.
theorem at_V11_v41 : Real2 (Gen.V11 m (outs m) c main_v41 : S512000x128.Idx → EReal) (KE2 x) := by
  have s : Real2 (Gen.V9 m (outs m) c main_v8_2 : S16x128.Idx → EReal) (edgeSum x.e x.We) := real2_of_eq ((s9 main_v8_2).trans (s8 main_v8_2)) (at_V7 H).2.2.1
  have ss : Real2 (Gen.V9 m (outs m) c main_v8_3 : S16x128.Idx → EReal) (edgeSumSq x.e x.We) := real2_of_eq ((s9 main_v8_3).trans (s8 main_v8_3)) (at_V7 H).2.2.2
  have mean : Real2 (Gen.V10 m (outs m) c main_v26 : S1x128.Idx → EReal) (fun _ d => KE2mean x d) := host3_e2mean (Gen.V9 m (outs m) c) s
  have var : Real2 (Gen.V10 m (outs m) c main_v30 : S1x128.Idx → EReal) (fun _ d => KE2var x d) := host3_e2var (Gen.V9 m (outs m) c) s ss
  exact real2_of_eq (V11_at_v41.trans (outs_main_v41 m c))
    (val3_6 (atTc (Gen.V10 m (outs m))) c _ _ _ _ _ _ (real2_of_eq (keep10 main_arg1) H.a1) (real2_of_eq (keep10 main_arg7) H.a7) mean var
      (host3_g1e (Gen.V9 m (outs m) c) (real1_of_eq (keep9 main_arg12) H.a12)) (host3_b1e (Gen.V9 m (outs m) c) (real1_of_eq (keep9 main_arg13) H.a13))
      (KE2var_pos x nE_eq eps5_pos))

-- What the feed-forward region reads.
theorem ins4 : Ins4 (atTc (Gen.V12 m (outs m))) c (KH2raw x) (KH2mean x) (KH2var x) x.g1h x.b1h x.W1 x.b1 x.W2 x.b2 := by
  have s := (at_V9 H).2.1
  have mean : Real2 (Gen.V10 m (outs m) c main_v32 : S1x128.Idx → EReal) (fun _ d => KH2mean x d) := host3_h2mean (Gen.V9 m (outs m) c) s
  have var : Real2 (Gen.V10 m (outs m) c main_v36 : S1x128.Idx → EReal) (fun _ d => KH2var x d) := host3_h2var (Gen.V9 m (outs m) c) s (at_V9 H).2.2
  exact ⟨real2_of_eq ((s12 main_v16_0).trans ((s11 main_v16_0).trans (s10 main_v16_0))) (at_V9 H).1,
    real2_of_eq ((s12 main_v32).trans (s11 main_v32)) mean, real2_of_eq ((s12 main_v36).trans (s11 main_v36)) var,
    real2_of_eq ((s12 main_v37).trans (s11 main_v37)) (host3_g1h (Gen.V9 m (outs m) c) (real1_of_eq (keep9 main_arg10) H.a10)),
    real2_of_eq ((s12 main_v38).trans (s11 main_v38)) (host3_b1h (Gen.V9 m (outs m) c) (real1_of_eq (keep9 main_arg11) H.a11)),
    real2_of_eq (keep12 main_arg14) H.a14, host4_b1 (Gen.V11 m (outs m) c) (real1_of_eq (keep11 main_arg15) H.a15),
    real2_of_eq (keep12 main_arg16) H.a16, host4_b2 (Gen.V11 m (outs m) c) (real1_of_eq (keep11 main_arg17) H.a17), KH2var_pos x nN_eq eps5_pos⟩

-- The node features' last batch norm, the program's first result.
theorem at_V15_v57 : Real2 (Gen.V15 m (outs m) c main_v57 : S50000x128.Idx → EReal) (KH3 x) := by
  have s : Real2 (Gen.V13 m (outs m) c main_v44_1 : S16x128.Idx → EReal) (ffnSum (KH2raw x) (KH2mean x) (KH2var x) x.g1h x.b1h x.W1 x.b1 x.W2 x.b2) :=
    real2_of_eq (V13_at_v44_1.trans (outs_main_v44_1 m c)) (val4_10 _ _ _ _ _ _ _ _ _ _ _ (ins4 H))
  have mean : Real2 (Gen.V14 m (outs m) c main_v50 : S1x128.Idx → EReal) (fun _ d => KH3mean x d) := host5_h3mean (Gen.V13 m (outs m) c) s
  have var : Real2 (Gen.V14 m (outs m) c main_v54 : S1x128.Idx → EReal) (fun _ d => KH3var x d) :=
    host5_h3var (Gen.V13 m (outs m) c) s (real2_of_eq (V13_at_v44_2.trans (outs_main_v44_2 m c)) (val4_11 _ _ _ _ _ _ _ _ _ _ _ (ins4 H)))
  exact real2_of_eq (V15_at_v57.trans (outs_main_v57 m c))
    (val5_5 (atTc (Gen.V14 m (outs m))) c _ _ _ _ _
      (real2_of_eq ((s14 main_v44_0).trans (V13_at_v44_0.trans (outs_main_v44_0 m c))) (val4_9 _ _ _ _ _ _ _ _ _ _ _ (ins4 H))) mean var
      (host5_g2h (Gen.V13 m (outs m) c) (real1_of_eq (keep13 main_arg18) H.a18)) (host5_b2h (Gen.V13 m (outs m) c) (real1_of_eq (keep13 main_arg19) H.a19))
      (KH3var_pos x nN_eq eps5_pos))

end Walk

-- Where the launch memory holds the inputs x, the two result arrays end holding KH3 x and KE2 x.
theorem kernel_values (m : (ℓ : Loc nD τ sig) → Buf (Elt Ideal) ℓ) (c : Dev nD) (x : Cert.Spec.Inputs)
    (h0 : Real2 (a := 50000) (b := 128) (Gen.V0 m c main_arg0) x.h) (h1 : Real2 (a := 512000) (b := 128) (Gen.V0 m c main_arg1) x.e)
    (h2 : Pos1 (Gen.V0 m c main_arg2) x.src) (h3 : Pos1 (Gen.V0 m c main_arg3) x.dst)
    (h4 : Real2 (a := 128) (b := 128) (Gen.V0 m c main_arg4) x.Wq) (h5 : Real2 (a := 128) (b := 128) (Gen.V0 m c main_arg5) x.Wk)
    (h6 : Real2 (a := 128) (b := 128) (Gen.V0 m c main_arg6) x.Wv) (h7 : Real2 (a := 128) (b := 128) (Gen.V0 m c main_arg7) x.We)
    (h8 : Real2 (a := 128) (b := 128) (Gen.V0 m c main_arg8) x.Wo) (h9 : Real1 (a := 128) (Gen.V0 m c main_arg9) x.bo)
    (h10 : Real1 (a := 128) (Gen.V0 m c main_arg10) x.g1h) (h11 : Real1 (a := 128) (Gen.V0 m c main_arg11) x.b1h)
    (h12 : Real1 (a := 128) (Gen.V0 m c main_arg12) x.g1e) (h13 : Real1 (a := 128) (Gen.V0 m c main_arg13) x.b1e)
    (h14 : Real2 (a := 128) (b := 256) (Gen.V0 m c main_arg14) x.W1) (h15 : Real1 (a := 256) (Gen.V0 m c main_arg15) x.b1)
    (h16 : Real2 (a := 256) (b := 128) (Gen.V0 m c main_arg16) x.W2) (h17 : Real1 (a := 128) (Gen.V0 m c main_arg17) x.b2)
    (h18 : Real1 (a := 128) (Gen.V0 m c main_arg18) x.g2h) (h19 : Real1 (a := 128) (Gen.V0 m c main_arg19) x.b2h) :
    Real2 (a := 50000) (b := 128) (Gen.V15 m (outs m) c main_v57) (KH3 x)
      ∧ Real2 (a := 512000) (b := 128) (Gen.V15 m (outs m) c main_v41) (KE2 x) :=
  have H : Holds m c x := ⟨h0, h1, h2, h3, h4, h5, h6, h7, h8, h9, h10, h11, h12, h13, h14, h15, h16, h17, h18, h19⟩
  ⟨at_V15_v57 H, real2_of_eq ((s15 main_v41).trans ((s14 main_v41).trans ((s13 main_v41).trans (s12 main_v41)))) (at_V11_v41 H)⟩

end Cert.KernelIdeal.Hand
-- ==== Proof.Ref.Run.lean ====
import proofs.«403660_j89129161327109_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ binary main_arg0 main_arg4 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v0 main_v1 rfl shapeCasts_S50000x128_S50000x8x16,
    binary main_arg0 main_arg5 main_v2 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v2 main_v3 rfl shapeCasts_S50000x128_S50000x8x16,
    binary main_arg0 main_arg6 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v4 main_v5 rfl shapeCasts_S50000x128_S50000x8x16,
    binary main_arg1 main_arg7 main_v6 ((fun l r => Host.dotGeneral dot_S512000x128_S128x128_S512000x128_1_0_0_1_n_n none l r) : (⟨S512000x128, .f32⟩ : BufTy).Contents (Elt F) → (⟨S128x128, .f32⟩ : BufTy).Contents (Elt F) → (⟨S512000x128, .f32⟩ : BufTy).Contents (Elt F)),
    reshape main_v6 main_v7 rfl shapeCasts_S512000x128_S512000x8x16,
    nullary main_c (constantI S_ 32 0#32),
    unary main_c main_v8 (broadcastInDim S512000 ![] bcast_S_S512000 : (⟨S_, .i32⟩ : BufTy).Contents (Elt F) → (⟨S512000, .i32⟩ : BufTy).Contents (Elt F)),
    binary main_arg2 main_v8 main_v9 (cmpi .slt : (⟨S512000, .i32⟩ : BufTy).Contents (Elt F) → (⟨S512000, .i32⟩ : BufTy).Contents (Elt F) → (⟨S512000, .i1⟩ : BufTy).Contents (Elt F)),
    nullary main_c_0 (constantI S_ 32 50000#32),
    unary main_c_0 main_v10 (broadcastInDim S512000 ![] bcast_S_S512000 : (⟨S_, .i32⟩ : BufTy).Contents (Elt F) → (⟨S512000, .i32⟩ : BufTy).Contents (Elt F)),
    binary main_arg2 main_v10 main_v11 (addi : (⟨S512000, .i32⟩ : BufTy).Contents (Elt F) → (⟨S512000, .i32⟩ : BufTy).Contents (Elt F) → (⟨S512000, .i32⟩ : BufTy).Contents (Elt F)),
    ternary main_v9 main_v11 main_arg2 main_v12 (select : (⟨S512000, .i1⟩ : BufTy).Contents (Elt F) → (⟨S512000, .i32⟩ : BufTy).Contents (Elt F) → (⟨S512000, .i32⟩ : BufTy).Contents (Elt F) → (⟨S512000, .i32⟩ : BufTy).Contents (Elt F)),
    unary main_v12 main_v13 (broadcastInDim S512000x1 ![0] bcast_S512000_S512000x1_0 : (⟨S512000, .i32⟩ : BufTy).Contents (Elt F) → (⟨S512000x1, .i32⟩ : BufTy).Contents (Elt F)),
    binary main_v3 main_v13 main_v14 ((fun x i => Host.gather gather_S50000x8x16_S512000x1_S512000x8x16_12_0_n_n_0_1_1816 x i) : (⟨S50000x8x16, .f32⟩ : BufTy).Contents (Elt F) → (⟨S512000x1, .i32⟩ : BufTy).Contents (Elt F) → (⟨S512000x8x16, .f32⟩ : BufTy).Contents (Elt F)),
    nullary main_c_1 (constantI S_ 32 0#32),
    unary main_c_1 main_v15 (broadcastInDim S512000 ![] bcast_S_S512000 : (⟨S_, .i32⟩ : BufTy).Contents (Elt F) → (⟨S512000, .i32⟩ : BufTy).Contents (Elt F)),
    binary main_arg3 main_v15 main_v16 (cmpi .slt : (⟨S512000, .i32⟩ : BufTy).Contents (Elt F) → (⟨S512000, .i32⟩ : BufTy).Contents (Elt F) → (⟨S512000, .i1⟩ : BufTy).Contents (Elt F)),
    nullary main_c_2 (constantI S_ 32 50000#32),
    unary main_c_2 main_v17 (broadcastInDim S512000 ![] bcast_S_S512000 : (⟨S_, .i32⟩ : BufTy).Contents (Elt F) → (⟨S512000, .i32⟩ : BufTy).Contents (Elt F)),
    binary main_arg3 main_v17 main_v18 (addi : (⟨S512000, .i32⟩ : BufTy).Contents (Elt F) → (⟨S512000, .i32⟩ : BufTy).Contents (Elt F) → (⟨S512000, .i32⟩ : BufTy).Contents (Elt F)),
    ternary main_v16 main_v18 main_arg3 main_v19 (select : (⟨S512000, .i1⟩ : BufTy).Contents (Elt F) → (⟨S512000, .i32⟩ : BufTy).Contents (Elt F) → (⟨S512000, .i32⟩ : BufTy).Contents (Elt F) → (⟨S512000, .i32⟩ : BufTy).Contents (Elt F)),
    unary main_v19 main_v20 (broadcastInDim S512000x1 ![0] bcast_S512000_S512000x1_0 : (⟨S512000, .i32⟩ : BufTy).Contents (Elt F) → (⟨S512000x1, .i32⟩ : BufTy).Contents (Elt F)),
    binary main_v1 main_v20 main_v21 ((fun x i => Host.gather gather_S50000x8x16_S512000x1_S512000x8x16_12_0_n_n_0_1_1816 x i) : (⟨S50000x8x16, .f32⟩ : BufTy).Contents (Elt F) → (⟨S512000x1, .i32⟩ : BufTy).Contents (Elt F) → (⟨S512000x8x16, .f32⟩ : BufTy).Contents (Elt F)),
    binary main_v14 main_v21 main_v22 (mulf : (⟨S512000x8x16, .f32⟩ : BufTy).Contents (Elt F) → (⟨S512000x8x16, .f32⟩ : BufTy).Contents (Elt F) → (⟨S512000x8x16, .f32⟩ : BufTy).Contents (Elt F)),
    nullary main_cst (constant S_ .f32 0x40800000#32),
    unary main_cst main_v23 (broadcastInDim S512000x8x16 ![] bcast_S_S512000x8x16 : (⟨S_, .f32⟩ : BufTy).Contents (Elt F) → (⟨S512000x8x16, .f32⟩ : BufTy).Contents (Elt F)),
    binary main_v22 main_v23 main_v24 (Host.divf : (⟨S512000x8x16, .f32⟩ : BufTy).Contents (Elt F) → (⟨S512000x8x16, .f32⟩ : BufTy).Contents (Elt F) → (⟨S512000x8x16, .f32⟩ : BufTy).Contents (Elt F)),
    binary main_v24 main_v7 main_v25 (mulf : (⟨S512000x8x16, .f32⟩ : BufTy).Contents (Elt F) → (⟨S512000x8x16, .f32⟩ : BufTy).Contents (Elt F) → (⟨S512000x8x16, .f32⟩ : BufTy).Contents (Elt F)),
    nullary main_cst_3 (constant S_ .f32 0x00000000#32),
    binary main_v25 main_cst_3 main_v26 ((fun x v => Host.reduceAdd x v reducesTo_S512000x8x16_S512000x8_d2 h_S_) : (⟨S512000x8x16, .f32⟩ : BufTy).Contents (Elt F) → (⟨S_, .f32⟩ : BufTy).Contents (Elt F) → (⟨S512000x8, .f32⟩ : BufTy).Contents (Elt F)),
    nullary main_cst_4 (constant S_ .f32 0xC0A00000#32),
    nullary main_cst_5 (constant S_ .f32 0x40A00000#32),
    TRef.unary (TRef.of (T := ⟨S_, .f32⟩) main_cst_4) main_call0.v0 id,
    TRef.unary main_call0.v0 main_call0.v1 (broadcastInDim S512000x8 ![] bcast_S_S512000x8),
    TRef.binary main_call0.v1 (TRef.of (T := ⟨S512000x8, .f32⟩) main_v26) main_call0.v2 maximumf,
    TRef.unary (TRef.of (T := ⟨S_, .f32⟩) main_cst_5) main_call0.v3 id,
    TRef.unary main_call0.v3 main_call0.v4 (broadcastInDim S512000x8 ![] bcast_S_S512000x8),
    TRef.binary main_call0.v4 main_call0.v2 main_call0.v5 minimumf,
    unary main_v27 main_v28 (Host.exp : (⟨S512000x8, .f32⟩ : BufTy).Contents (Elt F) → (⟨S512000x8, .f32⟩ : BufTy).Contents (Elt F)),
    nullary main_c_6 (constantI S_ 32 0#32),
    unary main_c_6 main_v29 (broadcastInDim S512000 ![] bcast_S_S512000 : (⟨S_, .i32⟩ : BufTy).Contents (Elt F) → (⟨S512000, .i32⟩ : BufTy).Contents (Elt F)),
    binary main_arg2 main_v29 main_v30 (cmpi .slt : (⟨S512000, .i32⟩ : BufTy).Contents (Elt F) → (⟨S512000, .i32⟩ : BufTy).Contents (Elt F) → (⟨S512000, .i1⟩ : BufTy).Contents (Elt F)),
    nullary main_c_7 (constantI S_ 32 50000#32),
    unary main_c_7 main_v31 (broadcastInDim S512000 ![] bcast_S_S512000 : (⟨S_, .i32⟩ : BufTy).Contents (Elt F) → (⟨S512000, .i32⟩ : BufTy).Contents (Elt F)),
    binary main_arg2 main_v31 main_v32 (addi : (⟨S512000, .i32⟩ : BufTy).Contents (Elt F) → (⟨S512000, .i32⟩ : BufTy).Contents (Elt F) → (⟨S512000, .i32⟩ : BufTy).Contents (Elt F)),
    ternary main_v30 main_v32 main_arg2 main_v33 (select : (⟨S512000, .i1⟩ : BufTy).Contents (Elt F) → (⟨S512000, .i32⟩ : BufTy).Contents (Elt F) → (⟨S512000, .i32⟩ : BufTy).Contents (Elt F) → (⟨S512000, .i32⟩ : BufTy).Contents (Elt F)),
    unary main_v33 main_v34 (broadcastInDim S512000x1 ![0] bcast_S512000_S512000x1_0 : (⟨S512000, .i32⟩ : BufTy).Contents (Elt F) → (⟨S512000x1, .i32⟩ : BufTy).Contents (Elt F)),
    binary main_v5 main_v34 main_v35 ((fun x i => Host.gather gather_S50000x8x16_S512000x1_S512000x8x16_12_0_n_n_0_1_1816 x i) : (⟨S50000x8x16, .f32⟩ : BufTy).Contents (Elt F) → (⟨S512000x1, .i32⟩ : BufTy).Contents (Elt F) → (⟨S512000x8x16, .f32⟩ : BufTy).Contents (Elt F)),
    unary main_v28 main_v36 (broadcastInDim S512000x8x1 ![0, 1] bcast_S512000x8_S512000x8x1_0_1 : (⟨S512000x8, .f32⟩ : BufTy).Contents (Elt F) → (⟨S512000x8x1, .f32⟩ : BufTy).Contents (Elt F)),
    unary main_v36 main_v37 (broadcastInDim S512000x8x16 ![0, 1, 2] bcast_S512000x8x1_S512000x8x16_0_1_2 : (⟨S512000x8x1, .f32⟩ : BufTy).Contents (Elt F) → (⟨S512000x8x16, .f32⟩ : BufTy).Contents (Elt F)),
    binary main_v35 main_v37 main_v38 (mulf : (⟨S512000x8x16, .f32⟩ : BufTy).Contents (Elt F) → (⟨S512000x8x16, .f32⟩ : BufTy).Contents (Elt F) → (⟨S512000x8x16, .f32⟩ : BufTy).Contents (Elt F)),
    nullary main_cst_8 (constant S_ .f32 0x00000000#32),
    unary main_cst_8 main_v39 (broadcastInDim S50000x8x16 ![] bcast_S_S50000x8x16 : (⟨S_, .f32⟩ : BufTy).Contents (Elt F) → (⟨S50000x8x16, .f32⟩ : BufTy).Contents (Elt F)),
    unary main_arg3 main_v40 (broadcastInDim S512000x1 ![0] bcast_S512000_S512000x1_0 : (⟨S512000, .i32⟩ : BufTy).Contents (Elt F) → (⟨S512000x1, .i32⟩ : BufTy).Contents (Elt F)),
    ternary main_v39 main_v40 main_v38 main_v41 ((fun x i u => Host.scatterAdd scatter_S50000x8x16_S512000x1_S512000x8x16_12_0_0_1 x i u) : (⟨S50000x8x16, .f32⟩ : BufTy).Contents (Elt F) → (⟨S512000x1, .i32⟩ : BufTy).Contents (Elt F) → (⟨S512000x8x16, .f32⟩ : BufTy).Contents (Elt F) → (⟨S50000x8x16, .f32⟩ : BufTy).Contents (Elt F)),
    nullary main_cst_9 (constant S_ .f32 0x00000000#32),
    unary main_cst_9 main_v42 (broadcastInDim S50000x8 ![] bcast_S_S50000x8 : (⟨S_, .f32⟩ : BufTy).Contents (Elt F) → (⟨S50000x8, .f32⟩ : BufTy).Contents (Elt F)),
    unary main_arg3 main_v43 (broadcastInDim S512000x1 ![0] bcast_S512000_S512000x1_0 : (⟨S512000, .i32⟩ : BufTy).Contents (Elt F) → (⟨S512000x1, .i32⟩ : BufTy).Contents (Elt F)),
    ternary main_v42 main_v43 main_v28 main_v44 ((fun x i u => Host.scatterAdd scatter_S50000x8_S512000x1_S512000x8_1_0_0_1 x i u) : (⟨S50000x8, .f32⟩ : BufTy).Contents (Elt F) → (⟨S512000x1, .i32⟩ : BufTy).Contents (Elt F) → (⟨S512000x8, .f32⟩ : BufTy).Contents (Elt F) → (⟨S50000x8, .f32⟩ : BufTy).Contents (Elt F)),
    unary main_v44 main_v45 (broadcastInDim S50000x8x1 ![0, 1] bcast_S50000x8_S50000x8x1_0_1 : (⟨S50000x8, .f32⟩ : BufTy).Contents (Elt F) → (⟨S50000x8x1, .f32⟩ : BufTy).Contents (Elt F)),
    nullary main_cst_10 (constant S_ .f32 0x358637BD#32),
    unary main_cst_10 main_v46 (broadcastInDim S50000x8x1 ![] bcast_S_S50000x8x1 : (⟨S_, .f32⟩ : BufTy).Contents (Elt F) → (⟨S50000x8x1, .f32⟩ : BufTy).Contents (Elt F)) ]

abbrev ops1 : List (HloOp τ sig (Elt F)) :=
  [ binary main_v45 main_v46 main_v47 (addf : (⟨S50000x8x1, .f32⟩ : BufTy).Contents (Elt F) → (⟨S50000x8x1, .f32⟩ : BufTy).Contents (Elt F) → (⟨S50000x8x1, .f32⟩ : BufTy).Contents (Elt F)),
    unary main_v47 main_v48 (broadcastInDim S50000x8x16 ![0, 1, 2] bcast_S50000x8x1_S50000x8x16_0_1_2 : (⟨S50000x8x1, .f32⟩ : BufTy).Contents (Elt F) → (⟨S50000x8x16, .f32⟩ : BufTy).Contents (Elt F)),
    binary main_v41 main_v48 main_v49 (Host.divf : (⟨S50000x8x16, .f32⟩ : BufTy).Contents (Elt F) → (⟨S50000x8x16, .f32⟩ : BufTy).Contents (Elt F) → (⟨S50000x8x16, .f32⟩ : BufTy).Contents (Elt F)),
    reshape main_v49 main_v50 rfl shapeCasts_S50000x8x16_S50000x128,
    binary main_v50 main_arg8 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    binary main_arg0 main_v54 main_v55 (addf : (⟨S50000x128, .f32⟩ : BufTy).Contents (Elt F) → (⟨S50000x128, .f32⟩ : BufTy).Contents (Elt F) → (⟨S50000x128, .f32⟩ : BufTy).Contents (Elt F)),
    reshape main_v7 main_v56 rfl shapeCasts_S512000x8x16_S512000x128,
    binary main_arg1 main_v56 main_v57 (addf : (⟨S512000x128, .f32⟩ : BufTy).Contents (Elt F) → (⟨S512000x128, .f32⟩ : BufTy).Contents (Elt F) → (⟨S512000x128, .f32⟩ : BufTy).Contents (Elt F)),
    nullary main_cst_11 (constant S_ .f32 0x00000000#32),
    binary main_v55 main_cst_11 main_v58 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v59 (broadcastInDim S128 ![] bcast_S_S128 : (⟨S_, .f32⟩ : BufTy).Contents (Elt F) → (⟨S128, .f32⟩ : BufTy).Contents (Elt F)),
    binary main_v58 main_v59 main_v60 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call1.cst (constant S_ .f32 0x00000000#32),
    TRef.binary (TRef.of (T := ⟨S50000x128, .f32⟩) main_v55) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (TRef.of (T := ⟨S50000x128, .f32⟩) main_v55) main_call1.v4 main_call1.v5 subf,
    TRef.binary main_call1.v5 main_call1.v5 main_call1.v6 mulf,
    TRef.unary (TRef.of (T := ⟨S_, .i32⟩) main_c_13) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v60 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v55 main_v63 main_v64 (subf : (⟨S50000x128, .f32⟩ : BufTy).Contents (Elt F) → (⟨S50000x128, .f32⟩ : BufTy).Contents (Elt F) → (⟨S50000x128, .f32⟩ : BufTy).Contents (Elt F)),
    unary main_arg10 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v66 main_v64 main_v67 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v68 (broadcastInDim S128 ![] bcast_S_S128 : (⟨S_, .f32⟩ : BufTy).Contents (Elt F) → (⟨S128, .f32⟩ : BufTy).Contents (Elt F)),
    binary main_v61 main_v68 main_v69 (addf : (⟨S128, .f32⟩ : BufTy).Contents (Elt F) → (⟨S128, .f32⟩ : BufTy).Contents (Elt F) → (⟨S128, .f32⟩ : BufTy).Contents (Elt F)),
    unary main_v69 main_v70 (Host.sqrt : (⟨S128, .f32⟩ : BufTy).Contents (Elt F) → (⟨S128, .f32⟩ : BufTy).Contents (Elt F)),
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v67 main_v72 main_v73 (Host.divf : (⟨S50000x128, .f32⟩ : BufTy).Contents (Elt F) → (⟨S50000x128, .f32⟩ : BufTy).Contents (Elt F) → (⟨S50000x128, .f32⟩ : BufTy).Contents (Elt F)),
    unary main_arg11 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    binary main_v57 main_cst_15 main_v77 ((fun x v => Host.reduceAdd x v reducesTo_S512000x128_S128_d0 h_S_) : (⟨S512000x128, .f32⟩ : BufTy).Contents (Elt F) → (⟨S_, .f32⟩ : BufTy).Contents (Elt F) → (⟨S128, .f32⟩ : BufTy).Contents (Elt F)),
    nullary main_cst_16 (constant S_ .f32 0x48FA0000#32),
    unary main_cst_16 main_v78 (broadcastInDim S128 ![] bcast_S_S128 : (⟨S_, .f32⟩ : BufTy).Contents (Elt F) → (⟨S128, .f32⟩ : BufTy).Contents (Elt F)),
    binary main_v77 main_v78 main_v79 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call2.cst (constant S_ .f32 0x00000000#32),
    TRef.binary (TRef.of (T := ⟨S512000x128, .f32⟩) main_v57) main_call2.cst main_call2.v0 (fun x v => Host.reduceAdd x v reducesTo_S512000x128_S128_d0 h_S_),
    TRef.unary main_call2.v0 main_call2.v1 (broadcastInDim S1x128 ![1] bcast_S128_S1x128_1),
    TRef.nullary main_call2.cst_0 (constant S_ .f32 0x48FA0000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S512000x128 ![0, 1] bcast_S1x128_S512000x128_0_1),
    TRef.binary (TRef.of (T := ⟨S512000x128, .f32⟩) main_v57) main_call2.v4 main_call2.v5 subf,
    TRef.binary main_call2.v5 main_call2.v5 main_call2.v6 mulf,
    TRef.unary (TRef.of (T := ⟨S_, .i32⟩) main_c_17) main_call2.v7 (sitofp .f32),
    TRef.nullary main_call2.cst_1 (constant S_ .f32 0x48FA0000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S512000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v79 main_v81 (broadcastInDim S1x128 ![1] bcast_S128_S1x128_1 : (⟨S128, .f32⟩ : BufTy).Contents (Elt F) → (⟨S1x128, .f32⟩ : BufTy).Contents (Elt F)),
    unary main_v81 main_v82 (broadcastInDim S512000x128 ![0, 1] bcast_S1x128_S512000x128_0_1 : (⟨S1x128, .f32⟩ : BufTy).Contents (Elt F) → (⟨S512000x128, .f32⟩ : BufTy).Contents (Elt F)),
    binary main_v57 main_v82 main_v83 (subf : (⟨S512000x128, .f32⟩ : BufTy).Contents (Elt F) → (⟨S512000x128, .f32⟩ : BufTy).Contents (Elt F) → (⟨S512000x128, .f32⟩ : BufTy).Contents (Elt F)),
    unary main_arg12 main_v84 (broadcastInDim S1x128 ![1] bcast_S128_S1x128_1 : (⟨S128, .f32⟩ : BufTy).Contents (Elt F) → (⟨S1x128, .f32⟩ : BufTy).Contents (Elt F)),
    unary main_v84 main_v85 (broadcastInDim S512000x128 ![0, 1] bcast_S1x128_S512000x128_0_1 : (⟨S1x128, .f32⟩ : BufTy).Contents (Elt F) → (⟨S512000x128, .f32⟩ : BufTy).Contents (Elt F)),
    binary main_v85 main_v83 main_v86 (mulf : (⟨S512000x128, .f32⟩ : BufTy).Contents (Elt F) → (⟨S512000x128, .f32⟩ : BufTy).Contents (Elt F) → (⟨S512000x128, .f32⟩ : BufTy).Contents (Elt F)),
    nullary main_cst_18 (constant S_ .f32 0x3727C5AC#32),
    unary main_cst_18 main_v87 (broadcastInDim S128 ![] bcast_S_S128 : (⟨S_, .f32⟩ : BufTy).Contents (Elt F) → (⟨S128, .f32⟩ : BufTy).Contents (Elt F)),
    binary main_v80 main_v87 main_v88 (addf : (⟨S128, .f32⟩ : BufTy).Contents (Elt F) → (⟨S128, .f32⟩ : BufTy).Contents (Elt F) → (⟨S128, .f32⟩ : BufTy).Contents (Elt F)),
    unary main_v88 main_v89 (Host.sqrt : (⟨S128, .f32⟩ : BufTy).Contents (Elt F) → (⟨S128, .f32⟩ : BufTy).Contents (Elt F)),
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S512000x128 ![0, 1] bcast_S1x128_S512000x128_0_1 : (⟨S1x128, .f32⟩ : BufTy).Contents (Elt F) → (⟨S512000x128, .f32⟩ : BufTy).Contents (Elt F)),
    binary main_v86 main_v91 main_v92 (Host.divf : (⟨S512000x128, .f32⟩ : BufTy).Contents (Elt F) → (⟨S512000x128, .f32⟩ : BufTy).Contents (Elt F) → (⟨S512000x128, .f32⟩ : BufTy).Contents (Elt F)),
    unary main_arg13 main_v93 (broadcastInDim S1x128 ![1] bcast_S128_S1x128_1 : (⟨S128, .f32⟩ : BufTy).Contents (Elt F) → (⟨S1x128, .f32⟩ : BufTy).Contents (Elt F)),
    unary main_v93 main_v94 (broadcastInDim S512000x128 ![0, 1] bcast_S1x128_S512000x128_0_1 : (⟨S1x128, .f32⟩ : BufTy).Contents (Elt F) → (⟨S512000x128, .f32⟩ : BufTy).Contents (Elt F)),
    binary main_v92 main_v94 main_v95 (addf : (⟨S512000x128, .f32⟩ : BufTy).Contents (Elt F) → (⟨S512000x128, .f32⟩ : BufTy).Contents (Elt F) → (⟨S512000x128, .f32⟩ : BufTy).Contents (Elt F)),
    binary main_v76 main_arg14 main_v96 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg15 main_v97 (broadcastInDim S1x256 ![1] bcast_S256_S1x256_1 : (⟨S256, .f32⟩ : BufTy).Contents (Elt F) → (⟨S1x256, .f32⟩ : BufTy).Contents (Elt F)),
    unary main_v97 main_v98 (broadcastInDim S50000x256 ![0, 1] bcast_S1x256_S50000x256_0_1 : (⟨S1x256, .f32⟩ : BufTy).Contents (Elt F) → (⟨S50000x256, .f32⟩ : BufTy).Contents (Elt F)) ]

abbrev ops2 : List (HloOp τ sig (Elt F)) :=
  [ binary main_v96 main_v98 main_v99 (addf : (⟨S50000x256, .f32⟩ : BufTy).Contents (Elt F) → (⟨S50000x256, .f32⟩ : BufTy).Contents (Elt F) → (⟨S50000x256, .f32⟩ : BufTy).Contents (Elt F)),
    TRef.nullary main_call3.cst (constant S_ .f32 0x00000000#32),
    TRef.unary main_call3.cst main_call3.v0 (broadcastInDim S50000x256 ![] bcast_S_S50000x256),
    TRef.binary (TRef.of (T := ⟨S50000x256, .f32⟩) main_v99) main_call3.v0 main_call3.v1 maximumf,
    binary main_v100 main_arg16 main_v101 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg17 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v101 main_v103 main_v104 (addf : (⟨S50000x128, .f32⟩ : BufTy).Contents (Elt F) → (⟨S50000x128, .f32⟩ : BufTy).Contents (Elt F) → (⟨S50000x128, .f32⟩ : BufTy).Contents (Elt F)),
    binary main_v76 main_v104 main_v105 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v105 main_cst_19 main_v106 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v107 (broadcastInDim S128 ![] bcast_S_S128 : (⟨S_, .f32⟩ : BufTy).Contents (Elt F) → (⟨S128, .f32⟩ : BufTy).Contents (Elt F)),
    binary main_v106 main_v107 main_v108 (Host.divf : (⟨S128, .f32⟩ : BufTy).Contents (Elt F) → (⟨S128, .f32⟩ : BufTy).Contents (Elt F) → (⟨S128, .f32⟩ : BufTy).Contents (Elt F)),
    nullary main_c_21 (constantI S_ 32 0#32),
    TRef.nullary main_call4.cst (constant S_ .f32 0x00000000#32),
    TRef.binary (TRef.of (T := ⟨S50000x128, .f32⟩) main_v105) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (TRef.of (T := ⟨S50000x128, .f32⟩) main_v105) main_call4.v4 main_call4.v5 subf,
    TRef.binary main_call4.v5 main_call4.v5 main_call4.v6 mulf,
    TRef.unary (TRef.of (T := ⟨S_, .i32⟩) main_c_21) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v108 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v105 main_v111 main_v112 (subf : (⟨S50000x128, .f32⟩ : BufTy).Contents (Elt F) → (⟨S50000x128, .f32⟩ : BufTy).Contents (Elt F) → (⟨S50000x128, .f32⟩ : BufTy).Contents (Elt F)),
    unary main_arg18 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v114 main_v112 main_v115 (mulf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x3727C5AC#32),
    unary main_cst_22 main_v116 (broadcastInDim S128 ![] bcast_S_S128 : (⟨S_, .f32⟩ : BufTy).Contents (Elt F) → (⟨S128, .f32⟩ : BufTy).Contents (Elt F)),
    binary main_v109 main_v116 main_v117 (addf : (⟨S128, .f32⟩ : BufTy).Contents (Elt F) → (⟨S128, .f32⟩ : BufTy).Contents (Elt F) → (⟨S128, .f32⟩ : BufTy).Contents (Elt F)),
    unary main_v117 main_v118 (Host.sqrt : (⟨S128, .f32⟩ : BufTy).Contents (Elt F) → (⟨S128, .f32⟩ : BufTy).Contents (Elt F)),
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v115 main_v120 main_v121 (Host.divf : (⟨S50000x128, .f32⟩ : BufTy).Contents (Elt F) → (⟨S50000x128, .f32⟩ : BufTy).Contents (Elt F) → (⟨S50000x128, .f32⟩ : BufTy).Contents (Elt F)),
    unary main_arg19 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v121 main_v123 main_v124 (addf : (⟨S50000x128, .f32⟩ : BufTy).Contents (Elt F) → (⟨S50000x128, .f32⟩ : BufTy).Contents (Elt F) → (⟨S50000x128, .f32⟩ : BufTy).Contents (Elt F)) ]

abbrev ops : List (HloOp τ sig (Elt F)) := ops0 ++ (ops1 ++ ops2)

set_option maxRecDepth 8192 in
set_option maxHeartbeats 4000000 in
theorem main_eq (c : Dev nD) : main (F := F) c = seq ops := by
  simp only [ops, seq_append]
  rfl

set_option maxRecDepth 8192 in
theorem ops_sub : (ops : List (HloOp τ sig (Elt F))).Forall fun op => op.bufs ⊆ tcRefs τ sig := by
  simp only [ops, List.forall_append, List.Forall, nullary_bufs_sub, unary_bufs_sub, binary_bufs_sub, ternary_bufs_sub,
    reshape_bufs_sub, and_self]

set_option maxRecDepth 8192 in
theorem ops_fresh : (ops : List (HloOp τ sig (Elt F))).Forall fun op => op.fresh = ∅ := by
  simp only [ops, List.forall_append, List.Forall]
  repeat' apply And.intro
  all_goals rfl

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq (by decide) (by decide) defs main (fun _ => ops) main_eq (fun _ => ops_sub) m ρ
    (fun _ => List.forall_iff_forall_mem.mp ops_fresh)

abbrev argRefs : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19]

/-- A result buffer of index 20 or more is none of the twenty arguments, whose indices are below 20. -/
private theorem nw {y : Ref sig .tc} (h : 20 ≤ y.idx.val) :
    ∀ a ∈ argRefs, (Proc.devRef .tc a : DevRef τ sig) ∉ ({Proc.devRef .tc y} : Finset (DevRef τ sig)) :=
  fun a ha hm => by
    have e : a = y := Proc.devRef_injective _ (Finset.mem_singleton.mp hm)
    subst e
    exact absurd h (Nat.not_le.mpr ((by decide : ∀ a ∈ argRefs, a.idx.val < 20) a ha))

set_option maxRecDepth 8192 in
theorem ops_args : (ops : List (HloOp τ sig (Elt F))).Forall fun op =>
    ∀ a ∈ argRefs, (Proc.devRef .tc a : DevRef τ sig) ∉ op.writes := by
  simp only [ops, List.forall_append, List.Forall]
  repeat' apply And.intro
  all_goals exact nw (by decide)

theorem ops0_args : (ops0 : List (HloOp τ sig (Elt F))).Forall fun op =>
    ∀ a ∈ argRefs, (Proc.devRef .tc a : DevRef τ sig) ∉ op.writes :=
  (List.forall_append.mp ops_args).1

theorem ops1_args : (ops1 : List (HloOp τ sig (Elt F))).Forall fun op =>
    ∀ a ∈ argRefs, (Proc.devRef .tc a : DevRef τ sig) ∉ op.writes :=
  (List.forall_append.mp (List.forall_append.mp ops_args).2).1

/-- No operation writes an argument, so the line leaves it at what the launch memory held. -/
theorem kept (m : (ℓ : Loc nD τ sig) → Buf (Elt F) ℓ) (c : Dev nD) (a : Ref sig .tc) (ha : a ∈ argRefs) :
    after ops (launchContents m c) (Proc.devRef .tc a) = m ((c.tc : Thread nD τ).loc a) :=
  after_of_forall_not_mem ops _ fun op hop => List.forall_iff_forall_mem.mp ops_args op hop a ha

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => by
    repeat' apply And.intro
    all_goals exact (h c _).trans (kept m c _ (by decide))) (run m ρ)

end Cert.ReferenceIdeal.Hand

end
-- ==== Proof.Ref.Pred.lean ====
import proofs.«403660_j89129161327109_3_alg».proof.Proof.Spec

noncomputable section

namespace Cert.ReferenceIdeal.Hand

open Idealize.ShloMosaic Idealize.ShloMosaic.ValueIdx

/-- Entry (i, g, j) of a [rows, 8, 16] array is the real number `X i` at column 16 g + j. -/
def Heads3 {a : ℕ} (A : (⟨3, ![a, 8, 16]⟩ : Shape).Idx → EReal) (X : Fin a → Fin 128 → ℝ) : Prop :=
  ∀ (i : Fin a) (g : Fin 8) (j : Fin 16), A (ValueIdx.ix3 i g j) = ((X i (Cert.Spec.col g j) : ℝ) : EReal)

/-- Entry (i, g, 0) of a [rows, 8, 1] array is the real number `Z i g`. -/
def Col3 {a : ℕ} (A : (⟨3, ![a, 8, 1]⟩ : Shape).Idx → EReal) (Z : Fin a → Fin 8 → ℝ) : Prop :=
  ∀ (i : Fin a) (g : Fin 8), A (ValueIdx.ix3 i g 0) = ((Z i g : ℝ) : EReal)

end Cert.ReferenceIdeal.Hand

end
-- ==== Proof.Ref.Val0a.lean ====
import proofs.«403660_j89129161327109_3_alg».proof.Proof.Gen.ReferenceIdeal
import proofs.«403660_j89129161327109_3_alg».proof.Proof.Spec
import proofs.«403660_j89129161327109_3_alg».proof.Proof.Consts
import proofs.«403660_j89129161327109_3_alg».proof.Proof.Ref.Pred
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.StackMember

noncomputable section

open scoped BigOperators

namespace Cert.ReferenceIdeal.Hand

open Cert.ReferenceIdeal Cert.ReferenceIdeal.Gen Cert.Spec Idealize.ShloMosaic Idealize.ShloMosaic.ValueIdx

/-- (16 g + j) / 16 = g because j < 16. -/
theorem hd_col (g : Fin 8) (j : Fin 16) : hd (col g j) = g :=
  Fin.ext (by show (g.val * 16 + j.val) / 16 = g.val; have := j.isLt; omega)

/-- The coercion of reals into extended reals is additive, so it commutes with finite sums. -/
theorem coe_sum {ι : Type} (s : Finset ι) (f : ι → ℝ) : ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min

theorem four_ne_zero' : four ≠ 0 := by rw [four_eq]; norm_num

/-- A plain product of two arrays that hold real matrices holds the product of the matrices. -/
theorem dot_real {a : ℕ} {D : DotDims ⟨2, ![a, 128]⟩ S128x128 ⟨2, ![a, 128]⟩} (hD : D = DotDims.plain a 128 128)
    {A : FVec Ideal ⟨2, ![a, 128]⟩ .f32} {W : FVec Ideal S128x128 .f32} {X : Fin a → Fin 128 → ℝ} {Y : Fin 128 → Fin 128 → ℝ}
    (hA : Real2 A X) (hW : Real2 W Y) : Real2 (Host.dotGeneral D none A W) (mm X Y) := by
  subst hD
  intro p q
  rw [StackMember.dotGeneral_plain_apply]
  unfold mm
  rw [coe_sum]
  exact Finset.sum_congr rfl fun k _ => by rw [hA, hW, EReal.coe_mul]

/-- Row-major: column 16 g + j of row i and entry (i, g, j) sit at the same flat position. -/
theorem heads_of_real2 {a : ℕ} (A : (⟨2, ![a, 128]⟩ : Shape).Idx → EReal) (X : Fin a → Fin 128 → ℝ)
    (h : (⟨2, ![a, 128]⟩ : Shape).ShapeCasts ⟨3, ![a, 8, 16]⟩) (hA : Real2 A X) :
    Heads3 (fun i => shapeCast (⟨3, ![a, 8, 16]⟩ : Shape) A h i) X := by
  intro i g j
  show shapeCast (⟨3, ![a, 8, 16]⟩ : Shape) A h (ix3 i g j) = _
  rw [shapeCast_apply A h (ix3 i g j) (ix2 i (col g j)) (by
    rw [Shape.rowMajor_val_two, Shape.rowMajor_val_three]
    show i.val * 128 + (g.val * 16 + j.val) = (i.val * 8 + g.val) * 16 + j.val
    omega)]
  exact hA _ _

theorem bcast_col_apply {α : Type} (v : S512000.Idx → α) (i : Fin 512000) :
    broadcastInDim S512000x1 ![0] bcast_S512000_S512000x1_0 v (ix2 i (0 : Fin 1)) = v (ix1 i) :=
  broadcastInDim_apply ![0] bcast_S512000_S512000x1_0 v (ix2 i (0 : Fin 1)) (ix1 i) (fun a => by
    match a with
    | ⟨0, _⟩ => exact (if_neg (show ¬ ((512000 : ℕ) = 1) by decide)).symm)

theorem toInt_pos (n : Fin 50000) : (BitVec.ofNat 32 n.val).toInt = (n.val : ℤ) :=
  StableHlo.Predicate.toInt_ofNat_small n.val (by have := n.isLt; omega)

def tIdx (s : IVec S512000 32) : IVec S512000x1 32 :=
  broadcastInDim S512000x1 ![0] bcast_S512000_S512000x1_0
    (select (cmpi .slt s (broadcastInDim S512000 ![] bcast_S_S512000 (constantI S_ 32 0#32)))
      (addi s (broadcastInDim S512000 ![] bcast_S_S512000 (constantI S_ 32 50000#32))) s)

def tDst (d : IVec S512000 32) : IVec S512000x1 32 := broadcastInDim S512000x1 ![0] bcast_S512000_S512000x1_0 d

/-- A position below 50000 is nonnegative as a signed word, so the select returns it unchanged. -/
theorem tIdx_apply (s : IVec S512000 32) (f : Fin 512000 → Fin 50000) (hs : Pos1 s f) (i : Fin 512000) :
    tIdx s (ix2 i (0 : Fin 1)) = BitVec.ofNat 32 (f i).val := by
  unfold tIdx
  rw [bcast_col_apply]
  show Scalar.select (IntOp.cmpi .slt (s (ix1 i)) (0#32)) (IntOp.addi (s (ix1 i)) (50000#32)) (s (ix1 i)) = _
  rw [hs i]
  have hne : ¬ IntOp.cmpi .slt (BitVec.ofNat 32 (f i).val) (0#32) = 1#1 := by
    rw [StableHlo.Predicate.slt_iff_toNat (by rw [BitVec.toNat_ofNat]; have := (f i).isLt; omega) (by decide)]
    exact Nat.not_lt_zero _
  exact if_neg hne

theorem tDst_apply (d : IVec S512000 32) (f : Fin 512000 → Fin 50000) (hd : Pos1 d f) (i : Fin 512000) :
    tDst d (ix2 i (0 : Fin 1)) = BitVec.ofNat 32 (f i).val := by
  unfold tDst
  rw [bcast_col_apply]
  exact hd i

abbrev GK : GatherDims S50000x8x16 S512000x1 S512000x8x16 := gather_S50000x8x16_S512000x1_S512000x8x16_12_0_n_n_0_1_1816

theorem gk_siIdx (i : Fin 512000) (g : Fin 8) (c : Fin 16) (hc) :
    GK.siIdx (ix3 i g c) ⟨List.idxOf (0 : Fin 3) GK.startIndexMap, hc⟩ = ix2 i (0 : Fin 1) := by
  funext b; refine Fin.ext ?_
  match b with
  | ⟨0, _⟩ => rfl
  | ⟨1, _⟩ => rfl

/-- Entry (i, g, c) of the gather is the operand's row at the clamped start index i, at the same (g, c). -/
theorem gather_rows_apply {α : Type} (x : S50000x8x16.Idx → α) (idx : IVec S512000x1 32)
    (i : Fin 512000) (g : Fin 8) (c : Fin 16) :
    Host.gather GK x idx (ix3 i g c)
      = x (ix3 (⟨min (idx (ix2 i (0 : Fin 1))).toInt.toNat 49999, by omega⟩ : Fin 50000) g c) := by
  unfold Host.gather
  congr 1
  funext a
  refine Fin.ext ?_
  match a with
  | ⟨0, _⟩ =>
    show GK.start (ix3 i g c) idx 0 + GK.batchCoord (ix3 i g c) 0 + GK.offCoord (ix3 i g c) 0 = _
    rw [GatherDims.batchCoord_eq_zero _ _ _ (by decide), GatherDims.offCoord_eq_zero _ _ _ (by decide)]
    simp only [Nat.add_zero]
    unfold GatherDims.start
    rw [dif_pos (show (0 : Fin 3) ∈ GK.startIndexMap by decide), gk_siIdx]
    rfl
  | ⟨1, _⟩ =>
    show GK.start (ix3 i g c) idx 1 + GK.batchCoord (ix3 i g c) 1 + GK.offCoord (ix3 i g c) 1 = g.val
    rw [GatherDims.batchCoord_eq_zero _ _ _ (by decide)]
    unfold GatherDims.start GatherDims.offCoord
    rw [dif_neg (show ¬ (1 : Fin 3) ∈ GK.startIndexMap by decide), dif_pos (show (1 : Fin 3) ∈ GK.sKept by decide)]
    simp only [Nat.zero_add]
    rfl
  | ⟨2, _⟩ =>
    show GK.start (ix3 i g c) idx 2 + GK.batchCoord (ix3 i g c) 2 + GK.offCoord (ix3 i g c) 2 = c.val
    rw [GatherDims.batchCoord_eq_zero _ _ _ (by decide)]
    unfold GatherDims.start GatherDims.offCoord
    rw [dif_neg (show ¬ (2 : Fin 3) ∈ GK.startIndexMap by decide), dif_pos (show (2 : Fin 3) ∈ GK.sKept by decide)]
    simp only [Nat.zero_add]
    rfl

/-- Clamping to [0, 49999] fixes an index that is already in range, so the gather reads the rows the positions name. -/
theorem gather_heads (A : FVec Ideal S50000x8x16 .f32) (X : Fin 50000 → Fin 128 → ℝ) (hA : Heads3 A X)
    (I : IVec S512000x1 32) (f : Fin 512000 → Fin 50000) (hI : ∀ i, I (ix2 i (0 : Fin 1)) = BitVec.ofNat 32 (f i).val) :
    Heads3 (Host.gather GK A I) (fun i d => X (f i) d) := by
  intro i g j
  rw [gather_rows_apply A I i g j]
  refine (congrArg (fun m : Fin 50000 => A (ix3 m g j)) (Fin.ext ?_)).trans (hA (f i) g j)
  show min (I (ix2 i (0 : Fin 1))).toInt.toNat 49999 = (f i).val
  rw [hI, toInt_pos, Int.toNat_natCast]
  have := (f i).isLt
  omega

/-- Entrywise: real product, division by the nonzero real four, real product. -/
theorem score_heads (Ks Qd Eh : FVec Ideal S512000x8x16 .f32) (K Q E : Fin 512000 → Fin 128 → ℝ)
    (hK : Heads3 Ks K) (hQ : Heads3 Qd Q) (hE : Heads3 Eh E) :
    Heads3 (mulf (Host.divf (mulf Ks Qd)
        (broadcastInDim S512000x8x16 ![] bcast_S_S512000x8x16 (constant (F := Ideal) S_ .f32 0x40800000#32))) Eh)
      (fun i d => K i d * Q i d / four * E i d) := by
  intro i g j
  show Ideal.div (Ks (ix3 i g j) * Qd (ix3 i g j)) (Ideal.ofBits .f32 0x40800000#32) * Eh (ix3 i g j)
    = ((K i (col g j) * Q i (col g j) / four * E i (col g j) : ℝ) : EReal)
  rw [hK, hQ, hE, ofBits_four, Ideal.div_coe four_ne_zero', ← EReal.coe_mul, ← EReal.coe_mul, ← EReal.coe_mul]
  congr 1
  ring

/-- Reducing the last axis from zero: the sum of a head's sixteen channel entries. -/
theorem sum_heads (P : FVec Ideal S512000x8x16 .f32) (X : Fin 512000 → Fin 128 → ℝ) (hP : Heads3 P X) :
    Real2 (Host.reduceAdd P (constant (F := Ideal) S_ .f32 0x00000000#32) reducesTo_S512000x8x16_S512000x8_d2 h_S_)
      (fun i g => ∑ j : Fin 16, X i (col g j)) := by
  intro i g
  have hr : S512000x8x16.Reduces [2] S512000x8 := by decide
  show Ideal.hostReduceAdd reducesTo_S512000x8x16_S512000x8_d2 P (Ideal.ofBits .f32 0x00000000#32) (ix2 i g)
    = ((∑ j : Fin 16, X i (col g j) : ℝ) : EReal)
  rw [Ideal.hostReduceAdd_single reducesTo_S512000x8x16_S512000x8_d2 hr, Ideal.ofBits_zero_f32, zero_add, coe_sum]
  refine Finset.sum_congr rfl fun k _ => ?_
  have e : hr.lift (ix2 i g) k = ix3 i g k := funext fun a => Fin.ext (by
    match a with
    | ⟨0, _⟩ => rfl
    | ⟨1, _⟩ => rfl
    | ⟨2, _⟩ => rfl)
  rw [e]
  exact hP i g k

def tClipExp (T : FVec Ideal S512000x8 .f32) : FVec Ideal S512000x8 .f32 :=
  Host.exp (minimumf (broadcastInDim S512000x8 ![] bcast_S_S512000x8 (id (constant (F := Ideal) S_ .f32 0x40A00000#32)))
    (maximumf (broadcastInDim S512000x8 ![] bcast_S_S512000x8 (id (constant (F := Ideal) S_ .f32 0xC0A00000#32))) T))

/-- min 5 (max (-5) t) is the clip, and max and min commute with the coercion. -/
theorem clipExp_real (T : FVec Ideal S512000x8 .f32) (R : Fin 512000 → Fin 8 → ℝ) (hT : Real2 T R) :
    Real2 (tClipExp T) (fun i g => Real.exp (clip5 (R i g))) := by
  intro i g
  show Ideal.exp (min (Ideal.ofBits .f32 0x40A00000#32) (max (Ideal.ofBits .f32 0xC0A00000#32) (T (ix2 i g))))
    = ((Real.exp (clip5 (R i g)) : ℝ) : EReal)
  rw [hT, ofBits_five, ofBits_mfive, ← coe_max', ← coe_min']
  exact congrArg (fun t : ℝ => ((Real.exp t : ℝ) : EReal)) (by unfold clip5; rw [min_comm, max_comm])

/-- Both broadcasts read the weight at (i, g), and column 16 g + j lies in head g. -/
theorem weight_heads (Vs : FVec Ideal S512000x8x16 .f32) (S : FVec Ideal S512000x8 .f32)
    (Vr : Fin 512000 → Fin 128 → ℝ) (Sr : Fin 512000 → Fin 8 → ℝ) (hV : Heads3 Vs Vr) (hS : Real2 S Sr) :
    Heads3 (mulf Vs (broadcastInDim S512000x8x16 ![0, 1, 2] bcast_S512000x8x1_S512000x8x16_0_1_2
        (broadcastInDim S512000x8x1 ![0, 1] bcast_S512000x8_S512000x8x1_0_1 S)))
      (fun i d => Vr i d * Sr i (hd d)) := by
  intro i g j
  show Vs (ix3 i g j) * (broadcastInDim S512000x8x16 ![0, 1, 2] bcast_S512000x8x1_S512000x8x16_0_1_2
        (broadcastInDim S512000x8x1 ![0, 1] bcast_S512000x8_S512000x8x1_0_1 S)) (ix3 i g j)
    = ((Vr i (col g j) * Sr i (hd (col g j)) : ℝ) : EReal)
  rw [broadcastInDim_apply ![0, 1, 2] bcast_S512000x8x1_S512000x8x16_0_1_2 _ (ix3 i g j) (ix3 i g (0 : Fin 1)) (fun a => by
      match a with
      | ⟨0, _⟩ => exact (if_neg (show ¬ ((512000 : ℕ) = 1) by decide)).symm
      | ⟨1, _⟩ => exact (if_neg (show ¬ ((8 : ℕ) = 1) by decide)).symm
      | ⟨2, _⟩ => exact (if_pos rfl).symm),
    broadcastInDim_apply ![0, 1] bcast_S512000x8_S512000x8x1_0_1 S (ix3 i g (0 : Fin 1)) (ix2 i g) (fun a => by
      match a with
      | ⟨0, _⟩ => exact (if_neg (show ¬ ((512000 : ℕ) = 1) by decide)).symm
      | ⟨1, _⟩ => exact (if_neg (show ¬ ((8 : ℕ) = 1) by decide)).symm),
    hV, hS, hd_col, EReal.coe_mul]

theorem coe_ite (p : Prop) [Decidable p] (a : ℝ) : (if p then ((a : ℝ) : EReal) else 0) = (((if p then a else 0 : ℝ)) : EReal) := by
  by_cases hp : p <;> simp [hp]

/-- Scatter-add into zero, read at `t`: if `emb i` lands on `t` exactly when `dst i = n` and nothing else does, the entry is the sum of those `u i`. -/
theorem scatter_real {s su : Shape} (d : ScatterDims s S512000x1 su) (Z : FVec Ideal s .f32) (I : IVec S512000x1 32)
    (U : FVec Ideal su .f32) (t : s.Idx) (hZ : Z t = 0) (row : su.Idx → Fin 512000) (emb : Fin 512000 → su.Idx)
    (dst : Fin 512000 → Fin 50000) (n : Fin 50000) (u : Fin 512000 → ℝ)
    (hemb : ∀ i, d.resultIdx? (emb i) I = some t ↔ dst i = n) (hrow : ∀ j, d.resultIdx? j I = some t → emb (row j) = j)
    (hre : ∀ i, row (emb i) = i) (hU : ∀ i, U (emb i) = ((u i : ℝ) : EReal)) :
    Host.scatterAdd d Z I U t = ((∑ i, if dst i = n then u i else 0 : ℝ) : EReal) := by
  unfold Host.scatterAdd
  rw [Ideal.hostScatterAdd_def]
  unfold Ideal.hostScatterAdd
  rw [hZ, zero_add, coe_sum]
  simp only [← coe_ite]
  rw [← Finset.sum_filter]
  refine Finset.sum_nbij' row emb (fun j hj => ?_) (fun i hi => ?_) (fun j hj => hrow j (Finset.mem_filter.mp hj).2)
    (fun i _ => hre i) (fun j hj => by rw [← hU, hrow j (Finset.mem_filter.mp hj).2])
  · have h := (Finset.mem_filter.mp hj).2
    exact Finset.mem_filter.mpr ⟨Finset.mem_univ _, (hemb _).mp (by rw [hrow j h]; exact h)⟩
  · exact Finset.mem_filter.mpr ⟨Finset.mem_univ _, (hemb i).mpr (Finset.mem_filter.mp hi).2⟩

abbrev SC3 : ScatterDims S50000x8x16 S512000x1 S512000x8x16 := scatter_S50000x8x16_S512000x1_S512000x8x16_12_0_0_1
abbrev SC2 : ScatterDims S50000x8 S512000x1 S512000x8 := scatter_S50000x8_S512000x1_S512000x8_1_0_0_1

theorem sc3_siIdx (i : Fin 512000) (g : Fin 8) (c : Fin 16) (hc) :
    SC3.siIdx (ix3 i g c) ⟨List.idxOf (0 : Fin 3) SC3.scatterDimsToOperandDims, hc⟩ = ix2 i (0 : Fin 1) := by
  funext b; refine Fin.ext ?_
  match b with
  | ⟨0, _⟩ => rfl
  | ⟨1, _⟩ => rfl

theorem sc3_ax0 (idx : IVec S512000x1 32) (i : Fin 512000) (g : Fin 8) (c : Fin 16) (n : Fin 50000)
    (h : idx (ix2 i (0 : Fin 1)) = BitVec.ofNat 32 n.val) :
    SC3.start (ix3 i g c) idx 0 + (SC3.window (ix3 i g c) 0 : ℤ) = (n.val : ℤ) := by
  unfold ScatterDims.start ScatterDims.window
  rw [dif_pos (show (0 : Fin 3) ∈ SC3.scatterDimsToOperandDims by decide), dif_neg (show ¬ (0 : Fin 3) ∈ SC3.sKept by decide),
    sc3_siIdx, h, toInt_pos]
  exact Int.add_zero _
theorem sc3_ax1 (idx : IVec S512000x1 32) (i : Fin 512000) (g : Fin 8) (c : Fin 16) :
    SC3.start (ix3 i g c) idx 1 + (SC3.window (ix3 i g c) 1 : ℤ) = (g.val : ℤ) := by
  unfold ScatterDims.start ScatterDims.window
  rw [dif_neg (show ¬ (1 : Fin 3) ∈ SC3.scatterDimsToOperandDims by decide), dif_pos (show (1 : Fin 3) ∈ SC3.sKept by decide), Int.zero_add]
  rfl
theorem sc3_ax2 (idx : IVec S512000x1 32) (i : Fin 512000) (g : Fin 8) (c : Fin 16) :
    SC3.start (ix3 i g c) idx 2 + (SC3.window (ix3 i g c) 2 : ℤ) = (c.val : ℤ) := by
  unfold ScatterDims.start ScatterDims.window
  rw [dif_neg (show ¬ (2 : Fin 3) ∈ SC3.scatterDimsToOperandDims by decide), dif_pos (show (2 : Fin 3) ∈ SC3.sKept by decide), Int.zero_add]
  rfl

/-- Axis 0 takes the start index and the other axes the window coordinates: update (i, g, c) lands on (n, g, c). -/
theorem sc3_resultIdx (idx : IVec S512000x1 32) (i : Fin 512000) (g : Fin 8) (c : Fin 16) (n : Fin 50000)
    (h : idx (ix2 i (0 : Fin 1)) = BitVec.ofNat 32 n.val) :
    SC3.resultIdx? (ix3 i g c) idx = some (ix3 n g c) := by
  have hax : ∀ a : Fin 3, SC3.start (ix3 i g c) idx a + (SC3.window (ix3 i g c) a : ℤ)
      = (((ix3 n g c : S50000x8x16.Idx) a).val : ℤ) := by
    intro a
    match a with
    | ⟨0, _⟩ => exact sc3_ax0 idx i g c n h
    | ⟨1, _⟩ => exact sc3_ax1 idx i g c
    | ⟨2, _⟩ => exact sc3_ax2 idx i g c
  unfold ScatterDims.resultIdx?
  rw [dif_pos (fun a => by rw [hax a]; exact ⟨Int.natCast_nonneg _, Int.ofNat_lt.mpr ((ix3 n g c : S50000x8x16.Idx) a).isLt⟩)]
  congr 1
  funext a
  refine Fin.ext ?_
  show (SC3.start (ix3 i g c) idx a + (SC3.window (ix3 i g c) a : ℤ)).toNat = _
  rw [hax a]
  exact Int.toNat_natCast _

theorem sc3_mem (I : IVec S512000x1 32) (dst : Fin 512000 → Fin 50000)
    (hI : ∀ i, I (ix2 i (0 : Fin 1)) = BitVec.ofNat 32 (dst i).val) (n : Fin 50000) (g : Fin 8) (c : Fin 16)
    (j : S512000x8x16.Idx) (hj : SC3.resultIdx? j I = some (ix3 n g c)) : ix3 (j 0 : Fin 512000) g c = j := by
  obtain ⟨i, g', c', rfl⟩ : ∃ (i : Fin 512000) (g' : Fin 8) (c' : Fin 16), j = ix3 i g' c' := ⟨j 0, j 1, j 2, eq_ix3 j⟩
  rw [sc3_resultIdx I i g' c' (dst i) (hI i)] at hj
  have this := Option.some.inj hj
  have h1 : g' = g := congrFun this 1
  have h2 : c' = c := congrFun this 2
  subst h1 h2
  rfl

/-- Entry (n, g, c) is zero plus the updates that land there: those of the edges i with dst i = n. -/
theorem scatter3_real (U : FVec Ideal S512000x8x16 .f32) (I : IVec S512000x1 32) (dst : Fin 512000 → Fin 50000)
    (hI : ∀ i, I (ix2 i (0 : Fin 1)) = BitVec.ofNat 32 (dst i).val) (Ur : Fin 512000 → Fin 128 → ℝ) (hU : Heads3 U Ur) :
    Heads3 (Host.scatterAdd SC3 (broadcastInDim S50000x8x16 ![] bcast_S_S50000x8x16 (constant (F := Ideal) S_ .f32 0x00000000#32)) I U)
      (segsum dst Ur) :=
  fun n g c => scatter_real SC3 _ I U (ix3 n g c) Ideal.ofBits_zero_f32 (fun j => (j 0 : Fin 512000)) (fun i => ix3 i g c) dst n _
    (fun i => ⟨fun h => congrFun (Option.some.inj ((sc3_resultIdx I i g c (dst i) (hI i)).symm.trans h)) 0,
      fun h => sc3_resultIdx I i g c n (h ▸ hI i)⟩)
    (sc3_mem I dst hI n g c) (fun _ => rfl) (fun i => hU i g c)

theorem sc2_siIdx (i : Fin 512000) (g : Fin 8) (hc) :
    SC2.siIdx (ix2 i g) ⟨List.idxOf (0 : Fin 2) SC2.scatterDimsToOperandDims, hc⟩ = ix2 i (0 : Fin 1) := by
  funext b; refine Fin.ext ?_
  match b with
  | ⟨0, _⟩ => rfl
  | ⟨1, _⟩ => rfl

theorem sc2_ax0 (idx : IVec S512000x1 32) (i : Fin 512000) (g : Fin 8) (n : Fin 50000)
    (h : idx (ix2 i (0 : Fin 1)) = BitVec.ofNat 32 n.val) :
    SC2.start (ix2 i g) idx 0 + (SC2.window (ix2 i g) 0 : ℤ) = (n.val : ℤ) := by
  unfold ScatterDims.start ScatterDims.window
  rw [dif_pos (show (0 : Fin 2) ∈ SC2.scatterDimsToOperandDims by decide), dif_neg (show ¬ (0 : Fin 2) ∈ SC2.sKept by decide),
    sc2_siIdx, h, toInt_pos]
  exact Int.add_zero _
theorem sc2_ax1 (idx : IVec S512000x1 32) (i : Fin 512000) (g : Fin 8) :
    SC2.start (ix2 i g) idx 1 + (SC2.window (ix2 i g) 1 : ℤ) = (g.val : ℤ) := by
  unfold ScatterDims.start ScatterDims.window
  rw [dif_neg (show ¬ (1 : Fin 2) ∈ SC2.scatterDimsToOperandDims by decide), dif_pos (show (1 : Fin 2) ∈ SC2.sKept by decide), Int.zero_add]
  rfl

/-- The same for the rank-2 scatter: update (i, g) lands on (n, g). -/
theorem sc2_resultIdx (idx : IVec S512000x1 32) (i : Fin 512000) (g : Fin 8) (n : Fin 50000)
    (h : idx (ix2 i (0 : Fin 1)) = BitVec.ofNat 32 n.val) :
    SC2.resultIdx? (ix2 i g) idx = some (ix2 n g) := by
  have hax : ∀ a : Fin 2, SC2.start (ix2 i g) idx a + (SC2.window (ix2 i g) a : ℤ)
      = (((ix2 n g : S50000x8.Idx) a).val : ℤ) := by
    intro a
    match a with
    | ⟨0, _⟩ => exact sc2_ax0 idx i g n h
    | ⟨1, _⟩ => exact sc2_ax1 idx i g
  unfold ScatterDims.resultIdx?
  rw [dif_pos (fun a => by rw [hax a]; exact ⟨Int.natCast_nonneg _, Int.ofNat_lt.mpr ((ix2 n g : S50000x8.Idx) a).isLt⟩)]
  congr 1
  funext a
  refine Fin.ext ?_
  show (SC2.start (ix2 i g) idx a + (SC2.window (ix2 i g) a : ℤ)).toNat = _
  rw [hax a]
  exact Int.toNat_natCast _

theorem sc2_mem (I : IVec S512000x1 32) (dst : Fin 512000 → Fin 50000)
    (hI : ∀ i, I (ix2 i (0 : Fin 1)) = BitVec.ofNat 32 (dst i).val) (n : Fin 50000) (g : Fin 8)
    (j : S512000x8.Idx) (hj : SC2.resultIdx? j I = some (ix2 n g)) : ix2 (j 0 : Fin 512000) g = j := by
  obtain ⟨i, g', rfl⟩ : ∃ (i : Fin 512000) (g' : Fin 8), j = ix2 i g' := ⟨j 0, j 1, eq_ix2 j⟩
  rw [sc2_resultIdx I i g' (dst i) (hI i)] at hj
  have h1 : g' = g := congrFun (Option.some.inj hj) 1
  subst h1
  rfl

/-- Entry (n, g) is zero plus the weights of the edges i with dst i = n. -/
theorem scatter2_real (U : FVec Ideal S512000x8 .f32) (I : IVec S512000x1 32) (dst : Fin 512000 → Fin 50000)
    (hI : ∀ i, I (ix2 i (0 : Fin 1)) = BitVec.ofNat 32 (dst i).val) (Ur : Fin 512000 → Fin 8 → ℝ) (hU : Real2 U Ur) :
    Real2 (Host.scatterAdd SC2 (broadcastInDim S50000x8 ![] bcast_S_S50000x8 (constant (F := Ideal) S_ .f32 0x00000000#32)) I U)
      (segsum dst Ur) :=
  fun n g => scatter_real SC2 _ I U (ix2 n g) Ideal.ofBits_zero_f32 (fun j => (j 0 : Fin 512000)) (fun i => ix2 i g) dst n _
    (fun i => ⟨fun h => congrFun (Option.some.inj ((sc2_resultIdx I i g (dst i) (hI i)).symm.trans h)) 0,
      fun h => sc2_resultIdx I i g n (h ▸ hI i)⟩)
    (sc2_mem I dst hI n g) (fun _ => rfl) (fun i => hU i g)

theorem zcol_real (Z : FVec Ideal S50000x8 .f32) (R : Fin 50000 → Fin 8 → ℝ) (hZ : Real2 Z R) :
    Col3 (broadcastInDim S50000x8x1 ![0, 1] bcast_S50000x8_S50000x8x1_0_1 Z) R := by
  intro n g
  rw [broadcastInDim_apply ![0, 1] bcast_S50000x8_S50000x8x1_0_1 Z (ix3 n g (0 : Fin 1)) (ix2 n g) (fun a => by
    match a with
    | ⟨0, _⟩ => exact (if_neg (show ¬ ((50000 : ℕ) = 1) by decide)).symm
    | ⟨1, _⟩ => exact (if_neg (show ¬ ((8 : ℕ) = 1) by decide)).symm)]
  exact hZ n g

theorem eps_apply (n : Fin 50000) (g : Fin 8) :
    (broadcastInDim S50000x8x1 ![] bcast_S_S50000x8x1 (constant (F := Ideal) S_ .f32 0x358637BD#32)) (ix3 n g (0 : Fin 1))
      = ((eps6 : ℝ) : EReal) := by
  show Ideal.ofBits .f32 0x358637BD#32 = _
  exact ofBits_eps6

end Cert.ReferenceIdeal.Hand

end
-- ==== Proof.Ref.Val0.lean ====
import proofs.«403660_j89129161327109_3_alg».proof.Proof.Ref.Run
import proofs.«403660_j89129161327109_3_alg».proof.Proof.Ref.Val0a
import Idealize.ShloMosaic.Lib.StableHlo.Run

noncomputable section

namespace Cert.ReferenceIdeal.Hand

open Cert.ReferenceIdeal Cert.ReferenceIdeal.Gen Cert.Spec Idealize.ShloMosaic Idealize.ShloMosaic.TcCoe Idealize.SL.Sem
  Idealize.ShloMosaic.StableHlo Idealize.ShloMosaic.ValueIdx

variable (V : Valuation τ sig (Elt Ideal))

theorem ref0_eps (n : Fin 50000) (g : Fin 8) :
    (after (ops0 (F := Ideal)) V (Proc.devRef .tc main_v46) : S50000x8x1.Idx → EReal) (ix3 n g (0 : Fin 1))
      = ((eps6 : ℝ) : EReal) := by
  after_results_simp
  exact eps_apply n g

variable (x : Inputs)
  (hh : Real2 (V (Proc.devRef .tc main_arg0) : S50000x128.Idx → EReal) x.h)
  (he : Real2 (V (Proc.devRef .tc main_arg1) : S512000x128.Idx → EReal) x.e)
  (hsrc : Pos1 (V (Proc.devRef .tc main_arg2) : S512000.Idx → BitVec 32) x.src)
  (hdst : Pos1 (V (Proc.devRef .tc main_arg3) : S512000.Idx → BitVec 32) x.dst)
  (hq : Real2 (V (Proc.devRef .tc main_arg4) : S128x128.Idx → EReal) x.Wq)
  (hk : Real2 (V (Proc.devRef .tc main_arg5) : S128x128.Idx → EReal) x.Wk)
  (hv : Real2 (V (Proc.devRef .tc main_arg6) : S128x128.Idx → EReal) x.Wv)
  (hwe : Real2 (V (Proc.devRef .tc main_arg7) : S128x128.Idx → EReal) x.We)
include hh he hsrc hdst hq hk hv hwe

/-- Each buffer is a composition of the stretch's operations on the arguments, read one operation at a time. -/
theorem ref0 : Heads3 (after (ops0 (F := Ideal)) V (Proc.devRef .tc main_v7) : S512000x8x16.Idx → EReal) (REh x)
    ∧ Heads3 (after (ops0 (F := Ideal)) V (Proc.devRef .tc main_v41) : S50000x8x16.Idx → EReal) (RwV x)
    ∧ Col3 (after (ops0 (F := Ideal)) V (Proc.devRef .tc main_v45) : S50000x8x1.Idx → EReal) (Rz x) := by
  have eh := heads_of_real2 _ _ shapeCasts_S512000x128_S512000x8x16 (dot_real rfl he hwe)
  have pN := fun {W : FVec Ideal S128x128 .f32} {Y : Fin 128 → Fin 128 → ℝ} (hW : Real2 W Y) =>
    heads_of_real2 _ _ shapeCasts_S50000x128_S50000x8x16 (dot_real rfl hh hW)
  have s := clipExp_real _ _ (sum_heads _ _ (score_heads _ _ _ _ _ _
    (gather_heads _ _ (pN hk) _ x.src (tIdx_apply _ x.src hsrc))
    (gather_heads _ _ (pN hq) _ x.dst (tIdx_apply _ x.dst hdst)) eh))
  refine ⟨?_, ?_, ?_⟩ <;> after_results_simp
  · exact eh
  · exact scatter3_real _ _ x.dst (tDst_apply _ x.dst hdst) _
      (weight_heads _ _ _ _ (gather_heads _ _ (pN hv) _ x.src (tIdx_apply _ x.src hsrc)) s)
  · exact zcol_real _ _ (scatter2_real _ _ x.dst (tDst_apply _ x.dst hdst) _ s)

theorem ref0_Eh : Heads3 (after (ops0 (F := Ideal)) V (Proc.devRef .tc main_v7) : S512000x8x16.Idx → EReal) (REh x) :=
  (ref0 V x hh he hsrc hdst hq hk hv hwe).1

theorem ref0_wV : Heads3 (after (ops0 (F := Ideal)) V (Proc.devRef .tc main_v41) : S50000x8x16.Idx → EReal) (RwV x) :=
  (ref0 V x hh he hsrc hdst hq hk hv hwe).2.1

theorem ref0_zcol : Col3 (after (ops0 (F := Ideal)) V (Proc.devRef .tc main_v45) : S50000x8x1.Idx → EReal) (Rz x) :=
  (ref0 V x hh he hsrc hdst hq hk hv hwe).2.2

end Cert.ReferenceIdeal.Hand

end
-- ==== Proof.Ref.Val1Lib.lean ====
import proofs.«403660_j89129161327109_3_alg».proof.Proof.Spec
import proofs.«403660_j89129161327109_3_alg».proof.Proof.Consts
import proofs.«403660_j89129161327109_3_alg».proof.Proof.Ref.Pred
import Idealize.ShloMosaic.Lib.ValueIdx
import Idealize.ShloMosaic.Lib.ValueLayout
import Idealize.ShloMosaic.Lib.Pipeline.Value
import Idealize.ShloMosaic.Lib.Pipeline.Frame
import Idealize.ShloMosaic.PureOps.Ideal.Laws
import Idealize.ShloMosaic.Lib.StableHlo.Run
import Idealize.ShloMosaic.Lib.IdealHost
import Idealize.ShloMosaic.Lib.StackMember
import Idealize.ShloMosaic.Lib.KernelVsHost

noncomputable section

open scoped BigOperators

namespace Cert.ReferenceIdeal.Hand

open Idealize.ShloMosaic Idealize.ShloMosaic.ValueIdx Idealize.ShloMosaic.StableHlo Idealize.SL.Sem

namespace W1

open Cert.Spec (Real1 Real2 colsum mm hd col)

section SSA
variable {τ : Topo} {sig : RefSig} {Val : EltTy → Type}

theorem not_mem_writes_of_forall₂ {ops : List (HloOp τ sig Val)} {wl : List (Ref sig .tc)}
    (hw : List.Forall₂ (fun op r => op.writes = {Proc.devRef (τ := τ) .tc r}) ops wl)
    {r : Ref sig .tc} (hr : r ∉ wl) : ∀ op ∈ ops, Proc.devRef (τ := τ) .tc r ∉ op.writes := by
  induction hw with
  | nil => intro op h; cases h
  | cons h _ ih =>
    intro op hop
    rcases List.mem_cons.mp hop with rfl | hop
    · rw [h, Finset.mem_singleton]
      exact fun e => hr (List.mem_cons.mpr (Or.inl (Proc.devRef_injective _ e)))
    · exact ih (fun h' => hr (List.mem_cons_of_mem _ h')) op hop

theorem after_eq_after_take (ops : List (HloOp τ sig Val)) (wl : List (Ref sig .tc))
    (hw : List.Forall₂ (fun op r => op.writes = {Proc.devRef (τ := τ) .tc r}) ops wl)
    (k : ℕ) (V : Valuation τ sig Val) (r : Ref sig .tc) (hr : r ∉ wl.drop k) :
    after ops V (Proc.devRef .tc r) = after (ops.take k) V (Proc.devRef .tc r) := by
  conv_lhs => rw [← List.take_append_drop k ops, after_append]
  exact after_of_forall_not_mem _ _ (not_mem_writes_of_forall₂ (List.forall₂_drop k hw) hr)

theorem after_eq_result (ops : List (HloOp τ sig Val)) (wl : List (Ref sig .tc))
    (hw : List.Forall₂ (fun op r => op.writes = {Proc.devRef (τ := τ) .tc r}) ops wl)
    (k : ℕ) (op : HloOp τ sig Val) (hop : ops.drop k = op :: ops.drop (k + 1))
    (V : Valuation τ sig Val) (r : Ref sig .tc) (hr : r ∉ wl.drop (k + 1)) :
    after ops V (Proc.devRef .tc r) = op.result (after (ops.take k) V) (Proc.devRef .tc r) := by
  conv_lhs => rw [← List.take_append_drop k ops, after_append, hop, after_cons]
  exact after_of_forall_not_mem _ _ (not_mem_writes_of_forall₂ (List.forall₂_drop (k + 1) hw) hr)

section Stage
variable {ops : List (HloOp τ sig Val)} {wl : List (Ref sig .tc)}
  (hw : List.Forall₂ (fun op r => op.writes = {Proc.devRef (τ := τ) .tc r}) ops wl) (k : ℕ) (V : Valuation τ sig Val)
  {c a b x y : Ref sig .tc}
include hw

-- In a line that writes each array once, the array written at position k ends as its operation's function of its operands' final values.
theorem stage0 {v : y.ty.Contents Val} {hy} (hop : ops.drop k = nullary y v hy :: ops.drop (k + 1))
    (h : y ∉ wl.drop (k + 1) := by decide) : after ops V (Proc.devRef .tc y) = v := by
  rw [after_eq_result ops wl hw k _ hop V y h]
  exact nullary_result _ _ _ _

theorem stage1 {f : x.ty.Contents Val → y.ty.Contents Val} {hx hy} (hop : ops.drop k = unary x y f hx hy :: ops.drop (k + 1))
    (h : y ∉ wl.drop (k + 1) ∧ x ∉ wl.drop k := by decide) :
    after ops V (Proc.devRef .tc y) = f (after ops V (Proc.devRef .tc x)) := by
  rw [after_eq_result ops wl hw k _ hop V y h.1, after_eq_after_take ops wl hw k V x h.2]
  exact unary_result _ _ _ _ _ _

theorem stageR {he hn hx hy} (hop : ops.drop k = reshape x y he hn hx hy :: ops.drop (k + 1))
    (h : y ∉ wl.drop (k + 1) ∧ x ∉ wl.drop k := by decide) :
    after ops V (Proc.devRef .tc y) = fun i => he ▸ shapeCast y.ty.shape (after ops V (Proc.devRef .tc x)) hn i := by
  rw [after_eq_result ops wl hw k _ hop V y h.1, after_eq_after_take ops wl hw k V x h.2]
  exact reshape_result _ _ _ _ _ _ _

theorem stage2 {f : a.ty.Contents Val → b.ty.Contents Val → y.ty.Contents Val} {ha hb hy}
    (hop : ops.drop k = binary a b y f ha hb hy :: ops.drop (k + 1))
    (h : y ∉ wl.drop (k + 1) ∧ a ∉ wl.drop k ∧ b ∉ wl.drop k := by decide) :
    after ops V (Proc.devRef .tc y) = f (after ops V (Proc.devRef .tc a)) (after ops V (Proc.devRef .tc b)) := by
  rw [after_eq_result ops wl hw k _ hop V y h.1, after_eq_after_take ops wl hw k V a h.2.1, after_eq_after_take ops wl hw k V b h.2.2]
  exact binary_result _ _ _ _ _ _ _ _

theorem stage3 {f : c.ty.Contents Val → a.ty.Contents Val → b.ty.Contents Val → y.ty.Contents Val} {hc ha hb hy}
    (hop : ops.drop k = ternary c a b y f hc ha hb hy :: ops.drop (k + 1))
    (h : y ∉ wl.drop (k + 1) ∧ c ∉ wl.drop k ∧ a ∉ wl.drop k ∧ b ∉ wl.drop k := by decide) :
    after ops V (Proc.devRef .tc y)
      = f (after ops V (Proc.devRef .tc c)) (after ops V (Proc.devRef .tc a)) (after ops V (Proc.devRef .tc b)) := by
  rw [after_eq_result ops wl hw k _ hop V y h.1, after_eq_after_take ops wl hw k V c h.2.1,
    after_eq_after_take ops wl hw k V a h.2.2.1, after_eq_after_take ops wl hw k V b h.2.2.2]
  exact ternary_result _ _ _ _ _ _ _ _ _ _

end Stage

end SSA

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (x : ℝ) {y : ℝ} (hy : y ≠ 0) : Ideal.div (x : EReal) (y : EReal) = ((x / y : ℝ) : EReal) := by
  rw [Ideal.div_coe hy, ← EReal.coe_mul, mul_one_div]

theorem sqrt_coe_nonneg {r : ℝ} (hr : 0 ≤ r) : Ideal.sqrt (r : EReal) = ((Real.sqrt r : ℝ) : EReal) := by
  rw [Ideal.sqrt_coe, if_neg (not_lt.mpr hr)]

section Pointwise
variable {a b : ℕ}

theorem real2_addf {A B : FVec Ideal ⟨2, ![a, b]⟩ .f32} {X Y : Fin a → Fin b → ℝ} (hA : Real2 A X) (hB : Real2 B Y) :
    Real2 (addf A B) (fun p q => X p q + Y p q) := fun p q => by
  rw [addf_apply, hA p q, hB p q, ← EReal.coe_add]

theorem real2_subf {A B : FVec Ideal ⟨2, ![a, b]⟩ .f32} {X Y : Fin a → Fin b → ℝ} (hA : Real2 A X) (hB : Real2 B Y) :
    Real2 (subf A B) (fun p q => X p q - Y p q) := fun p q => by
  rw [subf_apply, hA p q, hB p q, ← EReal.coe_sub]

theorem real2_mulf {A B : FVec Ideal ⟨2, ![a, b]⟩ .f32} {X Y : Fin a → Fin b → ℝ} (hA : Real2 A X) (hB : Real2 B Y) :
    Real2 (mulf A B) (fun p q => X p q * Y p q) := fun p q => by
  rw [mulf_apply, hA p q, hB p q, ← EReal.coe_mul]

theorem real2_divf {A B : FVec Ideal ⟨2, ![a, b]⟩ .f32} {X Y : Fin a → Fin b → ℝ} (hA : Real2 A X) (hB : Real2 B Y)
    (hY : ∀ p q, Y p q ≠ 0) : Real2 (Host.divf A B) (fun p q => X p q / Y p q) := fun p q => by
  rw [hostDivf_apply, hA p q, hB p q, div_coe_coe _ (hY p q)]

theorem real2_relu {A : FVec Ideal ⟨2, ![a, b]⟩ .f32} {X : Fin a → Fin b → ℝ} (hA : Real2 A X)
    {h : (⟨0, ![]⟩ : Shape).BroadcastsInDim ⟨2, ![a, b]⟩ ![]} {z : FVec Ideal ⟨0, ![]⟩ .f32}
    {zb out : FVec Ideal ⟨2, ![a, b]⟩ .f32}
    (ez : z = constant ⟨0, ![]⟩ .f32 0x00000000#32) (eb : zb = broadcastInDim ⟨2, ![a, b]⟩ ![] h z) (eo : out = maximumf A zb) :
    Real2 out (fun p q => Cert.Spec.relu (X p q)) := fun p q => by
  subst ez eb eo
  rw [maximumf_apply, hA p q, broadcastInDim_scalar_apply, constant_apply, Cert.Spec.ofBits_zero]
  exact (EReal.coe_strictMono.monotone.map_max).symm

theorem real1_addf {A B : FVec Ideal ⟨1, ![a]⟩ .f32} {X Y : Fin a → ℝ} (hA : Real1 A X) (hB : Real1 B Y) :
    Real1 (addf A B) (fun p => X p + Y p) := fun p => by
  rw [addf_apply, hA p, hB p, ← EReal.coe_add]

theorem real1_divf {A B : FVec Ideal ⟨1, ![a]⟩ .f32} {X Y : Fin a → ℝ} (hA : Real1 A X) (hB : Real1 B Y)
    (hY : ∀ p, Y p ≠ 0) : Real1 (Host.divf A B) (fun p => X p / Y p) := fun p => by
  rw [hostDivf_apply, hA p, hB p, div_coe_coe _ (hY p)]

theorem real1_sqrt {A : FVec Ideal ⟨1, ![a]⟩ .f32} {X : Fin a → ℝ} (hA : Real1 A X) (hX : ∀ p, 0 ≤ X p) :
    Real1 (Host.sqrt A) (fun p => Real.sqrt (X p)) := fun p => by
  show Ideal.sqrt (A (ix1 p)) = _
  rw [hA p, sqrt_coe_nonneg (hX p)]

end Pointwise

section Broadcasts
variable {a b : ℕ}

theorem real1_bcast_scalar (h : (⟨0, ![]⟩ : Shape).BroadcastsInDim ⟨1, ![b]⟩ ![]) {c : (⟨0, ![]⟩ : Shape).Idx → EReal} {r : ℝ}
    (hc : c ix0 = (r : EReal)) : Real1 (broadcastInDim ⟨1, ![b]⟩ ![] h c) (fun _ => r) := fun p => by
  rw [broadcastInDim_scalar_apply, hc]

theorem real2_bcast_scalar (h : (⟨0, ![]⟩ : Shape).BroadcastsInDim ⟨2, ![a, b]⟩ ![]) {c : (⟨0, ![]⟩ : Shape).Idx → EReal} {r : ℝ}
    (hc : c ix0 = (r : EReal)) : Real2 (broadcastInDim ⟨2, ![a, b]⟩ ![] h c) (fun _ _ => r) := fun p q => by
  rw [broadcastInDim_scalar_apply, hc]

theorem val_eq_ite {n : ℕ} (q : Fin n) : q.val = if n = 1 then 0 else q.val := by
  split_ifs with h
  · have := q.isLt; omega
  · rfl

theorem bcast_row1_apply {α : Type} (h : (⟨1, ![b]⟩ : Shape).BroadcastsInDim ⟨2, ![1, b]⟩ ![1]) (v : (⟨1, ![b]⟩ : Shape).Idx → α)
    (p : Fin 1) (q : Fin b) : broadcastInDim ⟨2, ![1, b]⟩ ![1] h v (ix2 p q) = v (ix1 q) := by
  refine broadcastInDim_apply _ h v _ (ix1 q) fun c => ?_
  match c with
  | ⟨0, _⟩ => exact val_eq_ite q

theorem real2_bcast_row1 (h : (⟨1, ![b]⟩ : Shape).BroadcastsInDim ⟨2, ![1, b]⟩ ![1]) {v : (⟨1, ![b]⟩ : Shape).Idx → EReal} {x : Fin b → ℝ}
    (hv : Real1 v x) : Real2 (broadcastInDim ⟨2, ![1, b]⟩ ![1] h v) (fun _ q => x q) := fun p q => by
  rw [bcast_row1_apply, hv q]

theorem real2_bcast_rows (h : (⟨2, ![1, b]⟩ : Shape).BroadcastsInDim ⟨2, ![a, b]⟩ ![0, 1]) {v : (⟨2, ![1, b]⟩ : Shape).Idx → EReal}
    {Y : Fin 1 → Fin b → ℝ} (hv : Real2 v Y) : Real2 (broadcastInDim ⟨2, ![a, b]⟩ ![0, 1] h v) (fun _ q => Y 0 q) := fun p q => by
  rw [broadcastInDim_oneRow_apply, hv 0 q]

theorem real2_bcast_vec (h1 : (⟨1, ![b]⟩ : Shape).BroadcastsInDim ⟨2, ![1, b]⟩ ![1])
    (h2 : (⟨2, ![1, b]⟩ : Shape).BroadcastsInDim ⟨2, ![a, b]⟩ ![0, 1]) {v : (⟨1, ![b]⟩ : Shape).Idx → EReal} {x : Fin b → ℝ}
    (hv : Real1 v x) :
    Real2 (broadcastInDim ⟨2, ![a, b]⟩ ![0, 1] h2 (broadcastInDim ⟨2, ![1, b]⟩ ![1] h1 v)) (fun _ q => x q) :=
  real2_bcast_rows h2 (real2_bcast_row1 h1 hv)

theorem bcast_heads_apply {α : Type} (h : (⟨3, ![a, 8, 1]⟩ : Shape).BroadcastsInDim ⟨3, ![a, 8, 16]⟩ ![0, 1, 2])
    (v : (⟨3, ![a, 8, 1]⟩ : Shape).Idx → α) (i : Fin a) (g : Fin 8) (j : Fin 16) :
    broadcastInDim ⟨3, ![a, 8, 16]⟩ ![0, 1, 2] h v (ix3 i g j) = v (ix3 i g 0) := by
  refine broadcastInDim_apply _ h v _ (ix3 i g 0) fun c => ?_
  match c with
  | ⟨0, _⟩ => exact val_eq_ite i
  | ⟨1, _⟩ => rfl
  | ⟨2, _⟩ => rfl

end Broadcasts

section Heads
variable {a : ℕ}

theorem col_hd (d : Fin 128) : col (hd d) ⟨d.val % 16, Nat.mod_lt _ (by decide)⟩ = d :=
  Fin.ext (by show d.val / 16 * 16 + d.val % 16 = d.val; omega)

theorem hd_col (g : Fin 8) (j : Fin 16) : hd (col g j) = g :=
  Fin.ext (by show (g.val * 16 + j.val) / 16 = g.val; have := j.isLt; omega)

theorem reshape_heads_apply {α : Type} (h : (⟨3, ![a, 8, 16]⟩ : Shape).ShapeCasts ⟨2, ![a, 128]⟩)
    (x : (⟨3, ![a, 8, 16]⟩ : Shape).Idx → α) (i : Fin a) (g : Fin 8) (j : Fin 16) :
    shapeCast ⟨2, ![a, 128]⟩ x h (ix2 i (col g j)) = x (ix3 i g j) := by
  refine shapeCast_apply x h _ (ix3 i g j) ?_
  rw [Shape.rowMajor_val_three, Shape.rowMajor_val_two]
  show (i.val * 8 + g.val) * 16 + j.val = i.val * 128 + (g.val * 16 + j.val)
  omega

theorem real2_reshape_heads (h : (⟨3, ![a, 8, 16]⟩ : Shape).ShapeCasts ⟨2, ![a, 128]⟩)
    {A : (⟨3, ![a, 8, 16]⟩ : Shape).Idx → EReal} {X : Fin a → Fin 128 → ℝ} (hA : Heads3 A X) :
    Real2 (shapeCast ⟨2, ![a, 128]⟩ A h) X := fun p q => by
  have e := reshape_heads_apply h A p (hd q) ⟨q.val % 16, Nat.mod_lt _ (by decide)⟩
  rw [col_hd] at e
  rw [e, hA, col_hd]

theorem heads3_div_bcast (h : (⟨3, ![a, 8, 1]⟩ : Shape).BroadcastsInDim ⟨3, ![a, 8, 16]⟩ ![0, 1, 2])
    {A : FVec Ideal ⟨3, ![a, 8, 16]⟩ .f32} {C : FVec Ideal ⟨3, ![a, 8, 1]⟩ .f32} {X : Fin a → Fin 128 → ℝ} {Z : Fin a → Fin 8 → ℝ}
    (hA : Heads3 A X) (hC : Col3 C Z) (hZ : ∀ n g, Z n g ≠ 0) :
    Heads3 (Host.divf A (broadcastInDim ⟨3, ![a, 8, 16]⟩ ![0, 1, 2] h C)) (fun n d => X n d / Z n (hd d)) := fun i g j => by
  show Host.divf A _ (ix3 i g j) = ((X i (col g j) / Z i (hd (col g j)) : ℝ) : EReal)
  rw [hostDivf_apply, bcast_heads_apply, hA i g j, hC i g, div_coe_coe _ (hZ i g), hd_col]

theorem col3_addf {A B : FVec Ideal ⟨3, ![a, 8, 1]⟩ .f32} {Z : Fin a → Fin 8 → ℝ} {e : ℝ} (hA : Col3 A Z)
    (hB : ∀ n g, B (ix3 n g 0) = (e : EReal)) : Col3 (addf A B) (fun n g => Z n g + e) := fun i g => by
  rw [addf_apply, hA i g, hB i g, ← EReal.coe_add]

end Heads

section Reduce
variable {a b : ℕ}

theorem reduce0_apply (h' : (⟨2, ![a, b]⟩ : Shape).ReducesTo [0] ⟨1, ![b]⟩) (hu : 0 < (⟨0, ![]⟩ : Shape).numel)
    (x : FVec Ideal ⟨2, ![a, b]⟩ .f32) (init : (⟨0, ![]⟩ : Shape).Idx → EReal) (q : Fin b) :
    Host.reduceAdd x init h' hu (ix1 q) = init ix0 + ∑ p : Fin a, x (ix2 p q) := by
  have h : (⟨2, ![a, b]⟩ : Shape).Reduces [0] ⟨1, ![b]⟩ := ⟨h'.1, Nat.one_pos, h'.2⟩
  rw [hostReduceAdd_apply, Ideal.hostReduceAdd_single h' h, eq_ix0 (Shape.Idx.first hu)]
  refine congrArg _ (Finset.sum_congr rfl fun p _ => congrArg x ?_)
  funext c
  match c with
  | ⟨0, _⟩ => rfl
  | ⟨1, _⟩ => rfl

theorem real1_reduce0 (h' : (⟨2, ![a, b]⟩ : Shape).ReducesTo [0] ⟨1, ![b]⟩) (hu : 0 < (⟨0, ![]⟩ : Shape).numel)
    {A : FVec Ideal ⟨2, ![a, b]⟩ .f32} {X : Fin a → Fin b → ℝ} (hA : Real2 A X)
    {init : (⟨0, ![]⟩ : Shape).Idx → EReal} (hi : init ix0 = ((0 : ℝ) : EReal)) :
    Real1 (Host.reduceAdd A init h' hu) (colsum X) := fun q => by
  rw [reduce0_apply, hi, Finset.sum_congr rfl (fun p _ => hA p q), coe_sum, ← EReal.coe_add, zero_add]
  rfl

end Reduce

section Dot
variable {M K N : ℕ}

theorem real2_dot {D : DotDims ⟨2, ![M, K]⟩ ⟨2, ![K, N]⟩ ⟨2, ![M, N]⟩} (hD : D = DotDims.plain M K N)
    {A : FVec Ideal ⟨2, ![M, K]⟩ .f32} {B : FVec Ideal ⟨2, ![K, N]⟩ .f32} {X : Fin M → Fin K → ℝ} {Y : Fin K → Fin N → ℝ}
    (hA : Real2 A X) (hB : Real2 B Y) : Real2 (Host.dotGeneral D none A B) (mm X Y) := fun p q => by
  rw [hD, StackMember.dotGeneral_plain_apply, Finset.sum_congr rfl (fun t _ => by rw [hA p t, hB t q, ← EReal.coe_mul]), coe_sum]
  rfl

end Dot

end W1

end Cert.ReferenceIdeal.Hand

end
-- ==== Proof.Ref.Val1Stages.lean ====
import proofs.«403660_j89129161327109_3_alg».proof.Proof.Ref.Run
import proofs.«403660_j89129161327109_3_alg».proof.Proof.Ref.Val1Lib

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

noncomputable def wl1 : List (Ref sig .tc) :=
  [main_v47, main_v48, main_v49, main_v50, main_v51, main_v52, main_v53, main_v54, main_v55, main_v56, main_v57,
   main_cst_11, main_v58, main_cst_12, main_v59, main_v60, main_c_13,
   main_call1_cst, main_call1_v0, main_call1_v1, main_call1_cst_0, main_call1_v2, main_call1_v3, main_call1_v4, main_call1_v5,
   main_call1_v6, main_call1_v7, main_call1_cst_1, main_call1_v8, main_call1_cst_2, main_call1_v9, main_call1_v10, main_call1_v11,
   main_call1_cst_3, main_call1_v12, main_call1_cst_4, main_call1_call0_v0, main_call1_call0_v1, main_v61,
   main_v62, main_v63, main_v64, main_v65, main_v66, main_v67, main_cst_14, main_v68, main_v69, main_v70, main_v71, main_v72,
   main_v73, main_v74, main_v75, main_v76,
   main_cst_15, main_v77, main_cst_16, main_v78, main_v79, main_c_17,
   main_call2_cst, main_call2_v0, main_call2_v1, main_call2_cst_0, main_call2_v2, main_call2_v3, main_call2_v4, main_call2_v5,
   main_call2_v6, main_call2_v7, main_call2_cst_1, main_call2_v8, main_call2_cst_2, main_call2_v9, main_call2_v10, main_call2_v11,
   main_call2_cst_3, main_call2_v12, main_call2_cst_4, main_call2_call0_v0, main_call2_call0_v1, main_v80,
   main_v81, main_v82, main_v83, main_v84, main_v85, main_v86, main_cst_18, main_v87, main_v88, main_v89, main_v90, main_v91,
   main_v92, main_v93, main_v94, main_v95, main_v96, main_v97, main_v98]

theorem hw1 : List.Forall₂ (fun op r => op.writes = {Proc.devRef (τ := τ) .tc r}) (ops1 (F := Ideal)) wl1 := by
  unfold wl1
  repeat (first | exact List.Forall₂.nil | refine List.Forall₂.cons rfl ?_)

theorem keep1 (V : Valuation τ sig (Elt Ideal)) (r : Ref sig .tc) (hr : r ∉ wl1 := by decide) :
    after ops1 V (Proc.devRef .tc r) = V (Proc.devRef .tc r) :=
  W1.after_eq_after_take (ops1 (F := Ideal)) wl1 hw1 0 V r hr

end Cert.ReferenceIdeal.Hand

end
-- ==== Proof.Ref.Val1Norm.lean ====
import proofs.«403660_j89129161327109_3_alg».proof.Proof.Ref.Val1Lib

noncomputable section

open scoped BigOperators

namespace Cert.ReferenceIdeal.Hand.W1

open Idealize.ShloMosaic Idealize.ShloMosaic.ValueIdx
open Cert.Spec (Real1 Real2 colsum mm hd col)

variable {a b : ℕ}

-- The batch norm of an array of reals, given operation by operation: the column mean, the mean of the centred squares over a positive count, and the quotient by the root of that plus a positive guard; every array on the way holds reals.
theorem bn_real {A : FVec Ideal ⟨2, ![a, b]⟩ .f32} {X : Fin a → Fin b → ℝ} (hA : Real2 A X)
    {cnt : ℝ} (hcnt : 0 < cnt) {w wn : BitVec 32} (hw : Ideal.ofBits .f32 w = (cnt : EReal))
    {G B : Fin b → ℝ} {g bb : FVec Ideal ⟨1, ![b]⟩ .f32} (hg : Real1 g G) (hb : Real1 bb B)
    {e5 : ℝ} (he5 : 0 < e5) {w5 : BitVec 32} (hw5 : Ideal.ofBits .f32 w5 = (e5 : EReal))
    {hred : (⟨2, ![a, b]⟩ : Shape).ReducesTo [0] ⟨1, ![b]⟩} {hu : 0 < (⟨0, ![]⟩ : Shape).numel}
    {hb1 : (⟨1, ![b]⟩ : Shape).BroadcastsInDim ⟨2, ![1, b]⟩ ![1]}
    {hb2 : (⟨0, ![]⟩ : Shape).BroadcastsInDim ⟨2, ![1, b]⟩ ![]}
    {hb3 : (⟨2, ![1, b]⟩ : Shape).BroadcastsInDim ⟨2, ![a, b]⟩ ![0, 1]}
    {hb4 : (⟨0, ![]⟩ : Shape).BroadcastsInDim ⟨1, ![b]⟩ ![]}
    {ci : IVec ⟨0, ![]⟩ 32} {v12 : IVec ⟨0, ![]⟩ 1}
    {z c cst cst0 v7 cst1 v8 cst2 cst3 cst4 w0 c14 : FVec Ideal ⟨0, ![]⟩ .f32}
    {s n m v0 v9 v10 v11 w1 vr v68 v69 v70 : FVec Ideal ⟨1, ![b]⟩ .f32}
    {v1 v2 v3 v62 v65 v71 v74 : FVec Ideal ⟨2, ![1, b]⟩ .f32}
    {v4 v5 v6 v63 v64 v66 v67 v72 v73 v75 out : FVec Ideal ⟨2, ![a, b]⟩ .f32}
    (ez : z = constant ⟨0, ![]⟩ .f32 0x00000000#32)
    (es : s = Host.reduceAdd A z hred hu)
    (ec : c = constant ⟨0, ![]⟩ .f32 w)
    (en : n = broadcastInDim ⟨1, ![b]⟩ ![] hb4 c)
    (em : m = Host.divf s n)
    (eci : ci = constantI ⟨0, ![]⟩ 32 0#32)
    (e_cst : cst = constant ⟨0, ![]⟩ .f32 0x00000000#32)
    (e_v0 : v0 = Host.reduceAdd A cst hred hu)
    (e_v1 : v1 = broadcastInDim ⟨2, ![1, b]⟩ ![1] hb1 v0)
    (e_cst0 : cst0 = constant ⟨0, ![]⟩ .f32 w)
    (e_v2 : v2 = broadcastInDim ⟨2, ![1, b]⟩ ![] hb2 cst0)
    (e_v3 : v3 = Host.divf v1 v2)
    (e_v4 : v4 = broadcastInDim ⟨2, ![a, b]⟩ ![0, 1] hb3 v3)
    (e_v5 : v5 = subf A v4)
    (e_v6 : v6 = mulf v5 v5)
    (e_v7 : v7 = sitofp .f32 ci)
    (e_cst1 : cst1 = constant ⟨0, ![]⟩ .f32 w)
    (e_v8 : v8 = subf cst1 v7)
    (e_cst2 : cst2 = constant ⟨0, ![]⟩ .f32 0x00000000#32)
    (e_v9 : v9 = Host.reduceAdd v6 cst2 hred hu)
    (e_v10 : v10 = broadcastInDim ⟨1, ![b]⟩ ![] hb4 v8)
    (e_v11 : v11 = Host.divf v9 v10)
    (e_cst3 : cst3 = constant ⟨0, ![]⟩ .f32 0x00000000#32)
    (e_v12 : v12 = cmpf .ogt v8 cst3)
    (e_cst4 : cst4 = constant ⟨0, ![]⟩ .f32 wn)
    (e_w0 : w0 = cst4)
    (e_w1 : w1 = broadcastInDim ⟨1, ![b]⟩ ![] hb4 w0)
    (e_vr : vr = select (broadcastInDim ⟨1, ![b]⟩ ![] hb4 v12) v11 w1)
    (e62 : v62 = broadcastInDim ⟨2, ![1, b]⟩ ![1] hb1 m)
    (e63 : v63 = broadcastInDim ⟨2, ![a, b]⟩ ![0, 1] hb3 v62)
    (e64 : v64 = subf A v63)
    (e65 : v65 = broadcastInDim ⟨2, ![1, b]⟩ ![1] hb1 g)
    (e66 : v66 = broadcastInDim ⟨2, ![a, b]⟩ ![0, 1] hb3 v65)
    (e67 : v67 = mulf v66 v64)
    (e14 : c14 = constant ⟨0, ![]⟩ .f32 w5)
    (e68 : v68 = broadcastInDim ⟨1, ![b]⟩ ![] hb4 c14)
    (e69 : v69 = addf vr v68)
    (e70 : v70 = Host.sqrt v69)
    (e71 : v71 = broadcastInDim ⟨2, ![1, b]⟩ ![1] hb1 v70)
    (e72 : v72 = broadcastInDim ⟨2, ![a, b]⟩ ![0, 1] hb3 v71)
    (e73 : v73 = Host.divf v67 v72)
    (e74 : v74 = broadcastInDim ⟨2, ![1, b]⟩ ![1] hb1 bb)
    (e75 : v75 = broadcastInDim ⟨2, ![a, b]⟩ ![0, 1] hb3 v74)
    (e76 : out = addf v73 v75) :
    Real2 out (fun i d => G d * (X i d - colsum X d / cnt)
      / Real.sqrt (colsum (fun i d => (X i d - colsum X d / cnt) * (X i d - colsum X d / cnt)) d / cnt + e5) + B d) := by
  have hz : constant (F := Ideal) (⟨0, ![]⟩ : Shape) .f32 0x00000000#32 ix0 = ((0 : ℝ) : EReal) := by
    rw [constant_apply, Cert.Spec.ofBits_zero]
  have hc : constant (F := Ideal) (⟨0, ![]⟩ : Shape) .f32 w ix0 = ((cnt : ℝ) : EReal) := by rw [constant_apply, hw]
  have hm : Real1 m (fun d => colsum X d / cnt) := by
    subst ez es ec en em
    exact real1_divf (real1_reduce0 hred hu hA hz) (real1_bcast_scalar hb4 hc) (fun _ => hcnt.ne')
  have r3 : Real2 v3 (fun _ q => colsum X q / cnt) := by
    subst e_cst e_v0 e_v1 e_cst0 e_v2 e_v3
    exact real2_divf (real2_bcast_row1 hb1 (real1_reduce0 hred hu hA hz)) (real2_bcast_scalar hb2 hc) (fun _ _ => hcnt.ne')
  have r6 : Real2 v6 (fun p q => (X p q - colsum X q / cnt) * (X p q - colsum X q / cnt)) := by
    subst e_v4 e_v5 e_v6
    exact real2_mulf (real2_subf hA (real2_bcast_rows hb3 r3)) (real2_subf hA (real2_bcast_rows hb3 r3))
  have r8 : v8 ix0 = ((cnt : ℝ) : EReal) := by
    subst eci e_v7 e_cst1 e_v8
    rw [subf_apply, hc, sitofp_apply]
    show ((cnt : ℝ) : EReal) - (((0#32 : BitVec 32).toInt : ℝ) : EReal) = _
    rw [show ((0#32 : BitVec 32).toInt : ℝ) = 0 by simp, ← EReal.coe_sub, sub_zero]
  have r11 : Real1 v11 (fun d => colsum (fun i d => (X i d - colsum X d / cnt) * (X i d - colsum X d / cnt)) d / cnt) := by
    subst e_cst2 e_v9 e_v10 e_v11
    exact real1_divf (real1_reduce0 hred hu r6 hz) (real1_bcast_scalar hb4 r8) (fun _ => hcnt.ne')
  have hv : Real1 vr (fun d => colsum (fun i d => (X i d - colsum X d / cnt) * (X i d - colsum X d / cnt)) d / cnt) := by
    intro d
    subst e_cst3 e_v12 e_vr
    rw [select_apply, broadcastInDim_scalar_apply, cmpf_apply, r8, hz]
    have h1 : FloatOps.cmpf (F := Ideal) (φ := .f32) .ogt ((cnt : ℝ) : EReal) ((0 : ℝ) : EReal) = 1#1 := by
      show BitVec.ofBool (decide (((0 : ℝ) : EReal) < ((cnt : ℝ) : EReal))) = 1#1
      rw [decide_eq_true (EReal.coe_lt_coe_iff.mpr hcnt)]; rfl
    rw [h1, select_one]
    exact r11 d
  have hpos : ∀ d, 0 < colsum (fun i d => (X i d - colsum X d / cnt) * (X i d - colsum X d / cnt)) d / cnt + e5 :=
    fun d => add_pos_of_nonneg_of_pos (div_nonneg (Finset.sum_nonneg fun i _ => mul_self_nonneg _) hcnt.le) he5
  subst e62 e63 e64 e65 e66 e67 e14 e68 e69 e70 e71 e72 e73 e74 e75 e76
  exact real2_addf
    (real2_divf (real2_mulf (real2_bcast_vec hb1 hb3 hg) (real2_subf hA (real2_bcast_vec hb1 hb3 hm)))
      (real2_bcast_vec hb1 hb3 (real1_sqrt (real1_addf hv (real1_bcast_scalar hb4 (by rw [constant_apply, hw5])))
        (fun d => (hpos d).le)))
      (fun _ d => (Real.sqrt_pos.mpr (hpos d)).ne'))
    (real2_bcast_vec hb1 hb3 hb)

end Cert.ReferenceIdeal.Hand.W1

end
-- ==== Proof.Ref.Val1.lean ====
import proofs.«403660_j89129161327109_3_alg».proof.Proof.Ref.Val1Stages
import proofs.«403660_j89129161327109_3_alg».proof.Proof.Ref.Val1Norm

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open Cert.Spec W1

structure Entry1 (V : Valuation τ sig (Elt Ideal)) (x : Cert.Spec.Inputs) : Prop where
  h : Real2 (V (Proc.devRef .tc main_arg0) : S50000x128.Idx → EReal) x.h
  e : Real2 (V (Proc.devRef .tc main_arg1) : S512000x128.Idx → EReal) x.e
  Wo : Real2 (V (Proc.devRef .tc main_arg8) : S128x128.Idx → EReal) x.Wo
  bo : Real1 (V (Proc.devRef .tc main_arg9) : S128.Idx → EReal) x.bo
  g1h : Real1 (V (Proc.devRef .tc main_arg10) : S128.Idx → EReal) x.g1h
  b1h : Real1 (V (Proc.devRef .tc main_arg11) : S128.Idx → EReal) x.b1h
  g1e : Real1 (V (Proc.devRef .tc main_arg12) : S128.Idx → EReal) x.g1e
  b1e : Real1 (V (Proc.devRef .tc main_arg13) : S128.Idx → EReal) x.b1e
  W1 : Real2 (V (Proc.devRef .tc main_arg14) : S128x256.Idx → EReal) x.W1
  b1 : Real1 (V (Proc.devRef .tc main_arg15) : S256.Idx → EReal) x.b1
  eh : Heads3 (V (Proc.devRef .tc main_v7) : S512000x8x16.Idx → EReal) (REh x)
  wv : Heads3 (V (Proc.devRef .tc main_v41) : S50000x8x16.Idx → EReal) (RwV x)
  z : Col3 (V (Proc.devRef .tc main_v45) : S50000x8x1.Idx → EReal) (Rz x)
  eps : ∀ (n : Fin 50000) (g : Fin 8), (V (Proc.devRef .tc main_v46) : S50000x8x1.Idx → EReal) (ix3 n g 0) = ((eps6 : ℝ) : EReal)
  hz : ∀ n d, 0 < Rz x n (hd d) + eps6

variable (V : Valuation τ sig (Elt Ideal)) (x : Cert.Spec.Inputs)

attribute [local irreducible] after

set_option quotPrecheck false in
local notation "⟪" r "⟫" => after (ops1 (F := Ideal)) V (Proc.devRef Proc.tc r)

theorem ref1_h2raw (hE : Entry1 V x) : Real2 (⟪main_v55⟫ : S50000x128.Idx → EReal) (RH2raw x) := by
  have hzne : ∀ (n : Fin 50000) (g : Fin 8), Rz x n g + eps6 ≠ 0 := fun n g => by
    have h := hE.hz n (col g 0)
    rw [W1.hd_col] at h
    exact h.ne'
  have r47 : Col3 (⟪main_v47⟫ : S50000x8x1.Idx → EReal) (fun n g => Rz x n g + eps6) := by
    rw [stage2 hw1 0 V rfl, keep1 V main_v45, keep1 V main_v46]
    exact col3_addf hE.z hE.eps
  have r50 : Real2 (⟪main_v50⟫ : S50000x128.Idx → EReal) (RAttn x) := by
    rw [stageR hw1 3 V rfl, stage2 hw1 2 V rfl, stage1 hw1 1 V rfl,
      keep1 V main_v41]
    exact real2_reshape_heads _ (heads3_div_bcast _ hE.wv r47 hzne)
  have r51 : Real2 (⟪main_v51⟫ : S50000x128.Idx → EReal) (mm (RAttn x) x.Wo) := by
    rw [stage2 hw1 4 V rfl, keep1 V main_arg8]
    exact real2_dot rfl r50 hE.Wo
  rw [stage2 hw1 8 V rfl, stage2 hw1 7 V rfl, stage1 hw1 6 V rfl,
    stage1 hw1 5 V rfl, keep1 V main_arg0, keep1 V main_arg9]
  exact real2_addf hE.h (real2_addf r51 (real2_bcast_vec _ _ hE.bo))

theorem ref1_e2raw (hE : Entry1 V x) : Real2 (⟪main_v57⟫ : S512000x128.Idx → EReal) (RE2raw x) := by
  rw [stage2 hw1 10 V rfl, stageR hw1 9 V rfl, keep1 V main_arg1,
    keep1 V main_v7]
  exact real2_addf hE.e (real2_reshape_heads _ hE.eh)

theorem ref1_h2 (hE : Entry1 V x) : Real2 (⟪main_v76⟫ : S50000x128.Idx → EReal) (RH2 x) := by
  have hA := ref1_h2raw V x hE
  have hg : Real1 (⟪main_arg10⟫ : S128.Idx → EReal) x.g1h := by rw [keep1 V main_arg10]; exact hE.g1h
  have hb : Real1 (⟪main_arg11⟫ : S128.Idx → EReal) x.b1h := by rw [keep1 V main_arg11]; exact hE.b1h
  exact bn_real hA (by rw [nN_eq]; norm_num) (wn := 0x7FC00000#32) ofBits_nN hg hb eps5_pos ofBits_eps5 (hb2 := bcast_S_S1x128)
    (stage0 hw1 11 V rfl) (stage2 hw1 12 V rfl) (stage0 hw1 13 V rfl) (stage1 hw1 14 V rfl) (stage2 hw1 15 V rfl)
    (stage0 hw1 16 V rfl) (stage0 hw1 17 V rfl) (stage2 hw1 18 V rfl) (stage1 hw1 19 V rfl) (stage0 hw1 20 V rfl)
    (stage1 hw1 21 V rfl) (stage2 hw1 22 V rfl) (stage1 hw1 23 V rfl) (stage2 hw1 24 V rfl) (stage2 hw1 25 V rfl)
    (stage1 hw1 26 V rfl) (stage0 hw1 27 V rfl) (stage2 hw1 28 V rfl) (stage0 hw1 29 V rfl) (stage2 hw1 30 V rfl)
    (stage1 hw1 31 V rfl) (stage2 hw1 32 V rfl) (stage0 hw1 33 V rfl) (stage2 hw1 34 V rfl) (stage0 hw1 35 V rfl)
    (stage1 hw1 36 V rfl) (stage1 hw1 37 V rfl) (stage3 hw1 38 V rfl) (stage1 hw1 39 V rfl) (stage1 hw1 40 V rfl)
    (stage2 hw1 41 V rfl) (stage1 hw1 42 V rfl) (stage1 hw1 43 V rfl) (stage2 hw1 44 V rfl) (stage0 hw1 45 V rfl)
    (stage1 hw1 46 V rfl) (stage2 hw1 47 V rfl) (stage1 hw1 48 V rfl) (stage1 hw1 49 V rfl) (stage1 hw1 50 V rfl)
    (stage2 hw1 51 V rfl) (stage1 hw1 52 V rfl) (stage1 hw1 53 V rfl) (stage2 hw1 54 V rfl)

theorem ref1_e2 (hE : Entry1 V x) : Real2 (⟪main_v95⟫ : S512000x128.Idx → EReal) (RE2 x) := by
  have hA := ref1_e2raw V x hE
  have hg : Real1 (⟪main_arg12⟫ : S128.Idx → EReal) x.g1e := by rw [keep1 V main_arg12]; exact hE.g1e
  have hb : Real1 (⟪main_arg13⟫ : S128.Idx → EReal) x.b1e := by rw [keep1 V main_arg13]; exact hE.b1e
  exact bn_real hA (by rw [nE_eq]; norm_num) (wn := 0x7FC00000#32) ofBits_nE hg hb eps5_pos ofBits_eps5 (hb2 := bcast_S_S1x128)
    (stage0 hw1 55 V rfl) (stage2 hw1 56 V rfl) (stage0 hw1 57 V rfl) (stage1 hw1 58 V rfl) (stage2 hw1 59 V rfl)
    (stage0 hw1 60 V rfl) (stage0 hw1 61 V rfl) (stage2 hw1 62 V rfl) (stage1 hw1 63 V rfl) (stage0 hw1 64 V rfl)
    (stage1 hw1 65 V rfl) (stage2 hw1 66 V rfl) (stage1 hw1 67 V rfl) (stage2 hw1 68 V rfl) (stage2 hw1 69 V rfl)
    (stage1 hw1 70 V rfl) (stage0 hw1 71 V rfl) (stage2 hw1 72 V rfl) (stage0 hw1 73 V rfl) (stage2 hw1 74 V rfl)
    (stage1 hw1 75 V rfl) (stage2 hw1 76 V rfl) (stage0 hw1 77 V rfl) (stage2 hw1 78 V rfl) (stage0 hw1 79 V rfl)
    (stage1 hw1 80 V rfl) (stage1 hw1 81 V rfl) (stage3 hw1 82 V rfl) (stage1 hw1 83 V rfl) (stage1 hw1 84 V rfl)
    (stage2 hw1 85 V rfl) (stage1 hw1 86 V rfl) (stage1 hw1 87 V rfl) (stage2 hw1 88 V rfl) (stage0 hw1 89 V rfl)
    (stage1 hw1 90 V rfl) (stage2 hw1 91 V rfl) (stage1 hw1 92 V rfl) (stage1 hw1 93 V rfl) (stage1 hw1 94 V rfl)
    (stage2 hw1 95 V rfl) (stage1 hw1 96 V rfl) (stage1 hw1 97 V rfl) (stage2 hw1 98 V rfl)

theorem ref1_ff1 (hE : Entry1 V x) : Real2 (a := 50000) (b := 256) (⟪main_v96⟫ : S50000x256.Idx → EReal) (mm (RH2 x) x.W1) := by
  rw [stage2 hw1 99 V rfl, keep1 V main_arg14]
  exact real2_dot rfl (ref1_h2 V x hE) hE.W1

theorem ref1_b1 (hE : Entry1 V x) : Real2 (a := 50000) (b := 256) (⟪main_v98⟫ : S50000x256.Idx → EReal) (fun _ j => x.b1 j) := by
  rw [stage1 hw1 101 V rfl, stage1 hw1 100 V rfl, keep1 V main_arg15]
  exact real2_bcast_vec _ _ hE.b1

end Cert.ReferenceIdeal.Hand

end
-- ==== Proof.Ref.Val2.lean ====
import proofs.«403660_j89129161327109_3_alg».proof.Proof.Ref.Run
import proofs.«403660_j89129161327109_3_alg».proof.Proof.Ref.Val1Norm

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open Cert.Spec W1

def wl2 : List (Ref sig .tc) :=
  [main_v99, main_call3_cst, main_call3_v0, main_v100, main_v101, main_v102, main_v103, main_v104,
   main_v105, main_cst_19, main_v106, main_cst_20, main_v107, main_v108, main_c_21, main_call4_cst,
   main_call4_v0, main_call4_v1, main_call4_cst_0, main_call4_v2, main_call4_v3, main_call4_v4, main_call4_v5, main_call4_v6,
   main_call4_v7, main_call4_cst_1, main_call4_v8, main_call4_cst_2, main_call4_v9, main_call4_v10, main_call4_v11, main_call4_cst_3,
   main_call4_v12, main_call4_cst_4, main_call4_call0_v0, main_call4_call0_v1, main_v109, main_v110, main_v111, main_v112,
   main_v113, main_v114, main_v115, main_cst_22, main_v116, main_v117, main_v118, main_v119,
   main_v120, main_v121, main_v122, main_v123, main_v124]

theorem hw2 : List.Forall₂ (fun op r => op.writes = {Proc.devRef (τ := τ) .tc r}) (ops2 (F := Ideal)) wl2 := by
  unfold wl2
  repeat (first | exact List.Forall₂.nil | refine List.Forall₂.cons rfl ?_)

variable (V : Valuation τ sig (Elt Ideal))

theorem keep2 (r : Ref sig .tc) (hr : r ∉ wl2 := by decide) : after ops2 V (Proc.devRef .tc r) = V (Proc.devRef .tc r) :=
  after_eq_after_take (ops2 (F := Ideal)) wl2 hw2 0 V r hr

theorem ref2_keep_e2 : after ops2 V (Proc.devRef .tc main_v95) = V (Proc.devRef .tc main_v95) := keep2 V _

attribute [local irreducible] after

set_option quotPrecheck false in
local notation "⟪" r "⟫" => after (ops2 (F := Ideal)) V (Proc.devRef Proc.tc r)

theorem ref2_h3 (x : Inputs)
    (hW2 : Real2 (V (Proc.devRef .tc main_arg16) : S256x128.Idx → EReal) x.W2) (hb2 : Real1 (V (Proc.devRef .tc main_arg17) : S128.Idx → EReal) x.b2)
    (hg : Real1 (V (Proc.devRef .tc main_arg18) : S128.Idx → EReal) x.g2h) (hb : Real1 (V (Proc.devRef .tc main_arg19) : S128.Idx → EReal) x.b2h)
    (h76 : Real2 (V (Proc.devRef .tc main_v76) : S50000x128.Idx → EReal) (RH2 x))
    (h96 : Real2 (V (Proc.devRef .tc main_v96) : S50000x256.Idx → EReal) (mm (RH2 x) x.W1))
    (h98 : Real2 (V (Proc.devRef .tc main_v98) : S50000x256.Idx → EReal) (fun _ j => x.b1 j)) :
    Real2 (⟪main_v124⟫ : S50000x128.Idx → EReal) (RH3 x) := by
  have a99 : Real2 (⟪main_v99⟫ : S50000x256.Idx → EReal) (fun n j => mm (RH2 x) x.W1 n j + x.b1 j) := by
    rw [stage2 hw2 0 V rfl, keep2 V main_v96, keep2 V main_v98]
    exact real2_addf h96 h98
  have a100 := real2_relu a99 (h := bcast_S_S50000x256) (stage0 hw2 1 V rfl) (stage1 hw2 2 V rfl) (stage2 hw2 3 V rfl)
  have hA : Real2 (⟪main_v105⟫ : S50000x128.Idx → EReal) (fun n d => RH2 x n d + RR x n d) := by
    rw [stage2 hw2 8 V rfl, stage2 hw2 7 V rfl, stage1 hw2 6 V rfl,
      stage1 hw2 5 V rfl, stage2 hw2 4 V rfl, keep2 V main_v76,
      keep2 V main_arg16, keep2 V main_arg17]
    exact real2_addf h76 (real2_addf (real2_dot rfl a100 hW2) (real2_bcast_vec _ _ hb2))
  have hg' : Real1 (⟪main_arg18⟫ : S128.Idx → EReal) x.g2h := by rw [keep2 V main_arg18]; exact hg
  have hb' : Real1 (⟪main_arg19⟫ : S128.Idx → EReal) x.b2h := by rw [keep2 V main_arg19]; exact hb
  exact bn_real hA (by rw [nN_eq]; norm_num) (wn := 0x7FC00000#32) ofBits_nN hg' hb' eps5_pos ofBits_eps5 (hb2 := bcast_S_S1x128)
    (stage0 hw2 9 V rfl) (stage2 hw2 10 V rfl) (stage0 hw2 11 V rfl) (stage1 hw2 12 V rfl) (stage2 hw2 13 V rfl)
    (stage0 hw2 14 V rfl) (stage0 hw2 15 V rfl) (stage2 hw2 16 V rfl) (stage1 hw2 17 V rfl) (stage0 hw2 18 V rfl)
    (stage1 hw2 19 V rfl) (stage2 hw2 20 V rfl) (stage1 hw2 21 V rfl) (stage2 hw2 22 V rfl) (stage2 hw2 23 V rfl)
    (stage1 hw2 24 V rfl) (stage0 hw2 25 V rfl) (stage2 hw2 26 V rfl) (stage0 hw2 27 V rfl) (stage2 hw2 28 V rfl)
    (stage1 hw2 29 V rfl) (stage2 hw2 30 V rfl) (stage0 hw2 31 V rfl) (stage2 hw2 32 V rfl) (stage0 hw2 33 V rfl)
    (stage1 hw2 34 V rfl) (stage1 hw2 35 V rfl) (stage3 hw2 36 V rfl) (stage1 hw2 37 V rfl) (stage1 hw2 38 V rfl)
    (stage2 hw2 39 V rfl) (stage1 hw2 40 V rfl) (stage1 hw2 41 V rfl) (stage2 hw2 42 V rfl) (stage0 hw2 43 V rfl)
    (stage1 hw2 44 V rfl) (stage2 hw2 45 V rfl) (stage1 hw2 46 V rfl) (stage1 hw2 47 V rfl) (stage1 hw2 48 V rfl)
    (stage2 hw2 49 V rfl) (stage1 hw2 50 V rfl) (stage1 hw2 51 V rfl) (stage2 hw2 52 V rfl)

end Cert.ReferenceIdeal.Hand

end
-- ==== Proof.Ref.Values.lean ====
import proofs.«403660_j89129161327109_3_alg».proof.Proof.Ref.Run
import proofs.«403660_j89129161327109_3_alg».proof.Proof.Ref.Pred
import proofs.«403660_j89129161327109_3_alg».proof.Proof.Ref.Val0
import proofs.«403660_j89129161327109_3_alg».proof.Proof.Ref.Val1
import proofs.«403660_j89129161327109_3_alg».proof.Proof.Ref.Val2
import proofs.«403660_j89129161327109_3_alg».proof.Proof.Spec
import proofs.«403660_j89129161327109_3_alg».proof.Proof.Bridge
import proofs.«403660_j89129161327109_3_alg».proof.Proof.Consts

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

theorem args_keep0 (V : Valuation τ sig (Elt Ideal)) (a : Ref sig .tc) (ha : a ∈ argRefs) :
    after (ops0 (F := Ideal)) V (Proc.devRef .tc a) = V (Proc.devRef .tc a) :=
  after_of_forall_not_mem ops0 V (fun op hop => List.forall_iff_forall_mem.mp ops0_args op hop a ha)

theorem args_keep1 (V : Valuation τ sig (Elt Ideal)) (a : Ref sig .tc) (ha : a ∈ argRefs) :
    after (ops1 (F := Ideal)) V (Proc.devRef .tc a) = V (Proc.devRef .tc a) :=
  after_of_forall_not_mem ops1 V (fun op hop => List.forall_iff_forall_mem.mp ops1_args op hop a ha)

-- The three stretches in turn: what each leaves is what the next assumes, and none of them changes an argument.
theorem ref_values (m : (ℓ : Loc nD τ sig) → Buf (Elt Ideal) ℓ) (c : Dev nD) (x : Cert.Spec.Inputs)
    (h0 : Cert.Spec.Real2 (m ((c.tc : Thread nD τ).loc main_arg0) : S50000x128.Idx → EReal) x.h)
    (h1 : Cert.Spec.Real2 (m ((c.tc : Thread nD τ).loc main_arg1) : S512000x128.Idx → EReal) x.e)
    (h2 : Cert.Spec.Pos1 (m ((c.tc : Thread nD τ).loc main_arg2) : S512000.Idx → BitVec 32) x.src)
    (h3 : Cert.Spec.Pos1 (m ((c.tc : Thread nD τ).loc main_arg3) : S512000.Idx → BitVec 32) x.dst)
    (h4 : Cert.Spec.Real2 (m ((c.tc : Thread nD τ).loc main_arg4) : S128x128.Idx → EReal) x.Wq)
    (h5 : Cert.Spec.Real2 (m ((c.tc : Thread nD τ).loc main_arg5) : S128x128.Idx → EReal) x.Wk)
    (h6 : Cert.Spec.Real2 (m ((c.tc : Thread nD τ).loc main_arg6) : S128x128.Idx → EReal) x.Wv)
    (h7 : Cert.Spec.Real2 (m ((c.tc : Thread nD τ).loc main_arg7) : S128x128.Idx → EReal) x.We)
    (h8 : Cert.Spec.Real2 (m ((c.tc : Thread nD τ).loc main_arg8) : S128x128.Idx → EReal) x.Wo)
    (h9 : Cert.Spec.Real1 (m ((c.tc : Thread nD τ).loc main_arg9) : S128.Idx → EReal) x.bo)
    (h10 : Cert.Spec.Real1 (m ((c.tc : Thread nD τ).loc main_arg10) : S128.Idx → EReal) x.g1h)
    (h11 : Cert.Spec.Real1 (m ((c.tc : Thread nD τ).loc main_arg11) : S128.Idx → EReal) x.b1h)
    (h12 : Cert.Spec.Real1 (m ((c.tc : Thread nD τ).loc main_arg12) : S128.Idx → EReal) x.g1e)
    (h13 : Cert.Spec.Real1 (m ((c.tc : Thread nD τ).loc main_arg13) : S128.Idx → EReal) x.b1e)
    (h14 : Cert.Spec.Real2 (m ((c.tc : Thread nD τ).loc main_arg14) : S128x256.Idx → EReal) x.W1)
    (h15 : Cert.Spec.Real1 (m ((c.tc : Thread nD τ).loc main_arg15) : S256.Idx → EReal) x.b1)
    (h16 : Cert.Spec.Real2 (m ((c.tc : Thread nD τ).loc main_arg16) : S256x128.Idx → EReal) x.W2)
    (h17 : Cert.Spec.Real1 (m ((c.tc : Thread nD τ).loc main_arg17) : S128.Idx → EReal) x.b2)
    (h18 : Cert.Spec.Real1 (m ((c.tc : Thread nD τ).loc main_arg18) : S128.Idx → EReal) x.g2h)
    (h19 : Cert.Spec.Real1 (m ((c.tc : Thread nD τ).loc main_arg19) : S128.Idx → EReal) x.b2h) :
    Cert.Spec.Real2 (a := 50000) (b := 128)
        (after (ops (F := Ideal)) (launchContents m c) (Proc.devRef .tc main_v124) : S50000x128.Idx → EReal) (Cert.Spec.RH3 x)
      ∧ Cert.Spec.Real2 (a := 512000) (b := 128)
        (after (ops (F := Ideal)) (launchContents m c) (Proc.devRef .tc main_v95) : S512000x128.Idx → EReal) (Cert.Spec.RE2 x) := by
  have e : after (ops (F := Ideal)) (launchContents m c)
      = after (ops2 (F := Ideal)) (after (ops1 (F := Ideal)) (after (ops0 (F := Ideal)) (launchContents m c))) := by
    simp only [ops, StableHlo.after_append]
  rw [e]
  have k0 := args_keep0 (launchContents m c)
  have k1 := args_keep1 (after (ops0 (F := Ideal)) (launchContents m c))
  have hE1 : Entry1 (after (ops0 (F := Ideal)) (launchContents m c)) x :=
    { h := by rw [k0 main_arg0 (by decide)]; exact h0
      e := by rw [k0 main_arg1 (by decide)]; exact h1
      Wo := by rw [k0 main_arg8 (by decide)]; exact h8
      bo := by rw [k0 main_arg9 (by decide)]; exact h9
      g1h := by rw [k0 main_arg10 (by decide)]; exact h10
      b1h := by rw [k0 main_arg11 (by decide)]; exact h11
      g1e := by rw [k0 main_arg12 (by decide)]; exact h12
      b1e := by rw [k0 main_arg13 (by decide)]; exact h13
      W1 := by rw [k0 main_arg14 (by decide)]; exact h14
      b1 := by rw [k0 main_arg15 (by decide)]; exact h15
      eh := ref0_Eh (launchContents m c) x h0 h1 h2 h3 h4 h5 h6 h7
      wv := ref0_wV (launchContents m c) x h0 h1 h2 h3 h4 h5 h6 h7
      z := ref0_zcol (launchContents m c) x h0 h1 h2 h3 h4 h5 h6 h7
      eps := ref0_eps (launchContents m c)
      hz := Cert.Spec.Rz_den_pos x Cert.Spec.eps6_pos }
  refine ⟨ref2_h3 (after (ops1 (F := Ideal)) (after (ops0 (F := Ideal)) (launchContents m c))) x ?_ ?_ ?_ ?_ (ref1_h2 _ x hE1) (ref1_ff1 _ x hE1) (ref1_b1 _ x hE1), ?_⟩
  · rw [k1 main_arg16 (by decide), k0 main_arg16 (by decide)]; exact h16
  · rw [k1 main_arg17 (by decide), k0 main_arg17 (by decide)]; exact h17
  · rw [k1 main_arg18 (by decide), k0 main_arg18 (by decide)]; exact h18
  · rw [k1 main_arg19 (by decide), k0 main_arg19 (by decide)]; exact h19
  · rw [ref2_keep_e2]; exact ref1_e2 _ x hE1

end Cert.ReferenceIdeal.Hand

end
-- ==== Proof.RealExt.lean ====
import proofs.«403660_j89129161327109_3_alg».proof.Proof.Spec

noncomputable section

namespace Cert.Spec

open Idealize.ShloMosaic Idealize.ShloMosaic.ValueIdx

-- Two arrays that hold the same real-valued function are equal.
theorem Real2.ext {a b : ℕ} {A B : (⟨2, ![a, b]⟩ : Shape).Idx → EReal} {X : Fin a → Fin b → ℝ}
    (hA : Real2 A X) (hB : Real2 B X) : A = B := by
  funext i
  rw [ValueIdx.eq_ix2 i]
  exact (hA (i 0) (i 1)).trans (hB (i 0) (i 1)).symm

end Cert.Spec
-- ==== Proof.PreFacts.lean ====
import proofs.«403660_j89129161327109_3_alg».proof.Pre_finite_inputs
import proofs.«403660_j89129161327109_3_alg».proof.Proof.Gen.Pre_finite_inputs
import proofs.«403660_j89129161327109_3_alg».proof.Proof.Spec
import proofs.«403660_j89129161327109_3_alg».proof.Proof.Consts
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx
open Cert.Pre_finite_inputs Cert.Spec

instance : Subsingleton S_.Idx := ⟨fun a b => funext fun d => d.elim0⟩

-- An extended real whose absolute value is below +∞ is a real.
theorem real_of_abs_lt_top (x : EReal) (h : max x (-x) < ⊤) : ∃ r : ℝ, x = (r : EReal) := by
  induction x using EReal.rec with
  | bot => simp at h
  | coe r => exact ⟨r, rfl⟩
  | top => simp at h

theorem real_of_cmp (x : Ideal .f32)
    (h : FloatOps.cmpf (F := Ideal) .olt (FloatOps.hostAbsf x) (FloatOps.ofBits .f32 0x7F800000#32) = 1#1) :
    ∃ r : ℝ, x = (r : EReal) := by
  have h1 : BitVec.ofBool (decide (max x (-x) < Ideal.ofBits .f32 0x7F800000#32)) = 1#1 := h
  rw [ofBits_inf, StableHlo.Predicate.ofBool_eq_one_iff, decide_eq_true_eq] at h1
  exact real_of_abs_lt_top x h1

-- "Every |entry| < +∞", conjoined over an array, read back entrywise.
theorem real_of_all {s : Shape} {axes : List (Fin s.rank)} {a : FVec Ideal s .f32}
    {hb : S_.BroadcastsInDim s (![] : Fin 0 → Fin s.rank)} {hr : s.ReducesTo axes S_} {hu : 0 < S_.numel}
    (e : Host.reduce IntOp.andi (cmpf .olt (Host.absf a) (broadcastInDim s ![] hb (constant (F := Ideal) S_ .f32 0x7F800000#32)))
          (constantI S_ 1 1#1) hr hu ix0 = 1#1) (i : s.Idx) : ∃ r : ℝ, a i = (r : EReal) :=
  real_of_cmp (a i) (Host.reduce_andi_all _ _ hr hu ix0 e i)

theorem toNat_lt_of_range (w : BitVec 32) (h0 : IntOp.cmpi .sge w 0#32 = 1#1) (h1 : IntOp.cmpi .slt w 50000#32 = 1#1) :
    w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have hw := w.isLt
  rw [BitVec.toInt_eq_toNat_cond] at h0 h1
  split at h0 <;> omega

-- "Every entry, read signed, lies in [0, 50000)", read back entrywise.
theorem range_of_all {s : Shape} {axes : List (Fin s.rank)} {a : IVec s 32}
    {hb : S_.BroadcastsInDim s (![] : Fin 0 → Fin s.rank)} {hr : s.ReducesTo axes S_} {hu : 0 < S_.numel}
    (e : Host.reduce IntOp.andi
          (andi (cmpi .sge a (broadcastInDim s ![] hb (constantI S_ 32 0#32)))
                (cmpi .slt a (broadcastInDim s ![] hb (constantI S_ 32 50000#32))))
          (constantI S_ 1 1#1) hr hu ix0 = 1#1) (i : s.Idx) : (a i).toNat < 50000 := by
  have h := Host.reduce_andi_all _ _ hr hu ix0 e i
  obtain ⟨h0, h1⟩ := IntOp.andi_eq_one.1 h
  exact toNat_lt_of_range (a i) h0 h1

theorem exists_real2 {a b : ℕ} {A : (⟨2, ![a, b]⟩ : Shape).Idx → EReal} (h : ∀ i, ∃ r : ℝ, A i = (r : EReal)) :
    ∃ X : Fin a → Fin b → ℝ, Real2 A X := by
  choose f hf using h
  exact ⟨fun p q => f (ix2 p q), fun p q => hf _⟩

theorem exists_real1 {a : ℕ} {A : (⟨1, ![a]⟩ : Shape).Idx → EReal} (h : ∀ i, ∃ r : ℝ, A i = (r : EReal)) :
    ∃ X : Fin a → ℝ, Real1 A X := by
  choose f hf using h
  exact ⟨fun p => f (ix1 p), fun p => hf _⟩

theorem exists_pos1 {a n : ℕ} {A : (⟨1, ![a]⟩ : Shape).Idx → BitVec 32} (h : ∀ i, (A i).toNat < n) :
    ∃ f : Fin a → Fin n, Pos1 A f :=
  ⟨fun p => ⟨(A (ix1 p)).toNat, h _⟩, fun p => BitVec.eq_of_toNat_eq (by
    rw [BitVec.toNat_ofNat]; exact (Nat.mod_eq_of_lt (A (ix1 p)).isLt).symm)⟩

theorem and_split {X Y : IVec S_ 1} : andi X Y ix0 = 1#1 ↔ X ix0 = 1#1 ∧ Y ix0 = 1#1 := IntOp.andi_eq_one

set_option maxRecDepth 16384 in
-- The precondition is a left-nested conjunction of twenty scalar truth words, one an input; each is read back entrywise.
theorem inputs_of_pre [Cert.Pre_finite_inputs.Facts]
    (a0 : FVec Ideal S50000x128 .f32) (a1 : FVec Ideal S512000x128 .f32) (a2 a3 : IVec S512000 32) (a4 a5 a6 a7 a8 : FVec Ideal S128x128 .f32)
    (a9 a10 a11 a12 a13 : FVec Ideal S128 .f32) (a14 : FVec Ideal S128x256 .f32) (a15 : FVec Ideal S256 .f32) (a16 : FVec Ideal S256x128 .f32)
    (a17 a18 a19 : FVec Ideal S128 .f32)
    (h : fn (F := Ideal) a0 a1 a2 a3 a4 a5 a6 a7 a8 a9 a10 a11 a12 a13 a14 a15 a16 a17 a18 a19 = (fun _ => 1#1)) :
    ∃ x : Inputs, Real2 a0 x.h ∧ Real2 a1 x.e ∧ Pos1 a2 x.src ∧ Pos1 a3 x.dst ∧ Real2 a4 x.Wq ∧ Real2 a5 x.Wk ∧ Real2 a6 x.Wv ∧ Real2 a7 x.We ∧ Real2 a8 x.Wo ∧ Real1 a9 x.bo ∧ Real1 a10 x.g1h ∧ Real1 a11 x.b1h ∧ Real1 a12 x.g1e ∧ Real1 a13 x.b1e ∧ Real2 a14 x.W1 ∧ Real1 a15 x.b1 ∧ Real2 a16 x.W2 ∧ Real1 a17 x.b2 ∧ Real1 a18 x.g2h ∧ Real1 a19 x.b2h := by
  have e := congrFun h ix0
  dsimp only [fn, fn_part1, fn_part2, fn_part3, fn_part4, fn_part5, fn_part6] at e
  simp only [and_split] at e
  obtain ⟨⟨⟨⟨⟨⟨⟨⟨⟨⟨⟨⟨⟨⟨⟨⟨⟨⟨⟨h0, h1⟩, h4⟩, h5⟩, h6⟩, h7⟩, h8⟩, h9⟩, h10⟩, h11⟩, h12⟩, h13⟩, h14⟩, h15⟩, h16⟩, h17⟩, h18⟩, h19⟩, h2⟩, h3⟩ := e
  obtain ⟨X0, r0⟩ := exists_real2 (real_of_all h0)
  obtain ⟨X1, r1⟩ := exists_real2 (real_of_all h1)
  obtain ⟨X2, r2⟩ := exists_pos1 (n := 50000) (range_of_all h2)
  obtain ⟨X3, r3⟩ := exists_pos1 (n := 50000) (range_of_all h3)
  obtain ⟨X4, r4⟩ := exists_real2 (real_of_all h4)
  obtain ⟨X5, r5⟩ := exists_real2 (real_of_all h5)
  obtain ⟨X6, r6⟩ := exists_real2 (real_of_all h6)
  obtain ⟨X7, r7⟩ := exists_real2 (real_of_all h7)
  obtain ⟨X8, r8⟩ := exists_real2 (real_of_all h8)
  obtain ⟨X9, r9⟩ := exists_real1 (real_of_all h9)
  obtain ⟨X10, r10⟩ := exists_real1 (real_of_all h10)
  obtain ⟨X11, r11⟩ := exists_real1 (real_of_all h11)
  obtain ⟨X12, r12⟩ := exists_real1 (real_of_all h12)
  obtain ⟨X13, r13⟩ := exists_real1 (real_of_all h13)
  obtain ⟨X14, r14⟩ := exists_real2 (real_of_all h14)
  obtain ⟨X15, r15⟩ := exists_real1 (real_of_all h15)
  obtain ⟨X16, r16⟩ := exists_real2 (real_of_all h16)
  obtain ⟨X17, r17⟩ := exists_real1 (real_of_all h17)
  obtain ⟨X18, r18⟩ := exists_real1 (real_of_all h18)
  obtain ⟨X19, r19⟩ := exists_real1 (real_of_all h19)
  exact ⟨⟨X0, X1, X2, X3, X4, X5, X6, X7, X8, X9, X10, X11, X12, X13, X14, X15, X16, X17, X18, X19⟩, r0, r1, r2, r3, r4, r5, r6, r7, r8, r9, r10, r11, r12, r13, r14, r15, r16, r17, r18, r19⟩

end Cert.PreFacts
-- ==== Proof.lean ====
import proofs.«403660_j89129161327109_3_alg».proof.Defs
import proofs.«403660_j89129161327109_3_alg».proof.Proof.Gen.Kernel
import proofs.«403660_j89129161327109_3_alg».proof.Proof.Gen.KernelIdeal
import proofs.«403660_j89129161327109_3_alg».proof.Proof.Gen.ReferenceIdeal
import proofs.«403660_j89129161327109_3_alg».proof.Proof.Gen.Pre_finite_inputs
import proofs.«403660_j89129161327109_3_alg».proof.Proof.K.Run
import proofs.«403660_j89129161327109_3_alg».proof.Proof.KI.Run
import proofs.«403660_j89129161327109_3_alg».proof.Proof.KI.Values
import proofs.«403660_j89129161327109_3_alg».proof.Proof.Ref.Run
import proofs.«403660_j89129161327109_3_alg».proof.Proof.Ref.Values
import proofs.«403660_j89129161327109_3_alg».proof.Proof.RealExt
import proofs.«403660_j89129161327109_3_alg».proof.Proof.Bridge
import proofs.«403660_j89129161327109_3_alg».proof.Proof.Consts
import proofs.«403660_j89129161327109_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

-- Both programs' result arrays hold the same two real-valued functions of the inputs, so they are equal; no operation writes an argument.
theorem algebraic : Cert.algebraic_KernelIdeal_ReferenceIdeal := by
  intro m g m' g' hpre hagree
  refine ⟨fun c => Cert.KernelIdeal.Gen.V15 m (Cert.KernelIdeal.Hand.outs m) c Cert.KernelIdeal.main_v57,
    fun c => Cert.KernelIdeal.Gen.V15 m (Cert.KernelIdeal.Hand.outs m) c Cert.KernelIdeal.main_v41,
    Cert.KernelIdeal.Hand.results m g, ?_⟩
  refine (θ_run Cert.ReferenceIdeal.defs _ _).mono (fun r h c => ?_) (Cert.ReferenceIdeal.Hand.run m' g')
  obtain ⟨x, h0, h1, h2, h3, h4, h5, h6, h7, h8, h9, h10, h11, h12, h13, h14, h15, h16, h17, h18, h19⟩ := Cert.PreFacts.inputs_of_pre _ _ _ _ _ _ _ _ _ _ _ _ _ _ _ _ _ _ _ _ (hpre c)
  obtain ⟨e0, e1, e2, e3, e4, e5, e6, e7, e8, e9, e10, e11, e12, e13, e14, e15, e16, e17, e18, e19⟩ := hagree c
  have hk := Cert.KernelIdeal.Hand.kernel_values m c x h0 h1 h2 h3 h4 h5 h6 h7 h8 h9 h10 h11 h12 h13 h14 h15 h16 h17 h18 h19
  have hr := Cert.ReferenceIdeal.Hand.ref_values m' c x (e0 ▸ h0) (e1 ▸ h1) (e2 ▸ h2) (e3 ▸ h3) (e4 ▸ h4) (e5 ▸ h5) (e6 ▸ h6) (e7 ▸ h7) (e8 ▸ h8) (e9 ▸ h9) (e10 ▸ h10) (e11 ▸ h11) (e12 ▸ h12) (e13 ▸ h13) (e14 ▸ h14) (e15 ▸ h15) (e16 ▸ h16) (e17 ▸ h17) (e18 ▸ h18) (e19 ▸ h19)
  have hl := Cert.Spec.layer_eq x Cert.Spec.quarter_eq Cert.Spec.four_eq Cert.Spec.nN_eq Cert.Spec.nE_eq
  have k := fun a ha => (h c a).trans (Cert.ReferenceIdeal.Hand.kept m' c a ha)
  exact ⟨(h c _).trans (Cert.Spec.Real2.ext hr.1 (hl.1 ▸ hk.1)), (h c _).trans (Cert.Spec.Real2.ext hr.2 (hl.2 ▸ hk.2)),
    k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof
